-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  IdealRules.truncf_extf.Statement Cert.KernelIdeal.S1000x128 .f32 .bf16
  ∧ IdealRules.truncf_extf.Statement Cert.KernelIdeal.S1000x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v354)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v354) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v544) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x50000x128 : Shape := ⟨3, ![2, 50000, 128]⟩
abbrev S2x2x800000 : Shape := ⟨3, ![2, 2, 800000]⟩
abbrev S2x50000 : Shape := ⟨2, ![2, 50000]⟩
abbrev S2x128x128 : Shape := ⟨3, ![2, 128, 128]⟩
abbrev S2x128 : Shape := ⟨2, ![2, 128]⟩
abbrev S2 : Shape := ⟨1, ![2]⟩
abbrev S3x128x128 : Shape := ⟨3, ![3, 128, 128]⟩
abbrev S3x128 : Shape := ⟨2, ![3, 128]⟩
abbrev S3 : Shape := ⟨1, ![3]⟩
abbrev S2x128x10 : Shape := ⟨3, ![2, 128, 10]⟩
abbrev S2x10 : Shape := ⟨2, ![2, 10]⟩
abbrev S_ : Shape := ⟨0, ![]⟩

class Facts : Prop where
  bcast_S_S2x50000x128 : S_.BroadcastsInDim S2x50000x128 (![] : Fin 0 → Fin S2x50000x128.rank)
  reducesTo_S2x50000x128_S_d0_1_2 : S2x50000x128.ReducesTo [0, 1, 2] S_
  h_S_ : 0 < S_.numel
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_
  bcast_S_S2 : S_.BroadcastsInDim S2 (![] : Fin 0 → Fin S2.rank)
  reducesTo_S2_S_d0 : S2.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S3 : S_.BroadcastsInDim S3 (![] : Fin 0 → Fin S3.rank)
  reducesTo_S3_S_d0 : S3.ReducesTo [0] S_
  bcast_S_S2x128x10 : S_.BroadcastsInDim S2x128x10 (![] : Fin 0 → Fin S2x128x10.rank)
  reducesTo_S2x128x10_S_d0_1_2 : S2x128x10.ReducesTo [0, 1, 2] S_
  bcast_S_S2x10 : S_.BroadcastsInDim S2x10 (![] : Fin 0 → Fin S2x10.rank)
  reducesTo_S2x10_S_d0_1 : S2x10.ReducesTo [0, 1] S_

variable [Facts]

def fn_part6 {F : FTy → Type} [FloatOps F] (main_arg23 : FVec F S2x128x10 .f32) (main_arg24 : FVec F S2x10 .f32) (main_v98 : IVec S_ 1) (main_v101 : IVec S2x128 1) (main_c_39 : IVec S_ 1) : IVec S_ 1 :=
  let main_v102 : IVec S_ 1 := (fun x v => Host.reduce IntOp.andi x v reducesTo_S2x128_S_d0_1 h_S_) main_v101 main_c_39
  let main_v103 : IVec S_ 1 := andi main_v98 main_v102
  let main_v104 : FVec F S2x128x10 .f32 := Host.absf main_arg23
  let main_cst_40 : FVec F S_ .f32 := constant S_ .f32 0x7F800000#32
  let main_v105 : FVec F S2x128x10 .f32 := broadcastInDim S2x128x10 ![] bcast_S_S2x128x10 main_cst_40
  let main_v106 : IVec S2x128x10 1 := cmpf .olt main_v104 main_v105
  let main_c_41 : IVec S_ 1 := constantI S_ 1 1#1
  let main_v107 : IVec S_ 1 := (fun x v => Host.reduce IntOp.andi x v reducesTo_S2x128x10_S_d0_1_2 h_S_) main_v106 main_c_41
  let main_v108 : IVec S_ 1 := andi main_v103 main_v107
  let main_v109 : FVec F S2x10 .f32 := Host.absf main_arg24
  let main_cst_42 : FVec F S_ .f32 := constant S_ .f32 0x7F800000#32
  let main_v110 : FVec F S2x10 .f32 := broadcastInDim S2x10 ![] bcast_S_S2x10 main_cst_42
  let main_v111 : IVec S2x10 1 := cmpf .olt main_v109 main_v110
  let main_c_43 : IVec S_ 1 := constantI S_ 1 1#1
  let main_v112 : IVec S_ 1 := (fun x v => Host.reduce IntOp.andi x v reducesTo_S2x10_S_d0_1 h_S_) main_v111 main_c_43
  let main_v113 : IVec S_ 1 := andi main_v108 main_v112
  main_v113

def fn_part5 {F : FTy → Type} [FloatOps F] (main_arg20 : FVec F S3 .f32) (main_arg21 : FVec F S2x128x128 .f32) (main_arg22 : FVec F S2x128 .f32) (main_arg23 : FVec F S2x128x10 .f32) (main_arg24 : FVec F S2x10 .f32) (main_v83 : IVec S_ 1) (main_v84 : FVec F S3x128 .f32) (main_cst_32 : FVec F S_ .f32) : IVec S_ 1 :=
  let main_v85 : FVec F S3x128 .f32 := broadcastInDim S3x128 ![] bcast_S_S3x128 main_cst_32
  let main_v86 : IVec S3x128 1 := cmpf .olt main_v84 main_v85
  let main_c_33 : IVec S_ 1 := constantI S_ 1 1#1
  let main_v87 : IVec S_ 1 := (fun x v => Host.reduce IntOp.andi x v reducesTo_S3x128_S_d0_1 h_S_) main_v86 main_c_33
  let main_v88 : IVec S_ 1 := andi main_v83 main_v87
  let main_v89 : FVec F S3 .f32 := Host.absf main_arg20
  let main_cst_34 : FVec F S_ .f32 := constant S_ .f32 0x7F800000#32
  let main_v90 : FVec F S3 .f32 := broadcastInDim S3 ![] bcast_S_S3 main_cst_34
  let main_v91 : IVec S3 1 := cmpf .olt main_v89 main_v90
  let main_c_35 : IVec S_ 1 := constantI S_ 1 1#1
  let main_v92 : IVec S_ 1 := (fun x v => Host.reduce IntOp.andi x v reducesTo_S3_S_d0 h_S_) main_v91 main_c_35
  let main_v93 : IVec S_ 1 := andi main_v88 main_v92
  let main_v94 : FVec F S2x128x128 .f32 := Host.absf main_arg21
  let main_cst_36 : FVec F S_ .f32 := constant S_ .f32 0x7F800000#32
  let main_v95 : FVec F S2x128x128 .f32 := broadcastInDim S2x128x128 ![] bcast_S_S2x128x128 main_cst_36
  let main_v96 : IVec S2x128x128 1 := cmpf .olt main_v94 main_v95
  let main_c_37 : IVec S_ 1 := constantI S_ 1 1#1
  let main_v97 : IVec S_ 1 := (fun x v => Host.reduce IntOp.andi x v reducesTo_S2x128x128_S_d0_1_2 h_S_) main_v96 main_c_37
  let main_v98 : IVec S_ 1 := andi main_v93 main_v97
  let main_v99 : FVec F S2x128 .f32 := Host.absf main_arg22
  let main_cst_38 : FVec F S_ .f32 := constant S_ .f32 0x7F800000#32
  let main_v100 : FVec F S2x128 .f32 := broadcastInDim S2x128 ![] bcast_S_S2x128 main_cst_38
  let main_v101 : IVec S2x128 1 := cmpf .olt main_v99 main_v100
  let main_c_39 : IVec S_ 1 := constantI S_ 1 1#1
  fn_part6 (F := F) main_arg23 main_arg24 main_v98 main_v101 main_c_39

def fn_part4 {F : FTy → Type} [FloatOps F] (main_arg16 : FVec F S3x128 .f32) (main_arg17 : FVec F S3x128 .f32) (main_arg18 : FVec F S3x128 .f32) (main_arg19 : FVec F S3x128 .f32) (main_arg20 : FVec F S3 .f32) (main_arg21 : FVec F S2x128x128 .f32) (main_arg22 : FVec F S2x128 .f32) (main_arg23 : FVec F S2x128x10 .f32) (main_arg24 : FVec F S2x10 .f32) (main_v63 : IVec S_ 1) (main_v67 : IVec S_ 1) : IVec S_ 1 :=
  let main_v68 : IVec S_ 1 := andi main_v63 main_v67
  let main_v69 : FVec F S3x128 .f32 := Host.absf main_arg16
  let main_cst_26 : FVec F S_ .f32 := constant S_ .f32 0x7F800000#32
  let main_v70 : FVec F S3x128 .f32 := broadcastInDim S3x128 ![] bcast_S_S3x128 main_cst_26
  let main_v71 : IVec S3x128 1 := cmpf .olt main_v69 main_v70
  let main_c_27 : IVec S_ 1 := constantI S_ 1 1#1
  let main_v72 : IVec S_ 1 := (fun x v => Host.reduce IntOp.andi x v reducesTo_S3x128_S_d0_1 h_S_) main_v71 main_c_27
  let main_v73 : IVec S_ 1 := andi main_v68 main_v72
  let main_v74 : FVec F S3x128 .f32 := Host.absf main_arg17
  let main_cst_28 : FVec F S_ .f32 := constant S_ .f32 0x7F800000#32
  let main_v75 : FVec F S3x128 .f32 := broadcastInDim S3x128 ![] bcast_S_S3x128 main_cst_28
  let main_v76 : IVec S3x128 1 := cmpf .olt main_v74 main_v75
  let main_c_29 : IVec S_ 1 := constantI S_ 1 1#1
  let main_v77 : IVec S_ 1 := (fun x v => Host.reduce IntOp.andi x v reducesTo_S3x128_S_d0_1 h_S_) main_v76 main_c_29
  let main_v78 : IVec S_ 1 := andi main_v73 main_v77
  let main_v79 : FVec F S3x128 .f32 := Host.absf main_arg18
  let main_cst_30 : FVec F S_ .f32 := constant S_ .f32 0x7F800000#32
  let main_v80 : FVec F S3x128 .f32 := broadcastInDim S3x128 ![] bcast_S_S3x128 main_cst_30
  let main_v81 : IVec S3x128 1 := cmpf .olt main_v79 main_v80
  let main_c_31 : IVec S_ 1 := constantI S_ 1 1#1
  let main_v82 : IVec S_ 1 := (fun x v => Host.reduce IntOp.andi x v reducesTo_S3x128_S_d0_1 h_S_) main_v81 main_c_31
  let main_v83 : IVec S_ 1 := andi main_v78 main_v82
  let main_v84 : FVec F S3x128 .f32 := Host.absf main_arg19
  let main_cst_32 : FVec F S_ .f32 := constant S_ .f32 0x7F800000#32
  fn_part5 (F := F) main_arg20 main_arg21 main_arg22 main_arg23 main_arg24 main_v83 main_v84 main_cst_32

def fn_part3 {F : FTy → Type} [FloatOps F] (main_arg13 : FVec F S3x128 .f32) (main_arg14 : FVec F S3x128x128 .f32) (main_arg15 : FVec F S3x128 .f32) (main_arg16 : FVec F S3x128 .f32) (main_arg17 : FVec F S3x128 .f32) (main_arg18 : FVec F S3x128 .f32) (main_arg19 : FVec F S3x128 .f32) (main_arg20 : FVec F S3 .f32) (main_arg21 : FVec F S2x128x128 .f32) (main_arg22 : FVec F S2x128 .f32) (main_arg23 : FVec F S2x128x10 .f32) (main_arg24 : FVec F S2x10 .f32) (main_v48 : IVec S_ 1) (main_v49 : FVec F S3x128x128 .f32) (main_v50 : FVec F S3x128x128 .f32) : IVec S_ 1 :=
  let main_v51 : IVec S3x128x128 1 := cmpf .olt main_v49 main_v50
  let main_c_19 : IVec S_ 1 := constantI S_ 1 1#1
  let main_v52 : IVec S_ 1 := (fun x v => Host.reduce IntOp.andi x v reducesTo_S3x128x128_S_d0_1_2 h_S_) main_v51 main_c_19
  let main_v53 : IVec S_ 1 := andi main_v48 main_v52
  let main_v54 : FVec F S3x128 .f32 := Host.absf main_arg13
  let main_cst_20 : FVec F S_ .f32 := constant S_ .f32 0x7F800000#32
  let main_v55 : FVec F S3x128 .f32 := broadcastInDim S3x128 ![] bcast_S_S3x128 main_cst_20
  let main_v56 : IVec S3x128 1 := cmpf .olt main_v54 main_v55
  let main_c_21 : IVec S_ 1 := constantI S_ 1 1#1
  let main_v57 : IVec S_ 1 := (fun x v => Host.reduce IntOp.andi x v reducesTo_S3x128_S_d0_1 h_S_) main_v56 main_c_21
  let main_v58 : IVec S_ 1 := andi main_v53 main_v57
  let main_v59 : FVec F S3x128x128 .f32 := Host.absf main_arg14
  let main_cst_22 : FVec F S_ .f32 := constant S_ .f32 0x7F800000#32
  let main_v60 : FVec F S3x128x128 .f32 := broadcastInDim S3x128x128 ![] bcast_S_S3x128x128 main_cst_22
  let main_v61 : IVec S3x128x128 1 := cmpf .olt main_v59 main_v60
  let main_c_23 : IVec S_ 1 := constantI S_ 1 1#1
  let main_v62 : IVec S_ 1 := (fun x v => Host.reduce IntOp.andi x v reducesTo_S3x128x128_S_d0_1_2 h_S_) main_v61 main_c_23
  let main_v63 : IVec S_ 1 := andi main_v58 main_v62
  let main_v64 : FVec F S3x128 .f32 := Host.absf main_arg15
  let main_cst_24 : FVec F S_ .f32 := constant S_ .f32 0x7F800000#32
  let main_v65 : FVec F S3x128 .f32 := broadcastInDim S3x128 ![] bcast_S_S3x128 main_cst_24
  let main_v66 : IVec S3x128 1 := cmpf .olt main_v64 main_v65
  let main_c_25 : IVec S_ 1 := constantI S_ 1 1#1
  let main_v67 : IVec S_ 1 := (fun x v => Host.reduce IntOp.andi x v reducesTo_S3x128_S_d0_1 h_S_) main_v66 main_c_25
  fn_part4 (F := F) main_arg16 main_arg17 main_arg18 main_arg19 main_arg20 main_arg21 main_arg22 main_arg23 main_arg24 main_v63 main_v67

def fn_part2 {F : FTy → Type} [FloatOps F] (main_arg9 : FVec F S2x128 .f32) (main_arg10 : FVec F S2x128 .f32) (main_arg11 : FVec F S2 .f32) (main_arg12 : FVec F S3x128x128 .f32) (main_arg13 : FVec F S3x128 .f32) (main_arg14 : FVec F S3x128x128 .f32) (main_arg15 : FVec F S3x128 .f32) (main_arg16 : FVec F S3x128 .f32) (main_arg17 : FVec F S3x128 .f32) (main_arg18 : FVec F S3x128 .f32) (main_arg19 : FVec F S3x128 .f32) (main_arg20 : FVec F S3 .f32) (main_arg21 : FVec F S2x128x128 .f32) (main_arg22 : FVec F S2x128 .f32) (main_arg23 : FVec F S2x128x10 .f32) (main_arg24 : FVec F S2x10 .f32) (main_v33 : IVec S_ 1) : IVec S_ 1 :=
  let main_v34 : FVec F S2x128 .f32 := Host.absf main_arg9
  let main_cst_12 : FVec F S_ .f32 := constant S_ .f32 0x7F800000#32
  let main_v35 : FVec F S2x128 .f32 := broadcastInDim S2x128 ![] bcast_S_S2x128 main_cst_12
  let main_v36 : IVec S2x128 1 := cmpf .olt main_v34 main_v35
  let main_c_13 : IVec S_ 1 := constantI S_ 1 1#1
  let main_v37 : IVec S_ 1 := (fun x v => Host.reduce IntOp.andi x v reducesTo_S2x128_S_d0_1 h_S_) main_v36 main_c_13
  let main_v38 : IVec S_ 1 := andi main_v33 main_v37
  let main_v39 : FVec F S2x128 .f32 := Host.absf main_arg10
  let main_cst_14 : FVec F S_ .f32 := constant S_ .f32 0x7F800000#32
  let main_v40 : FVec F S2x128 .f32 := broadcastInDim S2x128 ![] bcast_S_S2x128 main_cst_14
  let main_v41 : IVec S2x128 1 := cmpf .olt main_v39 main_v40
  let main_c_15 : IVec S_ 1 := constantI S_ 1 1#1
  let main_v42 : IVec S_ 1 := (fun x v => Host.reduce IntOp.andi x v reducesTo_S2x128_S_d0_1 h_S_) main_v41 main_c_15
  let main_v43 : IVec S_ 1 := andi main_v38 main_v42
  let main_v44 : FVec F S2 .f32 := Host.absf main_arg11
  let main_cst_16 : FVec F S_ .f32 := constant S_ .f32 0x7F800000#32
  let main_v45 : FVec F S2 .f32 := broadcastInDim S2 ![] bcast_S_S2 main_cst_16
  let main_v46 : IVec S2 1 := cmpf .olt main_v44 main_v45
  let main_c_17 : IVec S_ 1 := constantI S_ 1 1#1
  let main_v47 : IVec S_ 1 := (fun x v => Host.reduce IntOp.andi x v reducesTo_S2_S_d0 h_S_) main_v46 main_c_17
  let main_v48 : IVec S_ 1 := andi main_v43 main_v47
  let main_v49 : FVec F S3x128x128 .f32 := Host.absf main_arg12
  let main_cst_18 : FVec F S_ .f32 := constant S_ .f32 0x7F800000#32
  let main_v50 : FVec F S3x128x128 .f32 := broadcastInDim S3x128x128 ![] bcast_S_S3x128x128 main_cst_18
  fn_part3 (F := F) main_arg13 main_arg14 main_arg15 main_arg16 main_arg17 main_arg18 main_arg19 main_arg20 main_arg21 main_arg22 main_arg23 main_arg24 main_v48 main_v49 main_v50

def fn_part1 {F : FTy → Type} [FloatOps F] (main_arg6 : FVec F S2x128 .f32) (main_arg7 : FVec F S2x128 .f32) (main_arg8 : FVec F S2x128 .f32) (main_arg9 : FVec F S2x128 .f32) (main_arg10 : FVec F S2x128 .f32) (main_arg11 : FVec F S2 .f32) (main_arg12 : FVec F S3x128x128 .f32) (main_arg13 : FVec F S3x128 .f32) (main_arg14 : FVec F S3x128x128 .f32) (main_arg15 : FVec F S3x128 .f32) (main_arg16 : FVec F S3x128 .f32) (main_arg17 : FVec F S3x128 .f32) (main_arg18 : FVec F S3x128 .f32) (main_arg19 : FVec F S3x128 .f32) (main_arg20 : FVec F S3 .f32) (main_arg21 : FVec F S2x128x128 .f32) (main_arg22 : FVec F S2x128 .f32) (main_arg23 : FVec F S2x128x10 .f32) (main_arg24 : FVec F S2x10 .f32) (main_v13 : IVec S_ 1) (main_v16 : IVec S2x128x128 1) : IVec S_ 1 :=
  let main_c_5 : IVec S_ 1 := constantI S_ 1 1#1
  let main_v17 : IVec S_ 1 := (fun x v => Host.reduce IntOp.andi x v reducesTo_S2x128x128_S_d0_1_2 h_S_) main_v16 main_c_5
  let main_v18 : IVec S_ 1 := andi main_v13 main_v17
  let main_v19 : FVec F S2x128 .f32 := Host.absf main_arg6
  let main_cst_6 : FVec F S_ .f32 := constant S_ .f32 0x7F800000#32
  let main_v20 : FVec F S2x128 .f32 := broadcastInDim S2x128 ![] bcast_S_S2x128 main_cst_6
  let main_v21 : IVec S2x128 1 := cmpf .olt main_v19 main_v20
  let main_c_7 : IVec S_ 1 := constantI S_ 1 1#1
  let main_v22 : IVec S_ 1 := (fun x v => Host.reduce IntOp.andi x v reducesTo_S2x128_S_d0_1 h_S_) main_v21 main_c_7
  let main_v23 : IVec S_ 1 := andi main_v18 main_v22
  let main_v24 : FVec F S2x128 .f32 := Host.absf main_arg7
  let main_cst_8 : FVec F S_ .f32 := constant S_ .f32 0x7F800000#32
  let main_v25 : FVec F S2x128 .f32 := broadcastInDim S2x128 ![] bcast_S_S2x128 main_cst_8
  let main_v26 : IVec S2x128 1 := cmpf .olt main_v24 main_v25
  let main_c_9 : IVec S_ 1 := constantI S_ 1 1#1
  let main_v27 : IVec S_ 1 := (fun x v => Host.reduce IntOp.andi x v reducesTo_S2x128_S_d0_1 h_S_) main_v26 main_c_9
  let main_v28 : IVec S_ 1 := andi main_v23 main_v27
  let main_v29 : FVec F S2x128 .f32 := Host.absf main_arg8
  let main_cst_10 : FVec F S_ .f32 := constant S_ .f32 0x7F800000#32
  let main_v30 : FVec F S2x128 .f32 := broadcastInDim S2x128 ![] bcast_S_S2x128 main_cst_10
  let main_v31 : IVec S2x128 1 := cmpf .olt main_v29 main_v30
  let main_c_11 : IVec S_ 1 := constantI S_ 1 1#1
  let main_v32 : IVec S_ 1 := (fun x v => Host.reduce IntOp.andi x v reducesTo_S2x128_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S2x50000x128 .f32) (main_arg1 : IVec S2x2x800000 32) (main_arg2 : IVec S2x50000 32) (main_arg3 : FVec F S2x128x128 .f32) (main_arg4 : FVec F S2x128 .f32) (main_arg5 : FVec F S2x128x128 .f32) (main_arg6 : FVec F S2x128 .f32) (main_arg7 : FVec F S2x128 .f32) (main_arg8 : FVec F S2x128 .f32) (main_arg9 : FVec F S2x128 .f32) (main_arg10 : FVec F S2x128 .f32) (main_arg11 : FVec F S2 .f32) (main_arg12 : FVec F S3x128x128 .f32) (main_arg13 : FVec F S3x128 .f32) (main_arg14 : FVec F S3x128x128 .f32) (main_arg15 : FVec F S3x128 .f32) (main_arg16 : FVec F S3x128 .f32) (main_arg17 : FVec F S3x128 .f32) (main_arg18 : FVec F S3x128 .f32) (main_arg19 : FVec F S3x128 .f32) (main_arg20 : FVec F S3 .f32) (main_arg21 : FVec F S2x128x128 .f32) (main_arg22 : FVec F S2x128 .f32) (main_arg23 : FVec F S2x128x10 .f32) (main_arg24 : FVec F S2x10 .f32) : IVec S_ 1 :=
  let main_v0 : FVec F S2x50000x128 .f32 := Host.absf main_arg0
  let main_cst : FVec F S_ .f32 := constant S_ .f32 0x7F800000#32
  let main_v1 : FVec F S2x50000x128 .f32 := broadcastInDim S2x50000x128 ![] bcast_S_S2x50000x128 main_cst
  let main_v2 : IVec S2x50000x128 1 := cmpf .olt main_v0 main_v1
  let main_c : IVec S_ 1 := constantI S_ 1 1#1
  let main_v3 : IVec S_ 1 := (fun x v => Host.reduce IntOp.andi x v reducesTo_S2x50000x128_S_d0_1_2 h_S_) main_v2 main_c
  let main_v4 : FVec F S2x128x128 .f32 := Host.absf main_arg3
  let main_cst_0 : FVec F S_ .f32 := constant S_ .f32 0x7F800000#32
  let main_v5 : FVec F S2x128x128 .f32 := broadcastInDim S2x128x128 ![] bcast_S_S2x128x128 main_cst_0
  let main_v6 : IVec S2x128x128 1 := cmpf .olt main_v4 main_v5
  let main_c_1 : IVec S_ 1 := constantI S_ 1 1#1
  let main_v7 : IVec S_ 1 := (fun x v => Host.reduce IntOp.andi x v reducesTo_S2x128x128_S_d0_1_2 h_S_) main_v6 main_c_1
  let main_v8 : IVec S_ 1 := andi main_v3 main_v7
  let main_v9 : FVec F S2x128 .f32 := Host.absf main_arg4
  let main_cst_2 : FVec F S_ .f32 := constant S_ .f32 0x7F800000#32
  let main_v10 : FVec F S2x128 .f32 := broadcastInDim S2x128 ![] bcast_S_S2x128 main_cst_2
  let main_v11 : IVec S2x128 1 := cmpf .olt main_v9 main_v10
  let main_c_3 : IVec S_ 1 := constantI S_ 1 1#1
  let main_v12 : IVec S_ 1 := (fun x v => Host.reduce IntOp.andi x v reducesTo_S2x128_S_d0_1 h_S_) main_v11 main_c_3
  let main_v13 : IVec S_ 1 := andi main_v8 main_v12
  let main_v14 : FVec F S2x128x128 .f32 := Host.absf main_arg5
  let main_cst_4 : FVec F S_ .f32 := constant S_ .f32 0x7F800000#32
  let main_v15 : FVec F S2x128x128 .f32 := broadcastInDim S2x128x128 ![] bcast_S_S2x128x128 main_cst_4
  let main_v16 : IVec S2x128x128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S2x50000x128 : Shape := ⟨3, ![2, 50000, 128]⟩
abbrev S2x2x800000 : Shape := ⟨3, ![2, 2, 800000]⟩
abbrev S2x50000 : Shape := ⟨2, ![2, 50000]⟩
abbrev S2x128x128 : Shape := ⟨3, ![2, 128, 128]⟩
abbrev S2x128 : Shape := ⟨2, ![2, 128]⟩
abbrev S2 : Shape := ⟨1, ![2]⟩
abbrev S3x128x128 : Shape := ⟨3, ![3, 128, 128]⟩
abbrev S3x128 : Shape := ⟨2, ![3, 128]⟩
abbrev S3 : Shape := ⟨1, ![3]⟩
abbrev S2x128x10 : Shape := ⟨3, ![2, 128, 10]⟩
abbrev S2x10 : Shape := ⟨2, ![2, 10]⟩
abbrev S1x1x800000 : Shape := ⟨3, ![1, 1, 800000]⟩
abbrev S800000 : Shape := ⟨1, ![800000]⟩
abbrev S1x50000x128 : Shape := ⟨3, ![1, 50000, 128]⟩
abbrev S50000x128 : Shape := ⟨2, ![50000, 128]⟩
abbrev S_ : Shape := ⟨0, ![]⟩
abbrev S800000x1 : Shape := ⟨2, ![800000, 1]⟩
abbrev S800000x128 : Shape := ⟨2, ![800000, 128]⟩
abbrev S1 : Shape := ⟨1, ![1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1000x128 : Shape := ⟨2, ![1000, 128]⟩
abbrev S1x50000 : Shape := ⟨2, ![1, 50000]⟩
abbrev S50000 : Shape := ⟨1, ![50000]⟩
abbrev S50000x1 : Shape := ⟨2, ![50000, 1]⟩
abbrev S1x128x10 : Shape := ⟨3, ![1, 128, 10]⟩
abbrev S128x10 : Shape := ⟨2, ![128, 10]⟩
abbrev S1x10 : Shape := ⟨2, ![1, 10]⟩
abbrev S10 : Shape := ⟨1, ![10]⟩
abbrev S1000x1 : Shape := ⟨2, ![1000, 1]⟩
abbrev S128x1 : Shape := ⟨2, ![128, 1]⟩

abbrev nBuf : Space → Nat
  | .hbm => 412
  | .vmem => 118
  | .smem => 0
  | _ => 0

abbrev hbmTy0_0 (i : Nat) : BufTy := match i % 128 with
  | 0 => ⟨S2x50000x128, .f32⟩
  | 1 => ⟨S2x2x800000, .i32⟩
  | 2 => ⟨S2x50000, .i32⟩
  | 3 => ⟨S2x128x128, .f32⟩
  | 4 => ⟨S2x128, .f32⟩
  | 5 => ⟨S2x128x128, .f32⟩
  | 6 => ⟨S2x128, .f32⟩
  | 7 => ⟨S2x128, .f32⟩
  | 8 => ⟨S2x128, .f32⟩
  | 9 => ⟨S2x128, .f32⟩
  | 10 => ⟨S2x128, .f32⟩
  | 11 => ⟨S2, .f32⟩
  | 12 => ⟨S3x128x128, .f32⟩
  | 13 => ⟨S3x128, .f32⟩
  | 14 => ⟨S3x128x128, .f32⟩
  | 15 => ⟨S3x128, .f32⟩
  | 16 => ⟨S3x128, .f32⟩
  | 17 => ⟨S3x128, .f32⟩
  | 18 => ⟨S3x128, .f32⟩
  | 19 => ⟨S3x128, .f32⟩
  | 20 => ⟨S3, .f32⟩
  | 21 => ⟨S2x128x128, .f32⟩
  | 22 => ⟨S2x128, .f32⟩
  | 23 => ⟨S2x128x10, .f32⟩
  | 24 => ⟨S2x10, .f32⟩
  | 25 => ⟨S1x1x800000, .i32⟩
  | 26 => ⟨S800000, .i32⟩
  | 27 => ⟨S1x1x800000, .i32⟩
  | 28 => ⟨S800000, .i32⟩
  | 29 => ⟨S1x50000x128, .f32⟩
  | 30 => ⟨S50000x128, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000x128, .f32⟩
  | 40 => ⟨S_, .f32⟩
  | 41 => ⟨S50000x128, .f32⟩
  | 42 => ⟨S800000x1, .i32⟩
  | 43 => ⟨S50000x128, .f32⟩
  | 44 => ⟨S1, .f32⟩
  | 45 => ⟨S_, .f32⟩
  | 46 => ⟨S_, .f32⟩
  | 47 => ⟨S_, .f32⟩
  | 48 => ⟨S50000x128, .f32⟩
  | 49 => ⟨S50000x128, .f32⟩
  | 50 => ⟨S50000x128, .f32⟩
  | 51 => ⟨S1x128x128, .f32⟩
  | 52 => ⟨S128x128, .f32⟩
  | 53 => ⟨S1x128, .f32⟩
  | 54 => ⟨S128, .f32⟩
  | 55 => ⟨S1x128x128, .f32⟩
  | 56 => ⟨S128x128, .f32⟩
  | 57 => ⟨S1x128, .f32⟩
  | 58 => ⟨S128, .f32⟩
  | 59 => ⟨S1x128, .f32⟩
  | 60 => ⟨S128, .f32⟩
  | 61 => ⟨S1x128, .f32⟩
  | 62 => ⟨S128, .f32⟩
  | 63 => ⟨S1x128, .f32⟩
  | 64 => ⟨S128, .f32⟩
  | 65 => ⟨S1x128, .f32⟩
  | 66 => ⟨S128, .f32⟩
  | 67 => ⟨S1x128, .f32⟩
  | 68 => ⟨S1x128, .f32⟩
  | 69 => ⟨S1x128, .f32⟩
  | 70 => ⟨S1x128, .f32⟩
  | 71 => ⟨S1x128, .f32⟩
  | 72 => ⟨S1x128, .f32⟩
  | 73 => ⟨S50000x128, .f32⟩
  | 74 => ⟨S_, .i32⟩
  | 75 => ⟨S800000, .i32⟩
  | 76 => ⟨S800000, .i1⟩
  | 77 => ⟨S_, .i32⟩
  | 78 => ⟨S800000, .i32⟩
  | 79 => ⟨S800000, .i32⟩
  | 80 => ⟨S800000, .i32⟩
  | 81 => ⟨S800000x1, .i32⟩
  | 82 => ⟨S800000x128, .f32⟩
  | 83 => ⟨S_, .f32⟩
  | 84 => ⟨S50000x128, .f32⟩
  | 85 => ⟨S800000x1, .i32⟩
  | 86 => ⟨S50000x128, .f32⟩
  | 87 => ⟨S1, .f32⟩
  | 88 => ⟨S_, .f32⟩
  | 89 => ⟨S_, .f32⟩
  | 90 => ⟨S_, .f32⟩
  | 91 => ⟨S50000x128, .f32⟩
  | 92 => ⟨S50000x128, .f32⟩
  | 93 => ⟨S50000x128, .f32⟩
  | 94 => ⟨S1x128x128, .f32⟩
  | 95 => ⟨S128x128, .f32⟩
  | 96 => ⟨S1x128, .f32⟩
  | 97 => ⟨S128, .f32⟩
  | 98 => ⟨S1x128x128, .f32⟩
  | 99 => ⟨S128x128, .f32⟩
  | 100 => ⟨S1x128, .f32⟩
  | 101 => ⟨S128, .f32⟩
  | 102 => ⟨S1x128, .f32⟩
  | 103 => ⟨S128, .f32⟩
  | 104 => ⟨S1x128, .f32⟩
  | 105 => ⟨S128, .f32⟩
  | 106 => ⟨S1x128, .f32⟩
  | 107 => ⟨S128, .f32⟩
  | 108 => ⟨S1x128, .f32⟩
  | 109 => ⟨S128, .f32⟩
  | 110 => ⟨S1x128, .f32⟩
  | 111 => ⟨S1x128, .f32⟩
  | 112 => ⟨S1x128, .f32⟩
  | 113 => ⟨S1x128, .f32⟩
  | 114 => ⟨S1x128, .f32⟩
  | 115 => ⟨S1x128, .f32⟩
  | 116 => ⟨S50000x128, .f32⟩
  | 117 => ⟨S_, .i32⟩
  | 118 => ⟨S800000, .i32⟩
  | 119 => ⟨S800000, .i1⟩
  | 120 => ⟨S_, .i32⟩
  | 121 => ⟨S800000, .i32⟩
  | 122 => ⟨S800000, .i32⟩
  | 123 => ⟨S800000, .i32⟩
  | 124 => ⟨S800000x1, .i32⟩
  | 125 => ⟨S800000x128, .f32⟩
  | 126 => ⟨S_, .f32⟩
  | 127 => ⟨S50000x128, .f32⟩
  | _ => ⟨S2x50000x128, .f32⟩

abbrev hbmTy0_1 (i : Nat) : BufTy := match i % 128 with
  | 0 => ⟨S800000x1, .i32⟩
  | 1 => ⟨S50000x128, .f32⟩
  | 2 => ⟨S1, .f32⟩
  | 3 => ⟨S_, .f32⟩
  | 4 => ⟨S_, .f32⟩
  | 5 => ⟨S_, .f32⟩
  | 6 => ⟨S50000x128, .f32⟩
  | 7 => ⟨S50000x128, .f32⟩
  | 8 => ⟨S50000x128, .f32⟩
  | 9 => ⟨S1x128x128, .f32⟩
  | 10 => ⟨S128x128, .f32⟩
  | 11 => ⟨S1x128, .f32⟩
  | 12 => ⟨S128, .f32⟩
  | 13 => ⟨S1x128x128, .f32⟩
  | 14 => ⟨S128x128, .f32⟩
  | 15 => ⟨S1x128, .f32⟩
  | 16 => ⟨S128, .f32⟩
  | 17 => ⟨S1x128, .f32⟩
  | 18 => ⟨S128, .f32⟩
  | 19 => ⟨S1x128, .f32⟩
  | 20 => ⟨S128, .f32⟩
  | 21 => ⟨S1x128, .f32⟩
  | 22 => ⟨S128, .f32⟩
  | 23 => ⟨S1x128, .f32⟩
  | 24 => ⟨S128, .f32⟩
  | 25 => ⟨S1x128, .f32⟩
  | 26 => ⟨S1x128, .f32⟩
  | 27 => ⟨S1x128, .f32⟩
  | 28 => ⟨S1x128, .f32⟩
  | 29 => ⟨S1x128, .f32⟩
  | 30 => ⟨S1x128, .f32⟩
  | 31 => ⟨S50000x128, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000x128, .f32⟩
  | 41 => ⟨S_, .f32⟩
  | 42 => ⟨S50000x128, .f32⟩
  | 43 => ⟨S800000x1, .i32⟩
  | 44 => ⟨S50000x128, .f32⟩
  | 45 => ⟨S1, .f32⟩
  | 46 => ⟨S_, .f32⟩
  | 47 => ⟨S_, .f32⟩
  | 48 => ⟨S_, .f32⟩
  | 49 => ⟨S50000x128, .f32⟩
  | 50 => ⟨S50000x128, .f32⟩
  | 51 => ⟨S50000x128, .f32⟩
  | 52 => ⟨S1x128x128, .f32⟩
  | 53 => ⟨S128x128, .f32⟩
  | 54 => ⟨S1x128, .f32⟩
  | 55 => ⟨S128, .f32⟩
  | 56 => ⟨S1x128x128, .f32⟩
  | 57 => ⟨S128x128, .f32⟩
  | 58 => ⟨S1x128, .f32⟩
  | 59 => ⟨S128, .f32⟩
  | 60 => ⟨S1x128, .f32⟩
  | 61 => ⟨S128, .f32⟩
  | 62 => ⟨S1x128, .f32⟩
  | 63 => ⟨S128, .f32⟩
  | 64 => ⟨S1x128, .f32⟩
  | 65 => ⟨S128, .f32⟩
  | 66 => ⟨S1x128, .f32⟩
  | 67 => ⟨S128, .f32⟩
  | 68 => ⟨S1x128, .f32⟩
  | 69 => ⟨S1x128, .f32⟩
  | 70 => ⟨S1x128, .f32⟩
  | 71 => ⟨S1x128, .f32⟩
  | 72 => ⟨S1x128, .f32⟩
  | 73 => ⟨S1x128, .f32⟩
  | 74 => ⟨S50000x128, .f32⟩
  | 75 => ⟨S1x50000, .i32⟩
  | 76 => ⟨S50000, .i32⟩
  | 77 => ⟨S50000x1, .i32⟩
  | 78 => ⟨S1x128x128, .f32⟩
  | 79 => ⟨S128x128, .f32⟩
  | 80 => ⟨S1x128, .f32⟩
  | 81 => ⟨S128, .f32⟩
  | 82 => ⟨S1x128x10, .f32⟩
  | 83 => ⟨S128x10, .f32⟩
  | 84 => ⟨S1x10, .f32⟩
  | 85 => ⟨S10, .f32⟩
  | 86 => ⟨S1x128, .f32⟩
  | 87 => ⟨S1x10, .f32⟩
  | 88 => ⟨S128x10, .f32⟩
  | 89 => ⟨S1x1x800000, .i32⟩
  | 90 => ⟨S800000, .i32⟩
  | 91 => ⟨S1x1x800000, .i32⟩
  | 92 => ⟨S800000, .i32⟩
  | 93 => ⟨S1x50000x128, .f32⟩
  | 94 => ⟨S50000x128, .f32⟩
  | 95 => ⟨S_, .i32⟩
  | 96 => ⟨S800000, .i32⟩
  | 97 => ⟨S800000, .i1⟩
  | 98 => ⟨S_, .i32⟩
  | 99 => ⟨S800000, .i32⟩
  | 100 => ⟨S800000, .i32⟩
  | 101 => ⟨S800000, .i32⟩
  | 102 => ⟨S800000x1, .i32⟩
  | 103 => ⟨S800000x128, .f32⟩
  | 104 => ⟨S_, .f32⟩
  | 105 => ⟨S50000x128, .f32⟩
  | 106 => ⟨S800000x1, .i32⟩
  | 107 => ⟨S50000x128, .f32⟩
  | 108 => ⟨S1, .f32⟩
  | 109 => ⟨S_, .f32⟩
  | 110 => ⟨S_, .f32⟩
  | 111 => ⟨S_, .f32⟩
  | 112 => ⟨S50000x128, .f32⟩
  | 113 => ⟨S50000x128, .f32⟩
  | 114 => ⟨S50000x128, .f32⟩
  | 115 => ⟨S1x128x128, .f32⟩
  | 116 => ⟨S128x128, .f32⟩
  | 117 => ⟨S1x128, .f32⟩
  | 118 => ⟨S128, .f32⟩
  | 119 => ⟨S1x128x128, .f32⟩
  | 120 => ⟨S128x128, .f32⟩
  | 121 => ⟨S1x128, .f32⟩
  | 122 => ⟨S128, .f32⟩
  | 123 => ⟨S1x128, .f32⟩
  | 124 => ⟨S128, .f32⟩
  | 125 => ⟨S1x128, .f32⟩
  | 126 => ⟨S128, .f32⟩
  | 127 => ⟨S1x128, .f32⟩
  | _ => ⟨S2x50000x128, .f32⟩

abbrev hbmTy0_2 (i : Nat) : BufTy := match i % 128 with
  | 0 => ⟨S128, .f32⟩
  | 1 => ⟨S1x128, .f32⟩
  | 2 => ⟨S128, .f32⟩
  | 3 => ⟨S1x128, .f32⟩
  | 4 => ⟨S1x128, .f32⟩
  | 5 => ⟨S1x128, .f32⟩
  | 6 => ⟨S1x128, .f32⟩
  | 7 => ⟨S1x128, .f32⟩
  | 8 => ⟨S1x128, .f32⟩
  | 9 => ⟨S50000x128, .f32⟩
  | 10 => ⟨S_, .i32⟩
  | 11 => ⟨S800000, .i32⟩
  | 12 => ⟨S800000, .i1⟩
  | 13 => ⟨S_, .i32⟩
  | 14 => ⟨S800000, .i32⟩
  | 15 => ⟨S800000, .i32⟩
  | 16 => ⟨S800000, .i32⟩
  | 17 => ⟨S800000x1, .i32⟩
  | 18 => ⟨S800000x128, .f32⟩
  | 19 => ⟨S_, .f32⟩
  | 20 => ⟨S50000x128, .f32⟩
  | 21 => ⟨S800000x1, .i32⟩
  | 22 => ⟨S50000x128, .f32⟩
  | 23 => ⟨S1, .f32⟩
  | 24 => ⟨S_, .f32⟩
  | 25 => ⟨S_, .f32⟩
  | 26 => ⟨S_, .f32⟩
  | 27 => ⟨S50000x128, .f32⟩
  | 28 => ⟨S50000x128, .f32⟩
  | 29 => ⟨S50000x128, .f32⟩
  | 30 => ⟨S1x128x128, .f32⟩
  | 31 => ⟨S128x128, .f32⟩
  | 32 => ⟨S1x128, .f32⟩
  | 33 => ⟨S128, .f32⟩
  | 34 => ⟨S1x128x128, .f32⟩
  | 35 => ⟨S128x128, .f32⟩
  | 36 => ⟨S1x128, .f32⟩
  | 37 => ⟨S128, .f32⟩
  | 38 => ⟨S1x128, .f32⟩
  | 39 => ⟨S128, .f32⟩
  | 40 => ⟨S1x128, .f32⟩
  | 41 => ⟨S128, .f32⟩
  | 42 => ⟨S1x128, .f32⟩
  | 43 => ⟨S128, .f32⟩
  | 44 => ⟨S1x128, .f32⟩
  | 45 => ⟨S128, .f32⟩
  | 46 => ⟨S1x128, .f32⟩
  | 47 => ⟨S1x128, .f32⟩
  | 48 => ⟨S1x128, .f32⟩
  | 49 => ⟨S1x128, .f32⟩
  | 50 => ⟨S1x128, .f32⟩
  | 51 => ⟨S1x128, .f32⟩
  | 52 => ⟨S50000x128, .f32⟩
  | 53 => ⟨S_, .i32⟩
  | 54 => ⟨S800000, .i32⟩
  | 55 => ⟨S800000, .i1⟩
  | 56 => ⟨S_, .i32⟩
  | 57 => ⟨S800000, .i32⟩
  | 58 => ⟨S800000, .i32⟩
  | 59 => ⟨S800000, .i32⟩
  | 60 => ⟨S800000x1, .i32⟩
  | 61 => ⟨S800000x128, .f32⟩
  | 62 => ⟨S_, .f32⟩
  | 63 => ⟨S50000x128, .f32⟩
  | 64 => ⟨S800000x1, .i32⟩
  | 65 => ⟨S50000x128, .f32⟩
  | 66 => ⟨S1, .f32⟩
  | 67 => ⟨S_, .f32⟩
  | 68 => ⟨S_, .f32⟩
  | 69 => ⟨S_, .f32⟩
  | 70 => ⟨S50000x128, .f32⟩
  | 71 => ⟨S50000x128, .f32⟩
  | 72 => ⟨S50000x128, .f32⟩
  | 73 => ⟨S1x128x128, .f32⟩
  | 74 => ⟨S128x128, .f32⟩
  | 75 => ⟨S1x128, .f32⟩
  | 76 => ⟨S128, .f32⟩
  | 77 => ⟨S1x128x128, .f32⟩
  | 78 => ⟨S128x128, .f32⟩
  | 79 => ⟨S1x128, .f32⟩
  | 80 => ⟨S128, .f32⟩
  | 81 => ⟨S1x128, .f32⟩
  | 82 => ⟨S128, .f32⟩
  | 83 => ⟨S1x128, .f32⟩
  | 84 => ⟨S128, .f32⟩
  | 85 => ⟨S1x128, .f32⟩
  | 86 => ⟨S128, .f32⟩
  | 87 => ⟨S1x128, .f32⟩
  | 88 => ⟨S128, .f32⟩
  | 89 => ⟨S1x128, .f32⟩
  | 90 => ⟨S1x128, .f32⟩
  | 91 => ⟨S1x128, .f32⟩
  | 92 => ⟨S1x128, .f32⟩
  | 93 => ⟨S1x128, .f32⟩
  | 94 => ⟨S1x128, .f32⟩
  | 95 => ⟨S50000x128, .f32⟩
  | 96 => ⟨S_, .i32⟩
  | 97 => ⟨S800000, .i32⟩
  | 98 => ⟨S800000, .i1⟩
  | 99 => ⟨S_, .i32⟩
  | 100 => ⟨S800000, .i32⟩
  | 101 => ⟨S800000, .i32⟩
  | 102 => ⟨S800000, .i32⟩
  | 103 => ⟨S800000x1, .i32⟩
  | 104 => ⟨S800000x128, .f32⟩
  | 105 => ⟨S_, .f32⟩
  | 106 => ⟨S50000x128, .f32⟩
  | 107 => ⟨S800000x1, .i32⟩
  | 108 => ⟨S50000x128, .f32⟩
  | 109 => ⟨S1, .f32⟩
  | 110 => ⟨S_, .f32⟩
  | 111 => ⟨S_, .f32⟩
  | 112 => ⟨S_, .f32⟩
  | 113 => ⟨S50000x128, .f32⟩
  | 114 => ⟨S50000x128, .f32⟩
  | 115 => ⟨S50000x128, .f32⟩
  | 116 => ⟨S1x128x128, .f32⟩
  | 117 => ⟨S128x128, .f32⟩
  | 118 => ⟨S1x128, .f32⟩
  | 119 => ⟨S128, .f32⟩
  | 120 => ⟨S1x128x128, .f32⟩
  | 121 => ⟨S128x128, .f32⟩
  | 122 => ⟨S1x128, .f32⟩
  | 123 => ⟨S128, .f32⟩
  | 124 => ⟨S1x128, .f32⟩
  | 125 => ⟨S128, .f32⟩
  | 126 => ⟨S1x128, .f32⟩
  | 127 => ⟨S128, .f32⟩
  | _ => ⟨S2x50000x128, .f32⟩

abbrev hbmTy0_3 (i : Nat) : BufTy := match i % 128 with
  | 0 => ⟨S1x128, .f32⟩
  | 1 => ⟨S128, .f32⟩
  | 2 => ⟨S1x128, .f32⟩
  | 3 => ⟨S128, .f32⟩
  | 4 => ⟨S1x128, .f32⟩
  | 5 => ⟨S1x128, .f32⟩
  | 6 => ⟨S1x128, .f32⟩
  | 7 => ⟨S1x128, .f32⟩
  | 8 => ⟨S1x128, .f32⟩
  | 9 => ⟨S1x128, .f32⟩
  | 10 => ⟨S50000x128, .f32⟩
  | 11 => ⟨S1x50000, .i32⟩
  | 12 => ⟨S50000, .i32⟩
  | 13 => ⟨S50000x1, .i32⟩
  | 14 => ⟨S1x128x128, .f32⟩
  | 15 => ⟨S128x128, .f32⟩
  | 16 => ⟨S1x128, .f32⟩
  | 17 => ⟨S128, .f32⟩
  | 18 => ⟨S1x128x10, .f32⟩
  | 19 => ⟨S128x10, .f32⟩
  | 20 => ⟨S1x10, .f32⟩
  | 21 => ⟨S10, .f32⟩
  | 22 => ⟨S1x128, .f32⟩
  | 23 => ⟨S1x10, .f32⟩
  | 24 => ⟨S128x10, .f32⟩
  | 25 => ⟨S1x128x10, .f32⟩
  | 26 => ⟨S1x128x10, .f32⟩
  | 27 => ⟨S2x128x10, .f32⟩
  | _ => ⟨S2x50000x128, .f32⟩

abbrev hbmTy (i : Nat) : BufTy := match i / 128 with
  | 0 => hbmTy0_0 i
  | 1 => hbmTy0_1 i
  | 2 => hbmTy0_2 i
  | 3 => hbmTy0_3 i
  | _ => ⟨S2x50000x128, .f32⟩

abbrev bufTy : (tb : Table) → Fin (tcTables nBuf tb) → BufTy
  | .hbm, ⟨i, _⟩ => hbmTy i
  | .local _ .vmem, ⟨0, _⟩ => ⟨S1000x128, .f32⟩
  | .local _ .vmem, ⟨1, _⟩ => ⟨S1000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1000x128, .f32⟩
  | .local _ .vmem, ⟨11, _⟩ => ⟨S1000x128, .f32⟩
  | .local _ .vmem, ⟨12, _⟩ => ⟨S1000x128, .f32⟩
  | .local _ .vmem, ⟨13, _⟩ => ⟨S1000x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S1000x128, .f32⟩
  | .local _ .vmem, ⟨23, _⟩ => ⟨S1000x128, .f32⟩
  | .local _ .vmem, ⟨24, _⟩ => ⟨S1000x128, .f32⟩
  | .local _ .vmem, ⟨25, _⟩ => ⟨S1000x128, .f32⟩
  | .local _ .vmem, ⟨26, _⟩ => ⟨S128x128, .f32⟩
  | .local _ .vmem, ⟨27, _⟩ => ⟨S1x128, .f32⟩
  | .local _ .vmem, ⟨28, _⟩ => ⟨S128x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S1000x128, .f32⟩
  | .local _ .vmem, ⟨35, _⟩ => ⟨S1000x128, .f32⟩
  | .local _ .vmem, ⟨36, _⟩ => ⟨S1000x128, .f32⟩
  | .local _ .vmem, ⟨37, _⟩ => ⟨S1000x128, .f32⟩
  | .local _ .vmem, ⟨38, _⟩ => ⟨S128x128, .f32⟩
  | .local _ .vmem, ⟨39, _⟩ => ⟨S1x128, .f32⟩
  | .local _ .vmem, ⟨40, _⟩ => ⟨S128x128, .f32⟩
  | .local _ .vmem, ⟨41, _⟩ => ⟨S1x128, .f32⟩
  | .local _ .vmem, ⟨42, _⟩ => ⟨S1x128, .f32⟩
  | .local _ .vmem, ⟨43, _⟩ => ⟨S1x128, .f32⟩
  | .local _ .vmem, ⟨44, _⟩ => ⟨S1x128, .f32⟩
  | .local _ .vmem, ⟨45, _⟩ => ⟨S1x128, .f32⟩
  | .local _ .vmem, ⟨46, _⟩ => ⟨S1000x128, .f32⟩
  | .local _ .vmem, ⟨47, _⟩ => ⟨S1000x128, .f32⟩
  | .local _ .vmem, ⟨48, _⟩ => ⟨S1000x128, .f32⟩
  | .local _ .vmem, ⟨49, _⟩ => ⟨S1000x128, .f32⟩
  | .local _ .vmem, ⟨50, _⟩ => ⟨S1000x1, .i32⟩
  | .local _ .vmem, ⟨51, _⟩ => ⟨S1000x1, .i32⟩
  | .local _ .vmem, ⟨52, _⟩ => ⟨S128x128, .f32⟩
  | .local _ .vmem, ⟨53, _⟩ => ⟨S1x128, .f32⟩
  | .local _ .vmem, ⟨54, _⟩ => ⟨S128x10, .f32⟩
  | .local _ .vmem, ⟨55, _⟩ => ⟨S1x10, .f32⟩
  | .local _ .vmem, ⟨56, _⟩ => ⟨S128x10, .f32⟩
  | .local _ .vmem, ⟨57, _⟩ => ⟨S128x128, .f32⟩
  | .local _ .vmem, ⟨58, _⟩ => ⟨S1x128, .f32⟩
  | .local _ .vmem, ⟨59, _⟩ => ⟨S1000x128, .f32⟩
  | .local _ .vmem, ⟨60, _⟩ => ⟨S1000x128, .f32⟩
  | .local _ .vmem, ⟨61, _⟩ => ⟨S128x128, .f32⟩
  | .local _ .vmem, ⟨62, _⟩ => ⟨S1x128, .f32⟩
  | .local _ .vmem, ⟨63, _⟩ => ⟨S128x128, .f32⟩
  | .local _ .vmem, ⟨64, _⟩ => ⟨S1x128, .f32⟩
  | .local _ .vmem, ⟨65, _⟩ => ⟨S1x128, .f32⟩
  | .local _ .vmem, ⟨66, _⟩ => ⟨S1x128, .f32⟩
  | .local _ .vmem, ⟨67, _⟩ => ⟨S1x128, .f32⟩
  | .local _ .vmem, ⟨68, _⟩ => ⟨S1x128, .f32⟩
  | .local _ .vmem, ⟨69, _⟩ => ⟨S1000x128, .f32⟩
  | .local _ .vmem, ⟨70, _⟩ => ⟨S1000x128, .f32⟩
  | .local _ .vmem, ⟨71, _⟩ => ⟨S1000x128, .f32⟩
  | .local _ .vmem, ⟨72, _⟩ => ⟨S1000x128, .f32⟩
  | .local _ .vmem, ⟨73, _⟩ => ⟨S128x128, .f32⟩
  | .local _ .vmem, ⟨74, _⟩ => ⟨S1x128, .f32⟩
  | .local _ .vmem, ⟨75, _⟩ => ⟨S128x128, .f32⟩
  | .local _ .vmem, ⟨76, _⟩ => ⟨S1x128, .f32⟩
  | .local _ .vmem, ⟨77, _⟩ => ⟨S1x128, .f32⟩
  | .local _ .vmem, ⟨78, _⟩ => ⟨S1x128, .f32⟩
  | .local _ .vmem, ⟨79, _⟩ => ⟨S1x128, .f32⟩
  | .local _ .vmem, ⟨80, _⟩ => ⟨S1x128, .f32⟩
  | .local _ .vmem, ⟨81, _⟩ => ⟨S1000x128, .f32⟩
  | .local _ .vmem, ⟨82, _⟩ => ⟨S1000x128, .f32⟩
  | .local _ .vmem, ⟨83, _⟩ => ⟨S1000x128, .f32⟩
  | .local _ .vmem, ⟨84, _⟩ => ⟨S1000x128, .f32⟩
  | .local _ .vmem, ⟨85, _⟩ => ⟨S128x128, .f32⟩
  | .local _ .vmem, ⟨86, _⟩ => ⟨S1x128, .f32⟩
  | .local _ .vmem, ⟨87, _⟩ => ⟨S128x128, .f32⟩
  | .local _ .vmem, ⟨88, _⟩ => ⟨S1x128, .f32⟩
  | .local _ .vmem, ⟨89, _⟩ => ⟨S1x128, .f32⟩
  | .local _ .vmem, ⟨90, _⟩ => ⟨S1x128, .f32⟩
  | .local _ .vmem, ⟨91, _⟩ => ⟨S1x128, .f32⟩
  | .local _ .vmem, ⟨92, _⟩ => ⟨S1x128, .f32⟩
  | .local _ .vmem, ⟨93, _⟩ => ⟨S1000x128, .f32⟩
  | .local _ .vmem, ⟨94, _⟩ => ⟨S1000x128, .f32⟩
  | .local _ .vmem, ⟨95, _⟩ => ⟨S1000x128, .f32⟩
  | .local _ .vmem, ⟨96, _⟩ => ⟨S1000x128, .f32⟩
  | .local _ .vmem, ⟨97, _⟩ => ⟨S128x128, .f32⟩
  | .local _ .vmem, ⟨98, _⟩ => ⟨S1x128, .f32⟩
  | .local _ .vmem, ⟨99, _⟩ => ⟨S128x128, .f32⟩
  | .local _ .vmem, ⟨100, _⟩ => ⟨S1x128, .f32⟩
  | .local _ .vmem, ⟨101, _⟩ => ⟨S1x128, .f32⟩
  | .local _ .vmem, ⟨102, _⟩ => ⟨S1x128, .f32⟩
  | .local _ .vmem, ⟨103, _⟩ => ⟨S1x128, .f32⟩
  | .local _ .vmem, ⟨104, _⟩ => ⟨S1x128, .f32⟩
  | .local _ .vmem, ⟨105, _⟩ => ⟨S1000x128, .f32⟩
  | .local _ .vmem, ⟨106, _⟩ => ⟨S1000x128, .f32⟩
  | .local _ .vmem, ⟨107, _⟩ => ⟨S1000x128, .f32⟩
  | .local _ .vmem, ⟨108, _⟩ => ⟨S1000x128, .f32⟩
  | .local _ .vmem, ⟨109, _⟩ => ⟨S1000x1, .i32⟩
  | .local _ .vmem, ⟨110, _⟩ => ⟨S1000x1, .i32⟩
  | .local _ .vmem, ⟨111, _⟩ => ⟨S128x128, .f32⟩
  | .local _ .vmem, ⟨112, _⟩ => ⟨S1x128, .f32⟩
  | .local _ .vmem, ⟨113, _⟩ => ⟨S128x10, .f32⟩
  | .local _ .vmem, ⟨114, _⟩ => ⟨S1x10, .f32⟩
  | .local _ .vmem, ⟨115, _⟩ => ⟨S128x10, .f32⟩
  | .local _ .vmem, ⟨116, _⟩ => ⟨S128x128, .f32⟩
  | .local _ .vmem, ⟨117, _⟩ => ⟨S1x128, .f32⟩
  | _, _ => ⟨S2x50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | .vmem, ⟨116, _⟩ => true
  | .vmem, ⟨117, _⟩ => true
  | _, _ => false

abbrev semScoped : Fin 0 → Bool
  | ⟨_, h⟩ => absurd h (Nat.not_lt_zero _)

abbrev dmaSemScoped : Fin 114 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | _ => false

abbrev sig : RefSig :=
  ofTc nBuf bufTy 0 114 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_c : Ref sig .tc := ⟨.hbm, 31, rfl⟩
abbrev main_v6 : Ref sig .tc := ⟨.hbm, 32, rfl⟩
abbrev main_v7 : Ref sig .tc := ⟨.hbm, 33, rfl⟩
abbrev main_c_0 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_cst : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_cst_1 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_c_2 : Ref sig .tc := ⟨.hbm, 74, rfl⟩
abbrev main_v45 : Ref sig .tc := ⟨.hbm, 75, rfl⟩
abbrev main_v46 : Ref sig .tc := ⟨.hbm, 76, rfl⟩
abbrev main_c_3 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_4 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_5 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_c_6 : Ref sig .tc := ⟨.hbm, 117, rfl⟩
abbrev main_v84 : Ref sig .tc := ⟨.hbm, 118, rfl⟩
abbrev main_v85 : Ref sig .tc := ⟨.hbm, 119, rfl⟩
abbrev main_c_7 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_cst_8 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_cst_9 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_c_10 : Ref sig .tc := ⟨.hbm, 160, rfl⟩
abbrev main_v123 : Ref sig .tc := ⟨.hbm, 161, rfl⟩
abbrev main_v124 : Ref sig .tc := ⟨.hbm, 162, rfl⟩
abbrev main_c_11 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_cst_12 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_cst_13 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_v168 : Ref sig .tc := ⟨.hbm, 209, rfl⟩
abbrev main_v169 : Ref sig .tc := ⟨.hbm, 210, rfl⟩
abbrev main_v170 : Ref sig .tc := ⟨.hbm, 211, rfl⟩
abbrev main_v171 : Ref sig .tc := ⟨.hbm, 212, rfl⟩
abbrev main_v172 : Ref sig .tc := ⟨.hbm, 213, rfl⟩
abbrev main_v173 : Ref sig .tc := ⟨.hbm, 214, rfl⟩
abbrev main_v174 : Ref sig .tc := ⟨.hbm, 215, rfl⟩
abbrev main_v175 : Ref sig .tc := ⟨.hbm, 216, rfl⟩
abbrev main_v176 : Ref sig .tc := ⟨.hbm, 217, rfl⟩
abbrev main_v177 : Ref sig .tc := ⟨.hbm, 218, rfl⟩
abbrev main_v178 : Ref sig .tc := ⟨.hbm, 219, rfl⟩
abbrev main_v179 : Ref sig .tc := ⟨.hbm, 220, rfl⟩
abbrev main_v180 : Ref sig .tc := ⟨.hbm, 221, rfl⟩
abbrev main_v181 : Ref sig .tc := ⟨.hbm, 222, rfl⟩
abbrev main_c_14 : Ref sig .tc := ⟨.hbm, 223, rfl⟩
abbrev main_v182 : Ref sig .tc := ⟨.hbm, 224, rfl⟩
abbrev main_v183 : Ref sig .tc := ⟨.hbm, 225, rfl⟩
abbrev main_c_15 : Ref sig .tc := ⟨.hbm, 226, rfl⟩
abbrev main_v184 : Ref sig .tc := ⟨.hbm, 227, rfl⟩
abbrev main_v185 : Ref sig .tc := ⟨.hbm, 228, rfl⟩
abbrev main_v186 : Ref sig .tc := ⟨.hbm, 229, rfl⟩
abbrev main_v187 : Ref sig .tc := ⟨.hbm, 230, rfl⟩
abbrev main_v188 : Ref sig .tc := ⟨.hbm, 231, rfl⟩
abbrev main_cst_16 : Ref sig .tc := ⟨.hbm, 232, rfl⟩
abbrev main_v189 : Ref sig .tc := ⟨.hbm, 233, rfl⟩
abbrev main_v190 : Ref sig .tc := ⟨.hbm, 234, rfl⟩
abbrev main_v191 : Ref sig .tc := ⟨.hbm, 235, rfl⟩
abbrev main_v192 : Ref sig .tc := ⟨.hbm, 236, rfl⟩
abbrev main_v193 : Ref sig .tc := ⟨.hbm, 237, rfl⟩
abbrev main_cst_17 : Ref sig .tc := ⟨.hbm, 238, rfl⟩
abbrev main_v194 : Ref sig .tc := ⟨.hbm, 239, rfl⟩
abbrev main_v195 : Ref sig .tc := ⟨.hbm, 240, rfl⟩
abbrev main_v196 : Ref sig .tc := ⟨.hbm, 241, rfl⟩
abbrev main_v197 : Ref sig .tc := ⟨.hbm, 242, rfl⟩
abbrev main_v198 : Ref sig .tc := ⟨.hbm, 243, rfl⟩
abbrev main_v199 : Ref sig .tc := ⟨.hbm, 244, rfl⟩
abbrev main_v200 : Ref sig .tc := ⟨.hbm, 245, rfl⟩
abbrev main_v201 : Ref sig .tc := ⟨.hbm, 246, rfl⟩
abbrev main_v202 : Ref sig .tc := ⟨.hbm, 247, rfl⟩
abbrev main_v203 : Ref sig .tc := ⟨.hbm, 248, rfl⟩
abbrev main_v204 : Ref sig .tc := ⟨.hbm, 249, rfl⟩
abbrev main_v205 : Ref sig .tc := ⟨.hbm, 250, rfl⟩
abbrev main_v206 : Ref sig .tc := ⟨.hbm, 251, rfl⟩
abbrev main_v207 : Ref sig .tc := ⟨.hbm, 252, rfl⟩
abbrev main_v208 : Ref sig .tc := ⟨.hbm, 253, rfl⟩
abbrev main_v209 : Ref sig .tc := ⟨.hbm, 254, rfl⟩
abbrev main_v210 : Ref sig .tc := ⟨.hbm, 255, rfl⟩
abbrev main_v211 : Ref sig .tc := ⟨.hbm, 256, rfl⟩
abbrev main_v212 : Ref sig .tc := ⟨.hbm, 257, rfl⟩
abbrev main_v213 : Ref sig .tc := ⟨.hbm, 258, rfl⟩
abbrev main_v214 : Ref sig .tc := ⟨.hbm, 259, rfl⟩
abbrev main_v215 : Ref sig .tc := ⟨.hbm, 260, rfl⟩
abbrev main_v216 : Ref sig .tc := ⟨.hbm, 261, rfl⟩
abbrev main_v217 : Ref sig .tc := ⟨.hbm, 262, rfl⟩
abbrev main_v218 : Ref sig .tc := ⟨.hbm, 263, rfl⟩
abbrev main_v219 : Ref sig .tc := ⟨.hbm, 264, rfl⟩
abbrev main_v220 : Ref sig .tc := ⟨.hbm, 265, rfl⟩
abbrev main_c_18 : Ref sig .tc := ⟨.hbm, 266, rfl⟩
abbrev main_v221 : Ref sig .tc := ⟨.hbm, 267, rfl⟩
abbrev main_v222 : Ref sig .tc := ⟨.hbm, 268, rfl⟩
abbrev main_c_19 : Ref sig .tc := ⟨.hbm, 269, rfl⟩
abbrev main_v223 : Ref sig .tc := ⟨.hbm, 270, rfl⟩
abbrev main_v224 : Ref sig .tc := ⟨.hbm, 271, rfl⟩
abbrev main_v225 : Ref sig .tc := ⟨.hbm, 272, rfl⟩
abbrev main_v226 : Ref sig .tc := ⟨.hbm, 273, rfl⟩
abbrev main_v227 : Ref sig .tc := ⟨.hbm, 274, rfl⟩
abbrev main_cst_20 : Ref sig .tc := ⟨.hbm, 275, rfl⟩
abbrev main_v228 : Ref sig .tc := ⟨.hbm, 276, rfl⟩
abbrev main_v229 : Ref sig .tc := ⟨.hbm, 277, rfl⟩
abbrev main_v230 : Ref sig .tc := ⟨.hbm, 278, rfl⟩
abbrev main_v231 : Ref sig .tc := ⟨.hbm, 279, rfl⟩
abbrev main_v232 : Ref sig .tc := ⟨.hbm, 280, rfl⟩
abbrev main_cst_21 : Ref sig .tc := ⟨.hbm, 281, rfl⟩
abbrev main_v233 : Ref sig .tc := ⟨.hbm, 282, rfl⟩
abbrev main_v234 : Ref sig .tc := ⟨.hbm, 283, rfl⟩
abbrev main_v235 : Ref sig .tc := ⟨.hbm, 284, rfl⟩
abbrev main_v236 : Ref sig .tc := ⟨.hbm, 285, rfl⟩
abbrev main_v237 : Ref sig .tc := ⟨.hbm, 286, rfl⟩
abbrev main_v238 : Ref sig .tc := ⟨.hbm, 287, rfl⟩
abbrev main_v239 : Ref sig .tc := ⟨.hbm, 288, rfl⟩
abbrev main_v240 : Ref sig .tc := ⟨.hbm, 289, rfl⟩
abbrev main_v241 : Ref sig .tc := ⟨.hbm, 290, rfl⟩
abbrev main_v242 : Ref sig .tc := ⟨.hbm, 291, rfl⟩
abbrev main_v243 : Ref sig .tc := ⟨.hbm, 292, rfl⟩
abbrev main_v244 : Ref sig .tc := ⟨.hbm, 293, rfl⟩
abbrev main_v245 : Ref sig .tc := ⟨.hbm, 294, rfl⟩
abbrev main_v246 : Ref sig .tc := ⟨.hbm, 295, rfl⟩
abbrev main_v247 : Ref sig .tc := ⟨.hbm, 296, rfl⟩
abbrev main_v248 : Ref sig .tc := ⟨.hbm, 297, rfl⟩
abbrev main_v249 : Ref sig .tc := ⟨.hbm, 298, rfl⟩
abbrev main_v250 : Ref sig .tc := ⟨.hbm, 299, rfl⟩
abbrev main_v251 : Ref sig .tc := ⟨.hbm, 300, rfl⟩
abbrev main_v252 : Ref sig .tc := ⟨.hbm, 301, rfl⟩
abbrev main_v253 : Ref sig .tc := ⟨.hbm, 302, rfl⟩
abbrev main_v254 : Ref sig .tc := ⟨.hbm, 303, rfl⟩
abbrev main_v255 : Ref sig .tc := ⟨.hbm, 304, rfl⟩
abbrev main_v256 : Ref sig .tc := ⟨.hbm, 305, rfl⟩
abbrev main_v257 : Ref sig .tc := ⟨.hbm, 306, rfl⟩
abbrev main_v258 : Ref sig .tc := ⟨.hbm, 307, rfl⟩
abbrev main_v259 : Ref sig .tc := ⟨.hbm, 308, rfl⟩
abbrev main_c_22 : Ref sig .tc := ⟨.hbm, 309, rfl⟩
abbrev main_v260 : Ref sig .tc := ⟨.hbm, 310, rfl⟩
abbrev main_v261 : Ref sig .tc := ⟨.hbm, 311, rfl⟩
abbrev main_c_23 : Ref sig .tc := ⟨.hbm, 312, rfl⟩
abbrev main_v262 : Ref sig .tc := ⟨.hbm, 313, rfl⟩
abbrev main_v263 : Ref sig .tc := ⟨.hbm, 314, rfl⟩
abbrev main_v264 : Ref sig .tc := ⟨.hbm, 315, rfl⟩
abbrev main_v265 : Ref sig .tc := ⟨.hbm, 316, rfl⟩
abbrev main_v266 : Ref sig .tc := ⟨.hbm, 317, rfl⟩
abbrev main_cst_24 : Ref sig .tc := ⟨.hbm, 318, rfl⟩
abbrev main_v267 : Ref sig .tc := ⟨.hbm, 319, rfl⟩
abbrev main_v268 : Ref sig .tc := ⟨.hbm, 320, rfl⟩
abbrev main_v269 : Ref sig .tc := ⟨.hbm, 321, rfl⟩
abbrev main_v270 : Ref sig .tc := ⟨.hbm, 322, rfl⟩
abbrev main_v271 : Ref sig .tc := ⟨.hbm, 323, rfl⟩
abbrev main_cst_25 : Ref sig .tc := ⟨.hbm, 324, rfl⟩
abbrev main_v272 : Ref sig .tc := ⟨.hbm, 325, rfl⟩
abbrev main_v273 : Ref sig .tc := ⟨.hbm, 326, rfl⟩
abbrev main_v274 : Ref sig .tc := ⟨.hbm, 327, rfl⟩
abbrev main_v275 : Ref sig .tc := ⟨.hbm, 328, rfl⟩
abbrev main_v276 : Ref sig .tc := ⟨.hbm, 329, rfl⟩
abbrev main_v277 : Ref sig .tc := ⟨.hbm, 330, rfl⟩
abbrev main_v278 : Ref sig .tc := ⟨.hbm, 331, rfl⟩
abbrev main_v279 : Ref sig .tc := ⟨.hbm, 332, rfl⟩
abbrev main_v280 : Ref sig .tc := ⟨.hbm, 333, rfl⟩
abbrev main_v281 : Ref sig .tc := ⟨.hbm, 334, rfl⟩
abbrev main_v282 : Ref sig .tc := ⟨.hbm, 335, rfl⟩
abbrev main_v283 : Ref sig .tc := ⟨.hbm, 336, rfl⟩
abbrev main_v284 : Ref sig .tc := ⟨.hbm, 337, rfl⟩
abbrev main_v285 : Ref sig .tc := ⟨.hbm, 338, rfl⟩
abbrev main_v286 : Ref sig .tc := ⟨.hbm, 339, rfl⟩
abbrev main_v287 : Ref sig .tc := ⟨.hbm, 340, rfl⟩
abbrev main_v288 : Ref sig .tc := ⟨.hbm, 341, rfl⟩
abbrev main_v289 : Ref sig .tc := ⟨.hbm, 342, rfl⟩
abbrev main_v290 : Ref sig .tc := ⟨.hbm, 343, rfl⟩
abbrev main_v291 : Ref sig .tc := ⟨.hbm, 344, rfl⟩
abbrev main_v292 : Ref sig .tc := ⟨.hbm, 345, rfl⟩
abbrev main_v293 : Ref sig .tc := ⟨.hbm, 346, rfl⟩
abbrev main_v294 : Ref sig .tc := ⟨.hbm, 347, rfl⟩
abbrev main_v295 : Ref sig .tc := ⟨.hbm, 348, rfl⟩
abbrev main_v296 : Ref sig .tc := ⟨.hbm, 349, rfl⟩
abbrev main_v297 : Ref sig .tc := ⟨.hbm, 350, rfl⟩
abbrev main_v298 : Ref sig .tc := ⟨.hbm, 351, rfl⟩
abbrev main_c_26 : Ref sig .tc := ⟨.hbm, 352, rfl⟩
abbrev main_v299 : Ref sig .tc := ⟨.hbm, 353, rfl⟩
abbrev main_v300 : Ref sig .tc := ⟨.hbm, 354, rfl⟩
abbrev main_c_27 : Ref sig .tc := ⟨.hbm, 355, rfl⟩
abbrev main_v301 : Ref sig .tc := ⟨.hbm, 356, rfl⟩
abbrev main_v302 : Ref sig .tc := ⟨.hbm, 357, rfl⟩
abbrev main_v303 : Ref sig .tc := ⟨.hbm, 358, rfl⟩
abbrev main_v304 : Ref sig .tc := ⟨.hbm, 359, rfl⟩
abbrev main_v305 : Ref sig .tc := ⟨.hbm, 360, rfl⟩
abbrev main_cst_28 : Ref sig .tc := ⟨.hbm, 361, rfl⟩
abbrev main_v306 : Ref sig .tc := ⟨.hbm, 362, rfl⟩
abbrev main_v307 : Ref sig .tc := ⟨.hbm, 363, rfl⟩
abbrev main_v308 : Ref sig .tc := ⟨.hbm, 364, rfl⟩
abbrev main_v309 : Ref sig .tc := ⟨.hbm, 365, rfl⟩
abbrev main_v310 : Ref sig .tc := ⟨.hbm, 366, rfl⟩
abbrev main_cst_29 : Ref sig .tc := ⟨.hbm, 367, rfl⟩
abbrev main_v311 : Ref sig .tc := ⟨.hbm, 368, rfl⟩
abbrev main_v312 : Ref sig .tc := ⟨.hbm, 369, rfl⟩
abbrev main_v313 : Ref sig .tc := ⟨.hbm, 370, rfl⟩
abbrev main_v314 : Ref sig .tc := ⟨.hbm, 371, rfl⟩
abbrev main_v315 : Ref sig .tc := ⟨.hbm, 372, rfl⟩
abbrev main_v316 : Ref sig .tc := ⟨.hbm, 373, rfl⟩
abbrev main_v317 : Ref sig .tc := ⟨.hbm, 374, rfl⟩
abbrev main_v318 : Ref sig .tc := ⟨.hbm, 375, rfl⟩
abbrev main_v319 : Ref sig .tc := ⟨.hbm, 376, rfl⟩
abbrev main_v320 : Ref sig .tc := ⟨.hbm, 377, rfl⟩
abbrev main_v321 : Ref sig .tc := ⟨.hbm, 378, rfl⟩
abbrev main_v322 : Ref sig .tc := ⟨.hbm, 379, rfl⟩
abbrev main_v323 : Ref sig .tc := ⟨.hbm, 380, rfl⟩
abbrev main_v324 : Ref sig .tc := ⟨.hbm, 381, rfl⟩
abbrev main_v325 : Ref sig .tc := ⟨.hbm, 382, rfl⟩
abbrev main_v326 : Ref sig .tc := ⟨.hbm, 383, rfl⟩
abbrev main_v327 : Ref sig .tc := ⟨.hbm, 384, rfl⟩
abbrev main_v328 : Ref sig .tc := ⟨.hbm, 385, rfl⟩
abbrev main_v329 : Ref sig .tc := ⟨.hbm, 386, rfl⟩
abbrev main_v330 : Ref sig .tc := ⟨.hbm, 387, rfl⟩
abbrev main_v331 : Ref sig .tc := ⟨.hbm, 388, rfl⟩
abbrev main_v332 : Ref sig .tc := ⟨.hbm, 389, rfl⟩
abbrev main_v333 : Ref sig .tc := ⟨.hbm, 390, rfl⟩
abbrev main_v334 : Ref sig .tc := ⟨.hbm, 391, rfl⟩
abbrev main_v335 : Ref sig .tc := ⟨.hbm, 392, rfl⟩
abbrev main_v336 : Ref sig .tc := ⟨.hbm, 393, rfl⟩
abbrev main_v337 : Ref sig .tc := ⟨.hbm, 394, rfl⟩
abbrev main_v338 : Ref sig .tc := ⟨.hbm, 395, rfl⟩
abbrev main_v339 : Ref sig .tc := ⟨.hbm, 396, rfl⟩
abbrev main_v340 : Ref sig .tc := ⟨.hbm, 397, rfl⟩
abbrev main_v341 : Ref sig .tc := ⟨.hbm, 398, rfl⟩
abbrev main_v342 : Ref sig .tc := ⟨.hbm, 399, rfl⟩
abbrev main_v343 : Ref sig .tc := ⟨.hbm, 400, rfl⟩
abbrev main_v344 : Ref sig .tc := ⟨.hbm, 401, rfl⟩
abbrev main_v345 : Ref sig .tc := ⟨.hbm, 402, rfl⟩
abbrev main_v346 : Ref sig .tc := ⟨.hbm, 403, rfl⟩
abbrev main_v347 : Ref sig .tc := ⟨.hbm, 404, rfl⟩
abbrev main_v348 : Ref sig .tc := ⟨.hbm, 405, rfl⟩
abbrev main_v349 : Ref sig .tc := ⟨.hbm, 406, rfl⟩
abbrev main_v350 : Ref sig .tc := ⟨.hbm, 407, rfl⟩
abbrev main_v351 : Ref sig .tc := ⟨.hbm, 408, rfl⟩
abbrev main_v352 : Ref sig .tc := ⟨.hbm, 409, rfl⟩
abbrev main_v353 : Ref sig .tc := ⟨.hbm, 410, rfl⟩
abbrev main_v354 : Ref sig .tc := ⟨.hbm, 411, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg9_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg7_0 : Ref sig .tc := ⟨.vmem, 32, rfl⟩
abbrev cc2_stg8_0 : Ref sig .tc := ⟨.vmem, 33, rfl⟩
abbrev cc2_stg9_0 : Ref sig .tc := ⟨.vmem, 34, rfl⟩
abbrev cc2_stg9_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg2_0 : Ref sig .tc := ⟨.vmem, 39, rfl⟩
abbrev cc3_stg3_0 : Ref sig .tc := ⟨.vmem, 40, rfl⟩
abbrev cc3_stg4_0 : Ref sig .tc := ⟨.vmem, 41, rfl⟩
abbrev cc3_stg5_0 : Ref sig .tc := ⟨.vmem, 42, rfl⟩
abbrev cc3_stg6_0 : Ref sig .tc := ⟨.vmem, 43, rfl⟩
abbrev cc3_stg7_0 : Ref sig .tc := ⟨.vmem, 44, rfl⟩
abbrev cc3_stg8_0 : Ref sig .tc := ⟨.vmem, 45, rfl⟩
abbrev cc3_stg9_0 : Ref sig .tc := ⟨.vmem, 46, rfl⟩
abbrev cc3_stg9_1 : Ref sig .tc := ⟨.vmem, 47, rfl⟩
abbrev cc4_stg0_0 : Ref sig .tc := ⟨.vmem, 48, rfl⟩
abbrev cc4_stg0_1 : Ref sig .tc := ⟨.vmem, 49, rfl⟩
abbrev cc4_stg1_0 : Ref sig .tc := ⟨.vmem, 50, rfl⟩
abbrev cc4_stg1_1 : Ref sig .tc := ⟨.vmem, 51, rfl⟩
abbrev cc4_stg2_0 : Ref sig .tc := ⟨.vmem, 52, rfl⟩
abbrev cc4_stg3_0 : Ref sig .tc := ⟨.vmem, 53, rfl⟩
abbrev cc4_stg4_0 : Ref sig .tc := ⟨.vmem, 54, rfl⟩
abbrev cc4_stg5_0 : Ref sig .tc := ⟨.vmem, 55, rfl⟩
abbrev cc4_stg6_0 : Ref sig .tc := ⟨.vmem, 56, rfl⟩
abbrev cc4_scratch0 : Ref sig .tc := ⟨.vmem, 57, rfl⟩
abbrev cc4_scratch1 : Ref sig .tc := ⟨.vmem, 58, rfl⟩
abbrev cc5_stg0_0 : Ref sig .tc := ⟨.vmem, 59, rfl⟩
abbrev cc5_stg0_1 : Ref sig .tc := ⟨.vmem, 60, rfl⟩
abbrev cc5_stg1_0 : Ref sig .tc := ⟨.vmem, 61, rfl⟩
abbrev cc5_stg2_0 : Ref sig .tc := ⟨.vmem, 62, rfl⟩
abbrev cc5_stg3_0 : Ref sig .tc := ⟨.vmem, 63, rfl⟩
abbrev cc5_stg4_0 : Ref sig .tc := ⟨.vmem, 64, rfl⟩
abbrev cc5_stg5_0 : Ref sig .tc := ⟨.vmem, 65, rfl⟩
abbrev cc5_stg6_0 : Ref sig .tc := ⟨.vmem, 66, rfl⟩
abbrev cc5_stg7_0 : Ref sig .tc := ⟨.vmem, 67, rfl⟩
abbrev cc5_stg8_0 : Ref sig .tc := ⟨.vmem, 68, rfl⟩
abbrev cc5_stg9_0 : Ref sig .tc := ⟨.vmem, 69, rfl⟩
abbrev cc5_stg9_1 : Ref sig .tc := ⟨.vmem, 70, rfl⟩
abbrev cc6_stg0_0 : Ref sig .tc := ⟨.vmem, 71, rfl⟩
abbrev cc6_stg0_1 : Ref sig .tc := ⟨.vmem, 72, rfl⟩
abbrev cc6_stg1_0 : Ref sig .tc := ⟨.vmem, 73, rfl⟩
abbrev cc6_stg2_0 : Ref sig .tc := ⟨.vmem, 74, rfl⟩
abbrev cc6_stg3_0 : Ref sig .tc := ⟨.vmem, 75, rfl⟩
abbrev cc6_stg4_0 : Ref sig .tc := ⟨.vmem, 76, rfl⟩
abbrev cc6_stg5_0 : Ref sig .tc := ⟨.vmem, 77, rfl⟩
abbrev cc6_stg6_0 : Ref sig .tc := ⟨.vmem, 78, rfl⟩
abbrev cc6_stg7_0 : Ref sig .tc := ⟨.vmem, 79, rfl⟩
abbrev cc6_stg8_0 : Ref sig .tc := ⟨.vmem, 80, rfl⟩
abbrev cc6_stg9_0 : Ref sig .tc := ⟨.vmem, 81, rfl⟩
abbrev cc6_stg9_1 : Ref sig .tc := ⟨.vmem, 82, rfl⟩
abbrev cc7_stg0_0 : Ref sig .tc := ⟨.vmem, 83, rfl⟩
abbrev cc7_stg0_1 : Ref sig .tc := ⟨.vmem, 84, rfl⟩
abbrev cc7_stg1_0 : Ref sig .tc := ⟨.vmem, 85, rfl⟩
abbrev cc7_stg2_0 : Ref sig .tc := ⟨.vmem, 86, rfl⟩
abbrev cc7_stg3_0 : Ref sig .tc := ⟨.vmem, 87, rfl⟩
abbrev cc7_stg4_0 : Ref sig .tc := ⟨.vmem, 88, rfl⟩
abbrev cc7_stg5_0 : Ref sig .tc := ⟨.vmem, 89, rfl⟩
abbrev cc7_stg6_0 : Ref sig .tc := ⟨.vmem, 90, rfl⟩
abbrev cc7_stg7_0 : Ref sig .tc := ⟨.vmem, 91, rfl⟩
abbrev cc7_stg8_0 : Ref sig .tc := ⟨.vmem, 92, rfl⟩
abbrev cc7_stg9_0 : Ref sig .tc := ⟨.vmem, 93, rfl⟩
abbrev cc7_stg9_1 : Ref sig .tc := ⟨.vmem, 94, rfl⟩
abbrev cc8_stg0_0 : Ref sig .tc := ⟨.vmem, 95, rfl⟩
abbrev cc8_stg0_1 : Ref sig .tc := ⟨.vmem, 96, rfl⟩
abbrev cc8_stg1_0 : Ref sig .tc := ⟨.vmem, 97, rfl⟩
abbrev cc8_stg2_0 : Ref sig .tc := ⟨.vmem, 98, rfl⟩
abbrev cc8_stg3_0 : Ref sig .tc := ⟨.vmem, 99, rfl⟩
abbrev cc8_stg4_0 : Ref sig .tc := ⟨.vmem, 100, rfl⟩
abbrev cc8_stg5_0 : Ref sig .tc := ⟨.vmem, 101, rfl⟩
abbrev cc8_stg6_0 : Ref sig .tc := ⟨.vmem, 102, rfl⟩
abbrev cc8_stg7_0 : Ref sig .tc := ⟨.vmem, 103, rfl⟩
abbrev cc8_stg8_0 : Ref sig .tc := ⟨.vmem, 104, rfl⟩
abbrev cc8_stg9_0 : Ref sig .tc := ⟨.vmem, 105, rfl⟩
abbrev cc8_stg9_1 : Ref sig .tc := ⟨.vmem, 106, rfl⟩
abbrev cc9_stg0_0 : Ref sig .tc := ⟨.vmem, 107, rfl⟩
abbrev cc9_stg0_1 : Ref sig .tc := ⟨.vmem, 108, rfl⟩
abbrev cc9_stg1_0 : Ref sig .tc := ⟨.vmem, 109, rfl⟩
abbrev cc9_stg1_1 : Ref sig .tc := ⟨.vmem, 110, rfl⟩
abbrev cc9_stg2_0 : Ref sig .tc := ⟨.vmem, 111, rfl⟩
abbrev cc9_stg3_0 : Ref sig .tc := ⟨.vmem, 112, rfl⟩
abbrev cc9_stg4_0 : Ref sig .tc := ⟨.vmem, 113, rfl⟩
abbrev cc9_stg5_0 : Ref sig .tc := ⟨.vmem, 114, rfl⟩
abbrev cc9_stg6_0 : Ref sig .tc := ⟨.vmem, 115, rfl⟩
abbrev cc9_scratch0 : Ref sig .tc := ⟨.vmem, 116, rfl⟩
abbrev cc9_scratch1 : Ref sig .tc := ⟨.vmem, 117, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem9_0 : DmaSem sig := 22
abbrev cc1_sem9_1 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem7_0 : DmaSem sig := 32
abbrev cc2_sem8_0 : DmaSem sig := 33
abbrev cc2_sem9_0 : DmaSem sig := 34
abbrev cc2_sem9_1 : DmaSem sig := 35
abbrev cc3_sem0_0 : DmaSem sig := 36
abbrev cc3_sem0_1 : DmaSem sig := 37
abbrev cc3_sem1_0 : DmaSem sig := 38
abbrev cc3_sem2_0 : DmaSem sig := 39
abbrev cc3_sem3_0 : DmaSem sig := 40
abbrev cc3_sem4_0 : DmaSem sig := 41
abbrev cc3_sem5_0 : DmaSem sig := 42
abbrev cc3_sem6_0 : DmaSem sig := 43
abbrev cc3_sem7_0 : DmaSem sig := 44
abbrev cc3_sem8_0 : DmaSem sig := 45
abbrev cc3_sem9_0 : DmaSem sig := 46
abbrev cc3_sem9_1 : DmaSem sig := 47
abbrev cc4_sem0_0 : DmaSem sig := 48
abbrev cc4_sem0_1 : DmaSem sig := 49
abbrev cc4_sem1_0 : DmaSem sig := 50
abbrev cc4_sem1_1 : DmaSem sig := 51
abbrev cc4_sem2_0 : DmaSem sig := 52
abbrev cc4_sem3_0 : DmaSem sig := 53
abbrev cc4_sem4_0 : DmaSem sig := 54
abbrev cc4_sem5_0 : DmaSem sig := 55
abbrev cc4_sem6_0 : DmaSem sig := 56
abbrev cc5_sem0_0 : DmaSem sig := 57
abbrev cc5_sem0_1 : DmaSem sig := 58
abbrev cc5_sem1_0 : DmaSem sig := 59
abbrev cc5_sem2_0 : DmaSem sig := 60
abbrev cc5_sem3_0 : DmaSem sig := 61
abbrev cc5_sem4_0 : DmaSem sig := 62
abbrev cc5_sem5_0 : DmaSem sig := 63
abbrev cc5_sem6_0 : DmaSem sig := 64
abbrev cc5_sem7_0 : DmaSem sig := 65
abbrev cc5_sem8_0 : DmaSem sig := 66
abbrev cc5_sem9_0 : DmaSem sig := 67
abbrev cc5_sem9_1 : DmaSem sig := 68
abbrev cc6_sem0_0 : DmaSem sig := 69
abbrev cc6_sem0_1 : DmaSem sig := 70
abbrev cc6_sem1_0 : DmaSem sig := 71
abbrev cc6_sem2_0 : DmaSem sig := 72
abbrev cc6_sem3_0 : DmaSem sig := 73
abbrev cc6_sem4_0 : DmaSem sig := 74
abbrev cc6_sem5_0 : DmaSem sig := 75
abbrev cc6_sem6_0 : DmaSem sig := 76
abbrev cc6_sem7_0 : DmaSem sig := 77
abbrev cc6_sem8_0 : DmaSem sig := 78
abbrev cc6_sem9_0 : DmaSem sig := 79
abbrev cc6_sem9_1 : DmaSem sig := 80
abbrev cc7_sem0_0 : DmaSem sig := 81
abbrev cc7_sem0_1 : DmaSem sig := 82
abbrev cc7_sem1_0 : DmaSem sig := 83
abbrev cc7_sem2_0 : DmaSem sig := 84
abbrev cc7_sem3_0 : DmaSem sig := 85
abbrev cc7_sem4_0 : DmaSem sig := 86
abbrev cc7_sem5_0 : DmaSem sig := 87
abbrev cc7_sem6_0 : DmaSem sig := 88
abbrev cc7_sem7_0 : DmaSem sig := 89
abbrev cc7_sem8_0 : DmaSem sig := 90
abbrev cc7_sem9_0 : DmaSem sig := 91
abbrev cc7_sem9_1 : DmaSem sig := 92
abbrev cc8_sem0_0 : DmaSem sig := 93
abbrev cc8_sem0_1 : DmaSem sig := 94
abbrev cc8_sem1_0 : DmaSem sig := 95
abbrev cc8_sem2_0 : DmaSem sig := 96
abbrev cc8_sem3_0 : DmaSem sig := 97
abbrev cc8_sem4_0 : DmaSem sig := 98
abbrev cc8_sem5_0 : DmaSem sig := 99
abbrev cc8_sem6_0 : DmaSem sig := 100
abbrev cc8_sem7_0 : DmaSem sig := 101
abbrev cc8_sem8_0 : DmaSem sig := 102
abbrev cc8_sem9_0 : DmaSem sig := 103
abbrev cc8_sem9_1 : DmaSem sig := 104
abbrev cc9_sem0_0 : DmaSem sig := 105
abbrev cc9_sem0_1 : DmaSem sig := 106
abbrev cc9_sem1_0 : DmaSem sig := 107
abbrev cc9_sem1_1 : DmaSem sig := 108
abbrev cc9_sem2_0 : DmaSem sig := 109
abbrev cc9_sem3_0 : DmaSem sig := 110
abbrev cc9_sem4_0 : DmaSem sig := 111
abbrev cc9_sem5_0 : DmaSem sig := 112
abbrev cc9_sem6_0 : DmaSem sig := 113

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S1000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S1000x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S1000x128 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev grid4 : Pipeline.Grid := ⟨1, ![50], ![false]⟩

def k4_cond2 (i : grid4.Coords) : BitVec 1 :=
  let arg0 : BitVec 32 := BitVec.ofNat 32 (i 0).val
  let c49_i32 : BitVec 32 := 49#32
  let v29 : BitVec 1 := Scalar.cmpi .eq arg0 c49_i32
  let v30 : BitVec 32 := Scalar.extui v29
  let c0_i32_13 : BitVec 32 := 0#32
  let v31 : BitVec 1 := Scalar.cmpi .ne v30 c0_i32_13
  v31

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S1000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1000x1 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x10 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x10 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S128x10 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x128 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S1x128 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 2 → Memref sig .tc .vmem S1000x128 .f32 := fun | 0 => Memref.whole cc5_stg9_0 | 1 => Memref.whole cc5_stg9_1 | ⟨_ + 2, h⟩ => absurd h (Nat.not_lt.2 (Nat.le_add_left _ _))
abbrev sem5_9 : Fin 2 → DmaSem sig := fun | 0 => cc5_sem9_0 | 1 => cc5_sem9_1 | ⟨_ + 2, h⟩ => absurd h (Nat.not_lt.2 (Nat.le_add_left _ _))
abbrev reads5_9 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_9 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S1x128 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S1x128 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 2 → Memref sig .tc .vmem S1000x128 .f32 := fun | 0 => Memref.whole cc6_stg9_0 | 1 => Memref.whole cc6_stg9_1 | ⟨_ + 2, h⟩ => absurd h (Nat.not_lt.2 (Nat.le_add_left _ _))
abbrev sem6_9 : Fin 2 → DmaSem sig := fun | 0 => cc6_sem9_0 | 1 => cc6_sem9_1 | ⟨_ + 2, h⟩ => absurd h (Nat.not_lt.2 (Nat.le_add_left _ _))
abbrev reads6_9 : Fin grid6.rank → Bool := ![true]

abbrev grid7 : Pipeline.Grid := ⟨1, ![50], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_8 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_9 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S1000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S128x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x128 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S1x128 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev stage7_8 : Fin 1 → Memref sig .tc .vmem S1x128 .f32 := fun | 0 => Memref.whole cc7_stg8_0 | ⟨_ + 1, h⟩ => absurd h (Nat.not_lt.2 (Nat.le_add_left _ _))
abbrev sem7_8 : Fin 1 → DmaSem sig := fun | 0 => cc7_sem8_0 | ⟨_ + 1, h⟩ => absurd h (Nat.not_lt.2 (Nat.le_add_left _ _))
abbrev reads7_8 : Fin grid7.rank → Bool := ![false]

abbrev stage7_9 : Fin 2 → Memref sig .tc .vmem S1000x128 .f32 := fun | 0 => Memref.whole cc7_stg9_0 | 1 => Memref.whole cc7_stg9_1 | ⟨_ + 2, h⟩ => absurd h (Nat.not_lt.2 (Nat.le_add_left _ _))
abbrev sem7_9 : Fin 2 → DmaSem sig := fun | 0 => cc7_sem9_0 | 1 => cc7_sem9_1 | ⟨_ + 2, h⟩ => absurd h (Nat.not_lt.2 (Nat.le_add_left _ _))
abbrev reads7_9 : Fin grid7.rank → Bool := ![true]

abbrev grid8 : Pipeline.Grid := ⟨1, ![50], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_8 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_9 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S1000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S128x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S128x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x128 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S1x128 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 1 → Memref sig .tc .vmem S1x128 .f32 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))
abbrev reads8_7 : Fin grid8.rank → Bool := ![false]

abbrev stage8_8 : Fin 1 → Memref sig .tc .vmem S1x128 .f32 := fun | 0 => Memref.whole cc8_stg8_0 | ⟨_ + 1, h⟩ => absurd h (Nat.not_lt.2 (Nat.le_add_left _ _))
abbrev sem8_8 : Fin 1 → DmaSem sig := fun | 0 => cc8_sem8_0 | ⟨_ + 1, h⟩ => absurd h (Nat.not_lt.2 (Nat.le_add_left _ _))
abbrev reads8_8 : Fin grid8.rank → Bool := ![false]

abbrev stage8_9 : Fin 2 → Memref sig .tc .vmem S1000x128 .f32 := fun | 0 => Memref.whole cc8_stg9_0 | 1 => Memref.whole cc8_stg9_1 | ⟨_ + 2, h⟩ => absurd h (Nat.not_lt.2 (Nat.le_add_left _ _))
abbrev sem8_9 : Fin 2 → DmaSem sig := fun | 0 => cc8_sem9_0 | 1 => cc8_sem9_1 | ⟨_ + 2, h⟩ => absurd h (Nat.not_lt.2 (Nat.le_add_left _ _))
abbrev reads8_9 : Fin grid8.rank → Bool := ![true]

abbrev grid9 : Pipeline.Grid := ⟨1, ![50], ![false]⟩

def k9_cond2 (i : grid9.Coords) : BitVec 1 :=
  let arg0 : BitVec 32 := BitVec.ofNat 32 (i 0).val
  let c49_i32 : BitVec 32 := 49#32
  let v29 : BitVec 1 := Scalar.cmpi .eq arg0 c49_i32
  let v30 : BitVec 32 := Scalar.extui v29
  let c0_i32_13 : BitVec 32 := 0#32
  let v31 : BitVec 1 := Scalar.cmpi .ne v30 c0_i32_13
  v31

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 2 → Memref sig .tc .vmem S1000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S1000x1 .i32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S128x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S128x10 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S1x10 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S128x10 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

class Facts₀ : Prop where
  slices_S2x2x800000_S1x1x800000_0_0_0 : S2x2x800000.Slices ![0, 0, 0] S1x1x800000
  shapeCasts_S1x1x800000_S800000 : S1x1x800000.ShapeCasts S800000
  slices_S2x2x800000_S1x1x800000_0_1_0 : S2x2x800000.Slices ![0, 1, 0] S1x1x800000
  slices_S2x50000x128_S1x50000x128_0_0_0 : S2x50000x128.Slices ![0, 0, 0] S1x50000x128
  shapeCasts_S1x50000x128_S50000x128 : S1x50000x128.ShapeCasts S50000x128
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S2_S1_0 : S2.Slices ![0] S1
  shapeCasts_S1_S_ : S1.ShapeCasts S_
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  shapeCasts_S128_S1x128 : S128.ShapeCasts S1x128
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  slices_S3_S1_0 : S3.Slices ![0] S1
  slices_S3x128x128_S1x128x128_0_0_0 : S3x128x128.Slices ![0, 0, 0] S1x128x128
  slices_S3x128_S1x128_0_0 : S3x128.Slices ![0, 0] S1x128
  slices_S3_S1_1 : S3.Slices ![1] S1
  slices_S3x128x128_S1x128x128_1_0_0 : S3x128x128.Slices ![1, 0, 0] S1x128x128
  slices_S3x128_S1x128_1_0 : S3x128.Slices ![1, 0] S1x128
  slices_S3_S1_2 : S3.Slices ![2] S1
  slices_S3x128x128_S1x128x128_2_0_0 : S3x128x128.Slices ![2, 0, 0] S1x128x128
  slices_S3x128_S1x128_2_0 : S3x128.Slices ![2, 0] S1x128
  slices_S2x50000_S1x50000_0_0 : S2x50000.Slices ![0, 0] S1x50000
  shapeCasts_S1x50000_S50000 : S1x50000.ShapeCasts S50000
  shapeCasts_S50000_S50000x1 : S50000.ShapeCasts S50000x1
  slices_S2x128x10_S1x128x10_0_0_0 : S2x128x10.Slices ![0, 0, 0] S1x128x10
  shapeCasts_S1x128x10_S128x10 : S1x128x10.ShapeCasts S128x10
  slices_S2x10_S1x10_0_0 : S2x10.Slices ![0, 0] S1x10
  shapeCasts_S1x10_S10 : S1x10.ShapeCasts S10
  shapeCasts_S10_S1x10 : S10.ShapeCasts S1x10
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  iota_S1000x128_d1_w32 : S1000x128.Iotas .tc 32 [1]
  broadcasts_S1000x1_S1000x128 : S1000x1.Broadcasts S1000x128
  natLt_1_32 : 1 < 32
  reduces_S1000x128_S128 : S1000x128.Reduces [0] S128
  transposes_S1x128_p1_0_S128x1 : S1x128.Transposes [1, 0] S128x1
  broadcasts_S128x1_S128x128 : S128x1.Broadcasts S128x128
  broadcasts_S1x128_S128x128 : S1x128.Broadcasts S128x128
  inb_S128x10_S128x10_0_0 : ∀ a, (![0, 0] : Fin 2 → Nat) a + S128x10.size a ≤ S128x10.size a
  h_S128x10 : 0 < S128x10.numel
  shapeCasts_S128x10_S128x10 : S128x10.ShapeCasts S128x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S128x10 : S1x10.Broadcasts S128x10
  slices_S2x2x800000_S1x1x800000_1_0_0 : S2x2x800000.Slices ![1, 0, 0] S1x1x800000
  slices_S2x2x800000_S1x1x800000_1_1_0 : S2x2x800000.Slices ![1, 1, 0] S1x1x800000
  slices_S2x50000x128_S1x50000x128_1_0_0 : S2x50000x128.Slices ![1, 0, 0] S1x50000x128
  slices_S2_S1_1 : S2.Slices ![1] S1
  slices_S2x128x128_S1x128x128_1_0_0 : S2x128x128.Slices ![1, 0, 0] S1x128x128
  slices_S2x128_S1x128_1_0 : S2x128.Slices ![1, 0] S1x128
  slices_S2x50000_S1x50000_1_0 : S2x50000.Slices ![1, 0] S1x50000
  slices_S2x128x10_S1x128x10_1_0_0 : S2x128x10.Slices ![1, 0, 0] S1x128x10
  slices_S2x10_S1x10_1_0 : S2x10.Slices ![1, 0] S1x10
  bcast_S128x10_S1x128x10_1_2 : S128x10.BroadcastsInDim S1x128x10 (![1, 2] : Fin 2 → Fin S1x128x10.rank)
  concatenates_S1x128x10_S1x128x10_S2x128x10_d0 : Shape.Concatenates [S1x128x10, S1x128x10] S2x128x10 0
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S1000x128_S128x128_S1000x128_1_0_0_1_n_n_wf : DotDims.WF S1000x128 S128x128 S1000x128 [1] [0] [0] [1] [] []
  dot_S1000x128_S1000x128_S128x128_0_0_1_1_n_n_wf : DotDims.WF S1000x128 S1000x128 S128x128 [0] [0] [1] [1] [] []
  dot_S128x128_S128x128_S128x128_1_0_0_1_n_n_wf : DotDims.WF S128x128 S128x128 S128x128 [1] [0] [0] [1] [] []
  dot_S128x128_S128x10_S128x10_1_0_0_1_n_n_wf : DotDims.WF S128x128 S128x10 S128x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S50000x128.size a
  hwx0_0 : ∀ i : grid0.Coords, EltTy.bits .f32 = 32 ∨ (Rect.block (s := S50000x128) S1000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1000x128.size a ≤ S50000x128.size a
  hwx0_9 : ∀ i : grid0.Coords, EltTy.bits .f32 = 32 ∨ (Rect.block (s := S50000x128) S1000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S50000x128.size a
  hwx1_0 : ∀ i : grid1.Coords, EltTy.bits .f32 = 32 ∨ (Rect.block (s := S50000x128) S1000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1000x128.size a ≤ S50000x128.size a
  hwx1_9 : ∀ i : grid1.Coords, EltTy.bits .f32 = 32 ∨ (Rect.block (s := S50000x128) S1000x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x128.size a ≤ S50000x128.size a
  hwx2_0 : ∀ i : grid2.Coords, EltTy.bits .f32 = 32 ∨ (Rect.block (s := S50000x128) S1000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S1000x128.size a ≤ S50000x128.size a
  hwx2_9 : ∀ i : grid2.Coords, EltTy.bits .f32 = 32 ∨ (Rect.block (s := S50000x128) S1000x128.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x128.size a ≤ S50000x128.size a
  hwx3_0 : ∀ i : grid3.Coords, EltTy.bits .f32 = 32 ∨ (Rect.block (s := S50000x128) S1000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x128.size a ≤ S1x128.size a
  hwx3_8 : ∀ i : grid3.Coords, EltTy.bits .f32 = 32 ∨ (Rect.block (s := S1x128) S1x128.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S1000x128.size a ≤ S50000x128.size a
  hwx3_9 : ∀ i : grid3.Coords, EltTy.bits .f32 = 32 ∨ (Rect.block (s := S50000x128) S1000x128.size (cc3_transform_9 i) (hinb3_9 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x128.size a ≤ S50000x128.size a
  hwx4_0 : ∀ i : grid4.Coords, EltTy.bits .f32 = 32 ∨ (Rect.block (s := S50000x128) S1000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1000x1.size a ≤ S50000x1.size a
  hwx4_1 : ∀ i : grid4.Coords, EltTy.bits .i32 = 32 ∨ (Rect.block (s := S50000x1) S1000x1.size (cc4_transform_1 i) (hinb4_1 i)).WholeWords (EltTy.packing .i32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x10.size a ≤ S128x10.size a
  hwx4_4 : ∀ i : grid4.Coords, EltTy.bits .f32 = 32 ∨ (Rect.block (s := S128x10) S128x10.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x10.size a ≤ S1x10.size a
  hwx4_5 : ∀ i : grid4.Coords, EltTy.bits .f32 = 32 ∨ (Rect.block (s := S1x10) S1x10.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S128x10.size a ≤ S128x10.size a
  hwx4_6 : ∀ i : grid4.Coords, EltTy.bits .f32 = 32 ∨ (Rect.block (s := S128x10) S128x10.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1000x128.size a ≤ S50000x128.size a
  hwx5_0 : ∀ i : grid5.Coords, EltTy.bits .f32 = 32 ∨ (Rect.block (s := S50000x128) S1000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x128.size a ≤ S1x128.size a
  hwx5_7 : ∀ i : grid5.Coords, EltTy.bits .f32 = 32 ∨ (Rect.block (s := S1x128) S1x128.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S1x128.size a ≤ S1x128.size a
  hwx5_8 : ∀ i : grid5.Coords, EltTy.bits .f32 = 32 ∨ (Rect.block (s := S1x128) S1x128.size (cc5_transform_8 i) (hinb5_8 i)).WholeWords (EltTy.packing .f32)
  hstage5_9 : ∀ j, (stage5_9 j).IsWhole
  nbuf5_9 : grid5.bufCount reads5_9 false = 2
  hreads5_9 : ∀ i i' : grid5.Coords, (∀ a, reads5_9 a = true → i a = i' a) → cc5_transform_9 i = cc5_transform_9 i'
  hinb5_9 : ∀ (i : grid5.Coords) a, (cc5_transform_9 i a + 1) * S1000x128.size a ≤ S50000x128.size a
  hwx5_9 : ∀ i : grid5.Coords, EltTy.bits .f32 = 32 ∨ (Rect.block (s := S50000x128) S1000x128.size (cc5_transform_9 i) (hinb5_9 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1000x128.size a ≤ S50000x128.size a
  hwx6_0 : ∀ i : grid6.Coords, EltTy.bits .f32 = 32 ∨ (Rect.block (s := S50000x128) S1000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x128.size a ≤ S128x128.size a
  hwx6_3 : ∀ i : grid6.Coords, EltTy.bits .f32 = 32 ∨ (Rect.block (s := S128x128) S128x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x128.size a ≤ S1x128.size a
  hwx6_5 : ∀ i : grid6.Coords, EltTy.bits .f32 = 32 ∨ (Rect.block (s := S1x128) S1x128.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x128.size a ≤ S1x128.size a
  hwx6_6 : ∀ i : grid6.Coords, EltTy.bits .f32 = 32 ∨ (Rect.block (s := S1x128) S1x128.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S1x128.size a ≤ S1x128.size a
  hwx6_7 : ∀ i : grid6.Coords, EltTy.bits .f32 = 32 ∨ (Rect.block (s := S1x128) S1x128.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S1x128.size a ≤ S1x128.size a
  hwx6_8 : ∀ i : grid6.Coords, EltTy.bits .f32 = 32 ∨ (Rect.block (s := S1x128) S1x128.size (cc6_transform_8 i) (hinb6_8 i)).WholeWords (EltTy.packing .f32)
  hstage6_9 : ∀ j, (stage6_9 j).IsWhole
  nbuf6_9 : grid6.bufCount reads6_9 false = 2
  hreads6_9 : ∀ i i' : grid6.Coords, (∀ a, reads6_9 a = true → i a = i' a) → cc6_transform_9 i = cc6_transform_9 i'
  hinb6_9 : ∀ (i : grid6.Coords) a, (cc6_transform_9 i a + 1) * S1000x128.size a ≤ S50000x128.size a
  hwx6_9 : ∀ i : grid6.Coords, EltTy.bits .f32 = 32 ∨ (Rect.block (s := S50000x128) S1000x128.size (cc6_transform_9 i) (hinb6_9 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1000x128.size a ≤ S50000x128.size a
  hwx7_0 : ∀ i : grid7.Coords, EltTy.bits .f32 = 32 ∨ (Rect.block (s := S50000x128) S1000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x128.size a ≤ S128x128.size a
  hwx7_1 : ∀ i : grid7.Coords, EltTy.bits .f32 = 32 ∨ (Rect.block (s := S128x128) S128x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128x128.size a ≤ S128x128.size a
  hwx7_3 : ∀ i : grid7.Coords, EltTy.bits .f32 = 32 ∨ (Rect.block (s := S128x128) S128x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x128.size a ≤ S1x128.size a
  hwx7_5 : ∀ i : grid7.Coords, EltTy.bits .f32 = 32 ∨ (Rect.block (s := S1x128) S1x128.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x128.size a ≤ S1x128.size a
  hwx7_6 : ∀ i : grid7.Coords, EltTy.bits .f32 = 32 ∨ (Rect.block (s := S1x128) S1x128.size (cc7_transform_6 i) (hinb7_6 i)).WholeWords (EltTy.packing .f32)
  hstage7_7 : ∀ j, (stage7_7 j).IsWhole
  nbuf7_7 : grid7.bufCount reads7_7 true = 1
  hreads7_7 : ∀ i i' : grid7.Coords, (∀ a, reads7_7 a = true → i a = i' a) → cc7_transform_7 i = cc7_transform_7 i'
  hinb7_7 : ∀ (i : grid7.Coords) a, (cc7_transform_7 i a + 1) * S1x128.size a ≤ S1x128.size a
  hwx7_7 : ∀ i : grid7.Coords, EltTy.bits .f32 = 32 ∨ (Rect.block (s := S1x128) S1x128.size (cc7_transform_7 i) (hinb7_7 i)).WholeWords (EltTy.packing .f32)
  hstage7_8 : ∀ j, (stage7_8 j).IsWhole
  nbuf7_8 : grid7.bufCount reads7_8 true = 1
  hreads7_8 : ∀ i i' : grid7.Coords, (∀ a, reads7_8 a = true → i a = i' a) → cc7_transform_8 i = cc7_transform_8 i'
  hinb7_8 : ∀ (i : grid7.Coords) a, (cc7_transform_8 i a + 1) * S1x128.size a ≤ S1x128.size a
  hwx7_8 : ∀ i : grid7.Coords, EltTy.bits .f32 = 32 ∨ (Rect.block (s := S1x128) S1x128.size (cc7_transform_8 i) (hinb7_8 i)).WholeWords (EltTy.packing .f32)
  hstage7_9 : ∀ j, (stage7_9 j).IsWhole
  nbuf7_9 : grid7.bufCount reads7_9 false = 2
  hreads7_9 : ∀ i i' : grid7.Coords, (∀ a, reads7_9 a = true → i a = i' a) → cc7_transform_9 i = cc7_transform_9 i'
  hinb7_9 : ∀ (i : grid7.Coords) a, (cc7_transform_9 i a + 1) * S1000x128.size a ≤ S50000x128.size a
  hwx7_9 : ∀ i : grid7.Coords, EltTy.bits .f32 = 32 ∨ (Rect.block (s := S50000x128) S1000x128.size (cc7_transform_9 i) (hinb7_9 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S1000x128.size a ≤ S50000x128.size a
  hwx8_0 : ∀ i : grid8.Coords, EltTy.bits .f32 = 32 ∨ (Rect.block (s := S50000x128) S1000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x128.size a ≤ S128x128.size a
  hwx8_1 : ∀ i : grid8.Coords, EltTy.bits .f32 = 32 ∨ (Rect.block (s := S128x128) S128x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S128x128.size a ≤ S128x128.size a
  hwx8_3 : ∀ i : grid8.Coords, EltTy.bits .f32 = 32 ∨ (Rect.block (s := S128x128) S128x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x128.size a ≤ S1x128.size a
  hwx8_5 : ∀ i : grid8.Coords, EltTy.bits .f32 = 32 ∨ (Rect.block (s := S1x128) S1x128.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S1x128.size a ≤ S1x128.size a
  hwx8_6 : ∀ i : grid8.Coords, EltTy.bits .f32 = 32 ∨ (Rect.block (s := S1x128) S1x128.size (cc8_transform_6 i) (hinb8_6 i)).WholeWords (EltTy.packing .f32)
  hstage8_7 : ∀ j, (stage8_7 j).IsWhole
  nbuf8_7 : grid8.bufCount reads8_7 true = 1
  hreads8_7 : ∀ i i' : grid8.Coords, (∀ a, reads8_7 a = true → i a = i' a) → cc8_transform_7 i = cc8_transform_7 i'
  hinb8_7 : ∀ (i : grid8.Coords) a, (cc8_transform_7 i a + 1) * S1x128.size a ≤ S1x128.size a
  hwx8_7 : ∀ i : grid8.Coords, EltTy.bits .f32 = 32 ∨ (Rect.block (s := S1x128) S1x128.size (cc8_transform_7 i) (hinb8_7 i)).WholeWords (EltTy.packing .f32)
  hstage8_8 : ∀ j, (stage8_8 j).IsWhole
  nbuf8_8 : grid8.bufCount reads8_8 true = 1
  hreads8_8 : ∀ i i' : grid8.Coords, (∀ a, reads8_8 a = true → i a = i' a) → cc8_transform_8 i = cc8_transform_8 i'
  hinb8_8 : ∀ (i : grid8.Coords) a, (cc8_transform_8 i a + 1) * S1x128.size a ≤ S1x128.size a
  hwx8_8 : ∀ i : grid8.Coords, EltTy.bits .f32 = 32 ∨ (Rect.block (s := S1x128) S1x128.size (cc8_transform_8 i) (hinb8_8 i)).WholeWords (EltTy.packing .f32)
  hstage8_9 : ∀ j, (stage8_9 j).IsWhole
  nbuf8_9 : grid8.bufCount reads8_9 false = 2
  hreads8_9 : ∀ i i' : grid8.Coords, (∀ a, reads8_9 a = true → i a = i' a) → cc8_transform_9 i = cc8_transform_9 i'
  hinb8_9 : ∀ (i : grid8.Coords) a, (cc8_transform_9 i a + 1) * S1000x128.size a ≤ S50000x128.size a
  hwx8_9 : ∀ i : grid8.Coords, EltTy.bits .f32 = 32 ∨ (Rect.block (s := S50000x128) S1000x128.size (cc8_transform_9 i) (hinb8_9 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S1000x128.size a ≤ S50000x128.size a
  hwx9_0 : ∀ i : grid9.Coords, EltTy.bits .f32 = 32 ∨ (Rect.block (s := S50000x128) S1000x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S1000x1.size a ≤ S50000x1.size a
  hwx9_1 : ∀ i : grid9.Coords, EltTy.bits .i32 = 32 ∨ (Rect.block (s := S50000x1) S1000x1.size (cc9_transform_1 i) (hinb9_1 i)).WholeWords (EltTy.packing .i32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S128x128.size a ≤ S128x128.size a
  hwx9_2 : ∀ i : grid9.Coords, EltTy.bits .f32 = 32 ∨ (Rect.block (s := S128x128) S128x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x128.size a ≤ S1x128.size a
  hwx9_3 : ∀ i : grid9.Coords, EltTy.bits .f32 = 32 ∨ (Rect.block (s := S1x128) S1x128.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S128x10.size a ≤ S128x10.size a
  hwx9_4 : ∀ i : grid9.Coords, EltTy.bits .f32 = 32 ∨ (Rect.block (s := S128x10) S128x10.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S1x10.size a ≤ S1x10.size a
  hwx9_5 : ∀ i : grid9.Coords, EltTy.bits .f32 = 32 ∨ (Rect.block (s := S1x10) S1x10.size (cc9_transform_5 i) (hinb9_5 i)).WholeWords (EltTy.packing .f32)
  hstage9_6 : ∀ j, (stage9_6 j).IsWhole
  nbuf9_6 : grid9.bufCount reads9_6 true = 1
  hreads9_6 : ∀ i i' : grid9.Coords, (∀ a, reads9_6 a = true → i a = i' a) → cc9_transform_6 i = cc9_transform_6 i'
  hinb9_6 : ∀ (i : grid9.Coords) a, (cc9_transform_6 i a + 1) * S128x10.size a ≤ S128x10.size a
  hwx9_6 : ∀ i : grid9.Coords, EltTy.bits .f32 = 32 ∨ (Rect.block (s := S128x10) S128x10.size (cc9_transform_6 i) (hinb9_6 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S1000x128_S1000x128_S128x128_0_0_1_1_n_n : DotDims S1000x128 S1000x128 S128x128 where
  lhsContracting := [0]
  rhsContracting := [0]
  lhsNonContracting := [1]
  rhsNonContracting := [1]
  lhsBatch := []
  rhsBatch := []
  wf := dot_S1000x128_S1000x128_S128x128_0_0_1_1_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S128x128_S128x10_S128x10_1_0_0_1_n_n : DotDims S128x128 S128x10 S128x10 where
  lhsContracting := [1]
  rhsContracting := [0]
  lhsNonContracting := [0]
  rhsNonContracting := [1]
  lhsBatch := []
  rhsBatch := []
  wf := dot_S128x128_S128x10_S128x10_1_0_0_1_n_n_wf

abbrev win0_0 : Pipeline.Window sig grid0 :=
  Pipeline.Window.ofSpec (Memref.whole main_v21) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v38) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v39) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v40) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v41) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v42) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v43) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v44) S1000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v60) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v62) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v77) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v66) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v78) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v79) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v80) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v81) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v82) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v83) S1000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v99) S1000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v101) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v116) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v105) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v117) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v118) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v119) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v120) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v121) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v122) S1000x128.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v138) S1000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v140) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v155) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v144) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v156) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v157) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v158) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v159) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v160) S1x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v161) S1000x128.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev win4_0 : Pipeline.Window sig grid4 :=
  Pipeline.Window.ofSpec (Memref.whole main_v161) S1000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v164) S1000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v166) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v173) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v170) S128x10.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v174) S1x10.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v175) S128x10.size cc4_transform_6 reads4_6 true true 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev idle4 : Fin 7 → grid4.Coords → Bool := fun | 0 => fun _ => false | 1 => fun _ => false | 2 => fun _ => false | 3 => fun _ => false | 4 => fun _ => false | 5 => fun _ => false | 6 => fun i => !(k4_cond2 i == 1#1) | ⟨_ + 7, h⟩ => absurd h (Nat.not_lt.2 (Nat.le_add_left _ _))

abbrev win5_0 : Pipeline.Window sig grid5 :=
  Pipeline.Window.ofSpec (Memref.whole main_v197) S1000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v199) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v214) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v203) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v215) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v216) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v217) S1x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v218) S1x128.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v219) S1x128.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v220) S1000x128.size cc5_transform_9 reads5_9 true false 2 stage5_9 sem5_9
    hrank5 hreads5_9 hinb5_9 nbuf5_9 (Memref.isWhole_whole _) hwx5_9 hstage5_9

abbrev win5 : Fin 10 → Pipeline.Window sig grid5 := fun | 0 => win5_0 | 1 => win5_1 | 2 => win5_2 | 3 => win5_3 | 4 => win5_4 | 5 => win5_5 | 6 => win5_6 | 7 => win5_7 | 8 => win5_8 | 9 => win5_9 | ⟨_ + 10, h⟩ => absurd h (Nat.not_lt.2 (Nat.le_add_left _ _))
abbrev spec5 : Fin 10 → Pipeline.WinSpec sig grid5.rank := fun w => (win5 w).toWinSpec

abbrev win6_0 : Pipeline.Window sig grid6 :=
  Pipeline.Window.ofSpec (Memref.whole main_v236) S1000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v238) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v253) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v242) S128x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v254) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v255) S1x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v256) S1x128.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v257) S1x128.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_v258) S1x128.size cc6_transform_8 reads6_8 false true 1 stage6_8 sem6_8
    hrank6 hreads6_8 hinb6_8 nbuf6_8 (Memref.isWhole_whole _) hwx6_8 hstage6_8

abbrev win6_9 : Pipeline.Window sig grid6 :=
  Pipeline.Window.ofSpec (Memref.whole main_v259) S1000x128.size cc6_transform_9 reads6_9 true false 2 stage6_9 sem6_9
    hrank6 hreads6_9 hinb6_9 nbuf6_9 (Memref.isWhole_whole _) hwx6_9 hstage6_9

abbrev win6 : Fin 10 → Pipeline.Window sig grid6 := fun | 0 => win6_0 | 1 => win6_1 | 2 => win6_2 | 3 => win6_3 | 4 => win6_4 | 5 => win6_5 | 6 => win6_6 | 7 => win6_7 | 8 => win6_8 | 9 => win6_9 | ⟨_ + 10, h⟩ => absurd h (Nat.not_lt.2 (Nat.le_add_left _ _))
abbrev spec6 : Fin 10 → Pipeline.WinSpec sig grid6.rank := fun w => (win6 w).toWinSpec

abbrev win7_0 : Pipeline.Window sig grid7 :=
  Pipeline.Window.ofSpec (Memref.whole main_v275) S1000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v277) S128x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v292) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v281) S128x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v293) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v294) S1x128.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v295) S1x128.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v296) S1x128.size cc7_transform_7 reads7_7 false true 1 stage7_7 sem7_7
    hrank7 hreads7_7 hinb7_7 nbuf7_7 (Memref.isWhole_whole _) hwx7_7 hstage7_7

abbrev win7_8 : Pipeline.Window sig grid7 :=
  Pipeline.Window.ofSpec (Memref.whole main_v297) S1x128.size cc7_transform_8 reads7_8 false true 1 stage7_8 sem7_8
    hrank7 hreads7_8 hinb7_8 nbuf7_8 (Memref.isWhole_whole _) hwx7_8 hstage7_8

abbrev win7_9 : Pipeline.Window sig grid7 :=
  Pipeline.Window.ofSpec (Memref.whole main_v298) S1000x128.size cc7_transform_9 reads7_9 true false 2 stage7_9 sem7_9
    hrank7 hreads7_9 hinb7_9 nbuf7_9 (Memref.isWhole_whole _) hwx7_9 hstage7_9

abbrev win7 : Fin 10 → Pipeline.Window sig grid7 := fun | 0 => win7_0 | 1 => win7_1 | 2 => win7_2 | 3 => win7_3 | 4 => win7_4 | 5 => win7_5 | 6 => win7_6 | 7 => win7_7 | 8 => win7_8 | 9 => win7_9 | ⟨_ + 10, h⟩ => absurd h (Nat.not_lt.2 (Nat.le_add_left _ _))
abbrev spec7 : Fin 10 → Pipeline.WinSpec sig grid7.rank := fun w => (win7 w).toWinSpec

abbrev win8_0 : Pipeline.Window sig grid8 :=
  Pipeline.Window.ofSpec (Memref.whole main_v314) S1000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v316) S128x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v331) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v320) S128x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v332) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v333) S1x128.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v334) S1x128.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_v335) S1x128.size cc8_transform_7 reads8_7 false true 1 stage8_7 sem8_7
    hrank8 hreads8_7 hinb8_7 nbuf8_7 (Memref.isWhole_whole _) hwx8_7 hstage8_7

abbrev win8_8 : Pipeline.Window sig grid8 :=
  Pipeline.Window.ofSpec (Memref.whole main_v336) S1x128.size cc8_transform_8 reads8_8 false true 1 stage8_8 sem8_8
    hrank8 hreads8_8 hinb8_8 nbuf8_8 (Memref.isWhole_whole _) hwx8_8 hstage8_8

abbrev win8_9 : Pipeline.Window sig grid8 :=
  Pipeline.Window.ofSpec (Memref.whole main_v337) S1000x128.size cc8_transform_9 reads8_9 true false 2 stage8_9 sem8_9
    hrank8 hreads8_9 hinb8_9 nbuf8_9 (Memref.isWhole_whole _) hwx8_9 hstage8_9

abbrev win8 : Fin 10 → Pipeline.Window sig grid8 := fun | 0 => win8_0 | 1 => win8_1 | 2 => win8_2 | 3 => win8_3 | 4 => win8_4 | 5 => win8_5 | 6 => win8_6 | 7 => win8_7 | 8 => win8_8 | 9 => win8_9 | ⟨_ + 10, h⟩ => absurd h (Nat.not_lt.2 (Nat.le_add_left _ _))
abbrev spec8 : Fin 10 → Pipeline.WinSpec sig grid8.rank := fun w => (win8 w).toWinSpec

abbrev win9_0 : Pipeline.Window sig grid9 :=
  Pipeline.Window.ofSpec (Memref.whole main_v337) S1000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v340) S1000x1.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v342) S128x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v349) S1x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v346) S128x10.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v350) S1x10.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v351) S128x10.size cc9_transform_6 reads9_6 true true 1 stage9_6 sem9_6
    hrank9 hreads9_6 hinb9_6 nbuf9_6 (Memref.isWhole_whole _) hwx9_6 hstage9_6

abbrev win9 : Fin 7 → Pipeline.Window sig grid9 := fun | 0 => win9_0 | 1 => win9_1 | 2 => win9_2 | 3 => win9_3 | 4 => win9_4 | 5 => win9_5 | 6 => win9_6 | ⟨_ + 7, h⟩ => absurd h (Nat.not_lt.2 (Nat.le_add_left _ _))
abbrev spec9 : Fin 7 → Pipeline.WinSpec sig grid9.rank := fun w => (win9 w).toWinSpec

abbrev idle9 : Fin 7 → grid9.Coords → Bool := fun | 0 => fun _ => false | 1 => fun _ => false | 2 => fun _ => false | 3 => fun _ => false | 4 => fun _ => false | 5 => fun _ => false | 6 => fun i => !(k9_cond2 i == 1#1) | ⟨_ + 7, h⟩ => absurd h (Nat.not_lt.2 (Nat.le_add_left _ _))

class Facts : Prop extends Facts₀ where

variable [Facts]
-- ==== ReferenceIdeal.lean ====
abbrev S2x50000x128 : Shape := ⟨3, ![2, 50000, 128]⟩
abbrev S2x2x800000 : Shape := ⟨3, ![2, 2, 800000]⟩
abbrev S2x50000 : Shape := ⟨2, ![2, 50000]⟩
abbrev S2x128x128 : Shape := ⟨3, ![2, 128, 128]⟩
abbrev S2x128 : Shape := ⟨2, ![2, 128]⟩
abbrev S2 : Shape := ⟨1, ![2]⟩
abbrev S3x128x128 : Shape := ⟨3, ![3, 128, 128]⟩
abbrev S3x128 : Shape := ⟨2, ![3, 128]⟩
abbrev S3 : Shape := ⟨1, ![3]⟩
abbrev S2x128x10 : Shape := ⟨3, ![2, 128, 10]⟩
abbrev S2x10 : Shape := ⟨2, ![2, 10]⟩
abbrev S1x1x800000 : Shape := ⟨3, ![1, 1, 800000]⟩
abbrev S800000 : Shape := ⟨1, ![800000]⟩
abbrev S1x50000x128 : Shape := ⟨3, ![1, 50000, 128]⟩
abbrev S50000x128 : Shape := ⟨2, ![50000, 128]⟩
abbrev S1 : Shape := ⟨1, ![1]⟩
abbrev S_ : Shape := ⟨0, ![]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S800000x1 : Shape := ⟨2, ![800000, 1]⟩
abbrev S800000x128 : Shape := ⟨2, ![800000, 128]⟩
abbrev S50000 : Shape := ⟨1, ![50000]⟩
abbrev S1x50000 : Shape := ⟨2, ![1, 50000]⟩
abbrev S50000x1 : Shape := ⟨2, ![50000, 1]⟩
abbrev S128x1 : Shape := ⟨2, ![128, 1]⟩
abbrev S1x128x10 : Shape := ⟨3, ![1, 128, 10]⟩
abbrev S128x10 : Shape := ⟨2, ![128, 10]⟩
abbrev S1x10 : Shape := ⟨2, ![1, 10]⟩
abbrev S10 : Shape := ⟨1, ![10]⟩

abbrev nBuf : Space → Nat
  | .hbm => 670
  | .vmem => 0
  | .smem => 0
  | _ => 0

abbrev hbmTy0_0 (i : Nat) : BufTy := match i % 128 with
  | 0 => ⟨S2x50000x128, .f32⟩
  | 1 => ⟨S2x2x800000, .i32⟩
  | 2 => ⟨S2x50000, .i32⟩
  | 3 => ⟨S2x128x128, .f32⟩
  | 4 => ⟨S2x128, .f32⟩
  | 5 => ⟨S2x128x128, .f32⟩
  | 6 => ⟨S2x128, .f32⟩
  | 7 => ⟨S2x128, .f32⟩
  | 8 => ⟨S2x128, .f32⟩
  | 9 => ⟨S2x128, .f32⟩
  | 10 => ⟨S2x128, .f32⟩
  | 11 => ⟨S2, .f32⟩
  | 12 => ⟨S3x128x128, .f32⟩
  | 13 => ⟨S3x128, .f32⟩
  | 14 => ⟨S3x128x128, .f32⟩
  | 15 => ⟨S3x128, .f32⟩
  | 16 => ⟨S3x128, .f32⟩
  | 17 => ⟨S3x128, .f32⟩
  | 18 => ⟨S3x128, .f32⟩
  | 19 => ⟨S3x128, .f32⟩
  | 20 => ⟨S3, .f32⟩
  | 21 => ⟨S2x128x128, .f32⟩
  | 22 => ⟨S2x128, .f32⟩
  | 23 => ⟨S2x128x10, .f32⟩
  | 24 => ⟨S2x10, .f32⟩
  | 25 => ⟨S1x1x800000, .i32⟩
  | 26 => ⟨S800000, .i32⟩
  | 27 => ⟨S1x1x800000, .i32⟩
  | 28 => ⟨S800000, .i32⟩
  | 29 => ⟨S1x50000x128, .f32⟩
  | 30 => ⟨S50000x128, .f32⟩
  | 31 => ⟨S1, .f32⟩
  | 32 => ⟨S_, .f32⟩
  | 33 => ⟨S1x128x128, .f32⟩
  | 34 => ⟨S128x128, .f32⟩
  | 35 => ⟨S1x128, .f32⟩
  | 36 => ⟨S128, .f32⟩
  | 37 => ⟨S1x128x128, .f32⟩
  | 38 => ⟨S128x128, .f32⟩
  | 39 => ⟨S1x128, .f32⟩
  | 40 => ⟨S128, .f32⟩
  | 41 => ⟨S1x128, .f32⟩
  | 42 => ⟨S128, .f32⟩
  | 43 => ⟨S1x128, .f32⟩
  | 44 => ⟨S128, .f32⟩
  | 45 => ⟨S1x128, .f32⟩
  | 46 => ⟨S128, .f32⟩
  | 47 => ⟨S1x128, .f32⟩
  | 48 => ⟨S128, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000x128, .f32⟩
  | 58 => ⟨S_, .f32⟩
  | 59 => ⟨S50000x128, .f32⟩
  | 60 => ⟨S800000x1, .i32⟩
  | 61 => ⟨S50000x128, .f32⟩
  | 62 => ⟨S_, .f32⟩
  | 63 => ⟨S_, .f32⟩
  | 64 => ⟨S50000x128, .f32⟩
  | 65 => ⟨S50000x128, .f32⟩
  | 66 => ⟨S50000x128, .f32⟩
  | 67 => ⟨S50000x128, .f32⟩
  | 68 => ⟨S1x128, .f32⟩
  | 69 => ⟨S50000x128, .f32⟩
  | 70 => ⟨S50000x128, .f32⟩
  | 71 => ⟨S_, .f32⟩
  | 72 => ⟨S50000x128, .f32⟩
  | 73 => ⟨S50000x128, .f32⟩
  | 74 => ⟨S50000x128, .f32⟩
  | 75 => ⟨S1x128, .f32⟩
  | 76 => ⟨S50000x128, .f32⟩
  | 77 => ⟨S50000x128, .f32⟩
  | 78 => ⟨S_, .f32⟩
  | 79 => ⟨S50000x128, .f32⟩
  | 80 => ⟨S50000x128, .f32⟩
  | 81 => ⟨S1x128, .f32⟩
  | 82 => ⟨S50000x128, .f32⟩
  | 83 => ⟨S50000x128, .f32⟩
  | 84 => ⟨S1x128, .f32⟩
  | 85 => ⟨S50000x128, .f32⟩
  | 86 => ⟨S50000x128, .f32⟩
  | 87 => ⟨S_, .f32⟩
  | 88 => ⟨S128, .f32⟩
  | 89 => ⟨S128, .f32⟩
  | 90 => ⟨S128, .f32⟩
  | 91 => ⟨S1x128, .f32⟩
  | 92 => ⟨S50000x128, .f32⟩
  | 93 => ⟨S50000x128, .f32⟩
  | 94 => ⟨S1x128, .f32⟩
  | 95 => ⟨S50000x128, .f32⟩
  | 96 => ⟨S50000x128, .f32⟩
  | 97 => ⟨S_, .f32⟩
  | 98 => ⟨S50000x128, .f32⟩
  | 99 => ⟨S50000x128, .f32⟩
  | 100 => ⟨S1, .f32⟩
  | 101 => ⟨S_, .f32⟩
  | 102 => ⟨S1x128x128, .f32⟩
  | 103 => ⟨S128x128, .f32⟩
  | 104 => ⟨S1x128, .f32⟩
  | 105 => ⟨S128, .f32⟩
  | 106 => ⟨S1x128x128, .f32⟩
  | 107 => ⟨S128x128, .f32⟩
  | 108 => ⟨S1x128, .f32⟩
  | 109 => ⟨S128, .f32⟩
  | 110 => ⟨S1x128, .f32⟩
  | 111 => ⟨S128, .f32⟩
  | 112 => ⟨S1x128, .f32⟩
  | 113 => ⟨S128, .f32⟩
  | 114 => ⟨S1x128, .f32⟩
  | 115 => ⟨S128, .f32⟩
  | 116 => ⟨S1x128, .f32⟩
  | 117 => ⟨S128, .f32⟩
  | 118 => ⟨S_, .i32⟩
  | 119 => ⟨S800000, .i32⟩
  | 120 => ⟨S800000, .i1⟩
  | 121 => ⟨S_, .i32⟩
  | 122 => ⟨S800000, .i32⟩
  | 123 => ⟨S800000, .i32⟩
  | 124 => ⟨S800000, .i32⟩
  | 125 => ⟨S800000x1, .i32⟩
  | 126 => ⟨S800000x128, .f32⟩
  | 127 => ⟨S_, .f32⟩
  | _ => ⟨S2x50000x128, .f32⟩

abbrev hbmTy0_1 (i : Nat) : BufTy := match i % 128 with
  | 0 => ⟨S50000x128, .f32⟩
  | 1 => ⟨S800000x1, .i32⟩
  | 2 => ⟨S50000x128, .f32⟩
  | 3 => ⟨S_, .f32⟩
  | 4 => ⟨S_, .f32⟩
  | 5 => ⟨S50000x128, .f32⟩
  | 6 => ⟨S50000x128, .f32⟩
  | 7 => ⟨S50000x128, .f32⟩
  | 8 => ⟨S50000x128, .f32⟩
  | 9 => ⟨S1x128, .f32⟩
  | 10 => ⟨S50000x128, .f32⟩
  | 11 => ⟨S50000x128, .f32⟩
  | 12 => ⟨S_, .f32⟩
  | 13 => ⟨S50000x128, .f32⟩
  | 14 => ⟨S50000x128, .f32⟩
  | 15 => ⟨S50000x128, .f32⟩
  | 16 => ⟨S1x128, .f32⟩
  | 17 => ⟨S50000x128, .f32⟩
  | 18 => ⟨S50000x128, .f32⟩
  | 19 => ⟨S_, .f32⟩
  | 20 => ⟨S50000x128, .f32⟩
  | 21 => ⟨S50000x128, .f32⟩
  | 22 => ⟨S1x128, .f32⟩
  | 23 => ⟨S50000x128, .f32⟩
  | 24 => ⟨S50000x128, .f32⟩
  | 25 => ⟨S1x128, .f32⟩
  | 26 => ⟨S50000x128, .f32⟩
  | 27 => ⟨S50000x128, .f32⟩
  | 28 => ⟨S_, .f32⟩
  | 29 => ⟨S128, .f32⟩
  | 30 => ⟨S128, .f32⟩
  | 31 => ⟨S128, .f32⟩
  | 32 => ⟨S1x128, .f32⟩
  | 33 => ⟨S50000x128, .f32⟩
  | 34 => ⟨S50000x128, .f32⟩
  | 35 => ⟨S1x128, .f32⟩
  | 36 => ⟨S50000x128, .f32⟩
  | 37 => ⟨S50000x128, .f32⟩
  | 38 => ⟨S_, .f32⟩
  | 39 => ⟨S50000x128, .f32⟩
  | 40 => ⟨S50000x128, .f32⟩
  | 41 => ⟨S1, .f32⟩
  | 42 => ⟨S_, .f32⟩
  | 43 => ⟨S1x128x128, .f32⟩
  | 44 => ⟨S128x128, .f32⟩
  | 45 => ⟨S1x128, .f32⟩
  | 46 => ⟨S128, .f32⟩
  | 47 => ⟨S1x128x128, .f32⟩
  | 48 => ⟨S128x128, .f32⟩
  | 49 => ⟨S1x128, .f32⟩
  | 50 => ⟨S128, .f32⟩
  | 51 => ⟨S1x128, .f32⟩
  | 52 => ⟨S128, .f32⟩
  | 53 => ⟨S1x128, .f32⟩
  | 54 => ⟨S128, .f32⟩
  | 55 => ⟨S1x128, .f32⟩
  | 56 => ⟨S128, .f32⟩
  | 57 => ⟨S1x128, .f32⟩
  | 58 => ⟨S128, .f32⟩
  | 59 => ⟨S_, .i32⟩
  | 60 => ⟨S800000, .i32⟩
  | 61 => ⟨S800000, .i1⟩
  | 62 => ⟨S_, .i32⟩
  | 63 => ⟨S800000, .i32⟩
  | 64 => ⟨S800000, .i32⟩
  | 65 => ⟨S800000, .i32⟩
  | 66 => ⟨S800000x1, .i32⟩
  | 67 => ⟨S800000x128, .f32⟩
  | 68 => ⟨S_, .f32⟩
  | 69 => ⟨S50000x128, .f32⟩
  | 70 => ⟨S800000x1, .i32⟩
  | 71 => ⟨S50000x128, .f32⟩
  | 72 => ⟨S_, .f32⟩
  | 73 => ⟨S_, .f32⟩
  | 74 => ⟨S50000x128, .f32⟩
  | 75 => ⟨S50000x128, .f32⟩
  | 76 => ⟨S50000x128, .f32⟩
  | 77 => ⟨S50000x128, .f32⟩
  | 78 => ⟨S1x128, .f32⟩
  | 79 => ⟨S50000x128, .f32⟩
  | 80 => ⟨S50000x128, .f32⟩
  | 81 => ⟨S_, .f32⟩
  | 82 => ⟨S50000x128, .f32⟩
  | 83 => ⟨S50000x128, .f32⟩
  | 84 => ⟨S50000x128, .f32⟩
  | 85 => ⟨S1x128, .f32⟩
  | 86 => ⟨S50000x128, .f32⟩
  | 87 => ⟨S50000x128, .f32⟩
  | 88 => ⟨S_, .f32⟩
  | 89 => ⟨S50000x128, .f32⟩
  | 90 => ⟨S50000x128, .f32⟩
  | 91 => ⟨S1x128, .f32⟩
  | 92 => ⟨S50000x128, .f32⟩
  | 93 => ⟨S50000x128, .f32⟩
  | 94 => ⟨S1x128, .f32⟩
  | 95 => ⟨S50000x128, .f32⟩
  | 96 => ⟨S50000x128, .f32⟩
  | 97 => ⟨S_, .f32⟩
  | 98 => ⟨S128, .f32⟩
  | 99 => ⟨S128, .f32⟩
  | 100 => ⟨S128, .f32⟩
  | 101 => ⟨S1x128, .f32⟩
  | 102 => ⟨S50000x128, .f32⟩
  | 103 => ⟨S50000x128, .f32⟩
  | 104 => ⟨S1x128, .f32⟩
  | 105 => ⟨S50000x128, .f32⟩
  | 106 => ⟨S50000x128, .f32⟩
  | 107 => ⟨S_, .f32⟩
  | 108 => ⟨S50000x128, .f32⟩
  | 109 => ⟨S50000x128, .f32⟩
  | 110 => ⟨S1, .f32⟩
  | 111 => ⟨S_, .f32⟩
  | 112 => ⟨S1x128x128, .f32⟩
  | 113 => ⟨S128x128, .f32⟩
  | 114 => ⟨S1x128, .f32⟩
  | 115 => ⟨S128, .f32⟩
  | 116 => ⟨S1x128x128, .f32⟩
  | 117 => ⟨S128x128, .f32⟩
  | 118 => ⟨S1x128, .f32⟩
  | 119 => ⟨S128, .f32⟩
  | 120 => ⟨S1x128, .f32⟩
  | 121 => ⟨S128, .f32⟩
  | 122 => ⟨S1x128, .f32⟩
  | 123 => ⟨S128, .f32⟩
  | 124 => ⟨S1x128, .f32⟩
  | 125 => ⟨S128, .f32⟩
  | 126 => ⟨S1x128, .f32⟩
  | 127 => ⟨S128, .f32⟩
  | _ => ⟨S2x50000x128, .f32⟩

abbrev hbmTy0_2 (i : Nat) : BufTy := match i % 128 with
  | 0 => ⟨S_, .i32⟩
  | 1 => ⟨S800000, .i32⟩
  | 2 => ⟨S800000, .i1⟩
  | 3 => ⟨S_, .i32⟩
  | 4 => ⟨S800000, .i32⟩
  | 5 => ⟨S800000, .i32⟩
  | 6 => ⟨S800000, .i32⟩
  | 7 => ⟨S800000x1, .i32⟩
  | 8 => ⟨S800000x128, .f32⟩
  | 9 => ⟨S_, .f32⟩
  | 10 => ⟨S50000x128, .f32⟩
  | 11 => ⟨S800000x1, .i32⟩
  | 12 => ⟨S50000x128, .f32⟩
  | 13 => ⟨S_, .f32⟩
  | 14 => ⟨S_, .f32⟩
  | 15 => ⟨S50000x128, .f32⟩
  | 16 => ⟨S50000x128, .f32⟩
  | 17 => ⟨S50000x128, .f32⟩
  | 18 => ⟨S50000x128, .f32⟩
  | 19 => ⟨S1x128, .f32⟩
  | 20 => ⟨S50000x128, .f32⟩
  | 21 => ⟨S50000x128, .f32⟩
  | 22 => ⟨S_, .f32⟩
  | 23 => ⟨S50000x128, .f32⟩
  | 24 => ⟨S50000x128, .f32⟩
  | 25 => ⟨S50000x128, .f32⟩
  | 26 => ⟨S1x128, .f32⟩
  | 27 => ⟨S50000x128, .f32⟩
  | 28 => ⟨S50000x128, .f32⟩
  | 29 => ⟨S_, .f32⟩
  | 30 => ⟨S50000x128, .f32⟩
  | 31 => ⟨S50000x128, .f32⟩
  | 32 => ⟨S1x128, .f32⟩
  | 33 => ⟨S50000x128, .f32⟩
  | 34 => ⟨S50000x128, .f32⟩
  | 35 => ⟨S1x128, .f32⟩
  | 36 => ⟨S50000x128, .f32⟩
  | 37 => ⟨S50000x128, .f32⟩
  | 38 => ⟨S_, .f32⟩
  | 39 => ⟨S128, .f32⟩
  | 40 => ⟨S128, .f32⟩
  | 41 => ⟨S128, .f32⟩
  | 42 => ⟨S1x128, .f32⟩
  | 43 => ⟨S50000x128, .f32⟩
  | 44 => ⟨S50000x128, .f32⟩
  | 45 => ⟨S1x128, .f32⟩
  | 46 => ⟨S50000x128, .f32⟩
  | 47 => ⟨S50000x128, .f32⟩
  | 48 => ⟨S_, .f32⟩
  | 49 => ⟨S50000x128, .f32⟩
  | 50 => ⟨S50000x128, .f32⟩
  | 51 => ⟨S_, .f32⟩
  | 52 => ⟨S50000, .f32⟩
  | 53 => ⟨S1x50000, .i32⟩
  | 54 => ⟨S50000, .i32⟩
  | 55 => ⟨S_, .f32⟩
  | 56 => ⟨S128, .f32⟩
  | 57 => ⟨S50000x1, .i32⟩
  | 58 => ⟨S128, .f32⟩
  | 59 => ⟨S1x50000, .i32⟩
  | 60 => ⟨S50000, .i32⟩
  | 61 => ⟨S_, .f32⟩
  | 62 => ⟨S128x128, .f32⟩
  | 63 => ⟨S50000x1, .i32⟩
  | 64 => ⟨S128x128, .f32⟩
  | 65 => ⟨S_, .f32⟩
  | 66 => ⟨S128, .f32⟩
  | 67 => ⟨S128, .f32⟩
  | 68 => ⟨S128x1, .f32⟩
  | 69 => ⟨S128x128, .f32⟩
  | 70 => ⟨S128x128, .f32⟩
  | 71 => ⟨S1x128x128, .f32⟩
  | 72 => ⟨S128x128, .f32⟩
  | 73 => ⟨S128x128, .f32⟩
  | 74 => ⟨S1x128, .f32⟩
  | 75 => ⟨S128, .f32⟩
  | 76 => ⟨S1x128, .f32⟩
  | 77 => ⟨S128x128, .f32⟩
  | 78 => ⟨S128x128, .f32⟩
  | 79 => ⟨S_, .f32⟩
  | 80 => ⟨S128x128, .f32⟩
  | 81 => ⟨S128x128, .f32⟩
  | 82 => ⟨S1x128x10, .f32⟩
  | 83 => ⟨S128x10, .f32⟩
  | 84 => ⟨S128x10, .f32⟩
  | 85 => ⟨S1x10, .f32⟩
  | 86 => ⟨S10, .f32⟩
  | 87 => ⟨S1x10, .f32⟩
  | 88 => ⟨S128x10, .f32⟩
  | 89 => ⟨S128x10, .f32⟩
  | 90 => ⟨S1x1x800000, .i32⟩
  | 91 => ⟨S800000, .i32⟩
  | 92 => ⟨S1x1x800000, .i32⟩
  | 93 => ⟨S800000, .i32⟩
  | 94 => ⟨S1x50000x128, .f32⟩
  | 95 => ⟨S50000x128, .f32⟩
  | 96 => ⟨S1, .f32⟩
  | 97 => ⟨S_, .f32⟩
  | 98 => ⟨S1x128x128, .f32⟩
  | 99 => ⟨S128x128, .f32⟩
  | 100 => ⟨S1x128, .f32⟩
  | 101 => ⟨S128, .f32⟩
  | 102 => ⟨S1x128x128, .f32⟩
  | 103 => ⟨S128x128, .f32⟩
  | 104 => ⟨S1x128, .f32⟩
  | 105 => ⟨S128, .f32⟩
  | 106 => ⟨S1x128, .f32⟩
  | 107 => ⟨S128, .f32⟩
  | 108 => ⟨S1x128, .f32⟩
  | 109 => ⟨S128, .f32⟩
  | 110 => ⟨S1x128, .f32⟩
  | 111 => ⟨S128, .f32⟩
  | 112 => ⟨S1x128, .f32⟩
  | 113 => ⟨S128, .f32⟩
  | 114 => ⟨S_, .i32⟩
  | 115 => ⟨S800000, .i32⟩
  | 116 => ⟨S800000, .i1⟩
  | 117 => ⟨S_, .i32⟩
  | 118 => ⟨S800000, .i32⟩
  | 119 => ⟨S800000, .i32⟩
  | 120 => ⟨S800000, .i32⟩
  | 121 => ⟨S800000x1, .i32⟩
  | 122 => ⟨S800000x128, .f32⟩
  | 123 => ⟨S_, .f32⟩
  | 124 => ⟨S50000x128, .f32⟩
  | 125 => ⟨S800000x1, .i32⟩
  | 126 => ⟨S50000x128, .f32⟩
  | 127 => ⟨S_, .f32⟩
  | _ => ⟨S2x50000x128, .f32⟩

abbrev hbmTy0_3 (i : Nat) : BufTy := match i % 128 with
  | 0 => ⟨S_, .f32⟩
  | 1 => ⟨S50000x128, .f32⟩
  | 2 => ⟨S50000x128, .f32⟩
  | 3 => ⟨S50000x128, .f32⟩
  | 4 => ⟨S50000x128, .f32⟩
  | 5 => ⟨S1x128, .f32⟩
  | 6 => ⟨S50000x128, .f32⟩
  | 7 => ⟨S50000x128, .f32⟩
  | 8 => ⟨S_, .f32⟩
  | 9 => ⟨S50000x128, .f32⟩
  | 10 => ⟨S50000x128, .f32⟩
  | 11 => ⟨S50000x128, .f32⟩
  | 12 => ⟨S1x128, .f32⟩
  | 13 => ⟨S50000x128, .f32⟩
  | 14 => ⟨S50000x128, .f32⟩
  | 15 => ⟨S_, .f32⟩
  | 16 => ⟨S50000x128, .f32⟩
  | 17 => ⟨S50000x128, .f32⟩
  | 18 => ⟨S1x128, .f32⟩
  | 19 => ⟨S50000x128, .f32⟩
  | 20 => ⟨S50000x128, .f32⟩
  | 21 => ⟨S1x128, .f32⟩
  | 22 => ⟨S50000x128, .f32⟩
  | 23 => ⟨S50000x128, .f32⟩
  | 24 => ⟨S_, .f32⟩
  | 25 => ⟨S128, .f32⟩
  | 26 => ⟨S128, .f32⟩
  | 27 => ⟨S128, .f32⟩
  | 28 => ⟨S1x128, .f32⟩
  | 29 => ⟨S50000x128, .f32⟩
  | 30 => ⟨S50000x128, .f32⟩
  | 31 => ⟨S1x128, .f32⟩
  | 32 => ⟨S50000x128, .f32⟩
  | 33 => ⟨S50000x128, .f32⟩
  | 34 => ⟨S_, .f32⟩
  | 35 => ⟨S50000x128, .f32⟩
  | 36 => ⟨S50000x128, .f32⟩
  | 37 => ⟨S1, .f32⟩
  | 38 => ⟨S_, .f32⟩
  | 39 => ⟨S1x128x128, .f32⟩
  | 40 => ⟨S128x128, .f32⟩
  | 41 => ⟨S1x128, .f32⟩
  | 42 => ⟨S128, .f32⟩
  | 43 => ⟨S1x128x128, .f32⟩
  | 44 => ⟨S128x128, .f32⟩
  | 45 => ⟨S1x128, .f32⟩
  | 46 => ⟨S128, .f32⟩
  | 47 => ⟨S1x128, .f32⟩
  | 48 => ⟨S128, .f32⟩
  | 49 => ⟨S1x128, .f32⟩
  | 50 => ⟨S128, .f32⟩
  | 51 => ⟨S1x128, .f32⟩
  | 52 => ⟨S128, .f32⟩
  | 53 => ⟨S1x128, .f32⟩
  | 54 => ⟨S128, .f32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S800000x128, .f32⟩
  | 64 => ⟨S_, .f32⟩
  | 65 => ⟨S50000x128, .f32⟩
  | 66 => ⟨S800000x1, .i32⟩
  | 67 => ⟨S50000x128, .f32⟩
  | 68 => ⟨S_, .f32⟩
  | 69 => ⟨S_, .f32⟩
  | 70 => ⟨S50000x128, .f32⟩
  | 71 => ⟨S50000x128, .f32⟩
  | 72 => ⟨S50000x128, .f32⟩
  | 73 => ⟨S50000x128, .f32⟩
  | 74 => ⟨S1x128, .f32⟩
  | 75 => ⟨S50000x128, .f32⟩
  | 76 => ⟨S50000x128, .f32⟩
  | 77 => ⟨S_, .f32⟩
  | 78 => ⟨S50000x128, .f32⟩
  | 79 => ⟨S50000x128, .f32⟩
  | 80 => ⟨S50000x128, .f32⟩
  | 81 => ⟨S1x128, .f32⟩
  | 82 => ⟨S50000x128, .f32⟩
  | 83 => ⟨S50000x128, .f32⟩
  | 84 => ⟨S_, .f32⟩
  | 85 => ⟨S50000x128, .f32⟩
  | 86 => ⟨S50000x128, .f32⟩
  | 87 => ⟨S1x128, .f32⟩
  | 88 => ⟨S50000x128, .f32⟩
  | 89 => ⟨S50000x128, .f32⟩
  | 90 => ⟨S1x128, .f32⟩
  | 91 => ⟨S50000x128, .f32⟩
  | 92 => ⟨S50000x128, .f32⟩
  | 93 => ⟨S_, .f32⟩
  | 94 => ⟨S128, .f32⟩
  | 95 => ⟨S128, .f32⟩
  | 96 => ⟨S128, .f32⟩
  | 97 => ⟨S1x128, .f32⟩
  | 98 => ⟨S50000x128, .f32⟩
  | 99 => ⟨S50000x128, .f32⟩
  | 100 => ⟨S1x128, .f32⟩
  | 101 => ⟨S50000x128, .f32⟩
  | 102 => ⟨S50000x128, .f32⟩
  | 103 => ⟨S_, .f32⟩
  | 104 => ⟨S50000x128, .f32⟩
  | 105 => ⟨S50000x128, .f32⟩
  | 106 => ⟨S1, .f32⟩
  | 107 => ⟨S_, .f32⟩
  | 108 => ⟨S1x128x128, .f32⟩
  | 109 => ⟨S128x128, .f32⟩
  | 110 => ⟨S1x128, .f32⟩
  | 111 => ⟨S128, .f32⟩
  | 112 => ⟨S1x128x128, .f32⟩
  | 113 => ⟨S128x128, .f32⟩
  | 114 => ⟨S1x128, .f32⟩
  | 115 => ⟨S128, .f32⟩
  | 116 => ⟨S1x128, .f32⟩
  | 117 => ⟨S128, .f32⟩
  | 118 => ⟨S1x128, .f32⟩
  | 119 => ⟨S128, .f32⟩
  | 120 => ⟨S1x128, .f32⟩
  | 121 => ⟨S128, .f32⟩
  | 122 => ⟨S1x128, .f32⟩
  | 123 => ⟨S128, .f32⟩
  | 124 => ⟨S_, .i32⟩
  | 125 => ⟨S800000, .i32⟩
  | 126 => ⟨S800000, .i1⟩
  | 127 => ⟨S_, .i32⟩
  | _ => ⟨S2x50000x128, .f32⟩

abbrev hbmTy0_4 (i : Nat) : BufTy := match i % 128 with
  | 0 => ⟨S800000, .i32⟩
  | 1 => ⟨S800000, .i32⟩
  | 2 => ⟨S800000, .i32⟩
  | 3 => ⟨S800000x1, .i32⟩
  | 4 => ⟨S800000x128, .f32⟩
  | 5 => ⟨S_, .f32⟩
  | 6 => ⟨S50000x128, .f32⟩
  | 7 => ⟨S800000x1, .i32⟩
  | 8 => ⟨S50000x128, .f32⟩
  | 9 => ⟨S_, .f32⟩
  | 10 => ⟨S_, .f32⟩
  | 11 => ⟨S50000x128, .f32⟩
  | 12 => ⟨S50000x128, .f32⟩
  | 13 => ⟨S50000x128, .f32⟩
  | 14 => ⟨S50000x128, .f32⟩
  | 15 => ⟨S1x128, .f32⟩
  | 16 => ⟨S50000x128, .f32⟩
  | 17 => ⟨S50000x128, .f32⟩
  | 18 => ⟨S_, .f32⟩
  | 19 => ⟨S50000x128, .f32⟩
  | 20 => ⟨S50000x128, .f32⟩
  | 21 => ⟨S50000x128, .f32⟩
  | 22 => ⟨S1x128, .f32⟩
  | 23 => ⟨S50000x128, .f32⟩
  | 24 => ⟨S50000x128, .f32⟩
  | 25 => ⟨S_, .f32⟩
  | 26 => ⟨S50000x128, .f32⟩
  | 27 => ⟨S50000x128, .f32⟩
  | 28 => ⟨S1x128, .f32⟩
  | 29 => ⟨S50000x128, .f32⟩
  | 30 => ⟨S50000x128, .f32⟩
  | 31 => ⟨S1x128, .f32⟩
  | 32 => ⟨S50000x128, .f32⟩
  | 33 => ⟨S50000x128, .f32⟩
  | 34 => ⟨S_, .f32⟩
  | 35 => ⟨S128, .f32⟩
  | 36 => ⟨S128, .f32⟩
  | 37 => ⟨S128, .f32⟩
  | 38 => ⟨S1x128, .f32⟩
  | 39 => ⟨S50000x128, .f32⟩
  | 40 => ⟨S50000x128, .f32⟩
  | 41 => ⟨S1x128, .f32⟩
  | 42 => ⟨S50000x128, .f32⟩
  | 43 => ⟨S50000x128, .f32⟩
  | 44 => ⟨S_, .f32⟩
  | 45 => ⟨S50000x128, .f32⟩
  | 46 => ⟨S50000x128, .f32⟩
  | 47 => ⟨S1, .f32⟩
  | 48 => ⟨S_, .f32⟩
  | 49 => ⟨S1x128x128, .f32⟩
  | 50 => ⟨S128x128, .f32⟩
  | 51 => ⟨S1x128, .f32⟩
  | 52 => ⟨S128, .f32⟩
  | 53 => ⟨S1x128x128, .f32⟩
  | 54 => ⟨S128x128, .f32⟩
  | 55 => ⟨S1x128, .f32⟩
  | 56 => ⟨S128, .f32⟩
  | 57 => ⟨S1x128, .f32⟩
  | 58 => ⟨S128, .f32⟩
  | 59 => ⟨S1x128, .f32⟩
  | 60 => ⟨S128, .f32⟩
  | 61 => ⟨S1x128, .f32⟩
  | 62 => ⟨S128, .f32⟩
  | 63 => ⟨S1x128, .f32⟩
  | 64 => ⟨S128, .f32⟩
  | 65 => ⟨S_, .i32⟩
  | 66 => ⟨S800000, .i32⟩
  | 67 => ⟨S800000, .i1⟩
  | 68 => ⟨S_, .i32⟩
  | 69 => ⟨S800000, .i32⟩
  | 70 => ⟨S800000, .i32⟩
  | 71 => ⟨S800000, .i32⟩
  | 72 => ⟨S800000x1, .i32⟩
  | 73 => ⟨S800000x128, .f32⟩
  | 74 => ⟨S_, .f32⟩
  | 75 => ⟨S50000x128, .f32⟩
  | 76 => ⟨S800000x1, .i32⟩
  | 77 => ⟨S50000x128, .f32⟩
  | 78 => ⟨S_, .f32⟩
  | 79 => ⟨S_, .f32⟩
  | 80 => ⟨S50000x128, .f32⟩
  | 81 => ⟨S50000x128, .f32⟩
  | 82 => ⟨S50000x128, .f32⟩
  | 83 => ⟨S50000x128, .f32⟩
  | 84 => ⟨S1x128, .f32⟩
  | 85 => ⟨S50000x128, .f32⟩
  | 86 => ⟨S50000x128, .f32⟩
  | 87 => ⟨S_, .f32⟩
  | 88 => ⟨S50000x128, .f32⟩
  | 89 => ⟨S50000x128, .f32⟩
  | 90 => ⟨S50000x128, .f32⟩
  | 91 => ⟨S1x128, .f32⟩
  | 92 => ⟨S50000x128, .f32⟩
  | 93 => ⟨S50000x128, .f32⟩
  | 94 => ⟨S_, .f32⟩
  | 95 => ⟨S50000x128, .f32⟩
  | 96 => ⟨S50000x128, .f32⟩
  | 97 => ⟨S1x128, .f32⟩
  | 98 => ⟨S50000x128, .f32⟩
  | 99 => ⟨S50000x128, .f32⟩
  | 100 => ⟨S1x128, .f32⟩
  | 101 => ⟨S50000x128, .f32⟩
  | 102 => ⟨S50000x128, .f32⟩
  | 103 => ⟨S_, .f32⟩
  | 104 => ⟨S128, .f32⟩
  | 105 => ⟨S128, .f32⟩
  | 106 => ⟨S128, .f32⟩
  | 107 => ⟨S1x128, .f32⟩
  | 108 => ⟨S50000x128, .f32⟩
  | 109 => ⟨S50000x128, .f32⟩
  | 110 => ⟨S1x128, .f32⟩
  | 111 => ⟨S50000x128, .f32⟩
  | 112 => ⟨S50000x128, .f32⟩
  | 113 => ⟨S_, .f32⟩
  | 114 => ⟨S50000x128, .f32⟩
  | 115 => ⟨S50000x128, .f32⟩
  | 116 => ⟨S_, .f32⟩
  | 117 => ⟨S50000, .f32⟩
  | 118 => ⟨S1x50000, .i32⟩
  | 119 => ⟨S50000, .i32⟩
  | 120 => ⟨S_, .f32⟩
  | 121 => ⟨S128, .f32⟩
  | 122 => ⟨S50000x1, .i32⟩
  | 123 => ⟨S128, .f32⟩
  | 124 => ⟨S1x50000, .i32⟩
  | 125 => ⟨S50000, .i32⟩
  | 126 => ⟨S_, .f32⟩
  | 127 => ⟨S128x128, .f32⟩
  | _ => ⟨S2x50000x128, .f32⟩

abbrev hbmTy0_5 (i : Nat) : BufTy := match i % 128 with
  | 0 => ⟨S50000x1, .i32⟩
  | 1 => ⟨S128x128, .f32⟩
  | 2 => ⟨S_, .f32⟩
  | 3 => ⟨S128, .f32⟩
  | 4 => ⟨S128, .f32⟩
  | 5 => ⟨S128x1, .f32⟩
  | 6 => ⟨S128x128, .f32⟩
  | 7 => ⟨S128x128, .f32⟩
  | 8 => ⟨S1x128x128, .f32⟩
  | 9 => ⟨S128x128, .f32⟩
  | 10 => ⟨S128x128, .f32⟩
  | 11 => ⟨S1x128, .f32⟩
  | 12 => ⟨S128, .f32⟩
  | 13 => ⟨S1x128, .f32⟩
  | 14 => ⟨S128x128, .f32⟩
  | 15 => ⟨S128x128, .f32⟩
  | 16 => ⟨S_, .f32⟩
  | 17 => ⟨S128x128, .f32⟩
  | 18 => ⟨S128x128, .f32⟩
  | 19 => ⟨S1x128x10, .f32⟩
  | 20 => ⟨S128x10, .f32⟩
  | 21 => ⟨S128x10, .f32⟩
  | 22 => ⟨S1x10, .f32⟩
  | 23 => ⟨S10, .f32⟩
  | 24 => ⟨S1x10, .f32⟩
  | 25 => ⟨S128x10, .f32⟩
  | 26 => ⟨S128x10, .f32⟩
  | 27 => ⟨S1x128x10, .f32⟩
  | 28 => ⟨S1x128x10, .f32⟩
  | 29 => ⟨S2x128x10, .f32⟩
  | _ => ⟨S2x50000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S2x50000x128, .f32⟩

abbrev bufTy : (tb : Table) → Fin (tcTables nBuf tb) → BufTy
  | .hbm, ⟨i, _⟩ => hbmTy i
  | _, _ => ⟨S2x50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_c : Ref sig .tc := ⟨.hbm, 49, rfl⟩
abbrev main_v24 : Ref sig .tc := ⟨.hbm, 50, rfl⟩
abbrev main_v25 : Ref sig .tc := ⟨.hbm, 51, rfl⟩
abbrev main_c_0 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_cst : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_cst_1 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_call0_cst : Ref sig .tc := ⟨.hbm, 71, rfl⟩
abbrev main_call0_v0 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_call1_cst : Ref sig .tc := ⟨.hbm, 78, rfl⟩
abbrev main_call1_v0 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_cst_2 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_call2_cst : Ref sig .tc := ⟨.hbm, 97, rfl⟩
abbrev main_call2_v0 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_c_3 : Ref sig .tc := ⟨.hbm, 118, rfl⟩
abbrev main_v82 : Ref sig .tc := ⟨.hbm, 119, rfl⟩
abbrev main_v83 : Ref sig .tc := ⟨.hbm, 120, rfl⟩
abbrev main_c_4 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_cst_5 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_cst_6 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_call3_cst : Ref sig .tc := ⟨.hbm, 140, rfl⟩
abbrev main_call3_v0 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_call4_cst : Ref sig .tc := ⟨.hbm, 147, rfl⟩
abbrev main_call4_v0 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_cst_7 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_call5_cst : Ref sig .tc := ⟨.hbm, 166, rfl⟩
abbrev main_call5_v0 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_c_8 : Ref sig .tc := ⟨.hbm, 187, rfl⟩
abbrev main_v140 : Ref sig .tc := ⟨.hbm, 188, rfl⟩
abbrev main_v141 : Ref sig .tc := ⟨.hbm, 189, rfl⟩
abbrev main_c_9 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_cst_10 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_cst_11 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_call6_cst : Ref sig .tc := ⟨.hbm, 209, rfl⟩
abbrev main_call6_v0 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_call7_cst : Ref sig .tc := ⟨.hbm, 216, rfl⟩
abbrev main_call7_v0 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_cst_12 : Ref sig .tc := ⟨.hbm, 225, rfl⟩
abbrev main_v170 : Ref sig .tc := ⟨.hbm, 226, rfl⟩
abbrev main_v171 : Ref sig .tc := ⟨.hbm, 227, rfl⟩
abbrev main_v172 : Ref sig .tc := ⟨.hbm, 228, rfl⟩
abbrev main_v173 : Ref sig .tc := ⟨.hbm, 229, rfl⟩
abbrev main_v174 : Ref sig .tc := ⟨.hbm, 230, rfl⟩
abbrev main_v175 : Ref sig .tc := ⟨.hbm, 231, rfl⟩
abbrev main_v176 : Ref sig .tc := ⟨.hbm, 232, rfl⟩
abbrev main_v177 : Ref sig .tc := ⟨.hbm, 233, rfl⟩
abbrev main_v178 : Ref sig .tc := ⟨.hbm, 234, rfl⟩
abbrev main_call8_cst : Ref sig .tc := ⟨.hbm, 235, rfl⟩
abbrev main_call8_v0 : Ref sig .tc := ⟨.hbm, 236, rfl⟩
abbrev main_v179 : Ref sig .tc := ⟨.hbm, 237, rfl⟩
abbrev main_v180 : Ref sig .tc := ⟨.hbm, 238, rfl⟩
abbrev main_v181 : Ref sig .tc := ⟨.hbm, 239, rfl⟩
abbrev main_v182 : Ref sig .tc := ⟨.hbm, 240, rfl⟩
abbrev main_v183 : Ref sig .tc := ⟨.hbm, 241, rfl⟩
abbrev main_v184 : Ref sig .tc := ⟨.hbm, 242, rfl⟩
abbrev main_v185 : Ref sig .tc := ⟨.hbm, 243, rfl⟩
abbrev main_v186 : Ref sig .tc := ⟨.hbm, 244, rfl⟩
abbrev main_v187 : Ref sig .tc := ⟨.hbm, 245, rfl⟩
abbrev main_v188 : Ref sig .tc := ⟨.hbm, 246, rfl⟩
abbrev main_v189 : Ref sig .tc := ⟨.hbm, 247, rfl⟩
abbrev main_v190 : Ref sig .tc := ⟨.hbm, 248, rfl⟩
abbrev main_v191 : Ref sig .tc := ⟨.hbm, 249, rfl⟩
abbrev main_v192 : Ref sig .tc := ⟨.hbm, 250, rfl⟩
abbrev main_v193 : Ref sig .tc := ⟨.hbm, 251, rfl⟩
abbrev main_v194 : Ref sig .tc := ⟨.hbm, 252, rfl⟩
abbrev main_v195 : Ref sig .tc := ⟨.hbm, 253, rfl⟩
abbrev main_v196 : Ref sig .tc := ⟨.hbm, 254, rfl⟩
abbrev main_v197 : Ref sig .tc := ⟨.hbm, 255, rfl⟩
abbrev main_c_13 : Ref sig .tc := ⟨.hbm, 256, rfl⟩
abbrev main_v198 : Ref sig .tc := ⟨.hbm, 257, rfl⟩
abbrev main_v199 : Ref sig .tc := ⟨.hbm, 258, rfl⟩
abbrev main_c_14 : Ref sig .tc := ⟨.hbm, 259, rfl⟩
abbrev main_v200 : Ref sig .tc := ⟨.hbm, 260, rfl⟩
abbrev main_v201 : Ref sig .tc := ⟨.hbm, 261, rfl⟩
abbrev main_v202 : Ref sig .tc := ⟨.hbm, 262, rfl⟩
abbrev main_v203 : Ref sig .tc := ⟨.hbm, 263, rfl⟩
abbrev main_v204 : Ref sig .tc := ⟨.hbm, 264, rfl⟩
abbrev main_cst_15 : Ref sig .tc := ⟨.hbm, 265, rfl⟩
abbrev main_v205 : Ref sig .tc := ⟨.hbm, 266, rfl⟩
abbrev main_v206 : Ref sig .tc := ⟨.hbm, 267, rfl⟩
abbrev main_v207 : Ref sig .tc := ⟨.hbm, 268, rfl⟩
abbrev main_cst_16 : Ref sig .tc := ⟨.hbm, 269, rfl⟩
abbrev main_v208 : Ref sig .tc := ⟨.hbm, 270, rfl⟩
abbrev main_v209 : Ref sig .tc := ⟨.hbm, 271, rfl⟩
abbrev main_v210 : Ref sig .tc := ⟨.hbm, 272, rfl⟩
abbrev main_v211 : Ref sig .tc := ⟨.hbm, 273, rfl⟩
abbrev main_v212 : Ref sig .tc := ⟨.hbm, 274, rfl⟩
abbrev main_v213 : Ref sig .tc := ⟨.hbm, 275, rfl⟩
abbrev main_v214 : Ref sig .tc := ⟨.hbm, 276, rfl⟩
abbrev main_v215 : Ref sig .tc := ⟨.hbm, 277, rfl⟩
abbrev main_call9_cst : Ref sig .tc := ⟨.hbm, 278, rfl⟩
abbrev main_call9_v0 : Ref sig .tc := ⟨.hbm, 279, rfl⟩
abbrev main_v216 : Ref sig .tc := ⟨.hbm, 280, rfl⟩
abbrev main_v217 : Ref sig .tc := ⟨.hbm, 281, rfl⟩
abbrev main_v218 : Ref sig .tc := ⟨.hbm, 282, rfl⟩
abbrev main_v219 : Ref sig .tc := ⟨.hbm, 283, rfl⟩
abbrev main_v220 : Ref sig .tc := ⟨.hbm, 284, rfl⟩
abbrev main_call10_cst : Ref sig .tc := ⟨.hbm, 285, rfl⟩
abbrev main_call10_v0 : Ref sig .tc := ⟨.hbm, 286, rfl⟩
abbrev main_v221 : Ref sig .tc := ⟨.hbm, 287, rfl⟩
abbrev main_v222 : Ref sig .tc := ⟨.hbm, 288, rfl⟩
abbrev main_v223 : Ref sig .tc := ⟨.hbm, 289, rfl⟩
abbrev main_v224 : Ref sig .tc := ⟨.hbm, 290, rfl⟩
abbrev main_v225 : Ref sig .tc := ⟨.hbm, 291, rfl⟩
abbrev main_v226 : Ref sig .tc := ⟨.hbm, 292, rfl⟩
abbrev main_v227 : Ref sig .tc := ⟨.hbm, 293, rfl⟩
abbrev main_cst_17 : Ref sig .tc := ⟨.hbm, 294, rfl⟩
abbrev main_v228 : Ref sig .tc := ⟨.hbm, 295, rfl⟩
abbrev main_v229 : Ref sig .tc := ⟨.hbm, 296, rfl⟩
abbrev main_v230 : Ref sig .tc := ⟨.hbm, 297, rfl⟩
abbrev main_v231 : Ref sig .tc := ⟨.hbm, 298, rfl⟩
abbrev main_v232 : Ref sig .tc := ⟨.hbm, 299, rfl⟩
abbrev main_v233 : Ref sig .tc := ⟨.hbm, 300, rfl⟩
abbrev main_v234 : Ref sig .tc := ⟨.hbm, 301, rfl⟩
abbrev main_v235 : Ref sig .tc := ⟨.hbm, 302, rfl⟩
abbrev main_v236 : Ref sig .tc := ⟨.hbm, 303, rfl⟩
abbrev main_call11_cst : Ref sig .tc := ⟨.hbm, 304, rfl⟩
abbrev main_call11_v0 : Ref sig .tc := ⟨.hbm, 305, rfl⟩
abbrev main_v237 : Ref sig .tc := ⟨.hbm, 306, rfl⟩
abbrev main_cst_18 : Ref sig .tc := ⟨.hbm, 307, rfl⟩
abbrev main_v238 : Ref sig .tc := ⟨.hbm, 308, rfl⟩
abbrev main_v239 : Ref sig .tc := ⟨.hbm, 309, rfl⟩
abbrev main_v240 : Ref sig .tc := ⟨.hbm, 310, rfl⟩
abbrev main_cst_19 : Ref sig .tc := ⟨.hbm, 311, rfl⟩
abbrev main_v241 : Ref sig .tc := ⟨.hbm, 312, rfl⟩
abbrev main_v242 : Ref sig .tc := ⟨.hbm, 313, rfl⟩
abbrev main_v243 : Ref sig .tc := ⟨.hbm, 314, rfl⟩
abbrev main_v244 : Ref sig .tc := ⟨.hbm, 315, rfl⟩
abbrev main_v245 : Ref sig .tc := ⟨.hbm, 316, rfl⟩
abbrev main_cst_20 : Ref sig .tc := ⟨.hbm, 317, rfl⟩
abbrev main_v246 : Ref sig .tc := ⟨.hbm, 318, rfl⟩
abbrev main_v247 : Ref sig .tc := ⟨.hbm, 319, rfl⟩
abbrev main_v248 : Ref sig .tc := ⟨.hbm, 320, rfl⟩
abbrev main_cst_21 : Ref sig .tc := ⟨.hbm, 321, rfl⟩
abbrev main_v249 : Ref sig .tc := ⟨.hbm, 322, rfl⟩
abbrev main_v250 : Ref sig .tc := ⟨.hbm, 323, rfl⟩
abbrev main_v251 : Ref sig .tc := ⟨.hbm, 324, rfl⟩
abbrev main_v252 : Ref sig .tc := ⟨.hbm, 325, rfl⟩
abbrev main_v253 : Ref sig .tc := ⟨.hbm, 326, rfl⟩
abbrev main_v254 : Ref sig .tc := ⟨.hbm, 327, rfl⟩
abbrev main_v255 : Ref sig .tc := ⟨.hbm, 328, rfl⟩
abbrev main_v256 : Ref sig .tc := ⟨.hbm, 329, rfl⟩
abbrev main_v257 : Ref sig .tc := ⟨.hbm, 330, rfl⟩
abbrev main_v258 : Ref sig .tc := ⟨.hbm, 331, rfl⟩
abbrev main_v259 : Ref sig .tc := ⟨.hbm, 332, rfl⟩
abbrev main_v260 : Ref sig .tc := ⟨.hbm, 333, rfl⟩
abbrev main_v261 : Ref sig .tc := ⟨.hbm, 334, rfl⟩
abbrev main_call12_cst : Ref sig .tc := ⟨.hbm, 335, rfl⟩
abbrev main_call12_v0 : Ref sig .tc := ⟨.hbm, 336, rfl⟩
abbrev main_v262 : Ref sig .tc := ⟨.hbm, 337, rfl⟩
abbrev main_v263 : Ref sig .tc := ⟨.hbm, 338, rfl⟩
abbrev main_v264 : Ref sig .tc := ⟨.hbm, 339, rfl⟩
abbrev main_v265 : Ref sig .tc := ⟨.hbm, 340, rfl⟩
abbrev main_v266 : Ref sig .tc := ⟨.hbm, 341, rfl⟩
abbrev main_v267 : Ref sig .tc := ⟨.hbm, 342, rfl⟩
abbrev main_v268 : Ref sig .tc := ⟨.hbm, 343, rfl⟩
abbrev main_v269 : Ref sig .tc := ⟨.hbm, 344, rfl⟩
abbrev main_v270 : Ref sig .tc := ⟨.hbm, 345, rfl⟩
abbrev main_v271 : Ref sig .tc := ⟨.hbm, 346, rfl⟩
abbrev main_v272 : Ref sig .tc := ⟨.hbm, 347, rfl⟩
abbrev main_v273 : Ref sig .tc := ⟨.hbm, 348, rfl⟩
abbrev main_v274 : Ref sig .tc := ⟨.hbm, 349, rfl⟩
abbrev main_v275 : Ref sig .tc := ⟨.hbm, 350, rfl⟩
abbrev main_v276 : Ref sig .tc := ⟨.hbm, 351, rfl⟩
abbrev main_v277 : Ref sig .tc := ⟨.hbm, 352, rfl⟩
abbrev main_v278 : Ref sig .tc := ⟨.hbm, 353, rfl⟩
abbrev main_v279 : Ref sig .tc := ⟨.hbm, 354, rfl⟩
abbrev main_v280 : Ref sig .tc := ⟨.hbm, 355, rfl⟩
abbrev main_v281 : Ref sig .tc := ⟨.hbm, 356, rfl⟩
abbrev main_v282 : Ref sig .tc := ⟨.hbm, 357, rfl⟩
abbrev main_v283 : Ref sig .tc := ⟨.hbm, 358, rfl⟩
abbrev main_v284 : Ref sig .tc := ⟨.hbm, 359, rfl⟩
abbrev main_v285 : Ref sig .tc := ⟨.hbm, 360, rfl⟩
abbrev main_v286 : Ref sig .tc := ⟨.hbm, 361, rfl⟩
abbrev main_v287 : Ref sig .tc := ⟨.hbm, 362, rfl⟩
abbrev main_v288 : Ref sig .tc := ⟨.hbm, 363, rfl⟩
abbrev main_v289 : Ref sig .tc := ⟨.hbm, 364, rfl⟩
abbrev main_v290 : Ref sig .tc := ⟨.hbm, 365, rfl⟩
abbrev main_v291 : Ref sig .tc := ⟨.hbm, 366, rfl⟩
abbrev main_v292 : Ref sig .tc := ⟨.hbm, 367, rfl⟩
abbrev main_v293 : Ref sig .tc := ⟨.hbm, 368, rfl⟩
abbrev main_v294 : Ref sig .tc := ⟨.hbm, 369, rfl⟩
abbrev main_c_22 : Ref sig .tc := ⟨.hbm, 370, rfl⟩
abbrev main_v295 : Ref sig .tc := ⟨.hbm, 371, rfl⟩
abbrev main_v296 : Ref sig .tc := ⟨.hbm, 372, rfl⟩
abbrev main_c_23 : Ref sig .tc := ⟨.hbm, 373, rfl⟩
abbrev main_v297 : Ref sig .tc := ⟨.hbm, 374, rfl⟩
abbrev main_v298 : Ref sig .tc := ⟨.hbm, 375, rfl⟩
abbrev main_v299 : Ref sig .tc := ⟨.hbm, 376, rfl⟩
abbrev main_v300 : Ref sig .tc := ⟨.hbm, 377, rfl⟩
abbrev main_v301 : Ref sig .tc := ⟨.hbm, 378, rfl⟩
abbrev main_cst_24 : Ref sig .tc := ⟨.hbm, 379, rfl⟩
abbrev main_v302 : Ref sig .tc := ⟨.hbm, 380, rfl⟩
abbrev main_v303 : Ref sig .tc := ⟨.hbm, 381, rfl⟩
abbrev main_v304 : Ref sig .tc := ⟨.hbm, 382, rfl⟩
abbrev main_cst_25 : Ref sig .tc := ⟨.hbm, 383, rfl⟩
abbrev main_v305 : Ref sig .tc := ⟨.hbm, 384, rfl⟩
abbrev main_v306 : Ref sig .tc := ⟨.hbm, 385, rfl⟩
abbrev main_v307 : Ref sig .tc := ⟨.hbm, 386, rfl⟩
abbrev main_v308 : Ref sig .tc := ⟨.hbm, 387, rfl⟩
abbrev main_v309 : Ref sig .tc := ⟨.hbm, 388, rfl⟩
abbrev main_v310 : Ref sig .tc := ⟨.hbm, 389, rfl⟩
abbrev main_v311 : Ref sig .tc := ⟨.hbm, 390, rfl⟩
abbrev main_v312 : Ref sig .tc := ⟨.hbm, 391, rfl⟩
abbrev main_call13_cst : Ref sig .tc := ⟨.hbm, 392, rfl⟩
abbrev main_call13_v0 : Ref sig .tc := ⟨.hbm, 393, rfl⟩
abbrev main_v313 : Ref sig .tc := ⟨.hbm, 394, rfl⟩
abbrev main_v314 : Ref sig .tc := ⟨.hbm, 395, rfl⟩
abbrev main_v315 : Ref sig .tc := ⟨.hbm, 396, rfl⟩
abbrev main_v316 : Ref sig .tc := ⟨.hbm, 397, rfl⟩
abbrev main_v317 : Ref sig .tc := ⟨.hbm, 398, rfl⟩
abbrev main_call14_cst : Ref sig .tc := ⟨.hbm, 399, rfl⟩
abbrev main_call14_v0 : Ref sig .tc := ⟨.hbm, 400, rfl⟩
abbrev main_v318 : Ref sig .tc := ⟨.hbm, 401, rfl⟩
abbrev main_v319 : Ref sig .tc := ⟨.hbm, 402, rfl⟩
abbrev main_v320 : Ref sig .tc := ⟨.hbm, 403, rfl⟩
abbrev main_v321 : Ref sig .tc := ⟨.hbm, 404, rfl⟩
abbrev main_v322 : Ref sig .tc := ⟨.hbm, 405, rfl⟩
abbrev main_v323 : Ref sig .tc := ⟨.hbm, 406, rfl⟩
abbrev main_v324 : Ref sig .tc := ⟨.hbm, 407, rfl⟩
abbrev main_cst_26 : Ref sig .tc := ⟨.hbm, 408, rfl⟩
abbrev main_v325 : Ref sig .tc := ⟨.hbm, 409, rfl⟩
abbrev main_v326 : Ref sig .tc := ⟨.hbm, 410, rfl⟩
abbrev main_v327 : Ref sig .tc := ⟨.hbm, 411, rfl⟩
abbrev main_v328 : Ref sig .tc := ⟨.hbm, 412, rfl⟩
abbrev main_v329 : Ref sig .tc := ⟨.hbm, 413, rfl⟩
abbrev main_v330 : Ref sig .tc := ⟨.hbm, 414, rfl⟩
abbrev main_v331 : Ref sig .tc := ⟨.hbm, 415, rfl⟩
abbrev main_v332 : Ref sig .tc := ⟨.hbm, 416, rfl⟩
abbrev main_v333 : Ref sig .tc := ⟨.hbm, 417, rfl⟩
abbrev main_call15_cst : Ref sig .tc := ⟨.hbm, 418, rfl⟩
abbrev main_call15_v0 : Ref sig .tc := ⟨.hbm, 419, rfl⟩
abbrev main_v334 : Ref sig .tc := ⟨.hbm, 420, rfl⟩
abbrev main_v335 : Ref sig .tc := ⟨.hbm, 421, rfl⟩
abbrev main_v336 : Ref sig .tc := ⟨.hbm, 422, rfl⟩
abbrev main_v337 : Ref sig .tc := ⟨.hbm, 423, rfl⟩
abbrev main_v338 : Ref sig .tc := ⟨.hbm, 424, rfl⟩
abbrev main_v339 : Ref sig .tc := ⟨.hbm, 425, rfl⟩
abbrev main_v340 : Ref sig .tc := ⟨.hbm, 426, rfl⟩
abbrev main_v341 : Ref sig .tc := ⟨.hbm, 427, rfl⟩
abbrev main_v342 : Ref sig .tc := ⟨.hbm, 428, rfl⟩
abbrev main_v343 : Ref sig .tc := ⟨.hbm, 429, rfl⟩
abbrev main_v344 : Ref sig .tc := ⟨.hbm, 430, rfl⟩
abbrev main_v345 : Ref sig .tc := ⟨.hbm, 431, rfl⟩
abbrev main_v346 : Ref sig .tc := ⟨.hbm, 432, rfl⟩
abbrev main_v347 : Ref sig .tc := ⟨.hbm, 433, rfl⟩
abbrev main_v348 : Ref sig .tc := ⟨.hbm, 434, rfl⟩
abbrev main_v349 : Ref sig .tc := ⟨.hbm, 435, rfl⟩
abbrev main_v350 : Ref sig .tc := ⟨.hbm, 436, rfl⟩
abbrev main_v351 : Ref sig .tc := ⟨.hbm, 437, rfl⟩
abbrev main_v352 : Ref sig .tc := ⟨.hbm, 438, rfl⟩
abbrev main_c_27 : Ref sig .tc := ⟨.hbm, 439, rfl⟩
abbrev main_v353 : Ref sig .tc := ⟨.hbm, 440, rfl⟩
abbrev main_v354 : Ref sig .tc := ⟨.hbm, 441, rfl⟩
abbrev main_c_28 : Ref sig .tc := ⟨.hbm, 442, rfl⟩
abbrev main_v355 : Ref sig .tc := ⟨.hbm, 443, rfl⟩
abbrev main_v356 : Ref sig .tc := ⟨.hbm, 444, rfl⟩
abbrev main_v357 : Ref sig .tc := ⟨.hbm, 445, rfl⟩
abbrev main_v358 : Ref sig .tc := ⟨.hbm, 446, rfl⟩
abbrev main_v359 : Ref sig .tc := ⟨.hbm, 447, rfl⟩
abbrev main_cst_29 : Ref sig .tc := ⟨.hbm, 448, rfl⟩
abbrev main_v360 : Ref sig .tc := ⟨.hbm, 449, rfl⟩
abbrev main_v361 : Ref sig .tc := ⟨.hbm, 450, rfl⟩
abbrev main_v362 : Ref sig .tc := ⟨.hbm, 451, rfl⟩
abbrev main_cst_30 : Ref sig .tc := ⟨.hbm, 452, rfl⟩
abbrev main_v363 : Ref sig .tc := ⟨.hbm, 453, rfl⟩
abbrev main_v364 : Ref sig .tc := ⟨.hbm, 454, rfl⟩
abbrev main_v365 : Ref sig .tc := ⟨.hbm, 455, rfl⟩
abbrev main_v366 : Ref sig .tc := ⟨.hbm, 456, rfl⟩
abbrev main_v367 : Ref sig .tc := ⟨.hbm, 457, rfl⟩
abbrev main_v368 : Ref sig .tc := ⟨.hbm, 458, rfl⟩
abbrev main_v369 : Ref sig .tc := ⟨.hbm, 459, rfl⟩
abbrev main_v370 : Ref sig .tc := ⟨.hbm, 460, rfl⟩
abbrev main_call16_cst : Ref sig .tc := ⟨.hbm, 461, rfl⟩
abbrev main_call16_v0 : Ref sig .tc := ⟨.hbm, 462, rfl⟩
abbrev main_v371 : Ref sig .tc := ⟨.hbm, 463, rfl⟩
abbrev main_v372 : Ref sig .tc := ⟨.hbm, 464, rfl⟩
abbrev main_v373 : Ref sig .tc := ⟨.hbm, 465, rfl⟩
abbrev main_v374 : Ref sig .tc := ⟨.hbm, 466, rfl⟩
abbrev main_v375 : Ref sig .tc := ⟨.hbm, 467, rfl⟩
abbrev main_call17_cst : Ref sig .tc := ⟨.hbm, 468, rfl⟩
abbrev main_call17_v0 : Ref sig .tc := ⟨.hbm, 469, rfl⟩
abbrev main_v376 : Ref sig .tc := ⟨.hbm, 470, rfl⟩
abbrev main_v377 : Ref sig .tc := ⟨.hbm, 471, rfl⟩
abbrev main_v378 : Ref sig .tc := ⟨.hbm, 472, rfl⟩
abbrev main_v379 : Ref sig .tc := ⟨.hbm, 473, rfl⟩
abbrev main_v380 : Ref sig .tc := ⟨.hbm, 474, rfl⟩
abbrev main_v381 : Ref sig .tc := ⟨.hbm, 475, rfl⟩
abbrev main_v382 : Ref sig .tc := ⟨.hbm, 476, rfl⟩
abbrev main_cst_31 : Ref sig .tc := ⟨.hbm, 477, rfl⟩
abbrev main_v383 : Ref sig .tc := ⟨.hbm, 478, rfl⟩
abbrev main_v384 : Ref sig .tc := ⟨.hbm, 479, rfl⟩
abbrev main_v385 : Ref sig .tc := ⟨.hbm, 480, rfl⟩
abbrev main_v386 : Ref sig .tc := ⟨.hbm, 481, rfl⟩
abbrev main_v387 : Ref sig .tc := ⟨.hbm, 482, rfl⟩
abbrev main_v388 : Ref sig .tc := ⟨.hbm, 483, rfl⟩
abbrev main_v389 : Ref sig .tc := ⟨.hbm, 484, rfl⟩
abbrev main_v390 : Ref sig .tc := ⟨.hbm, 485, rfl⟩
abbrev main_v391 : Ref sig .tc := ⟨.hbm, 486, rfl⟩
abbrev main_call18_cst : Ref sig .tc := ⟨.hbm, 487, rfl⟩
abbrev main_call18_v0 : Ref sig .tc := ⟨.hbm, 488, rfl⟩
abbrev main_v392 : Ref sig .tc := ⟨.hbm, 489, rfl⟩
abbrev main_v393 : Ref sig .tc := ⟨.hbm, 490, rfl⟩
abbrev main_v394 : Ref sig .tc := ⟨.hbm, 491, rfl⟩
abbrev main_v395 : Ref sig .tc := ⟨.hbm, 492, rfl⟩
abbrev main_v396 : Ref sig .tc := ⟨.hbm, 493, rfl⟩
abbrev main_v397 : Ref sig .tc := ⟨.hbm, 494, rfl⟩
abbrev main_v398 : Ref sig .tc := ⟨.hbm, 495, rfl⟩
abbrev main_v399 : Ref sig .tc := ⟨.hbm, 496, rfl⟩
abbrev main_v400 : Ref sig .tc := ⟨.hbm, 497, rfl⟩
abbrev main_v401 : Ref sig .tc := ⟨.hbm, 498, rfl⟩
abbrev main_v402 : Ref sig .tc := ⟨.hbm, 499, rfl⟩
abbrev main_v403 : Ref sig .tc := ⟨.hbm, 500, rfl⟩
abbrev main_v404 : Ref sig .tc := ⟨.hbm, 501, rfl⟩
abbrev main_v405 : Ref sig .tc := ⟨.hbm, 502, rfl⟩
abbrev main_v406 : Ref sig .tc := ⟨.hbm, 503, rfl⟩
abbrev main_v407 : Ref sig .tc := ⟨.hbm, 504, rfl⟩
abbrev main_v408 : Ref sig .tc := ⟨.hbm, 505, rfl⟩
abbrev main_v409 : Ref sig .tc := ⟨.hbm, 506, rfl⟩
abbrev main_v410 : Ref sig .tc := ⟨.hbm, 507, rfl⟩
abbrev main_c_32 : Ref sig .tc := ⟨.hbm, 508, rfl⟩
abbrev main_v411 : Ref sig .tc := ⟨.hbm, 509, rfl⟩
abbrev main_v412 : Ref sig .tc := ⟨.hbm, 510, rfl⟩
abbrev main_c_33 : Ref sig .tc := ⟨.hbm, 511, rfl⟩
abbrev main_v413 : Ref sig .tc := ⟨.hbm, 512, rfl⟩
abbrev main_v414 : Ref sig .tc := ⟨.hbm, 513, rfl⟩
abbrev main_v415 : Ref sig .tc := ⟨.hbm, 514, rfl⟩
abbrev main_v416 : Ref sig .tc := ⟨.hbm, 515, rfl⟩
abbrev main_v417 : Ref sig .tc := ⟨.hbm, 516, rfl⟩
abbrev main_cst_34 : Ref sig .tc := ⟨.hbm, 517, rfl⟩
abbrev main_v418 : Ref sig .tc := ⟨.hbm, 518, rfl⟩
abbrev main_v419 : Ref sig .tc := ⟨.hbm, 519, rfl⟩
abbrev main_v420 : Ref sig .tc := ⟨.hbm, 520, rfl⟩
abbrev main_cst_35 : Ref sig .tc := ⟨.hbm, 521, rfl⟩
abbrev main_v421 : Ref sig .tc := ⟨.hbm, 522, rfl⟩
abbrev main_v422 : Ref sig .tc := ⟨.hbm, 523, rfl⟩
abbrev main_v423 : Ref sig .tc := ⟨.hbm, 524, rfl⟩
abbrev main_v424 : Ref sig .tc := ⟨.hbm, 525, rfl⟩
abbrev main_v425 : Ref sig .tc := ⟨.hbm, 526, rfl⟩
abbrev main_v426 : Ref sig .tc := ⟨.hbm, 527, rfl⟩
abbrev main_v427 : Ref sig .tc := ⟨.hbm, 528, rfl⟩
abbrev main_v428 : Ref sig .tc := ⟨.hbm, 529, rfl⟩
abbrev main_call19_cst : Ref sig .tc := ⟨.hbm, 530, rfl⟩
abbrev main_call19_v0 : Ref sig .tc := ⟨.hbm, 531, rfl⟩
abbrev main_v429 : Ref sig .tc := ⟨.hbm, 532, rfl⟩
abbrev main_v430 : Ref sig .tc := ⟨.hbm, 533, rfl⟩
abbrev main_v431 : Ref sig .tc := ⟨.hbm, 534, rfl⟩
abbrev main_v432 : Ref sig .tc := ⟨.hbm, 535, rfl⟩
abbrev main_v433 : Ref sig .tc := ⟨.hbm, 536, rfl⟩
abbrev main_call20_cst : Ref sig .tc := ⟨.hbm, 537, rfl⟩
abbrev main_call20_v0 : Ref sig .tc := ⟨.hbm, 538, rfl⟩
abbrev main_v434 : Ref sig .tc := ⟨.hbm, 539, rfl⟩
abbrev main_v435 : Ref sig .tc := ⟨.hbm, 540, rfl⟩
abbrev main_v436 : Ref sig .tc := ⟨.hbm, 541, rfl⟩
abbrev main_v437 : Ref sig .tc := ⟨.hbm, 542, rfl⟩
abbrev main_v438 : Ref sig .tc := ⟨.hbm, 543, rfl⟩
abbrev main_v439 : Ref sig .tc := ⟨.hbm, 544, rfl⟩
abbrev main_v440 : Ref sig .tc := ⟨.hbm, 545, rfl⟩
abbrev main_cst_36 : Ref sig .tc := ⟨.hbm, 546, rfl⟩
abbrev main_v441 : Ref sig .tc := ⟨.hbm, 547, rfl⟩
abbrev main_v442 : Ref sig .tc := ⟨.hbm, 548, rfl⟩
abbrev main_v443 : Ref sig .tc := ⟨.hbm, 549, rfl⟩
abbrev main_v444 : Ref sig .tc := ⟨.hbm, 550, rfl⟩
abbrev main_v445 : Ref sig .tc := ⟨.hbm, 551, rfl⟩
abbrev main_v446 : Ref sig .tc := ⟨.hbm, 552, rfl⟩
abbrev main_v447 : Ref sig .tc := ⟨.hbm, 553, rfl⟩
abbrev main_v448 : Ref sig .tc := ⟨.hbm, 554, rfl⟩
abbrev main_v449 : Ref sig .tc := ⟨.hbm, 555, rfl⟩
abbrev main_call21_cst : Ref sig .tc := ⟨.hbm, 556, rfl⟩
abbrev main_call21_v0 : Ref sig .tc := ⟨.hbm, 557, rfl⟩
abbrev main_v450 : Ref sig .tc := ⟨.hbm, 558, rfl⟩
abbrev main_v451 : Ref sig .tc := ⟨.hbm, 559, rfl⟩
abbrev main_v452 : Ref sig .tc := ⟨.hbm, 560, rfl⟩
abbrev main_v453 : Ref sig .tc := ⟨.hbm, 561, rfl⟩
abbrev main_v454 : Ref sig .tc := ⟨.hbm, 562, rfl⟩
abbrev main_v455 : Ref sig .tc := ⟨.hbm, 563, rfl⟩
abbrev main_v456 : Ref sig .tc := ⟨.hbm, 564, rfl⟩
abbrev main_v457 : Ref sig .tc := ⟨.hbm, 565, rfl⟩
abbrev main_v458 : Ref sig .tc := ⟨.hbm, 566, rfl⟩
abbrev main_v459 : Ref sig .tc := ⟨.hbm, 567, rfl⟩
abbrev main_v460 : Ref sig .tc := ⟨.hbm, 568, rfl⟩
abbrev main_v461 : Ref sig .tc := ⟨.hbm, 569, rfl⟩
abbrev main_v462 : Ref sig .tc := ⟨.hbm, 570, rfl⟩
abbrev main_v463 : Ref sig .tc := ⟨.hbm, 571, rfl⟩
abbrev main_v464 : Ref sig .tc := ⟨.hbm, 572, rfl⟩
abbrev main_v465 : Ref sig .tc := ⟨.hbm, 573, rfl⟩
abbrev main_v466 : Ref sig .tc := ⟨.hbm, 574, rfl⟩
abbrev main_v467 : Ref sig .tc := ⟨.hbm, 575, rfl⟩
abbrev main_v468 : Ref sig .tc := ⟨.hbm, 576, rfl⟩
abbrev main_c_37 : Ref sig .tc := ⟨.hbm, 577, rfl⟩
abbrev main_v469 : Ref sig .tc := ⟨.hbm, 578, rfl⟩
abbrev main_v470 : Ref sig .tc := ⟨.hbm, 579, rfl⟩
abbrev main_c_38 : Ref sig .tc := ⟨.hbm, 580, rfl⟩
abbrev main_v471 : Ref sig .tc := ⟨.hbm, 581, rfl⟩
abbrev main_v472 : Ref sig .tc := ⟨.hbm, 582, rfl⟩
abbrev main_v473 : Ref sig .tc := ⟨.hbm, 583, rfl⟩
abbrev main_v474 : Ref sig .tc := ⟨.hbm, 584, rfl⟩
abbrev main_v475 : Ref sig .tc := ⟨.hbm, 585, rfl⟩
abbrev main_cst_39 : Ref sig .tc := ⟨.hbm, 586, rfl⟩
abbrev main_v476 : Ref sig .tc := ⟨.hbm, 587, rfl⟩
abbrev main_v477 : Ref sig .tc := ⟨.hbm, 588, rfl⟩
abbrev main_v478 : Ref sig .tc := ⟨.hbm, 589, rfl⟩
abbrev main_cst_40 : Ref sig .tc := ⟨.hbm, 590, rfl⟩
abbrev main_v479 : Ref sig .tc := ⟨.hbm, 591, rfl⟩
abbrev main_v480 : Ref sig .tc := ⟨.hbm, 592, rfl⟩
abbrev main_v481 : Ref sig .tc := ⟨.hbm, 593, rfl⟩
abbrev main_v482 : Ref sig .tc := ⟨.hbm, 594, rfl⟩
abbrev main_v483 : Ref sig .tc := ⟨.hbm, 595, rfl⟩
abbrev main_v484 : Ref sig .tc := ⟨.hbm, 596, rfl⟩
abbrev main_v485 : Ref sig .tc := ⟨.hbm, 597, rfl⟩
abbrev main_v486 : Ref sig .tc := ⟨.hbm, 598, rfl⟩
abbrev main_call22_cst : Ref sig .tc := ⟨.hbm, 599, rfl⟩
abbrev main_call22_v0 : Ref sig .tc := ⟨.hbm, 600, rfl⟩
abbrev main_v487 : Ref sig .tc := ⟨.hbm, 601, rfl⟩
abbrev main_v488 : Ref sig .tc := ⟨.hbm, 602, rfl⟩
abbrev main_v489 : Ref sig .tc := ⟨.hbm, 603, rfl⟩
abbrev main_v490 : Ref sig .tc := ⟨.hbm, 604, rfl⟩
abbrev main_v491 : Ref sig .tc := ⟨.hbm, 605, rfl⟩
abbrev main_call23_cst : Ref sig .tc := ⟨.hbm, 606, rfl⟩
abbrev main_call23_v0 : Ref sig .tc := ⟨.hbm, 607, rfl⟩
abbrev main_v492 : Ref sig .tc := ⟨.hbm, 608, rfl⟩
abbrev main_v493 : Ref sig .tc := ⟨.hbm, 609, rfl⟩
abbrev main_v494 : Ref sig .tc := ⟨.hbm, 610, rfl⟩
abbrev main_v495 : Ref sig .tc := ⟨.hbm, 611, rfl⟩
abbrev main_v496 : Ref sig .tc := ⟨.hbm, 612, rfl⟩
abbrev main_v497 : Ref sig .tc := ⟨.hbm, 613, rfl⟩
abbrev main_v498 : Ref sig .tc := ⟨.hbm, 614, rfl⟩
abbrev main_cst_41 : Ref sig .tc := ⟨.hbm, 615, rfl⟩
abbrev main_v499 : Ref sig .tc := ⟨.hbm, 616, rfl⟩
abbrev main_v500 : Ref sig .tc := ⟨.hbm, 617, rfl⟩
abbrev main_v501 : Ref sig .tc := ⟨.hbm, 618, rfl⟩
abbrev main_v502 : Ref sig .tc := ⟨.hbm, 619, rfl⟩
abbrev main_v503 : Ref sig .tc := ⟨.hbm, 620, rfl⟩
abbrev main_v504 : Ref sig .tc := ⟨.hbm, 621, rfl⟩
abbrev main_v505 : Ref sig .tc := ⟨.hbm, 622, rfl⟩
abbrev main_v506 : Ref sig .tc := ⟨.hbm, 623, rfl⟩
abbrev main_v507 : Ref sig .tc := ⟨.hbm, 624, rfl⟩
abbrev main_call24_cst : Ref sig .tc := ⟨.hbm, 625, rfl⟩
abbrev main_call24_v0 : Ref sig .tc := ⟨.hbm, 626, rfl⟩
abbrev main_v508 : Ref sig .tc := ⟨.hbm, 627, rfl⟩
abbrev main_cst_42 : Ref sig .tc := ⟨.hbm, 628, rfl⟩
abbrev main_v509 : Ref sig .tc := ⟨.hbm, 629, rfl⟩
abbrev main_v510 : Ref sig .tc := ⟨.hbm, 630, rfl⟩
abbrev main_v511 : Ref sig .tc := ⟨.hbm, 631, rfl⟩
abbrev main_cst_43 : Ref sig .tc := ⟨.hbm, 632, rfl⟩
abbrev main_v512 : Ref sig .tc := ⟨.hbm, 633, rfl⟩
abbrev main_v513 : Ref sig .tc := ⟨.hbm, 634, rfl⟩
abbrev main_v514 : Ref sig .tc := ⟨.hbm, 635, rfl⟩
abbrev main_v515 : Ref sig .tc := ⟨.hbm, 636, rfl⟩
abbrev main_v516 : Ref sig .tc := ⟨.hbm, 637, rfl⟩
abbrev main_cst_44 : Ref sig .tc := ⟨.hbm, 638, rfl⟩
abbrev main_v517 : Ref sig .tc := ⟨.hbm, 639, rfl⟩
abbrev main_v518 : Ref sig .tc := ⟨.hbm, 640, rfl⟩
abbrev main_v519 : Ref sig .tc := ⟨.hbm, 641, rfl⟩
abbrev main_cst_45 : Ref sig .tc := ⟨.hbm, 642, rfl⟩
abbrev main_v520 : Ref sig .tc := ⟨.hbm, 643, rfl⟩
abbrev main_v521 : Ref sig .tc := ⟨.hbm, 644, rfl⟩
abbrev main_v522 : Ref sig .tc := ⟨.hbm, 645, rfl⟩
abbrev main_v523 : Ref sig .tc := ⟨.hbm, 646, rfl⟩
abbrev main_v524 : Ref sig .tc := ⟨.hbm, 647, rfl⟩
abbrev main_v525 : Ref sig .tc := ⟨.hbm, 648, rfl⟩
abbrev main_v526 : Ref sig .tc := ⟨.hbm, 649, rfl⟩
abbrev main_v527 : Ref sig .tc := ⟨.hbm, 650, rfl⟩
abbrev main_v528 : Ref sig .tc := ⟨.hbm, 651, rfl⟩
abbrev main_v529 : Ref sig .tc := ⟨.hbm, 652, rfl⟩
abbrev main_v530 : Ref sig .tc := ⟨.hbm, 653, rfl⟩
abbrev main_v531 : Ref sig .tc := ⟨.hbm, 654, rfl⟩
abbrev main_v532 : Ref sig .tc := ⟨.hbm, 655, rfl⟩
abbrev main_call25_cst : Ref sig .tc := ⟨.hbm, 656, rfl⟩
abbrev main_call25_v0 : Ref sig .tc := ⟨.hbm, 657, rfl⟩
abbrev main_v533 : Ref sig .tc := ⟨.hbm, 658, rfl⟩
abbrev main_v534 : Ref sig .tc := ⟨.hbm, 659, rfl⟩
abbrev main_v535 : Ref sig .tc := ⟨.hbm, 660, rfl⟩
abbrev main_v536 : Ref sig .tc := ⟨.hbm, 661, rfl⟩
abbrev main_v537 : Ref sig .tc := ⟨.hbm, 662, rfl⟩
abbrev main_v538 : Ref sig .tc := ⟨.hbm, 663, rfl⟩
abbrev main_v539 : Ref sig .tc := ⟨.hbm, 664, rfl⟩
abbrev main_v540 : Ref sig .tc := ⟨.hbm, 665, rfl⟩
abbrev main_v541 : Ref sig .tc := ⟨.hbm, 666, rfl⟩
abbrev main_v542 : Ref sig .tc := ⟨.hbm, 667, rfl⟩
abbrev main_v543 : Ref sig .tc := ⟨.hbm, 668, rfl⟩
abbrev main_v544 : Ref sig .tc := ⟨.hbm, 669, rfl⟩

abbrev nD : Nat := 1
abbrev τ : Topo := Topo.v7x

variable {F : FTy → Type} [FloatOps F]

class Facts₀ : Prop where
  slices_S2x2x800000_S1x1x800000_0_0_0 : S2x2x800000.Slices ![0, 0, 0] S1x1x800000
  shapeCasts_S1x1x800000_S800000 : S1x1x800000.ShapeCasts S800000
  slices_S2x2x800000_S1x1x800000_0_1_0 : S2x2x800000.Slices ![0, 1, 0] S1x1x800000
  slices_S2x50000x128_S1x50000x128_0_0_0 : S2x50000x128.Slices ![0, 0, 0] S1x50000x128
  shapeCasts_S1x50000x128_S50000x128 : S1x50000x128.ShapeCasts S50000x128
  slices_S2_S1_0 : S2.Slices ![0] S1
  shapeCasts_S1_S_ : S1.ShapeCasts S_
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  slices_S3_S1_0 : S3.Slices ![0] S1
  slices_S3x128x128_S1x128x128_0_0_0 : S3x128x128.Slices ![0, 0, 0] S1x128x128
  slices_S3x128_S1x128_0_0 : S3x128.Slices ![0, 0] S1x128
  slices_S3_S1_1 : S3.Slices ![1] S1
  slices_S3x128x128_S1x128x128_1_0_0 : S3x128x128.Slices ![1, 0, 0] S1x128x128
  slices_S3x128_S1x128_1_0 : S3x128.Slices ![1, 0] S1x128
  slices_S3_S1_2 : S3.Slices ![2] S1
  slices_S3x128x128_S1x128x128_2_0_0 : S3x128x128.Slices ![2, 0, 0] S1x128x128
  slices_S3x128_S1x128_2_0 : S3x128.Slices ![2, 0] S1x128
  bcast_S_S50000 : S_.BroadcastsInDim S50000 (![] : Fin 0 → Fin S50000.rank)
  slices_S2x50000_S1x50000_0_0 : S2x50000.Slices ![0, 0] S1x50000
  shapeCasts_S1x50000_S50000 : S1x50000.ShapeCasts S50000
  bcast_S50000_S50000x1_0 : S50000.BroadcastsInDim S50000x1 (![0] : Fin 1 → Fin S50000x1.rank)
  bcast_S_S128x128 : S_.BroadcastsInDim S128x128 (![] : Fin 0 → Fin S128x128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  bcast_S1x128_S128x128_0_1 : S1x128.BroadcastsInDim S128x128 (![0, 1] : Fin 2 → Fin S128x128.rank)
  slices_S2x128x10_S1x128x10_0_0_0 : S2x128x10.Slices ![0, 0, 0] S1x128x10
  shapeCasts_S1x128x10_S128x10 : S1x128x10.ShapeCasts S128x10
  slices_S2x10_S1x10_0_0 : S2x10.Slices ![0, 0] S1x10
  shapeCasts_S1x10_S10 : S1x10.ShapeCasts S10
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  slices_S2x2x800000_S1x1x800000_1_0_0 : S2x2x800000.Slices ![1, 0, 0] S1x1x800000
  slices_S2x2x800000_S1x1x800000_1_1_0 : S2x2x800000.Slices ![1, 1, 0] S1x1x800000
  slices_S2x50000x128_S1x50000x128_1_0_0 : S2x50000x128.Slices ![1, 0, 0] S1x50000x128
  slices_S2_S1_1 : S2.Slices ![1] S1
  slices_S2x128x128_S1x128x128_1_0_0 : S2x128x128.Slices ![1, 0, 0] S1x128x128
  slices_S2x128_S1x128_1_0 : S2x128.Slices ![1, 0] S1x128
  slices_S2x50000_S1x50000_1_0 : S2x50000.Slices ![1, 0] S1x50000
  slices_S2x128x10_S1x128x10_1_0_0 : S2x128x10.Slices ![1, 0, 0] S1x128x10
  slices_S2x10_S1x10_1_0 : S2x10.Slices ![1, 0] S1x10
  bcast_S128x10_S1x128x10_1_2 : S128x10.BroadcastsInDim S1x128x10 (![1, 2] : Fin 2 → Fin S1x128x10.rank)
  concatenates_S1x128x10_S1x128x10_S2x128x10_d0 : Shape.Concatenates [S1x128x10, S1x128x10] S2x128x10 0
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  scatter_S128_S50000x1_S50000_n_0_0_1_wf : ScatterDims.WF S128 S50000x1 S50000 [] [0] [0] 1
  scatter_S128x128_S50000x1_S50000x128_1_0_0_1_wf : ScatterDims.WF S128x128 S50000x1 S50000x128 [1] [0] [0] 1
  dot_S128x128_S128x128_S128x128_1_0_0_1_n_n_wf : DotDims.WF S128x128 S128x128 S128x128 [1] [0] [0] [1] [] []
  dot_S128x128_S128x10_S128x10_1_0_0_1_n_n_wf : DotDims.WF S128x128 S128x10 S128x10 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S128x128_S128x10_S128x10_1_0_0_1_n_n : DotDims S128x128 S128x10 S128x10 where
  lhsContracting := [1]
  rhsContracting := [0]
  lhsNonContracting := [0]
  rhsNonContracting := [1]
  lhsBatch := []
  rhsBatch := []
  wf := dot_S128x128_S128x10_S128x10_1_0_0_1_n_n_wf

class Facts : Prop extends Facts₀ where

variable [Facts]
-- ==== Proof.Preserves.lean ====
import proofs.«428878_j20040317403499_2_alg».proof.Defs

noncomputable section

open Idealize.ShloMosaic

namespace Cert.Proof.Preserves

theorem preserves : Cert.preserves_Kernel_KernelIdeal :=
  ⟨IdealRules.truncf_extf.statement Cert.KernelIdeal.S1000x128 .f32 .bf16,
   IdealRules.truncf_extf.statement Cert.KernelIdeal.S1000x128 .f32 .bf16⟩

end Cert.Proof.Preserves

end
-- ==== Proof.K.Gin0.lean ====
import proofs.«428878_j20040317403499_2_alg».proof.Proof.Gen.Kernel.Launch
import proofs.«428878_j20040317403499_2_alg».proof.Proof.Gen.Kernel.Skeleton
import proofs.«428878_j20040317403499_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S1000x128 := Rect.unit (s := S1000x128) ![0, 0] S1000x128.size inb_S1000x128_S1000x128_0_0
abbrev r0_w : Rect S128x128 := Rect.unit (s := S128x128) ![0, 0] S128x128.size inb_S128x128_S128x128_0_0
abbrev r0_v : Rect S1x128 := Rect.unit (s := S1x128) ![0, 0] S1x128.size inb_S1x128_S1x128_0_0

noncomputable def out0_9 (x0 : Vec F S1000x128 .f32) (x1 : Vec F S128x128 .f32) (x2 : Vec F S1x128 .f32) (x3 : Vec F S128x128 .f32)
    (x4 x5 x6 x7 x8 : Vec F S1x128 .f32) : Vec F S1000x128 .f32 :=
  View.canon [⟨r0_x, k0_pay1
    (k0_pay2 (View.ld x0 r0_x) (View.ld x1 r0_w) (View.ld x2 r0_v) (View.ld x3 r0_w) (View.ld x4 r0_v) (View.ld x5 r0_v) (View.ld x7 r0_v))
    (k0_pay3 (View.ld x8 r0_v)) (View.ld x6 r0_v)⟩]

noncomputable def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 1 t) (iblk0 V c 2 t) (iblk0 V c 3 t) (iblk0 V c 4 t) (iblk0 V c 5 t) (iblk0 V c 6 t) (iblk0 V c 7 t) (iblk0 V c 8 t)
  Φ _ := Pipeline.ΦA spec0 c
  q _ := fullShare
  owed _ := 0

theorem A_eq0 (c : Dev nD) (w : Fin cfg0.W) : (dat0 V c).A w = V c (Pipeline.arrRef spec0 w) := rfl

theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) (iblk0 V c 7 t) (iblk0 V c 8 t) := by
  dsimp only [dat0]

set_option maxHeartbeats 4000000 in
theorem sound_kernel0 (c : Dev nD) (E : Set ℕ) (i : grid0.Coords) (arg1 arg10 : Memref sig .tc .vmem S1000x128 .f32) (arg2 arg4 : Memref sig .tc .vmem S128x128 .f32) (arg3 arg5 arg6 arg7 arg8 arg9 : Memref sig .tc .vmem S1x128 .f32) (harg1 : arg1.IsWhole) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole)
    (x0 : Vec F S1000x128 .f32) (x1 : Vec F S128x128 .f32) (x2 : Vec F S1x128 .f32) (x3 : Vec F S128x128 .f32) (x4 x5 x6 x7 x8 : Vec F S1x128 .f32) (K : PUnit → sProp 𝕄) :
    iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5 ∗ owns c.tc arg7 fullShare x6 ∗ owns c.tc arg8 fullShare x7 ∗ owns c.tc arg9 fullShare x8 ∗ (∃ d, owns c.tc arg10 fullShare d)
        ∗ (iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5 ∗ owns c.tc arg7 fullShare x6 ∗ owns c.tc arg8 fullShare x7 ∗ owns c.tc arg9 fullShare x8 ∗ owns c.tc arg10 fullShare (out0_9 x0 x1 x2 x3 x4 x5 x6 x7 x8)) -∗ K ⟨⟩))
      ⊢ wp frame (wpE (defs₀ (F := F)) Variants.none c none) E (cc0__gin_layer_kernel i arg1 harg1 arg2 harg2 arg3 harg3 arg4 harg4 arg5 harg5 arg6 harg6 arg7 harg7 arg8 harg8 arg9 harg9 arg10 harg10) K := by
  simp only [cc0__gin_layer_kernel_eq_skeleton]; unfold cc0__gin_layer_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst_vars
  sl_exec
  sl_step
  iapply Hk
  isplitl [H0]; · iexists f0; isplitr; ipureintro; rfl; iexact H0
  isplitl [H1]; · iexists f1; isplitr; ipureintro; rfl; iexact H1
  isplitl [H2]; · iexists f2; isplitr; ipureintro; rfl; iexact H2
  isplitl [H3]; · iexists f3; isplitr; ipureintro; rfl; iexact H3
  isplitl [H4]; · iexists f4; isplitr; ipureintro; rfl; iexact H4
  isplitl [H5]; · iexists f5; isplitr; ipureintro; rfl; iexact H5
  isplitl [H6]; · iexists f6; isplitr; ipureintro; rfl; iexact H6
  isplitl [H7]; · iexists f7; isplitr; ipureintro; rfl; iexact H7
  isplitl [H8]; · iexists f8; isplitr; ipureintro; rfl; iexact H8
  iexists _; isplitr
  swap; · iexact H9
  ipureintro
  exact View.read_writes_eq_canon _ _ _ (View.cover_of_tiled _ S1000x128.size (by rfl))

theorem before0 (c : Dev nD) (t : Fin cfg0.N) : ∀ w : Fin cfg0.W, (cfg0.win w).isOut = false → ∀ d, (dat0 V c).before w t d = (dat0 V c).after w t
  | ⟨9, _⟩, h, _ => absurd h (by decide : ¬(cfg0.win 9).isOut = false)
  | ⟨0, _⟩, _, d | ⟨1, _⟩, _, d | ⟨2, _⟩, _, d | ⟨3, _⟩, _, d | ⟨4, _⟩, _, d | ⟨5, _⟩, _, d | ⟨6, _⟩, _, d | ⟨7, _⟩, _, d | ⟨8, _⟩, _, d =>
    (dat0 V c).before_in_eq_fetched _ rfl (fun _ => rfl) (fun _ _ _ => rfl) (fun _ => rfl) t d

theorem body_obligation0 (c : Dev nD) : BodyObligation (dat0 (F := F) V c) (defs₀ (F := F)) Variants.none () Set.univ := fun t => by
  rw [bigSep_W0, bigSep_W0]
  have hb := before0 V c t
  simp only [hb 0 rfl, hb 1 rfl, hb 2 rfl, hb 3 rfl, hb 4 rfl, hb 5 rfl, hb 6 rfl, hb 7 rfl, hb 8 rfl]
  dsimp only [dat0]
  sl_whnfR [defs₀, Defs.onTc]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  iframe H0 H1 H2 H3 H4 H5 H6 H7 H8
  isplitl [H9]; · iexists _; iexact H9
  iintro ⟨H0, H1, H2, H3, H4, H5, H6, H7, H8, H9⟩
  iframe HΦ H0 H1 H2 H3 H4 H5 H6 H7 H8 H9
  iapply Ho

end Cert.Kernel.Hand

end
-- ==== Proof.K.Gin1.lean ====
import proofs.«428878_j20040317403499_2_alg».proof.Proof.K.Gin0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_x : Rect S1000x128 := Rect.unit (s := S1000x128) ![0, 0] S1000x128.size inb_S1000x128_S1000x128_0_0
abbrev r1_w : Rect S128x128 := Rect.unit (s := S128x128) ![0, 0] S128x128.size inb_S128x128_S128x128_0_0
abbrev r1_v : Rect S1x128 := Rect.unit (s := S1x128) ![0, 0] S1x128.size inb_S1x128_S1x128_0_0

noncomputable def out1_9 (x0 : Vec F S1000x128 .f32) (x1 : Vec F S128x128 .f32) (x2 : Vec F S1x128 .f32) (x3 : Vec F S128x128 .f32)
    (x4 x5 x6 x7 x8 : Vec F S1x128 .f32) : Vec F S1000x128 .f32 :=
  View.canon [⟨r1_x, k1_pay1
    (k1_pay2 (View.ld x0 r1_x) (View.ld x1 r1_w) (View.ld x2 r1_v) (View.ld x3 r1_w) (View.ld x4 r1_v) (View.ld x5 r1_v) (View.ld x7 r1_v))
    (k1_pay3 (View.ld x8 r1_v)) (View.ld x6 r1_v)⟩]

noncomputable def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

theorem A_eq1 (c : Dev nD) (w : Fin cfg1.W) : (dat1 V c).A w = V c (Pipeline.arrRef spec1 w) := rfl

theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by
  dsimp only [dat1]

theorem before1 (c : Dev nD) (t : Fin cfg1.N) : ∀ w : Fin cfg1.W, (cfg1.win w).isOut = false → ∀ d, (dat1 V c).before w t d = (dat1 V c).after w t
  | ⟨9, _⟩, h, _ => absurd h (by decide : ¬(cfg1.win 9).isOut = false)
  | ⟨0, _⟩, _, d | ⟨1, _⟩, _, d | ⟨2, _⟩, _, d | ⟨3, _⟩, _, d | ⟨4, _⟩, _, d | ⟨5, _⟩, _, d | ⟨6, _⟩, _, d | ⟨7, _⟩, _, d | ⟨8, _⟩, _, d =>
    (dat1 V c).before_in_eq_fetched _ rfl (fun _ => rfl) (fun _ _ _ => rfl) (fun _ => rfl) t d

theorem body_obligation1 (c : Dev nD) : BodyObligation (dat1 (F := F) V c) (defs₀ (F := F)) Variants.none () Set.univ := fun t => by
  rw [bigSep_W1, bigSep_W1]
  have hb := before1 V c t
  simp only [hb 0 rfl, hb 1 rfl, hb 2 rfl, hb 3 rfl, hb 4 rfl, hb 5 rfl, hb 6 rfl, hb 7 rfl, hb 8 rfl]
  dsimp only [dat1]
  sl_whnfR [defs₀, Defs.onTc]
  rewrite [show @cc1__gin_layer_kernel F _ = @cc0__gin_layer_kernel F _ from rfl, show @out1_9 F _ = @out0_9 F _ from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  iframe H0 H1 H2 H3 H4 H5 H6 H7 H8
  isplitl [H9]; · iexists _; iexact H9
  iintro ⟨H0, H1, H2, H3, H4, H5, H6, H7, H8, H9⟩
  iframe HΦ H0 H1 H2 H3 H4 H5 H6 H7 H8 H9
  iapply Ho

end Cert.Kernel.Hand

end
-- ==== Proof.K.Gin2.lean ====
import proofs.«428878_j20040317403499_2_alg».proof.Proof.K.Gin0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_x : Rect S1000x128 := Rect.unit (s := S1000x128) ![0, 0] S1000x128.size inb_S1000x128_S1000x128_0_0
abbrev r2_w : Rect S128x128 := Rect.unit (s := S128x128) ![0, 0] S128x128.size inb_S128x128_S128x128_0_0
abbrev r2_v : Rect S1x128 := Rect.unit (s := S1x128) ![0, 0] S1x128.size inb_S1x128_S1x128_0_0

noncomputable def out2_9 (x0 : Vec F S1000x128 .f32) (x1 : Vec F S128x128 .f32) (x2 : Vec F S1x128 .f32) (x3 : Vec F S128x128 .f32)
    (x4 x5 x6 x7 x8 : Vec F S1x128 .f32) : Vec F S1000x128 .f32 :=
  View.canon [⟨r2_x, k2_pay1
    (k2_pay2 (View.ld x0 r2_x) (View.ld x1 r2_w) (View.ld x2 r2_v) (View.ld x3 r2_w) (View.ld x4 r2_v) (View.ld x5 r2_v) (View.ld x7 r2_v))
    (k2_pay3 (View.ld x8 r2_v)) (View.ld x6 r2_v)⟩]

noncomputable def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => out2_9 (iblk2 V c 0 t) (iblk2 V c 1 t) (iblk2 V c 2 t) (iblk2 V c 3 t) (iblk2 V c 4 t) (iblk2 V c 5 t) (iblk2 V c 6 t) (iblk2 V c 7 t) (iblk2 V c 8 t)
  Φ _ := Pipeline.ΦA spec2 c
  q _ := fullShare
  owed _ := 0

theorem A_eq2 (c : Dev nD) (w : Fin cfg2.W) : (dat2 V c).A w = V c (Pipeline.arrRef spec2 w) := rfl

theorem after2_9 (c : Dev nD) (t : Fin cfg2.N) : (dat2 V c).after 9 t = out2_9 (iblk2 V c 0 t) (iblk2 V c 1 t) (iblk2 V c 2 t) (iblk2 V c 3 t) (iblk2 V c 4 t) (iblk2 V c 5 t) (iblk2 V c 6 t) (iblk2 V c 7 t) (iblk2 V c 8 t) := by
  dsimp only [dat2]

theorem before2 (c : Dev nD) (t : Fin cfg2.N) : ∀ w : Fin cfg2.W, (cfg2.win w).isOut = false → ∀ d, (dat2 V c).before w t d = (dat2 V c).after w t
  | ⟨9, _⟩, h, _ => absurd h (by decide : ¬(cfg2.win 9).isOut = false)
  | ⟨0, _⟩, _, d | ⟨1, _⟩, _, d | ⟨2, _⟩, _, d | ⟨3, _⟩, _, d | ⟨4, _⟩, _, d | ⟨5, _⟩, _, d | ⟨6, _⟩, _, d | ⟨7, _⟩, _, d | ⟨8, _⟩, _, d =>
    (dat2 V c).before_in_eq_fetched _ rfl (fun _ => rfl) (fun _ _ _ => rfl) (fun _ => rfl) t d

theorem body_obligation2 (c : Dev nD) : BodyObligation (dat2 (F := F) V c) (defs₀ (F := F)) Variants.none () Set.univ := fun t => by
  rw [bigSep_W2, bigSep_W2]
  have hb := before2 V c t
  simp only [hb 0 rfl, hb 1 rfl, hb 2 rfl, hb 3 rfl, hb 4 rfl, hb 5 rfl, hb 6 rfl, hb 7 rfl, hb 8 rfl]
  dsimp only [dat2]
  sl_whnfR [defs₀, Defs.onTc]
  rewrite [show @cc2__gin_layer_kernel F _ = @cc0__gin_layer_kernel F _ from rfl, show @out2_9 F _ = @out0_9 F _ from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) _)
  iframe H0 H1 H2 H3 H4 H5 H6 H7 H8
  isplitl [H9]; · iexists _; iexact H9
  iintro ⟨H0, H1, H2, H3, H4, H5, H6, H7, H8, H9⟩
  iframe HΦ H0 H1 H2 H3 H4 H5 H6 H7 H8 H9
  iapply Ho

end Cert.Kernel.Hand

end
-- ==== Proof.K.Gin3.lean ====
import proofs.«428878_j20040317403499_2_alg».proof.Proof.K.Gin0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_x : Rect S1000x128 := Rect.unit (s := S1000x128) ![0, 0] S1000x128.size inb_S1000x128_S1000x128_0_0
abbrev r3_w : Rect S128x128 := Rect.unit (s := S128x128) ![0, 0] S128x128.size inb_S128x128_S128x128_0_0
abbrev r3_v : Rect S1x128 := Rect.unit (s := S1x128) ![0, 0] S1x128.size inb_S1x128_S1x128_0_0

noncomputable def out3_9 (x0 : Vec F S1000x128 .f32) (x1 : Vec F S128x128 .f32) (x2 : Vec F S1x128 .f32) (x3 : Vec F S128x128 .f32)
    (x4 x5 x6 x7 x8 : Vec F S1x128 .f32) : Vec F S1000x128 .f32 :=
  View.canon [⟨r3_x, k3_pay1
    (k3_pay2 (View.ld x0 r3_x) (View.ld x1 r3_w) (View.ld x2 r3_v) (View.ld x3 r3_w) (View.ld x4 r3_v) (View.ld x5 r3_v) (View.ld x7 r3_v))
    (k3_pay3 (View.ld x8 r3_v)) (View.ld x6 r3_v)⟩]

noncomputable def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => out3_9 (iblk3 V c 0 t) (iblk3 V c 1 t) (iblk3 V c 2 t) (iblk3 V c 3 t) (iblk3 V c 4 t) (iblk3 V c 5 t) (iblk3 V c 6 t) (iblk3 V c 7 t) (iblk3 V c 8 t)
  Φ _ := Pipeline.ΦA spec3 c
  q _ := fullShare
  owed _ := 0

theorem A_eq3 (c : Dev nD) (w : Fin cfg3.W) : (dat3 V c).A w = V c (Pipeline.arrRef spec3 w) := rfl

theorem after3_9 (c : Dev nD) (t : Fin cfg3.N) : (dat3 V c).after 9 t = out3_9 (iblk3 V c 0 t) (iblk3 V c 1 t) (iblk3 V c 2 t) (iblk3 V c 3 t) (iblk3 V c 4 t) (iblk3 V c 5 t) (iblk3 V c 6 t) (iblk3 V c 7 t) (iblk3 V c 8 t) := by
  dsimp only [dat3]

theorem before3 (c : Dev nD) (t : Fin cfg3.N) : ∀ w : Fin cfg3.W, (cfg3.win w).isOut = false → ∀ d, (dat3 V c).before w t d = (dat3 V c).after w t
  | ⟨9, _⟩, h, _ => absurd h (by decide : ¬(cfg3.win 9).isOut = false)
  | ⟨0, _⟩, _, d | ⟨1, _⟩, _, d | ⟨2, _⟩, _, d | ⟨3, _⟩, _, d | ⟨4, _⟩, _, d | ⟨5, _⟩, _, d | ⟨6, _⟩, _, d | ⟨7, _⟩, _, d | ⟨8, _⟩, _, d =>
    (dat3 V c).before_in_eq_fetched _ rfl (fun _ => rfl) (fun _ _ _ => rfl) (fun _ => rfl) t d

theorem body_obligation3 (c : Dev nD) : BodyObligation (dat3 (F := F) V c) (defs₀ (F := F)) Variants.none () Set.univ := fun t => by
  rw [bigSep_W3, bigSep_W3]
  have hb := before3 V c t
  simp only [hb 0 rfl, hb 1 rfl, hb 2 rfl, hb 3 rfl, hb 4 rfl, hb 5 rfl, hb 6 rfl, hb 7 rfl, hb 8 rfl]
  dsimp only [dat3]
  sl_whnfR [defs₀, Defs.onTc]
  rewrite [show @cc3__gin_layer_kernel F _ = @cc0__gin_layer_kernel F _ from rfl, show @out3_9 F _ = @out0_9 F _ from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) _)
  iframe H0 H1 H2 H3 H4 H5 H6 H7 H8
  isplitl [H9]; · iexists _; iexact H9
  iintro ⟨H0, H1, H2, H3, H4, H5, H6, H7, H8, H9⟩
  iframe HΦ H0 H1 H2 H3 H4 H5 H6 H7 H8 H9
  iapply Ho

end Cert.Kernel.Hand

end
-- ==== Proof.K.Pool4.lean ====
import proofs.«428878_j20040317403499_2_alg».proof.Proof.Gen.Kernel.Launch
import proofs.«428878_j20040317403499_2_alg».proof.Proof.Gen.Kernel.Skeleton
import proofs.«428878_j20040317403499_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Pipeline.TableIdle
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

private theorem zeros2 : (![0, 0] : Fin 2 → ℕ) = fun _ => 0 := funext fun a => by fin_cases a <;> rfl

private theorem read_store_whole {S : Shape} {e : EltTy} (v : View sig .tc .vmem S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w := by
  rw [View.read_writes_eq_canon v f _ (fun y => ⟨_, List.mem_cons_self, View.mem_set_unit_zero h inb y⟩),
    View.canon_cons_unit_zero h inb w L]

abbrev first4 (i : grid4.Coords) : Prop :=
  (Scalar.cmpi .ne (Scalar.extui (Scalar.cmpi .eq (BitVec.ofNat 32 (i 0).val) 0#32)) 0#32) = 1#1
abbrev last4 (i : grid4.Coords) : Prop := k4_cond2 i = 1#1

theorem hfirst4 : ∀ t : Fin cfg4.N, first4 (grid4.coords t) ↔ t.val = 0 :=
  (by decide +kernel : ∀ t : Fin grid4.N, first4 (grid4.coords t) ↔ t.val = 0)
theorem hlast4 : ∀ t : Fin cfg4.N, last4 (grid4.coords t) ↔ t.val = 49 :=
  (by decide +kernel : ∀ t : Fin grid4.N, last4 (grid4.coords t) ↔ t.val = 49)

theorem idleAt4_6 : ∀ t : Fin cfg4.N, ¬ t.val = 49 → cfg4.idle 6 (grid4.coords t) = true :=
  (by decide +kernel : ∀ t : Fin grid4.N, ¬ t.val = 49 → cfg4.idle 6 (grid4.coords t) = true)
theorem noFlush4_6 : ∀ t : Fin cfg4.N, ¬ t.val = 49 → (cfg4.win 6).flush t = false :=
  (by decide +kernel : ∀ t : Fin grid4.N, ¬ t.val = 49 → win4_6.flush t = false)
theorem liveAt4_6 : ∀ t : Fin cfg4.N, t.val = 49 → cfg4.idle 6 (grid4.coords t) = false :=
  (by decide +kernel : ∀ t : Fin grid4.N, t.val = 49 → cfg4.idle 6 (grid4.coords t) = false)

set_option maxHeartbeats 1000000 in
-- One run for every point: the accumulators restart from zero at the first point, the head is stored at the last.
theorem poolRun4 (c : Dev nD) (i : grid4.Coords)
    (arg1 : Memref sig .tc .vmem S1000x128 .f32) (harg1 : arg1.IsWhole) (arg2 : Memref sig .tc .vmem S1000x1 .i32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x10 .f32) (harg5 : arg5.IsWhole) (arg6 : Memref sig .tc .vmem S1x10 .f32) (harg6 : arg6.IsWhole)
    (arg7 : Memref sig .tc .vmem S128x10 .f32) (harg7 : arg7.IsWhole) (arg8 : Memref sig .tc .vmem S128x128 .f32) (harg8 : arg8.IsWhole)
    (arg9 : Memref sig .tc .vmem S1x128 .f32) (harg9 : arg9.IsWhole) (hfl : first4 i → ¬ last4 i)
    (x0 : Vec F S1000x128 .f32) (x1 : Vec F S1000x1 .i32) (x2 : Vec F S128x128 .f32) (x3 : Vec F S1x128 .f32)
    (x4 : Vec F S128x10 .f32) (x5 : Vec F S1x10 .f32) (x6 : Vec F S128x10 .f32)
    (a a₀ : Vec F S128x128 .f32) (n n₀ : Vec F S1x128 .f32)
    (ha : (if first4 i then k4_pay1 else a) = a₀) (hn : (if first4 i then k4_pay2 else n) = n₀)
    (E : Set ℕ) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare x6 ∗ owns (c : Thread nD τ) arg8 fullShare a ∗ owns (c : Thread nD τ) arg9 fullShare n
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (if last4 i then k4_pay6 (k4_pay5 x1 n₀) (k4_pay4 x0 x1 a₀) x2 x3 x4 x5 else x6)
            ∗ owns (c : Thread nD τ) arg8 fullShare (k4_pay4 x0 x1 a₀) ∗ owns (c : Thread nD τ) arg9 fullShare (k4_pay5 x1 n₀)) -∗ K ⟨⟩))
      ⊢ wp frame (wpE (defs₀ (F := F)) Variants.none c none) E (cc4__pool_kernel i arg1 harg1 arg2 harg2 arg3 harg3 arg4 harg4 arg5 harg5 arg6 harg6 arg7 harg7 arg8 harg8 arg9 harg9) K := by
  subst ha hn
  rw [owns_eq_rep (c : Thread nD τ) arg1, owns_eq_rep (c : Thread nD τ) arg2, owns_eq_rep (c : Thread nD τ) arg3, owns_eq_rep (c : Thread nD τ) arg4, owns_eq_rep (c : Thread nD τ) arg5, owns_eq_rep (c : Thread nD τ) arg6,
    owns_eq_rep (c : Thread nD τ) arg7 _ x6, owns_eq_rep (c : Thread nD τ) arg8 _ a, owns_eq_rep (c : Thread nD τ) arg9 _ n]
  by_cases hc0 : first4 i <;> by_cases hc1 : last4 i <;> first | exact absurd hc1 (hfl hc0) | skip
  all_goals
    first | rw [if_pos hc0, if_pos hc0] | rw [if_neg hc0, if_neg hc0]
    first | rw [if_pos hc1] | rw [if_neg hc1]
    simp only [cc4__pool_kernel_eq_skeleton]; unfold cc4__pool_kernel_skel owns
    iintro ⟨H0, H1, H2, H3, H4, H5, H6, H7, H8, Hk⟩
    sl_exec (disch := first | exact hc0 | exact hc1)
    sl_step
    iapply Hk
    iframe H0 H1 H2 H3 H4 H5
    isplitl [H6]; rotate_left; isplitl [H7]
    all_goals
      iexists _; isplitr; swap; · iassumption
      ipureintro; sl_unfold_run_names
      repeat rw [read_store_whole _ _ zeros2]
      repeat rw [View.readCov_unit_zero _ zeros2]
      repeat rw [View.readAt_eq_ld]
      repeat rw [View.ld_unit_zero zeros2]
      repeat rw [View.read_rep]

section Region

variable (V : (c : Dev nD) → (b : Ref sig .tc) → Buf (Elt F) ((c : Thread nD τ).loc b))

noncomputable def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

noncomputable def accAt4 (c : Dev nD) : ℕ → Vec F S128x128 .f32
  | 0 => k4_pay1
  | n + 1 => if hn : n < cfg4.N then k4_pay4 (iblk4 V c 0 ⟨n, hn⟩) (iblk4 V c 1 ⟨n, hn⟩) (accAt4 c n) else accAt4 c n

noncomputable def cntAt4 (c : Dev nD) : ℕ → Vec F S1x128 .f32
  | 0 => k4_pay2
  | n + 1 => if hn : n < cfg4.N then k4_pay5 (iblk4 V c 1 ⟨n, hn⟩) (cntAt4 c n) else cntAt4 c n

theorem accAt4_zero (c : Dev nD) : accAt4 V c 0 = k4_pay1 := rfl
theorem cntAt4_zero (c : Dev nD) : cntAt4 V c 0 = k4_pay2 := rfl

theorem accAt4_succ (c : Dev nD) (n : ℕ) (hn : n < cfg4.N) :
    accAt4 V c (n + 1) = k4_pay4 (iblk4 V c 0 ⟨n, hn⟩) (iblk4 V c 1 ⟨n, hn⟩) (accAt4 V c n) := by
  rw [accAt4, dif_pos hn]

theorem cntAt4_succ (c : Dev nD) (n : ℕ) (hn : n < cfg4.N) :
    cntAt4 V c (n + 1) = k4_pay5 (iblk4 V c 1 ⟨n, hn⟩) (cntAt4 V c n) := by
  rw [cntAt4, dif_pos hn]

theorem accAt4_step (c : Dev nD) (t : Fin cfg4.N) :
    accAt4 V c (t.val + 1) = k4_pay4 (iblk4 V c 0 t) (iblk4 V c 1 t) (accAt4 V c t.val) := accAt4_succ V c t.val t.isLt
theorem cntAt4_step (c : Dev nD) (t : Fin cfg4.N) :
    cntAt4 V c (t.val + 1) = k4_pay5 (iblk4 V c 1 t) (cntAt4 V c t.val) := cntAt4_succ V c t.val t.isLt

abbrev scM4_0 : Memref sig .tc .vmem S128x128 .f32 := Memref.whole cc4_scratch0
abbrev scM4_1 : Memref sig .tc .vmem S1x128 .f32 := Memref.whole cc4_scratch1

abbrev restBut4 (c : Dev nD) : sProp 𝕄 :=
  Pipeline.scopedRestBut (Ix := Unit) (Name := ℕ) (U := UR sig nD τ) (Lvl := ℕ) (Val := Elt F) spec4 c [cc4_scratch0, cc4_scratch1]

noncomputable def PhiS4 (c : Dev nD) : ℕ → sProp 𝕄
  | 0 => iprop((∃ d, owns (c : Thread nD τ) scM4_0 fullShare d) ∗ (∃ d, owns (c : Thread nD τ) scM4_1 fullShare d)
      ∗ restBut4 c ∗ (∃ r, prngReg c r))
  | n + 1 => iprop(owns (c : Thread nD τ) scM4_0 fullShare (accAt4 V c (n + 1)) ∗ owns (c : Thread nD τ) scM4_1 fullShare (cntAt4 V c (n + 1))
      ∗ restBut4 c ∗ (∃ r, prngReg c r))

theorem PhiS4_zero (c : Dev nD) (n : ℕ) (hz : n = 0) :
    PhiS4 V c n = iprop((∃ d, owns (c : Thread nD τ) scM4_0 fullShare d) ∗ (∃ d, owns (c : Thread nD τ) scM4_1 fullShare d)
      ∗ restBut4 c ∗ (∃ r, prngReg c r)) := by
  subst hz; rfl

theorem PhiS4_pos (c : Dev nD) (n : ℕ) (hz : n ≠ 0) :
    PhiS4 V c n = iprop(owns (c : Thread nD τ) scM4_0 fullShare (accAt4 V c n) ∗ owns (c : Thread nD τ) scM4_1 fullShare (cntAt4 V c n)
      ∗ restBut4 c ∗ (∃ r, prngReg c r)) := by
  cases n with
  | zero => exact absurd rfl hz
  | succ n => rfl

noncomputable def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => k4_pay6 (cntAt4 V c (t.val + 1)) (accAt4 V c (t.val + 1)) (iblk4 V c 2 t) (iblk4 V c 3 t) (iblk4 V c 4 t) (iblk4 V c 5 t)
  Φ t := PhiS4 V c t.val
  q _ := fullShare
  owed _ := 0

theorem A_eq4 (c : Dev nD) (w : Fin cfg4.W) : (dat4 V c).A w = V c (Pipeline.arrRef spec4 w) := by
  dsimp only [dat4]

theorem after4_6 (c : Dev nD) (t : Fin cfg4.N) : (dat4 V c).after 6 t
    = k4_pay6 (cntAt4 V c (t.val + 1)) (accAt4 V c (t.val + 1)) (iblk4 V c 2 t) (iblk4 V c 3 t) (iblk4 V c 4 t) (iblk4 V c 5 t) := by
  dsimp only [dat4]

theorem after4_6_last (c : Dev nD) (t : Fin cfg4.N) (ht : t.val = 49) : (dat4 V c).after 6 t
    = k4_pay6 (cntAt4 V c 50) (accAt4 V c 50) (iblk4 V c 2 t) (iblk4 V c 3 t) (iblk4 V c 4 t) (iblk4 V c 5 t) := by
  rw [after4_6, ht]

theorem before4_0 (c : Dev nD) (t : Fin cfg4.N) (d) : (dat4 V c).before 0 t d = iblk4 V c 0 t :=
  ((dat4 V c).before_in_eq_fetched 0 rfl (fun _ => rfl) (fun _ _ _ => rfl) (fun _ => rfl) t d).trans rfl
theorem before4_1 (c : Dev nD) (t : Fin cfg4.N) (d) : (dat4 V c).before 1 t d = iblk4 V c 1 t :=
  ((dat4 V c).before_in_eq_fetched 1 rfl (fun _ => rfl) (fun _ _ _ => rfl) (fun _ => rfl) t d).trans rfl
theorem before4_2 (c : Dev nD) (t : Fin cfg4.N) (d) : (dat4 V c).before 2 t d = iblk4 V c 2 t :=
  ((dat4 V c).before_in_eq_fetched 2 rfl (fun _ => rfl) (fun _ _ _ => rfl) (fun _ => rfl) t d).trans rfl
theorem before4_3 (c : Dev nD) (t : Fin cfg4.N) (d) : (dat4 V c).before 3 t d = iblk4 V c 3 t :=
  ((dat4 V c).before_in_eq_fetched 3 rfl (fun _ => rfl) (fun _ _ _ => rfl) (fun _ => rfl) t d).trans rfl
theorem before4_4 (c : Dev nD) (t : Fin cfg4.N) (d) : (dat4 V c).before 4 t d = iblk4 V c 4 t :=
  ((dat4 V c).before_in_eq_fetched 4 rfl (fun _ => rfl) (fun _ _ _ => rfl) (fun _ => rfl) t d).trans rfl
theorem before4_5 (c : Dev nD) (t : Fin cfg4.N) (d) : (dat4 V c).before 5 t d = iblk4 V c 5 t :=
  ((dat4 V c).before_in_eq_fetched 5 rfl (fun _ => rfl) (fun _ _ _ => rfl) (fun _ => rfl) t d).trans rfl

-- Read as zero at the first point, the accumulators the invariant hands over are the sums and counts so far.
theorem PhiS4_open (c : Dev nD) (t : Fin cfg4.N) : PhiS4 V c t.val ⊢ iprop(∃ a m,
    ⌜(if first4 (grid4.coords t) then k4_pay1 else a) = accAt4 V c t.val
      ∧ (if first4 (grid4.coords t) then k4_pay2 else m) = cntAt4 V c t.val⌝
    ∗ owns (c : Thread nD τ) scM4_0 fullShare a ∗ owns (c : Thread nD τ) scM4_1 fullShare m ∗ restBut4 c ∗ (∃ r, prngReg c r)) := by
  by_cases hz : t.val = 0
  · rw [PhiS4_zero V c _ hz]
    iintro ⟨⟨%a, H0⟩, ⟨%m, H1⟩, H⟩
    iexists a; iexists m; isplitr
    · ipureintro; rw [if_pos ((hfirst4 t).mpr hz), if_pos ((hfirst4 t).mpr hz), hz]; exact ⟨rfl, rfl⟩
    iframe
  · rw [PhiS4_pos V c _ hz]
    iintro ⟨H0, H1, H⟩
    iexists accAt4 V c t.val; iexists cntAt4 V c t.val; isplitr
    · ipureintro; rw [if_neg (mt (hfirst4 t).mp hz), if_neg (mt (hfirst4 t).mp hz)]; exact ⟨rfl, rfl⟩
    iframe

-- At the last point the output block holds the head; before it the body leaves it as found.
theorem out4 (c : Dev nD) (t : Fin cfg4.N) (d) :
    owns (c : Thread nD τ) (st4_6 t) fullShare (if last4 (grid4.coords t) then
        k4_pay6 (k4_pay5 (iblk4 V c 1 t) (cntAt4 V c t.val)) (k4_pay4 (iblk4 V c 0 t) (iblk4 V c 1 t) (accAt4 V c t.val))
          (iblk4 V c 2 t) (iblk4 V c 3 t) (iblk4 V c 4 t) (iblk4 V c 5 t)
      else (dat4 V c).before 6 t d) ⊢ (dat4 V c).leavesExact 6 t := by
  by_cases hl : t.val = 49
  · refine Entails.of_eq ?_
    rw [if_pos ((hlast4 t).mpr hl), show (dat4 V c).leavesExact 6 t = owns (c : Thread nD τ) (st4_6 t) fullShare ((dat4 V c).after 6 t) from by
      unfold Dat.leavesExact; rw [liveAt4_6 t hl], after4_6, accAt4_step, cntAt4_step]
  · rw [if_neg (mt (hlast4 t).mp hl), Dat.leavesExact_idle (dat4 V c) 6 t (idleAt4_6 t hl) (noFlush4_6 t hl)]
    iintro H; iexists d; iexact H

noncomputable def bodyPre4 (c : Dev nD) (t : Fin cfg4.N) : sProp 𝕄 :=
  iprop(PhiS4 V c t.val ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

noncomputable def bodyPost4 (c : Dev nD) (t : Fin cfg4.N) : sProp 𝕄 :=
  iprop(PhiS4 V c (t.val + 1) ∗ (dat4 V c).owesAt () t.castSucc
    ∗ owns (c : Thread nD τ) (st4_0 t) fullShare (iblk4 V c 0 t)
    ∗ owns (c : Thread nD τ) (st4_1 t) fullShare (iblk4 V c 1 t)
    ∗ owns (c : Thread nD τ) (st4_2 t) fullShare (iblk4 V c 2 t)
    ∗ owns (c : Thread nD τ) (st4_3 t) fullShare (iblk4 V c 3 t)
    ∗ owns (c : Thread nD τ) (st4_4 t) fullShare (iblk4 V c 4 t)
    ∗ owns (c : Thread nD τ) (st4_5 t) fullShare (iblk4 V c 5 t)
    ∗ (dat4 V c).leavesExact 6 t)

set_option maxHeartbeats 4800000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [PhiS4_pos V c (t.val + 1) (Nat.succ_ne_zero _), accAt4_step, cntAt4_step]
  iintro ⟨HΦ, Ho, ⟨%d0, H0⟩, ⟨%d1, H1⟩, ⟨%d2, H2⟩, ⟨%d3, H3⟩, ⟨%d4, H4⟩, ⟨%d5, H5⟩, ⟨%d6, H6⟩⟩
  ihave HΦ' := (PhiS4_open V c t) $$ HΦ
  icases HΦ' with ⟨%a, %m, %ham, HS0, HS1, Hrest, Hg⟩
  iapply (poolRun4 c (grid4.coords t) _ _ _ _ _ _ _ _ _ _ _ _ _ _ _ _ _ _
    (fun h0 h1 => by have := (hfirst4 t).mp h0; have := (hlast4 t).mp h1; omega)
    (iblk4 V c 0 t) (iblk4 V c 1 t) (iblk4 V c 2 t) (iblk4 V c 3 t) (iblk4 V c 4 t) (iblk4 V c 5 t) ((dat4 V c).before 6 t d6)
    a _ m _ ham.1 ham.2 Set.univ _)
  iframe H0 H1 H2 H3 H4 H5 H6 HS0 HS1
  iintro ⟨H0, H1, H2, H3, H4, H5, H6, HS0, HS1⟩
  iframe H0 H1 H2 H3 H4 H5 HS0 HS1 Hrest Hg Ho
  iapply (out4 V c t d6) $$ H6

theorem body_obligation4 (c : Dev nD) : BodyObligation (dat4 (F := F) V c) (defs₀ (F := F)) Variants.none () Set.univ := fun t => by
  rw [bigSep_W4, bigSep_W4]
  exact sound_body4 V c t

theorem scopedRest4_eq (c : Dev nD) :
    (Pipeline.scopedRest (Ix := Unit) (Name := ℕ) (U := UR sig nD τ) (Lvl := ℕ) (Val := Elt F) spec4 c : sProp 𝕄)
      = iprop(iprop((∃ d, owns (c : Thread nD τ) scM4_0 fullShare d) ∗ (∃ d, owns (c : Thread nD τ) scM4_1 fullShare d)) ∗ restBut4 c) := by
  rw [scopedRest4_split]; simp only [scM4_0, scM4_1, owns_whole]; rfl

theorem hin4 (c : Dev nD) :
    iprop((∃ r, prngReg c r) ∗ Pipeline.prefHeld (pcfgs (F := F) 4).pre c (fun _ => fullShare) ((cfgs 4).toPCfg_adm).1
        ∗ Pipeline.scopedRest spec4 c) ⊢ (dat4 V c).Φ 0 := by
  rw [show (dat4 V c).Φ 0 = PhiS4 V c 0 from rfl, PhiS4_zero V c 0 rfl, scopedRest4_eq]
  iintro ⟨Hg, -, ⟨HS0, HS1⟩, Hrest⟩
  iframe

theorem hout4 (c : Dev nD) : (dat4 V c).Φ (Fin.last cfg4.N)
    ⊢ iprop((∃ r, prngReg c r) ∗ Pipeline.ownSems0 (fun k : PEmpty => k.elim) c ∗ Pipeline.scopedRest spec4 c) := by
  rw [Pipeline.ownSems0_none, show (dat4 V c).Φ (Fin.last cfg4.N) = PhiS4 V c cfg4.N from rfl,
    PhiS4_pos V c cfg4.N (by rw [show cfg4.N = 50 from N_4]; decide), scopedRest4_eq]
  iintro ⟨HS0, HS1, Hrest, Hg⟩
  iframe Hg Hrest
  isplitr; · iempintro
  isplitl [HS0] <;> (iexists _; iassumption)

end Region

end Cert.Kernel.Hand

end
-- ==== Proof.K.Gin5.lean ====
import proofs.«428878_j20040317403499_2_alg».proof.Proof.K.Gin0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

noncomputable def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_x : Rect S1000x128 := Rect.unit (s := S1000x128) ![0, 0] S1000x128.size inb_S1000x128_S1000x128_0_0
abbrev r5_w : Rect S128x128 := Rect.unit (s := S128x128) ![0, 0] S128x128.size inb_S128x128_S128x128_0_0
abbrev r5_v : Rect S1x128 := Rect.unit (s := S1x128) ![0, 0] S1x128.size inb_S1x128_S1x128_0_0

noncomputable def out5_9 (x0 : Vec F S1000x128 .f32) (x1 : Vec F S128x128 .f32) (x2 : Vec F S1x128 .f32) (x3 : Vec F S128x128 .f32)
    (x4 x5 x6 x7 x8 : Vec F S1x128 .f32) : Vec F S1000x128 .f32 :=
  View.canon [⟨r5_x, k5_pay1
    (k5_pay2 (View.ld x0 r5_x) (View.ld x1 r5_w) (View.ld x2 r5_v) (View.ld x3 r5_w) (View.ld x4 r5_v) (View.ld x5 r5_v) (View.ld x7 r5_v))
    (k5_pay3 (View.ld x8 r5_v)) (View.ld x6 r5_v)⟩]

noncomputable def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => iblk5 V c 8 t
    | ⟨9, _⟩ => out5_9 (iblk5 V c 0 t) (iblk5 V c 1 t) (iblk5 V c 2 t) (iblk5 V c 3 t) (iblk5 V c 4 t) (iblk5 V c 5 t) (iblk5 V c 6 t) (iblk5 V c 7 t) (iblk5 V c 8 t)
  Φ _ := Pipeline.ΦA spec5 c
  q _ := fullShare
  owed _ := 0

theorem A_eq5 (c : Dev nD) (w : Fin cfg5.W) : (dat5 V c).A w = V c (Pipeline.arrRef spec5 w) := rfl

theorem after5_9 (c : Dev nD) (t : Fin cfg5.N) : (dat5 V c).after 9 t = out5_9 (iblk5 V c 0 t) (iblk5 V c 1 t) (iblk5 V c 2 t) (iblk5 V c 3 t) (iblk5 V c 4 t) (iblk5 V c 5 t) (iblk5 V c 6 t) (iblk5 V c 7 t) (iblk5 V c 8 t) := by
  dsimp only [dat5]

theorem before5 (c : Dev nD) (t : Fin cfg5.N) : ∀ w : Fin cfg5.W, (cfg5.win w).isOut = false → ∀ d, (dat5 V c).before w t d = (dat5 V c).after w t
  | ⟨9, _⟩, h, _ => absurd h (by decide : ¬(cfg5.win 9).isOut = false)
  | ⟨0, _⟩, _, d | ⟨1, _⟩, _, d | ⟨2, _⟩, _, d | ⟨3, _⟩, _, d | ⟨4, _⟩, _, d | ⟨5, _⟩, _, d | ⟨6, _⟩, _, d | ⟨7, _⟩, _, d | ⟨8, _⟩, _, d =>
    (dat5 V c).before_in_eq_fetched _ rfl (fun _ => rfl) (fun _ _ _ => rfl) (fun _ => rfl) t d

theorem body_obligation5 (c : Dev nD) : BodyObligation (dat5 (F := F) V c) (defs₀ (F := F)) Variants.none () Set.univ := fun t => by
  rw [bigSep_W5, bigSep_W5]
  have hb := before5 V c t
  simp only [hb 0 rfl, hb 1 rfl, hb 2 rfl, hb 3 rfl, hb 4 rfl, hb 5 rfl, hb 6 rfl, hb 7 rfl, hb 8 rfl]
  dsimp only [dat5]
  sl_whnfR [defs₀, Defs.onTc]
  rewrite [show @cc5__gin_layer_kernel F _ = @cc0__gin_layer_kernel F _ from rfl, show @out5_9 F _ = @out0_9 F _ from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) (iblk5 V c 7 t) (iblk5 V c 8 t) _)
  iframe H0 H1 H2 H3 H4 H5 H6 H7 H8
  isplitl [H9]; · iexists _; iexact H9
  iintro ⟨H0, H1, H2, H3, H4, H5, H6, H7, H8, H9⟩
  iframe HΦ H0 H1 H2 H3 H4 H5 H6 H7 H8 H9
  iapply Ho

end Cert.Kernel.Hand

end
-- ==== Proof.K.Gin6.lean ====
import proofs.«428878_j20040317403499_2_alg».proof.Proof.K.Gin0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

noncomputable def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_x : Rect S1000x128 := Rect.unit (s := S1000x128) ![0, 0] S1000x128.size inb_S1000x128_S1000x128_0_0
abbrev r6_w : Rect S128x128 := Rect.unit (s := S128x128) ![0, 0] S128x128.size inb_S128x128_S128x128_0_0
abbrev r6_v : Rect S1x128 := Rect.unit (s := S1x128) ![0, 0] S1x128.size inb_S1x128_S1x128_0_0

noncomputable def out6_9 (x0 : Vec F S1000x128 .f32) (x1 : Vec F S128x128 .f32) (x2 : Vec F S1x128 .f32) (x3 : Vec F S128x128 .f32)
    (x4 x5 x6 x7 x8 : Vec F S1x128 .f32) : Vec F S1000x128 .f32 :=
  View.canon [⟨r6_x, k6_pay1
    (k6_pay2 (View.ld x0 r6_x) (View.ld x1 r6_w) (View.ld x2 r6_v) (View.ld x3 r6_w) (View.ld x4 r6_v) (View.ld x5 r6_v) (View.ld x7 r6_v))
    (k6_pay3 (View.ld x8 r6_v)) (View.ld x6 r6_v)⟩]

noncomputable def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => iblk6 V c 7 t
    | ⟨8, _⟩ => iblk6 V c 8 t
    | ⟨9, _⟩ => out6_9 (iblk6 V c 0 t) (iblk6 V c 1 t) (iblk6 V c 2 t) (iblk6 V c 3 t) (iblk6 V c 4 t) (iblk6 V c 5 t) (iblk6 V c 6 t) (iblk6 V c 7 t) (iblk6 V c 8 t)
  Φ _ := Pipeline.ΦA spec6 c
  q _ := fullShare
  owed _ := 0

theorem A_eq6 (c : Dev nD) (w : Fin cfg6.W) : (dat6 V c).A w = V c (Pipeline.arrRef spec6 w) := rfl

theorem after6_9 (c : Dev nD) (t : Fin cfg6.N) : (dat6 V c).after 9 t = out6_9 (iblk6 V c 0 t) (iblk6 V c 1 t) (iblk6 V c 2 t) (iblk6 V c 3 t) (iblk6 V c 4 t) (iblk6 V c 5 t) (iblk6 V c 6 t) (iblk6 V c 7 t) (iblk6 V c 8 t) := by
  dsimp only [dat6]

theorem before6 (c : Dev nD) (t : Fin cfg6.N) : ∀ w : Fin cfg6.W, (cfg6.win w).isOut = false → ∀ d, (dat6 V c).before w t d = (dat6 V c).after w t
  | ⟨9, _⟩, h, _ => absurd h (by decide : ¬(cfg6.win 9).isOut = false)
  | ⟨0, _⟩, _, d | ⟨1, _⟩, _, d | ⟨2, _⟩, _, d | ⟨3, _⟩, _, d | ⟨4, _⟩, _, d | ⟨5, _⟩, _, d | ⟨6, _⟩, _, d | ⟨7, _⟩, _, d | ⟨8, _⟩, _, d =>
    (dat6 V c).before_in_eq_fetched _ rfl (fun _ => rfl) (fun _ _ _ => rfl) (fun _ => rfl) t d

theorem body_obligation6 (c : Dev nD) : BodyObligation (dat6 (F := F) V c) (defs₀ (F := F)) Variants.none () Set.univ := fun t => by
  rw [bigSep_W6, bigSep_W6]
  have hb := before6 V c t
  simp only [hb 0 rfl, hb 1 rfl, hb 2 rfl, hb 3 rfl, hb 4 rfl, hb 5 rfl, hb 6 rfl, hb 7 rfl, hb 8 rfl]
  dsimp only [dat6]
  sl_whnfR [defs₀, Defs.onTc]
  rewrite [show @cc6__gin_layer_kernel F _ = @cc0__gin_layer_kernel F _ from rfl, show @out6_9 F _ = @out0_9 F _ from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk6 V c 0 t) (iblk6 V c 1 t) (iblk6 V c 2 t) (iblk6 V c 3 t) (iblk6 V c 4 t) (iblk6 V c 5 t) (iblk6 V c 6 t) (iblk6 V c 7 t) (iblk6 V c 8 t) _)
  iframe H0 H1 H2 H3 H4 H5 H6 H7 H8
  isplitl [H9]; · iexists _; iexact H9
  iintro ⟨H0, H1, H2, H3, H4, H5, H6, H7, H8, H9⟩
  iframe HΦ H0 H1 H2 H3 H4 H5 H6 H7 H8 H9
  iapply Ho

end Cert.Kernel.Hand

end
-- ==== Proof.K.Gin7.lean ====
import proofs.«428878_j20040317403499_2_alg».proof.Proof.K.Gin0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

noncomputable def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev r7_x : Rect S1000x128 := Rect.unit (s := S1000x128) ![0, 0] S1000x128.size inb_S1000x128_S1000x128_0_0
abbrev r7_w : Rect S128x128 := Rect.unit (s := S128x128) ![0, 0] S128x128.size inb_S128x128_S128x128_0_0
abbrev r7_v : Rect S1x128 := Rect.unit (s := S1x128) ![0, 0] S1x128.size inb_S1x128_S1x128_0_0

noncomputable def out7_9 (x0 : Vec F S1000x128 .f32) (x1 : Vec F S128x128 .f32) (x2 : Vec F S1x128 .f32) (x3 : Vec F S128x128 .f32)
    (x4 x5 x6 x7 x8 : Vec F S1x128 .f32) : Vec F S1000x128 .f32 :=
  View.canon [⟨r7_x, k7_pay1
    (k7_pay2 (View.ld x0 r7_x) (View.ld x1 r7_w) (View.ld x2 r7_v) (View.ld x3 r7_w) (View.ld x4 r7_v) (View.ld x5 r7_v) (View.ld x7 r7_v))
    (k7_pay3 (View.ld x8 r7_v)) (View.ld x6 r7_v)⟩]

noncomputable def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => iblk7 V c 7 t
    | ⟨8, _⟩ => iblk7 V c 8 t
    | ⟨9, _⟩ => out7_9 (iblk7 V c 0 t) (iblk7 V c 1 t) (iblk7 V c 2 t) (iblk7 V c 3 t) (iblk7 V c 4 t) (iblk7 V c 5 t) (iblk7 V c 6 t) (iblk7 V c 7 t) (iblk7 V c 8 t)
  Φ _ := Pipeline.ΦA spec7 c
  q _ := fullShare
  owed _ := 0

theorem A_eq7 (c : Dev nD) (w : Fin cfg7.W) : (dat7 V c).A w = V c (Pipeline.arrRef spec7 w) := rfl

theorem after7_9 (c : Dev nD) (t : Fin cfg7.N) : (dat7 V c).after 9 t = out7_9 (iblk7 V c 0 t) (iblk7 V c 1 t) (iblk7 V c 2 t) (iblk7 V c 3 t) (iblk7 V c 4 t) (iblk7 V c 5 t) (iblk7 V c 6 t) (iblk7 V c 7 t) (iblk7 V c 8 t) := by
  dsimp only [dat7]

theorem before7 (c : Dev nD) (t : Fin cfg7.N) : ∀ w : Fin cfg7.W, (cfg7.win w).isOut = false → ∀ d, (dat7 V c).before w t d = (dat7 V c).after w t
  | ⟨9, _⟩, h, _ => absurd h (by decide : ¬(cfg7.win 9).isOut = false)
  | ⟨0, _⟩, _, d | ⟨1, _⟩, _, d | ⟨2, _⟩, _, d | ⟨3, _⟩, _, d | ⟨4, _⟩, _, d | ⟨5, _⟩, _, d | ⟨6, _⟩, _, d | ⟨7, _⟩, _, d | ⟨8, _⟩, _, d =>
    (dat7 V c).before_in_eq_fetched _ rfl (fun _ => rfl) (fun _ _ _ => rfl) (fun _ => rfl) t d

theorem body_obligation7 (c : Dev nD) : BodyObligation (dat7 (F := F) V c) (defs₀ (F := F)) Variants.none () Set.univ := fun t => by
  rw [bigSep_W7, bigSep_W7]
  have hb := before7 V c t
  simp only [hb 0 rfl, hb 1 rfl, hb 2 rfl, hb 3 rfl, hb 4 rfl, hb 5 rfl, hb 6 rfl, hb 7 rfl, hb 8 rfl]
  dsimp only [dat7]
  sl_whnfR [defs₀, Defs.onTc]
  rewrite [show @cc7__gin_layer_kernel F _ = @cc0__gin_layer_kernel F _ from rfl, show @out7_9 F _ = @out0_9 F _ from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk7 V c 0 t) (iblk7 V c 1 t) (iblk7 V c 2 t) (iblk7 V c 3 t) (iblk7 V c 4 t) (iblk7 V c 5 t) (iblk7 V c 6 t) (iblk7 V c 7 t) (iblk7 V c 8 t) _)
  iframe H0 H1 H2 H3 H4 H5 H6 H7 H8
  isplitl [H9]; · iexists _; iexact H9
  iintro ⟨H0, H1, H2, H3, H4, H5, H6, H7, H8, H9⟩
  iframe HΦ H0 H1 H2 H3 H4 H5 H6 H7 H8 H9
  iapply Ho

end Cert.Kernel.Hand

end
-- ==== Proof.K.Gin8.lean ====
import proofs.«428878_j20040317403499_2_alg».proof.Proof.K.Gin0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

noncomputable def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

abbrev r8_x : Rect S1000x128 := Rect.unit (s := S1000x128) ![0, 0] S1000x128.size inb_S1000x128_S1000x128_0_0
abbrev r8_w : Rect S128x128 := Rect.unit (s := S128x128) ![0, 0] S128x128.size inb_S128x128_S128x128_0_0
abbrev r8_v : Rect S1x128 := Rect.unit (s := S1x128) ![0, 0] S1x128.size inb_S1x128_S1x128_0_0

noncomputable def out8_9 (x0 : Vec F S1000x128 .f32) (x1 : Vec F S128x128 .f32) (x2 : Vec F S1x128 .f32) (x3 : Vec F S128x128 .f32)
    (x4 x5 x6 x7 x8 : Vec F S1x128 .f32) : Vec F S1000x128 .f32 :=
  View.canon [⟨r8_x, k8_pay1
    (k8_pay2 (View.ld x0 r8_x) (View.ld x1 r8_w) (View.ld x2 r8_v) (View.ld x3 r8_w) (View.ld x4 r8_v) (View.ld x5 r8_v) (View.ld x7 r8_v))
    (k8_pay3 (View.ld x8 r8_v)) (View.ld x6 r8_v)⟩]

noncomputable def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => iblk8 V c 6 t
    | ⟨7, _⟩ => iblk8 V c 7 t
    | ⟨8, _⟩ => iblk8 V c 8 t
    | ⟨9, _⟩ => out8_9 (iblk8 V c 0 t) (iblk8 V c 1 t) (iblk8 V c 2 t) (iblk8 V c 3 t) (iblk8 V c 4 t) (iblk8 V c 5 t) (iblk8 V c 6 t) (iblk8 V c 7 t) (iblk8 V c 8 t)
  Φ _ := Pipeline.ΦA spec8 c
  q _ := fullShare
  owed _ := 0

theorem A_eq8 (c : Dev nD) (w : Fin cfg8.W) : (dat8 V c).A w = V c (Pipeline.arrRef spec8 w) := rfl

theorem after8_9 (c : Dev nD) (t : Fin cfg8.N) : (dat8 V c).after 9 t = out8_9 (iblk8 V c 0 t) (iblk8 V c 1 t) (iblk8 V c 2 t) (iblk8 V c 3 t) (iblk8 V c 4 t) (iblk8 V c 5 t) (iblk8 V c 6 t) (iblk8 V c 7 t) (iblk8 V c 8 t) := by
  dsimp only [dat8]

theorem before8 (c : Dev nD) (t : Fin cfg8.N) : ∀ w : Fin cfg8.W, (cfg8.win w).isOut = false → ∀ d, (dat8 V c).before w t d = (dat8 V c).after w t
  | ⟨9, _⟩, h, _ => absurd h (by decide : ¬(cfg8.win 9).isOut = false)
  | ⟨0, _⟩, _, d | ⟨1, _⟩, _, d | ⟨2, _⟩, _, d | ⟨3, _⟩, _, d | ⟨4, _⟩, _, d | ⟨5, _⟩, _, d | ⟨6, _⟩, _, d | ⟨7, _⟩, _, d | ⟨8, _⟩, _, d =>
    (dat8 V c).before_in_eq_fetched _ rfl (fun _ => rfl) (fun _ _ _ => rfl) (fun _ => rfl) t d

theorem body_obligation8 (c : Dev nD) : BodyObligation (dat8 (F := F) V c) (defs₀ (F := F)) Variants.none () Set.univ := fun t => by
  rw [bigSep_W8, bigSep_W8]
  have hb := before8 V c t
  simp only [hb 0 rfl, hb 1 rfl, hb 2 rfl, hb 3 rfl, hb 4 rfl, hb 5 rfl, hb 6 rfl, hb 7 rfl, hb 8 rfl]
  dsimp only [dat8]
  sl_whnfR [defs₀, Defs.onTc]
  rewrite [show @cc8__gin_layer_kernel F _ = @cc0__gin_layer_kernel F _ from rfl, show @out8_9 F _ = @out0_9 F _ from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk8 V c 0 t) (iblk8 V c 1 t) (iblk8 V c 2 t) (iblk8 V c 3 t) (iblk8 V c 4 t) (iblk8 V c 5 t) (iblk8 V c 6 t) (iblk8 V c 7 t) (iblk8 V c 8 t) _)
  iframe H0 H1 H2 H3 H4 H5 H6 H7 H8
  isplitl [H9]; · iexists _; iexact H9
  iintro ⟨H0, H1, H2, H3, H4, H5, H6, H7, H8, H9⟩
  iframe HΦ H0 H1 H2 H3 H4 H5 H6 H7 H8 H9
  iapply Ho

end Cert.Kernel.Hand

end
-- ==== Proof.K.Pool9.lean ====
import proofs.«428878_j20040317403499_2_alg».proof.Proof.Gen.Kernel.Launch
import proofs.«428878_j20040317403499_2_alg».proof.Proof.Gen.Kernel.Skeleton
import proofs.«428878_j20040317403499_2_alg».proof.Proof.Gen.Kernel.Points
import proofs.«428878_j20040317403499_2_alg».proof.Proof.K.Pool4
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Pipeline.TableIdle
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev first9 (i : grid9.Coords) : Prop :=
  (Scalar.cmpi .ne (Scalar.extui (Scalar.cmpi .eq (BitVec.ofNat 32 (i 0).val) 0#32)) 0#32) = 1#1
abbrev last9 (i : grid9.Coords) : Prop := k9_cond2 i = 1#1

theorem hfirst9 : ∀ t : Fin cfg9.N, first9 (grid9.coords t) ↔ t.val = 0 :=
  (by decide +kernel : ∀ t : Fin grid9.N, first9 (grid9.coords t) ↔ t.val = 0)
theorem hlast9 : ∀ t : Fin cfg9.N, last9 (grid9.coords t) ↔ t.val = 49 :=
  (by decide +kernel : ∀ t : Fin grid9.N, last9 (grid9.coords t) ↔ t.val = 49)

theorem idleAt9_6 : ∀ t : Fin cfg9.N, ¬ t.val = 49 → cfg9.idle 6 (grid9.coords t) = true :=
  (by decide +kernel : ∀ t : Fin grid9.N, ¬ t.val = 49 → cfg9.idle 6 (grid9.coords t) = true)
theorem noFlush9_6 : ∀ t : Fin cfg9.N, ¬ t.val = 49 → (cfg9.win 6).flush t = false :=
  (by decide +kernel : ∀ t : Fin grid9.N, ¬ t.val = 49 → win9_6.flush t = false)
theorem liveAt9_6 : ∀ t : Fin cfg9.N, t.val = 49 → cfg9.idle 6 (grid9.coords t) = false :=
  (by decide +kernel : ∀ t : Fin grid9.N, t.val = 49 → cfg9.idle 6 (grid9.coords t) = false)

-- The two pooling calls run one body: the run proved for the first serves the second.
theorem poolRun9 (c : Dev nD) (i : grid9.Coords)
    (arg1 : Memref sig .tc .vmem S1000x128 .f32) (harg1 : arg1.IsWhole) (arg2 : Memref sig .tc .vmem S1000x1 .i32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x10 .f32) (harg5 : arg5.IsWhole) (arg6 : Memref sig .tc .vmem S1x10 .f32) (harg6 : arg6.IsWhole)
    (arg7 : Memref sig .tc .vmem S128x10 .f32) (harg7 : arg7.IsWhole) (arg8 : Memref sig .tc .vmem S128x128 .f32) (harg8 : arg8.IsWhole)
    (arg9 : Memref sig .tc .vmem S1x128 .f32) (harg9 : arg9.IsWhole) (hfl : first9 i → ¬ last9 i)
    (x0 : Vec F S1000x128 .f32) (x1 : Vec F S1000x1 .i32) (x2 : Vec F S128x128 .f32) (x3 : Vec F S1x128 .f32)
    (x4 : Vec F S128x10 .f32) (x5 : Vec F S1x10 .f32) (x6 : Vec F S128x10 .f32)
    (a a₀ : Vec F S128x128 .f32) (n n₀ : Vec F S1x128 .f32)
    (ha : (if first9 i then k9_pay1 else a) = a₀) (hn : (if first9 i then k9_pay2 else n) = n₀)
    (E : Set ℕ) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare x6 ∗ owns (c : Thread nD τ) arg8 fullShare a ∗ owns (c : Thread nD τ) arg9 fullShare n
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (if last9 i then k9_pay6 (k9_pay5 x1 n₀) (k9_pay4 x0 x1 a₀) x2 x3 x4 x5 else x6)
            ∗ owns (c : Thread nD τ) arg8 fullShare (k9_pay4 x0 x1 a₀) ∗ owns (c : Thread nD τ) arg9 fullShare (k9_pay5 x1 n₀)) -∗ K ⟨⟩))
      ⊢ wp frame (wpE (defs₀ (F := F)) Variants.none c none) E (cc9__pool_kernel i arg1 harg1 arg2 harg2 arg3 harg3 arg4 harg4 arg5 harg5 arg6 harg6 arg7 harg7 arg8 harg8 arg9 harg9) K :=
  poolRun4 c i arg1 harg1 arg2 harg2 arg3 harg3 arg4 harg4 arg5 harg5 arg6 harg6 arg7 harg7 arg8 harg8 arg9 harg9 hfl
    x0 x1 x2 x3 x4 x5 x6 a a₀ n n₀ ha hn E K

section Region

variable (V : (c : Dev nD) → (b : Ref sig .tc) → Buf (Elt F) ((c : Thread nD τ).loc b))

noncomputable def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

noncomputable def accAt9 (c : Dev nD) : ℕ → Vec F S128x128 .f32
  | 0 => k9_pay1
  | n + 1 => if hn : n < cfg9.N then k9_pay4 (iblk9 V c 0 ⟨n, hn⟩) (iblk9 V c 1 ⟨n, hn⟩) (accAt9 c n) else accAt9 c n

noncomputable def cntAt9 (c : Dev nD) : ℕ → Vec F S1x128 .f32
  | 0 => k9_pay2
  | n + 1 => if hn : n < cfg9.N then k9_pay5 (iblk9 V c 1 ⟨n, hn⟩) (cntAt9 c n) else cntAt9 c n

theorem accAt9_zero (c : Dev nD) : accAt9 V c 0 = k9_pay1 := rfl
theorem cntAt9_zero (c : Dev nD) : cntAt9 V c 0 = k9_pay2 := rfl

theorem accAt9_succ (c : Dev nD) (n : ℕ) (hn : n < cfg9.N) :
    accAt9 V c (n + 1) = k9_pay4 (iblk9 V c 0 ⟨n, hn⟩) (iblk9 V c 1 ⟨n, hn⟩) (accAt9 V c n) := by
  rw [accAt9, dif_pos hn]

theorem cntAt9_succ (c : Dev nD) (n : ℕ) (hn : n < cfg9.N) :
    cntAt9 V c (n + 1) = k9_pay5 (iblk9 V c 1 ⟨n, hn⟩) (cntAt9 V c n) := by
  rw [cntAt9, dif_pos hn]

theorem accAt9_step (c : Dev nD) (t : Fin cfg9.N) :
    accAt9 V c (t.val + 1) = k9_pay4 (iblk9 V c 0 t) (iblk9 V c 1 t) (accAt9 V c t.val) := accAt9_succ V c t.val t.isLt
theorem cntAt9_step (c : Dev nD) (t : Fin cfg9.N) :
    cntAt9 V c (t.val + 1) = k9_pay5 (iblk9 V c 1 t) (cntAt9 V c t.val) := cntAt9_succ V c t.val t.isLt

abbrev scM9_0 : Memref sig .tc .vmem S128x128 .f32 := Memref.whole cc9_scratch0
abbrev scM9_1 : Memref sig .tc .vmem S1x128 .f32 := Memref.whole cc9_scratch1

abbrev restBut9 (c : Dev nD) : sProp 𝕄 :=
  Pipeline.scopedRestBut (Ix := Unit) (Name := ℕ) (U := UR sig nD τ) (Lvl := ℕ) (Val := Elt F) spec9 c [cc9_scratch0, cc9_scratch1]

noncomputable def PhiS9 (c : Dev nD) : ℕ → sProp 𝕄
  | 0 => iprop((∃ d, owns (c : Thread nD τ) scM9_0 fullShare d) ∗ (∃ d, owns (c : Thread nD τ) scM9_1 fullShare d)
      ∗ restBut9 c ∗ (∃ r, prngReg c r))
  | n + 1 => iprop(owns (c : Thread nD τ) scM9_0 fullShare (accAt9 V c (n + 1)) ∗ owns (c : Thread nD τ) scM9_1 fullShare (cntAt9 V c (n + 1))
      ∗ restBut9 c ∗ (∃ r, prngReg c r))

theorem PhiS9_zero (c : Dev nD) (n : ℕ) (hz : n = 0) :
    PhiS9 V c n = iprop((∃ d, owns (c : Thread nD τ) scM9_0 fullShare d) ∗ (∃ d, owns (c : Thread nD τ) scM9_1 fullShare d)
      ∗ restBut9 c ∗ (∃ r, prngReg c r)) := by
  subst hz; rfl

theorem PhiS9_pos (c : Dev nD) (n : ℕ) (hz : n ≠ 0) :
    PhiS9 V c n = iprop(owns (c : Thread nD τ) scM9_0 fullShare (accAt9 V c n) ∗ owns (c : Thread nD τ) scM9_1 fullShare (cntAt9 V c n)
      ∗ restBut9 c ∗ (∃ r, prngReg c r)) := by
  cases n with
  | zero => exact absurd rfl hz
  | succ n => rfl

noncomputable def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => iblk9 V c 5 t
    | ⟨6, _⟩ => k9_pay6 (cntAt9 V c (t.val + 1)) (accAt9 V c (t.val + 1)) (iblk9 V c 2 t) (iblk9 V c 3 t) (iblk9 V c 4 t) (iblk9 V c 5 t)
  Φ t := PhiS9 V c t.val
  q _ := fullShare
  owed _ := 0

theorem A_eq9 (c : Dev nD) (w : Fin cfg9.W) : (dat9 V c).A w = V c (Pipeline.arrRef spec9 w) := by
  dsimp only [dat9]

theorem after9_6 (c : Dev nD) (t : Fin cfg9.N) : (dat9 V c).after 6 t
    = k9_pay6 (cntAt9 V c (t.val + 1)) (accAt9 V c (t.val + 1)) (iblk9 V c 2 t) (iblk9 V c 3 t) (iblk9 V c 4 t) (iblk9 V c 5 t) := by
  dsimp only [dat9]

theorem after9_6_last (c : Dev nD) (t : Fin cfg9.N) (ht : t.val = 49) : (dat9 V c).after 6 t
    = k9_pay6 (cntAt9 V c 50) (accAt9 V c 50) (iblk9 V c 2 t) (iblk9 V c 3 t) (iblk9 V c 4 t) (iblk9 V c 5 t) := by
  rw [after9_6, ht]

theorem before9_0 (c : Dev nD) (t : Fin cfg9.N) (d) : (dat9 V c).before 0 t d = iblk9 V c 0 t :=
  ((dat9 V c).before_in_eq_fetched 0 rfl (fun _ => rfl) (fun _ _ _ => rfl) (fun _ => rfl) t d).trans rfl
theorem before9_1 (c : Dev nD) (t : Fin cfg9.N) (d) : (dat9 V c).before 1 t d = iblk9 V c 1 t :=
  ((dat9 V c).before_in_eq_fetched 1 rfl (fun _ => rfl) (fun _ _ _ => rfl) (fun _ => rfl) t d).trans rfl
theorem before9_2 (c : Dev nD) (t : Fin cfg9.N) (d) : (dat9 V c).before 2 t d = iblk9 V c 2 t :=
  ((dat9 V c).before_in_eq_fetched 2 rfl (fun _ => rfl) (fun _ _ _ => rfl) (fun _ => rfl) t d).trans rfl
theorem before9_3 (c : Dev nD) (t : Fin cfg9.N) (d) : (dat9 V c).before 3 t d = iblk9 V c 3 t :=
  ((dat9 V c).before_in_eq_fetched 3 rfl (fun _ => rfl) (fun _ _ _ => rfl) (fun _ => rfl) t d).trans rfl
theorem before9_4 (c : Dev nD) (t : Fin cfg9.N) (d) : (dat9 V c).before 4 t d = iblk9 V c 4 t :=
  ((dat9 V c).before_in_eq_fetched 4 rfl (fun _ => rfl) (fun _ _ _ => rfl) (fun _ => rfl) t d).trans rfl
theorem before9_5 (c : Dev nD) (t : Fin cfg9.N) (d) : (dat9 V c).before 5 t d = iblk9 V c 5 t :=
  ((dat9 V c).before_in_eq_fetched 5 rfl (fun _ => rfl) (fun _ _ _ => rfl) (fun _ => rfl) t d).trans rfl

-- Read as zero at the first point, the accumulators the invariant hands over are the sums and counts so far.
theorem PhiS9_open (c : Dev nD) (t : Fin cfg9.N) : PhiS9 V c t.val ⊢ iprop(∃ a m,
    ⌜(if first9 (grid9.coords t) then k9_pay1 else a) = accAt9 V c t.val
      ∧ (if first9 (grid9.coords t) then k9_pay2 else m) = cntAt9 V c t.val⌝
    ∗ owns (c : Thread nD τ) scM9_0 fullShare a ∗ owns (c : Thread nD τ) scM9_1 fullShare m ∗ restBut9 c ∗ (∃ r, prngReg c r)) := by
  by_cases hz : t.val = 0
  · rw [PhiS9_zero V c _ hz]
    iintro ⟨⟨%a, H0⟩, ⟨%m, H1⟩, H⟩
    iexists a; iexists m; isplitr
    · ipureintro; rw [if_pos ((hfirst9 t).mpr hz), if_pos ((hfirst9 t).mpr hz), hz]; exact ⟨rfl, rfl⟩
    iframe
  · rw [PhiS9_pos V c _ hz]
    iintro ⟨H0, H1, H⟩
    iexists accAt9 V c t.val; iexists cntAt9 V c t.val; isplitr
    · ipureintro; rw [if_neg (mt (hfirst9 t).mp hz), if_neg (mt (hfirst9 t).mp hz)]; exact ⟨rfl, rfl⟩
    iframe

-- At the last point the output block holds the head; before it the body leaves it as found.
theorem out9 (c : Dev nD) (t : Fin cfg9.N) (d) :
    owns (c : Thread nD τ) (st9_6 t) fullShare (if last9 (grid9.coords t) then
        k9_pay6 (k9_pay5 (iblk9 V c 1 t) (cntAt9 V c t.val)) (k9_pay4 (iblk9 V c 0 t) (iblk9 V c 1 t) (accAt9 V c t.val))
          (iblk9 V c 2 t) (iblk9 V c 3 t) (iblk9 V c 4 t) (iblk9 V c 5 t)
      else (dat9 V c).before 6 t d) ⊢ (dat9 V c).leavesExact 6 t := by
  by_cases hl : t.val = 49
  · refine Entails.of_eq ?_
    rw [if_pos ((hlast9 t).mpr hl), show (dat9 V c).leavesExact 6 t = owns (c : Thread nD τ) (st9_6 t) fullShare ((dat9 V c).after 6 t) from by
      unfold Dat.leavesExact; rw [liveAt9_6 t hl], after9_6, accAt9_step, cntAt9_step]
  · rw [if_neg (mt (hlast9 t).mp hl), Dat.leavesExact_idle (dat9 V c) 6 t (idleAt9_6 t hl) (noFlush9_6 t hl)]
    iintro H; iexists d; iexact H

noncomputable def bodyPre9 (c : Dev nD) (t : Fin cfg9.N) : sProp 𝕄 :=
  iprop(PhiS9 V c t.val ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d))
    ∗ (∃ d, owns (c : Thread nD τ) (st9_6 t) fullShare ((dat9 V c).before 6 t d)))

noncomputable def bodyPost9 (c : Dev nD) (t : Fin cfg9.N) : sProp 𝕄 :=
  iprop(PhiS9 V c (t.val + 1) ∗ (dat9 V c).owesAt () t.castSucc
    ∗ owns (c : Thread nD τ) (st9_0 t) fullShare (iblk9 V c 0 t)
    ∗ owns (c : Thread nD τ) (st9_1 t) fullShare (iblk9 V c 1 t)
    ∗ owns (c : Thread nD τ) (st9_2 t) fullShare (iblk9 V c 2 t)
    ∗ owns (c : Thread nD τ) (st9_3 t) fullShare (iblk9 V c 3 t)
    ∗ owns (c : Thread nD τ) (st9_4 t) fullShare (iblk9 V c 4 t)
    ∗ owns (c : Thread nD τ) (st9_5 t) fullShare (iblk9 V c 5 t)
    ∗ (dat9 V c).leavesExact 6 t)

set_option maxHeartbeats 4800000 in
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4, before9_5]
  rw [PhiS9_pos V c (t.val + 1) (Nat.succ_ne_zero _), accAt9_step, cntAt9_step]
  iintro ⟨HΦ, Ho, ⟨%d0, H0⟩, ⟨%d1, H1⟩, ⟨%d2, H2⟩, ⟨%d3, H3⟩, ⟨%d4, H4⟩, ⟨%d5, H5⟩, ⟨%d6, H6⟩⟩
  ihave HΦ' := (PhiS9_open V c t) $$ HΦ
  icases HΦ' with ⟨%a, %m, %ham, HS0, HS1, Hrest, Hg⟩
  iapply (poolRun9 c (grid9.coords t) _ _ _ _ _ _ _ _ _ _ _ _ _ _ _ _ _ _
    (fun h0 h1 => by have := (hfirst9 t).mp h0; have := (hlast9 t).mp h1; omega)
    (iblk9 V c 0 t) (iblk9 V c 1 t) (iblk9 V c 2 t) (iblk9 V c 3 t) (iblk9 V c 4 t) (iblk9 V c 5 t) ((dat9 V c).before 6 t d6)
    a _ m _ ham.1 ham.2 Set.univ _)
  iframe H0 H1 H2 H3 H4 H5 H6 HS0 HS1
  iintro ⟨H0, H1, H2, H3, H4, H5, H6, HS0, HS1⟩
  iframe H0 H1 H2 H3 H4 H5 HS0 HS1 Hrest Hg Ho
  iapply (out9 V c t d6) $$ H6

theorem body_obligation9 (c : Dev nD) : BodyObligation (dat9 (F := F) V c) (defs₀ (F := F)) Variants.none () Set.univ := fun t => by
  rw [bigSep_W9, bigSep_W9]
  exact sound_body9 V c t

theorem scopedRest9_eq (c : Dev nD) :
    (Pipeline.scopedRest (Ix := Unit) (Name := ℕ) (U := UR sig nD τ) (Lvl := ℕ) (Val := Elt F) spec9 c : sProp 𝕄)
      = iprop(iprop((∃ d, owns (c : Thread nD τ) scM9_0 fullShare d) ∗ (∃ d, owns (c : Thread nD τ) scM9_1 fullShare d)) ∗ restBut9 c) := by
  rw [scopedRest9_split]; simp only [scM9_0, scM9_1, owns_whole]; rfl

theorem hin9 (c : Dev nD) :
    iprop((∃ r, prngReg c r) ∗ Pipeline.prefHeld (pcfgs (F := F) 4).pre c (fun _ => fullShare) ((cfgs 4).toPCfg_adm).1
        ∗ Pipeline.scopedRest spec9 c) ⊢ (dat9 V c).Φ 0 := by
  rw [show (dat9 V c).Φ 0 = PhiS9 V c 0 from rfl, PhiS9_zero V c 0 rfl, scopedRest9_eq]
  iintro ⟨Hg, -, ⟨HS0, HS1⟩, Hrest⟩
  iframe

theorem hout9 (c : Dev nD) : (dat9 V c).Φ (Fin.last cfg9.N)
    ⊢ iprop((∃ r, prngReg c r) ∗ Pipeline.ownSems0 (fun k : PEmpty => k.elim) c ∗ Pipeline.scopedRest spec9 c) := by
  rw [Pipeline.ownSems0_none, show (dat9 V c).Φ (Fin.last cfg9.N) = PhiS9 V c cfg9.N from rfl,
    PhiS9_pos V c cfg9.N (by rw [show cfg9.N = 50 from N_9]; decide), scopedRest9_eq]
  iintro ⟨HS0, HS1, Hrest, Hg⟩
  iframe Hg Hrest
  isplitr; · iempintro
  isplitl [HS0] <;> (iexists _; iassumption)

end Region

end Cert.Kernel.Hand

end
-- ==== Proof.K.RunVals.lean ====
import proofs.«428878_j20040317403499_2_alg».proof.Proof.Gen.Kernel.Regions
import proofs.«428878_j20040317403499_2_alg».proof.Proof.K.Gin0
import proofs.«428878_j20040317403499_2_alg».proof.Proof.K.Gin1
import proofs.«428878_j20040317403499_2_alg».proof.Proof.K.Gin2
import proofs.«428878_j20040317403499_2_alg».proof.Proof.K.Gin3
import proofs.«428878_j20040317403499_2_alg».proof.Proof.K.Pool4
import proofs.«428878_j20040317403499_2_alg».proof.Proof.K.Gin5
import proofs.«428878_j20040317403499_2_alg».proof.Proof.K.Gin6
import proofs.«428878_j20040317403499_2_alg».proof.Proof.K.Gin7
import proofs.«428878_j20040317403499_2_alg».proof.Proof.K.Gin8
import proofs.«428878_j20040317403499_2_alg».proof.Proof.K.Pool9
import Idealize.ShloMosaic.Lib.Pipeline.FrameBody
import Idealize.ShloMosaic.Lib.Pipeline.RegionsLoop
import Idealize.ShloMosaic.Lib.Pipeline.FrameSuffix

set_option maxRecDepth 2632

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg)

variable {F : FTy → Type} [FloatOps F]

section
variable {cfg : Cfg sig Λ₀} {c : Dev nD} (D : Dat τ (Elt F) Unit ℕ (UR sig nD τ) ℕ cfg c)
  (hinj : Function.Injective (Pipeline.arrRef cfg.spec)) (V : Valuation τ sig (Elt F))
include hinj

theorem exit_arr (w : Fin cfg.W) :
    D.arrAt w cfg.N = Pipeline.withArrays cfg.spec c V (D.arrAt · cfg.N) (Proc.devRef .tc (Pipeline.arrRef cfg.spec w)) :=
  (Pipeline.withArrays_arr cfg.spec hinj c V (D.arrAt · cfg.N) w).symm

theorem exit_eq_update (wo : Fin cfg.W) (hin : ∀ w, w ≠ wo → (cfg.win w).isOut = false)
    (hA : ∀ w, D.A w = V (Proc.devRef .tc (Pipeline.arrRef cfg.spec w))) :
    Pipeline.withArrays cfg.spec c V (D.arrAt · cfg.N) = Function.update V (Proc.devRef .tc (Pipeline.arrRef cfg.spec wo))
      (Pipeline.withArrays cfg.spec c V (D.arrAt · cfg.N) (Proc.devRef .tc (Pipeline.arrRef cfg.spec wo))) := by
  refine Function.eq_update_iff.mpr ⟨rfl, fun b hb => ?_⟩
  by_cases h : ∃ w, Proc.devRef .tc (Pipeline.arrRef cfg.spec w) = b
  · obtain ⟨w, rfl⟩ := h
    rw [Pipeline.withArrays_arr _ hinj, D.arrAt_in w (hin w fun e => hb (e ▸ rfl)), hA]
  · unfold Pipeline.withArrays; rw [dif_neg h]

end

theorem withArrays_rest {gr W : Nat} (win : Fin W → Pipeline.WinSpec sig gr) (c : Dev nD) (V : Valuation τ sig (Elt F))
    (A : (w : Fin W) → Buf (Elt F) ((win w).arr.view.loc (c.tc : Thread nD τ))) (b : Ref sig .tc)
    (hb : b ∉ Finset.univ.image (Pipeline.arrRef win)) : Pipeline.withArrays win c V A (Proc.devRef .tc b) = V (Proc.devRef .tc b) :=
  Pipeline.withArrays_of_ne win c V A b fun w e => hb (Finset.mem_image.mpr ⟨w, Finset.mem_univ _, e⟩)

theorem update_eq_of {V W W' : Valuation τ sig (Elt F)} {b : DevRef τ sig} (hV : V = W) (hW : W' = Function.update W b (W' b)) :
    Function.update V b (W' b) = W' := hV ▸ hW.symm

theorem of_update_eq {V W W' : Valuation τ sig (Elt F)} {o : Ref sig .tc} (hV : V = W)
    (h : Function.update V (Proc.devRef .tc o) (W' (Proc.devRef .tc o)) = W') (r : Ref sig .tc) (hr : r ∉ ([o] : List (Ref sig .tc))) :
    W' (Proc.devRef .tc r) = W (Proc.devRef .tc r) := by
  subst hV; exact (congrFun h.symm _).trans (Function.update_of_ne (StableHlo.devRef_ne_of_ne (List.ne_of_not_mem_cons hr)) _ _)

variable (m : (ℓ : Loc nD τ sig) → Buf (Elt F) ℓ)

abbrev W0 : Dev nD → Valuation τ sig (Elt F) := fun c b => m (c, b)

abbrev W1 : Dev nD → Valuation τ sig (Elt F) := fun c => StableHlo.after hostOps0 (W0 m c)
abbrev entry0 : (c : Dev nD) → (b : Ref sig .tc) → Buf (Elt F) ((c : Thread nD τ).loc b) := fun c b => W1 m c b
noncomputable def W2 (c : Dev nD) : Valuation τ sig (Elt F) :=
  Pipeline.withArrays spec0 c (W1 m c) fun w => (dat0 (entry0 m) c).arrAt w cfg0.N
abbrev exit0 : (c : Dev nD) → (b : Ref sig .tc) → Buf (Elt F) ((c : Thread nD τ).loc b) := fun c b => W2 m c b
theorem hF0 (c : Dev nD) (w : Fin cfg0.W) : (dat0 (entry0 m) c).arrAt w cfg0.N = exit0 m c (Pipeline.arrRef spec0 w) :=
  exit_arr (dat0 (entry0 m) c) launch0.win.arr_inj _ w
theorem hrest0 (c : Dev nD) : ∀ b, b ∉ Finset.univ.image (Pipeline.arrRef spec0) → exit0 m c b = entry0 m c b :=
  withArrays_rest spec0 c _ _
theorem W2_out (c : Dev nD) : W2 m c (Proc.devRef .tc main_v44) = (dat0 (fun c b => W1 m c b) c).arrAt 9 cfg0.N :=
  (hF0 m c 9).symm

abbrev W3 : Dev nD → Valuation τ sig (Elt F) := fun c => StableHlo.after hostOps1 (W2 m c)
abbrev entry1 : (c : Dev nD) → (b : Ref sig .tc) → Buf (Elt F) ((c : Thread nD τ).loc b) := fun c b => W3 m c b
noncomputable def W4 (c : Dev nD) : Valuation τ sig (Elt F) :=
  Pipeline.withArrays spec1 c (W3 m c) fun w => (dat1 (entry1 m) c).arrAt w cfg1.N
abbrev exit1 : (c : Dev nD) → (b : Ref sig .tc) → Buf (Elt F) ((c : Thread nD τ).loc b) := fun c b => W4 m c b
theorem hF1 (c : Dev nD) (w : Fin cfg1.W) : (dat1 (entry1 m) c).arrAt w cfg1.N = exit1 m c (Pipeline.arrRef spec1 w) :=
  exit_arr (dat1 (entry1 m) c) launch1.win.arr_inj _ w
theorem hrest1 (c : Dev nD) : ∀ b, b ∉ Finset.univ.image (Pipeline.arrRef spec1) → exit1 m c b = entry1 m c b :=
  withArrays_rest spec1 c _ _
theorem W4_out (c : Dev nD) : W4 m c (Proc.devRef .tc main_v83) = (dat1 (fun c b => W3 m c b) c).arrAt 9 cfg1.N :=
  (hF1 m c 9).symm

abbrev W5 : Dev nD → Valuation τ sig (Elt F) := fun c => StableHlo.after hostOps2 (W4 m c)
abbrev entry2 : (c : Dev nD) → (b : Ref sig .tc) → Buf (Elt F) ((c : Thread nD τ).loc b) := fun c b => W5 m c b
noncomputable def W6 (c : Dev nD) : Valuation τ sig (Elt F) :=
  Pipeline.withArrays spec2 c (W5 m c) fun w => (dat2 (entry2 m) c).arrAt w cfg2.N
abbrev exit2 : (c : Dev nD) → (b : Ref sig .tc) → Buf (Elt F) ((c : Thread nD τ).loc b) := fun c b => W6 m c b
theorem hF2 (c : Dev nD) (w : Fin cfg2.W) : (dat2 (entry2 m) c).arrAt w cfg2.N = exit2 m c (Pipeline.arrRef spec2 w) :=
  exit_arr (dat2 (entry2 m) c) launch2.win.arr_inj _ w
theorem hrest2 (c : Dev nD) : ∀ b, b ∉ Finset.univ.image (Pipeline.arrRef spec2) → exit2 m c b = entry2 m c b :=
  withArrays_rest spec2 c _ _
theorem W6_out (c : Dev nD) : W6 m c (Proc.devRef .tc main_v122) = (dat2 (fun c b => W5 m c b) c).arrAt 9 cfg2.N :=
  (hF2 m c 9).symm

abbrev W7 : Dev nD → Valuation τ sig (Elt F) := fun c => StableHlo.after hostOps3 (W6 m c)
abbrev entry3 : (c : Dev nD) → (b : Ref sig .tc) → Buf (Elt F) ((c : Thread nD τ).loc b) := fun c b => W7 m c b
noncomputable def W8 (c : Dev nD) : Valuation τ sig (Elt F) :=
  Pipeline.withArrays spec3 c (W7 m c) fun w => (dat3 (entry3 m) c).arrAt w cfg3.N
abbrev exit3 : (c : Dev nD) → (b : Ref sig .tc) → Buf (Elt F) ((c : Thread nD τ).loc b) := fun c b => W8 m c b
theorem hF3 (c : Dev nD) (w : Fin cfg3.W) : (dat3 (entry3 m) c).arrAt w cfg3.N = exit3 m c (Pipeline.arrRef spec3 w) :=
  exit_arr (dat3 (entry3 m) c) launch3.win.arr_inj _ w
theorem hrest3 (c : Dev nD) : ∀ b, b ∉ Finset.univ.image (Pipeline.arrRef spec3) → exit3 m c b = entry3 m c b :=
  withArrays_rest spec3 c _ _
theorem W8_out (c : Dev nD) : W8 m c (Proc.devRef .tc main_v161) = (dat3 (fun c b => W7 m c b) c).arrAt 9 cfg3.N :=
  (hF3 m c 9).symm

abbrev W9 : Dev nD → Valuation τ sig (Elt F) := fun c => StableHlo.after hostOps4 (W8 m c)
abbrev entry4 : (c : Dev nD) → (b : Ref sig .tc) → Buf (Elt F) ((c : Thread nD τ).loc b) := fun c b => W9 m c b
noncomputable def W10 (c : Dev nD) : Valuation τ sig (Elt F) :=
  Pipeline.withArrays spec4 c (W9 m c) fun w => (dat4 (entry4 m) c).arrAt w cfg4.N
abbrev exit4 : (c : Dev nD) → (b : Ref sig .tc) → Buf (Elt F) ((c : Thread nD τ).loc b) := fun c b => W10 m c b
theorem hF4 (c : Dev nD) (w : Fin cfg4.W) : (dat4 (entry4 m) c).arrAt w cfg4.N = exit4 m c (Pipeline.arrRef spec4 w) :=
  exit_arr (dat4 (entry4 m) c) launch4.win.arr_inj _ w
theorem hrest4 (c : Dev nD) : ∀ b, b ∉ Finset.univ.image (Pipeline.arrRef spec4) → exit4 m c b = entry4 m c b :=
  withArrays_rest spec4 c _ _
theorem W10_out (c : Dev nD) : W10 m c (Proc.devRef .tc main_v175) = (dat4 (fun c b => W9 m c b) c).arrAt 6 cfg4.N :=
  (hF4 m c 6).symm

abbrev W11 : Dev nD → Valuation τ sig (Elt F) := fun c => StableHlo.after hostOps5 (W10 m c)
abbrev entry5 : (c : Dev nD) → (b : Ref sig .tc) → Buf (Elt F) ((c : Thread nD τ).loc b) := fun c b => W11 m c b
noncomputable def W12 (c : Dev nD) : Valuation τ sig (Elt F) :=
  Pipeline.withArrays spec5 c (W11 m c) fun w => (dat5 (entry5 m) c).arrAt w cfg5.N
abbrev exit5 : (c : Dev nD) → (b : Ref sig .tc) → Buf (Elt F) ((c : Thread nD τ).loc b) := fun c b => W12 m c b
theorem hF5 (c : Dev nD) (w : Fin cfg5.W) : (dat5 (entry5 m) c).arrAt w cfg5.N = exit5 m c (Pipeline.arrRef spec5 w) :=
  exit_arr (dat5 (entry5 m) c) launch5.win.arr_inj _ w
theorem hrest5 (c : Dev nD) : ∀ b, b ∉ Finset.univ.image (Pipeline.arrRef spec5) → exit5 m c b = entry5 m c b :=
  withArrays_rest spec5 c _ _
theorem W12_out (c : Dev nD) : W12 m c (Proc.devRef .tc main_v220) = (dat5 (fun c b => W11 m c b) c).arrAt 9 cfg5.N :=
  (hF5 m c 9).symm

abbrev W13 : Dev nD → Valuation τ sig (Elt F) := fun c => StableHlo.after hostOps6 (W12 m c)
abbrev entry6 : (c : Dev nD) → (b : Ref sig .tc) → Buf (Elt F) ((c : Thread nD τ).loc b) := fun c b => W13 m c b
noncomputable def W14 (c : Dev nD) : Valuation τ sig (Elt F) :=
  Pipeline.withArrays spec6 c (W13 m c) fun w => (dat6 (entry6 m) c).arrAt w cfg6.N
abbrev exit6 : (c : Dev nD) → (b : Ref sig .tc) → Buf (Elt F) ((c : Thread nD τ).loc b) := fun c b => W14 m c b
theorem hF6 (c : Dev nD) (w : Fin cfg6.W) : (dat6 (entry6 m) c).arrAt w cfg6.N = exit6 m c (Pipeline.arrRef spec6 w) :=
  exit_arr (dat6 (entry6 m) c) launch6.win.arr_inj _ w
theorem hrest6 (c : Dev nD) : ∀ b, b ∉ Finset.univ.image (Pipeline.arrRef spec6) → exit6 m c b = entry6 m c b :=
  withArrays_rest spec6 c _ _
theorem W14_out (c : Dev nD) : W14 m c (Proc.devRef .tc main_v259) = (dat6 (fun c b => W13 m c b) c).arrAt 9 cfg6.N :=
  (hF6 m c 9).symm

abbrev W15 : Dev nD → Valuation τ sig (Elt F) := fun c => StableHlo.after hostOps7 (W14 m c)
abbrev entry7 : (c : Dev nD) → (b : Ref sig .tc) → Buf (Elt F) ((c : Thread nD τ).loc b) := fun c b => W15 m c b
noncomputable def W16 (c : Dev nD) : Valuation τ sig (Elt F) :=
  Pipeline.withArrays spec7 c (W15 m c) fun w => (dat7 (entry7 m) c).arrAt w cfg7.N
abbrev exit7 : (c : Dev nD) → (b : Ref sig .tc) → Buf (Elt F) ((c : Thread nD τ).loc b) := fun c b => W16 m c b
theorem hF7 (c : Dev nD) (w : Fin cfg7.W) : (dat7 (entry7 m) c).arrAt w cfg7.N = exit7 m c (Pipeline.arrRef spec7 w) :=
  exit_arr (dat7 (entry7 m) c) launch7.win.arr_inj _ w
theorem hrest7 (c : Dev nD) : ∀ b, b ∉ Finset.univ.image (Pipeline.arrRef spec7) → exit7 m c b = entry7 m c b :=
  withArrays_rest spec7 c _ _
theorem W16_out (c : Dev nD) : W16 m c (Proc.devRef .tc main_v298) = (dat7 (fun c b => W15 m c b) c).arrAt 9 cfg7.N :=
  (hF7 m c 9).symm

abbrev W17 : Dev nD → Valuation τ sig (Elt F) := fun c => StableHlo.after hostOps8 (W16 m c)
abbrev entry8 : (c : Dev nD) → (b : Ref sig .tc) → Buf (Elt F) ((c : Thread nD τ).loc b) := fun c b => W17 m c b
noncomputable def W18 (c : Dev nD) : Valuation τ sig (Elt F) :=
  Pipeline.withArrays spec8 c (W17 m c) fun w => (dat8 (entry8 m) c).arrAt w cfg8.N
abbrev exit8 : (c : Dev nD) → (b : Ref sig .tc) → Buf (Elt F) ((c : Thread nD τ).loc b) := fun c b => W18 m c b
theorem hF8 (c : Dev nD) (w : Fin cfg8.W) : (dat8 (entry8 m) c).arrAt w cfg8.N = exit8 m c (Pipeline.arrRef spec8 w) :=
  exit_arr (dat8 (entry8 m) c) launch8.win.arr_inj _ w
theorem hrest8 (c : Dev nD) : ∀ b, b ∉ Finset.univ.image (Pipeline.arrRef spec8) → exit8 m c b = entry8 m c b :=
  withArrays_rest spec8 c _ _
theorem W18_out (c : Dev nD) : W18 m c (Proc.devRef .tc main_v337) = (dat8 (fun c b => W17 m c b) c).arrAt 9 cfg8.N :=
  (hF8 m c 9).symm

abbrev W19 : Dev nD → Valuation τ sig (Elt F) := fun c => StableHlo.after hostOps9 (W18 m c)
abbrev entry9 : (c : Dev nD) → (b : Ref sig .tc) → Buf (Elt F) ((c : Thread nD τ).loc b) := fun c b => W19 m c b
noncomputable def W20 (c : Dev nD) : Valuation τ sig (Elt F) :=
  Pipeline.withArrays spec9 c (W19 m c) fun w => (dat9 (entry9 m) c).arrAt w cfg9.N
abbrev exit9 : (c : Dev nD) → (b : Ref sig .tc) → Buf (Elt F) ((c : Thread nD τ).loc b) := fun c b => W20 m c b
theorem hF9 (c : Dev nD) (w : Fin cfg9.W) : (dat9 (entry9 m) c).arrAt w cfg9.N = exit9 m c (Pipeline.arrRef spec9 w) :=
  exit_arr (dat9 (entry9 m) c) launch9.win.arr_inj _ w
theorem hrest9 (c : Dev nD) : ∀ b, b ∉ Finset.univ.image (Pipeline.arrRef spec9) → exit9 m c b = entry9 m c b :=
  withArrays_rest spec9 c _ _
theorem W20_out (c : Dev nD) : W20 m c (Proc.devRef .tc main_v351) = (dat9 (fun c b => W19 m c b) c).arrAt 6 cfg9.N :=
  (hF9 m c 6).symm

abbrev W21 : Dev nD → Valuation τ sig (Elt F) := fun c => StableHlo.after hostOps10 (W20 m c)

noncomputable def outs : Outs (F := F) := fun J r c => match J with
  | 2 => W2 m c r
  | 4 => W4 m c r
  | 6 => W6 m c r
  | 8 => W8 m c r
  | 10 => W10 m c r
  | 12 => W12 m c r
  | 14 => W14 m c r
  | 16 => W16 m c r
  | 18 => W18 m c r
  | 20 => W20 m c r
  | _ => W0 m c r

theorem V1_eq (c : Dev nD) : V1 m c = W1 m c := rfl
theorem V2_eq (c : Dev nD) : V2 m (outs m) c = W2 m c :=
  update_eq_of (V1_eq m c) (exit_eq_update (dat0 (entry0 m) c) launch0.win.arr_inj _ 9 (by decide) (A_eq0 (entry0 m) c))
theorem V3_eq (c : Dev nD) : V3 m (outs m) c = W3 m c := congrArg (StableHlo.after hostOps1) (V2_eq m c)
theorem V4_eq (c : Dev nD) : V4 m (outs m) c = W4 m c :=
  update_eq_of (V3_eq m c) (exit_eq_update (dat1 (entry1 m) c) launch1.win.arr_inj _ 9 (by decide) (A_eq1 (entry1 m) c))
theorem V5_eq (c : Dev nD) : V5 m (outs m) c = W5 m c := congrArg (StableHlo.after hostOps2) (V4_eq m c)
theorem V6_eq (c : Dev nD) : V6 m (outs m) c = W6 m c :=
  update_eq_of (V5_eq m c) (exit_eq_update (dat2 (entry2 m) c) launch2.win.arr_inj _ 9 (by decide) (A_eq2 (entry2 m) c))
theorem V7_eq (c : Dev nD) : V7 m (outs m) c = W7 m c := congrArg (StableHlo.after hostOps3) (V6_eq m c)
theorem V8_eq (c : Dev nD) : V8 m (outs m) c = W8 m c :=
  update_eq_of (V7_eq m c) (exit_eq_update (dat3 (entry3 m) c) launch3.win.arr_inj _ 9 (by decide) (A_eq3 (entry3 m) c))
theorem V9_eq (c : Dev nD) : V9 m (outs m) c = W9 m c := congrArg (StableHlo.after hostOps4) (V8_eq m c)
theorem V10_eq (c : Dev nD) : V10 m (outs m) c = W10 m c :=
  update_eq_of (V9_eq m c) (exit_eq_update (dat4 (entry4 m) c) launch4.win.arr_inj _ 6 (by decide) (A_eq4 (entry4 m) c))
theorem V11_eq (c : Dev nD) : V11 m (outs m) c = W11 m c := congrArg (StableHlo.after hostOps5) (V10_eq m c)
theorem V12_eq (c : Dev nD) : V12 m (outs m) c = W12 m c :=
  update_eq_of (V11_eq m c) (exit_eq_update (dat5 (entry5 m) c) launch5.win.arr_inj _ 9 (by decide) (A_eq5 (entry5 m) c))
theorem V13_eq (c : Dev nD) : V13 m (outs m) c = W13 m c := congrArg (StableHlo.after hostOps6) (V12_eq m c)
theorem V14_eq (c : Dev nD) : V14 m (outs m) c = W14 m c :=
  update_eq_of (V13_eq m c) (exit_eq_update (dat6 (entry6 m) c) launch6.win.arr_inj _ 9 (by decide) (A_eq6 (entry6 m) c))
theorem V15_eq (c : Dev nD) : V15 m (outs m) c = W15 m c := congrArg (StableHlo.after hostOps7) (V14_eq m c)
theorem V16_eq (c : Dev nD) : V16 m (outs m) c = W16 m c :=
  update_eq_of (V15_eq m c) (exit_eq_update (dat7 (entry7 m) c) launch7.win.arr_inj _ 9 (by decide) (A_eq7 (entry7 m) c))
theorem V17_eq (c : Dev nD) : V17 m (outs m) c = W17 m c := congrArg (StableHlo.after hostOps8) (V16_eq m c)
theorem V18_eq (c : Dev nD) : V18 m (outs m) c = W18 m c :=
  update_eq_of (V17_eq m c) (exit_eq_update (dat8 (entry8 m) c) launch8.win.arr_inj _ 9 (by decide) (A_eq8 (entry8 m) c))
theorem V19_eq (c : Dev nD) : V19 m (outs m) c = W19 m c := congrArg (StableHlo.after hostOps9) (V18_eq m c)
theorem V20_eq (c : Dev nD) : V20 m (outs m) c = W20 m c :=
  update_eq_of (V19_eq m c) (exit_eq_update (dat9 (entry9 m) c) launch9.win.arr_inj _ 6 (by decide) (A_eq9 (entry9 m) c))
theorem V21_eq (c : Dev nD) : V21 m (outs m) c = W21 m c := congrArg (StableHlo.after hostOps10) (V20_eq m c)

theorem W2_of (c : Dev nD) (r : Ref sig .tc) (h : r ∉ ([main_v44] : List (Ref sig .tc))) :
    W2 m c (Proc.devRef .tc r) = W1 m c (Proc.devRef .tc r) := of_update_eq (V1_eq m c) (V2_eq m c) r h
theorem W4_of (c : Dev nD) (r : Ref sig .tc) (h : r ∉ ([main_v83] : List (Ref sig .tc))) :
    W4 m c (Proc.devRef .tc r) = W3 m c (Proc.devRef .tc r) := of_update_eq (V3_eq m c) (V4_eq m c) r h
theorem W6_of (c : Dev nD) (r : Ref sig .tc) (h : r ∉ ([main_v122] : List (Ref sig .tc))) :
    W6 m c (Proc.devRef .tc r) = W5 m c (Proc.devRef .tc r) := of_update_eq (V5_eq m c) (V6_eq m c) r h
theorem W8_of (c : Dev nD) (r : Ref sig .tc) (h : r ∉ ([main_v161] : List (Ref sig .tc))) :
    W8 m c (Proc.devRef .tc r) = W7 m c (Proc.devRef .tc r) := of_update_eq (V7_eq m c) (V8_eq m c) r h
theorem W10_of (c : Dev nD) (r : Ref sig .tc) (h : r ∉ ([main_v175] : List (Ref sig .tc))) :
    W10 m c (Proc.devRef .tc r) = W9 m c (Proc.devRef .tc r) := of_update_eq (V9_eq m c) (V10_eq m c) r h
theorem W12_of (c : Dev nD) (r : Ref sig .tc) (h : r ∉ ([main_v220] : List (Ref sig .tc))) :
    W12 m c (Proc.devRef .tc r) = W11 m c (Proc.devRef .tc r) := of_update_eq (V11_eq m c) (V12_eq m c) r h
theorem W14_of (c : Dev nD) (r : Ref sig .tc) (h : r ∉ ([main_v259] : List (Ref sig .tc))) :
    W14 m c (Proc.devRef .tc r) = W13 m c (Proc.devRef .tc r) := of_update_eq (V13_eq m c) (V14_eq m c) r h
theorem W16_of (c : Dev nD) (r : Ref sig .tc) (h : r ∉ ([main_v298] : List (Ref sig .tc))) :
    W16 m c (Proc.devRef .tc r) = W15 m c (Proc.devRef .tc r) := of_update_eq (V15_eq m c) (V16_eq m c) r h
theorem W18_of (c : Dev nD) (r : Ref sig .tc) (h : r ∉ ([main_v337] : List (Ref sig .tc))) :
    W18 m c (Proc.devRef .tc r) = W17 m c (Proc.devRef .tc r) := of_update_eq (V17_eq m c) (V18_eq m c) r h
theorem W20_of (c : Dev nD) (r : Ref sig .tc) (h : r ∉ ([main_v351] : List (Ref sig .tc))) :
    W20 m c (Proc.devRef .tc r) = W19 m c (Proc.devRef .tc r) := of_update_eq (V19_eq m c) (V20_eq m c) r h

noncomputable def pdats : (p : Fin 10) → (c : Dev nD) → Dat τ (Elt F) Unit ℕ (UR sig nD τ) ℕ (cfgs p) c
  | ⟨0, _⟩ => fun c => dat0 (entry0 m) c
  | ⟨1, _⟩ => fun c => dat1 (entry1 m) c
  | ⟨2, _⟩ => fun c => dat2 (entry2 m) c
  | ⟨3, _⟩ => fun c => dat3 (entry3 m) c
  | ⟨4, _⟩ => fun c => dat4 (entry4 m) c
  | ⟨5, _⟩ => fun c => dat5 (entry5 m) c
  | ⟨6, _⟩ => fun c => dat6 (entry6 m) c
  | ⟨7, _⟩ => fun c => dat7 (entry7 m) c
  | ⟨8, _⟩ => fun c => dat8 (entry8 m) c
  | ⟨9, _⟩ => fun c => dat9 (entry9 m) c
abbrev 𝒱₀ : Variants := Variants.none
abbrev L : GSem nD τ sig → Finset Unit := fun _ => ∅
abbrev lv : GSem nD τ sig → Unit → ℕ := fun _ _ => 0
abbrev R (c : Dev nD) : sProp (MT nD τ sig Unit (Elt F) ℕ (UR sig nD τ) ℕ) := iprop((∃ r, prngReg c r) ∗ ∃ W, owes (c : Thread nD τ) (0 : CellTallies nD τ sig Unit) W)

end Cert.Kernel.Hand

end
-- ==== Proof.K.RegLib.lean ====
import proofs.«428878_j20040317403499_2_alg».proof.Proof.K.RunVals

set_option maxRecDepth 2632

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) {p : Fin 10}

theorem owesAt_intro {c : Dev nD} (dat : Dat τ (Elt F) Unit ℕ (UR sig nD τ) ℕ (cfgs p) c) (t : Fin ((cfgs p).N + 1))
    (ho : dat.owed t = 0) (hr : dat.recorded t = Set.univ) :
    iprop(∃ W, owes (c : Thread nD τ) (0 : CellTallies nD τ sig Unit) W) ⊢ (dat.owesAt () t : sProp 𝕄) := by
  unfold Pipeline.Dat.owesAt Pipeline.owesWithin Pipeline.Dat.bound; rw [ho, hr]
  iintro ⟨%W, HO⟩; iexists W; isplitr; · ipureintro; exact fun _ _ => Or.inl trivial
  iexact HO

theorem owesAt_elim {c : Dev nD} (dat : Dat τ (Elt F) Unit ℕ (UR sig nD τ) ℕ (cfgs p) c) (t : Fin ((cfgs p).N + 1))
    (ho : dat.owed t = 0) :
    (dat.owesAt () t : sProp 𝕄) ⊢ iprop(∃ W, owes (c : Thread nD τ) (0 : CellTallies nD τ sig Unit) W) := by
  unfold Pipeline.Dat.owesAt Pipeline.owesWithin; rw [ho]
  iintro ⟨%W, -, HO⟩; iexists W; iexact HO

set_option backward.isDefEq.respectTransparency.types false in
/-- A region entered with every unscoped buffer at `Vi` and left with them at `Vo`, which differs from `Vi` at its arrays alone. -/
def regOf (launch : Pipeline.LaunchFacts (nD := nD) (τ := τ) cfgs p)
    {Vi Vo W W' : Dev nD → Valuation τ sig (Elt F)} (hVi : ∀ c, Vi c = W c) (hVo : ∀ c, Vo c = W' c)
    (hbody : ∀ c, BodyObligation (pdats m p c) (defs₀ (F := F)) Variants.none () Set.univ)
    (hdat : ∀ c, (pdats m p c).q = (fun _ => fullShare) ∧ (pdats m p c).owed = (fun _ => 0) ∧ (pdats m p c).recorded = fun _ => Set.univ)
    (hA : ∀ c w, (pdats m p c).A w = W c (Pipeline.arrRef (cfgs p).spec w))
    (hF : ∀ c w, (pdats m p c).arrAt w (cfgs p).N = W' c (Pipeline.arrRef (cfgs p).spec w))
    (hrest : ∀ c (b : Ref sig .tc), b ∉ Finset.univ.image (Pipeline.arrRef (cfgs p).spec) → W' c b = W c b)
    (hin : ∀ c, iprop((∃ r, prngReg c r) ∗ Pipeline.prefHeld (pcfgs (F := F) p).pre c (fun _ => fullShare) (adm p).1
        ∗ Pipeline.scopedRest (cfgs p).spec c) ⊢ (pdats m p c).Φ 0)
    (hout : ∀ c, (pdats m p c).Φ (Fin.last (cfgs p).N)
      ⊢ iprop((∃ r, prngReg c r) ∗ Pipeline.ownSems0 (fun k : PEmpty => k.elim) c ∗ Pipeline.scopedRest (cfgs p).spec c)) :
    RegionSeg (pcfgs (F := F)) adm (pdats m) () defs₀ 𝒱₀ L lv p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ L lv p fun c => congrFun (hdat c).2.1
  pre c := iprop(StableHlo.held (c : Thread nD τ) (Pipeline.ucRefs τ sig) (Vi c) ∗ R c)
  post c := iprop(StableHlo.held (c : Thread nD τ) (Pipeline.ucRefs τ sig) (Vo c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => W c b)
  hentry c := by
    have hsplit := Pipeline.arrays_of_unscopedBufs (p := p) (pcfgs (F := F)) adm (pdats m) launch.win launch.arr_whole c
      ((pdats m p c).share_full (congrFun (hdat c).1)) (fun b => W c b) (hA c)
    rw [Pipeline.unscopedBufs_held] at hsplit
    rw [Pipeline.ownSems0_none, hVi c]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply owesAt_intro (pdats m p c) 0 (congrFun (hdat c).2.1 0) (congrFun (hdat c).2.2 0); iexact HO
    isplitl [Hp] <;> iassumption
  hin := hin
  hout := hout
  hexit c := by
    have hjoin := Pipeline.unscopedBufs_of_arrays (p := p) (pcfgs (F := F)) adm (Ix := Unit) (Name := ℕ) (U := UR sig nD τ) (Lvl := ℕ)
      launch.win launch.arr_whole c (pdats m) ((pdats m p c).share_full (congrFun (hdat c).1))
      (fun b => W c b) (fun b => W' c b) ((pdats m p c).arrAt · (cfgs p).N) (hF c) (hrest c)
    rw [Pipeline.unscopedBufs_held] at hjoin
    rw [hVo c]
    iintro ⟨Ha, HO, HY, Hrest⟩
    imodintro
    isplitl [Ha Hrest]
    · iapply hjoin; isplitl [Ha] <;> iassumption
    isplitl [HY]; · iexact HY
    iapply owesAt_elim (pdats m p c) _ (congrFun (hdat c).2.1 _); iexact HO

theorem hinA {c : Dev nD} (hΦ : (pdats m p c).Φ 0 = Pipeline.ΦA (cfgs p).spec c) :
    iprop((∃ r, prngReg c r) ∗ Pipeline.prefHeld (pcfgs (F := F) p).pre c (fun _ => fullShare) (adm p).1
      ∗ Pipeline.scopedRest (cfgs p).spec c) ⊢ (pdats m p c).Φ 0 := by
  rw [hΦ]; unfold Pipeline.ΦA
  iintro ⟨Hp, -, Hr⟩
  isplitl [Hr] <;> iassumption

theorem houtA {c : Dev nD} (hΦ : (pdats m p c).Φ (Fin.last (cfgs p).N) = Pipeline.ΦA (cfgs p).spec c) :
    (pdats m p c).Φ (Fin.last (cfgs p).N)
      ⊢ iprop((∃ r, prngReg c r) ∗ Pipeline.ownSems0 (fun k : PEmpty => k.elim) c ∗ Pipeline.scopedRest (cfgs p).spec c) := by
  rw [Pipeline.ownSems0_none, hΦ]; unfold Pipeline.ΦA
  iintro ⟨Hr, Hp⟩
  isplitl [Hp]; · iexact Hp
  isplitr; · iempintro
  iexact Hr

def reg0 := regOf m launch0 (V1_eq m) (V2_eq m) (body_obligation0 _) (fun _ => ⟨rfl, rfl, rfl⟩) (fun _ _ => rfl) (hF0 m) (hrest0 m)
  (fun _ => hinA m rfl) fun _ => houtA m rfl
def reg1 := regOf m launch1 (V3_eq m) (V4_eq m) (body_obligation1 _) (fun _ => ⟨rfl, rfl, rfl⟩) (fun _ _ => rfl) (hF1 m) (hrest1 m)
  (fun _ => hinA m rfl) fun _ => houtA m rfl
def reg2 := regOf m launch2 (V5_eq m) (V6_eq m) (body_obligation2 _) (fun _ => ⟨rfl, rfl, rfl⟩) (fun _ _ => rfl) (hF2 m) (hrest2 m)
  (fun _ => hinA m rfl) fun _ => houtA m rfl
def reg3 := regOf m launch3 (V7_eq m) (V8_eq m) (body_obligation3 _) (fun _ => ⟨rfl, rfl, rfl⟩) (fun _ _ => rfl) (hF3 m) (hrest3 m)
  (fun _ => hinA m rfl) fun _ => houtA m rfl
def reg4 := regOf m launch4 (V9_eq m) (V10_eq m) (body_obligation4 _) (fun _ => ⟨rfl, rfl, rfl⟩) (fun _ _ => rfl) (hF4 m) (hrest4 m)
  (hin4 _) (hout4 _)
def reg5 := regOf m launch5 (V11_eq m) (V12_eq m) (body_obligation5 _) (fun _ => ⟨rfl, rfl, rfl⟩) (fun _ _ => rfl) (hF5 m) (hrest5 m)
  (fun _ => hinA m rfl) fun _ => houtA m rfl
def reg6 := regOf m launch6 (V13_eq m) (V14_eq m) (body_obligation6 _) (fun _ => ⟨rfl, rfl, rfl⟩) (fun _ _ => rfl) (hF6 m) (hrest6 m)
  (fun _ => hinA m rfl) fun _ => houtA m rfl
def reg7 := regOf m launch7 (V15_eq m) (V16_eq m) (body_obligation7 _) (fun _ => ⟨rfl, rfl, rfl⟩) (fun _ _ => rfl) (hF7 m) (hrest7 m)
  (fun _ => hinA m rfl) fun _ => houtA m rfl
def reg8 := regOf m launch8 (V17_eq m) (V18_eq m) (body_obligation8 _) (fun _ => ⟨rfl, rfl, rfl⟩) (fun _ _ => rfl) (hF8 m) (hrest8 m)
  (fun _ => hinA m rfl) fun _ => houtA m rfl
def reg9 := regOf m launch9 (V19_eq m) (V20_eq m) (body_obligation9 _) (fun _ => ⟨rfl, rfl, rfl⟩) (fun _ _ => rfl) (hF9 m) (hrest9 m)
  (hin9 _) (hout9 _)

end Cert.Kernel.Hand

end
-- ==== Proof.K.Run.lean ====
import proofs.«428878_j20040317403499_2_alg».proof.Proof.K.RegLib

set_option maxRecDepth 2632

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main run through its ten regions ends with every argument as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  frame_cond m (Ix := Unit) (U := UR sig nD τ) (Lvl := ℕ) emb₁ () 𝒱₀ L lv (fun _ _ => rfl) ρ (outs m) (pdats m)
    (O₀ := 0) (G := fun _ => BI.emp)
    (u₀ := initOf (Pipeline.cells cfgs cellOf_inj) (Pipeline.launchToks cfgs cellOf_inj))
    (hu₀ := by
      rw [BI.bigSep_emp_const]; iintro Hu; imodintro
      isplitl [Hu]; · iapply (show (ownU _ : sProp 𝕄) ⊢ BI.own (emb₁ _) from .rfl); iexact Hu
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE10 := fun c => by iintro ⟨-, HO⟩; iexact HO)
    (reg0 m) (fun _ => .rfl) (fun _ => .rfl)
    (reg1 m) (fun _ => .rfl) (fun _ => .rfl)
    (reg2 m) (fun _ => .rfl) (fun _ => .rfl)
    (reg3 m) (fun _ => .rfl) (fun _ => .rfl)
    (reg4 m) (fun _ => .rfl) (fun _ => .rfl)
    (reg5 m) (fun _ => .rfl) (fun _ => .rfl)
    (reg6 m) (fun _ => .rfl) (fun _ => .rfl)
    (reg7 m) (fun _ => .rfl) (fun _ => .rfl)
    (reg8 m) (fun _ => .rfl) (fun _ => .rfl)
    (reg9 m) (fun _ => .rfl) (fun _ => .rfl)

end Cert.Kernel.Hand

end
-- ==== Proof.KI.Gin0.lean ====
import proofs.«428878_j20040317403499_2_alg».proof.Proof.Gen.KernelIdeal.Launch
import proofs.«428878_j20040317403499_2_alg».proof.Proof.Gen.KernelIdeal.Skeleton
import proofs.«428878_j20040317403499_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S1000x128 := Rect.unit (s := S1000x128) ![0, 0] S1000x128.size inb_S1000x128_S1000x128_0_0
abbrev r0_w : Rect S128x128 := Rect.unit (s := S128x128) ![0, 0] S128x128.size inb_S128x128_S128x128_0_0
abbrev r0_v : Rect S1x128 := Rect.unit (s := S1x128) ![0, 0] S1x128.size inb_S1x128_S1x128_0_0

noncomputable def out0_9 (x0 : Vec F S1000x128 .f32) (x1 : Vec F S128x128 .f32) (x2 : Vec F S1x128 .f32) (x3 : Vec F S128x128 .f32)
    (x4 x5 x6 x7 x8 : Vec F S1x128 .f32) : Vec F S1000x128 .f32 :=
  View.canon [⟨r0_x, k0_pay1
    (k0_pay2 (View.ld x0 r0_x) (View.ld x1 r0_w) (View.ld x2 r0_v) (View.ld x3 r0_w) (View.ld x4 r0_v) (View.ld x5 r0_v) (View.ld x7 r0_v))
    (k0_pay3 (View.ld x8 r0_v)) (View.ld x6 r0_v)⟩]

noncomputable def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 1 t) (iblk0 V c 2 t) (iblk0 V c 3 t) (iblk0 V c 4 t) (iblk0 V c 5 t) (iblk0 V c 6 t) (iblk0 V c 7 t) (iblk0 V c 8 t)
  Φ _ := Pipeline.ΦA spec0 c
  q _ := fullShare
  owed _ := 0

theorem A_eq0 (c : Dev nD) (w : Fin cfg0.W) : (dat0 V c).A w = V c (Pipeline.arrRef spec0 w) := rfl

theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) (iblk0 V c 7 t) (iblk0 V c 8 t) := by
  dsimp only [dat0]

set_option maxHeartbeats 4000000 in
theorem sound_kernel0 (c : Dev nD) (E : Set ℕ) (i : grid0.Coords) (arg1 arg10 : Memref sig .tc .vmem S1000x128 .f32) (arg2 arg4 : Memref sig .tc .vmem S128x128 .f32) (arg3 arg5 arg6 arg7 arg8 arg9 : Memref sig .tc .vmem S1x128 .f32) (harg1 : arg1.IsWhole) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole)
    (x0 : Vec F S1000x128 .f32) (x1 : Vec F S128x128 .f32) (x2 : Vec F S1x128 .f32) (x3 : Vec F S128x128 .f32) (x4 x5 x6 x7 x8 : Vec F S1x128 .f32) (K : PUnit → sProp 𝕄) :
    iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5 ∗ owns c.tc arg7 fullShare x6 ∗ owns c.tc arg8 fullShare x7 ∗ owns c.tc arg9 fullShare x8 ∗ (∃ d, owns c.tc arg10 fullShare d)
        ∗ (iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5 ∗ owns c.tc arg7 fullShare x6 ∗ owns c.tc arg8 fullShare x7 ∗ owns c.tc arg9 fullShare x8 ∗ owns c.tc arg10 fullShare (out0_9 x0 x1 x2 x3 x4 x5 x6 x7 x8)) -∗ K ⟨⟩))
      ⊢ wp frame (wpE (defs₀ (F := F)) Variants.none c none) E (cc0__gin_layer_kernel i arg1 harg1 arg2 harg2 arg3 harg3 arg4 harg4 arg5 harg5 arg6 harg6 arg7 harg7 arg8 harg8 arg9 harg9 arg10 harg10) K := by
  simp only [cc0__gin_layer_kernel_eq_skeleton]; unfold cc0__gin_layer_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst_vars
  sl_exec
  sl_step
  iapply Hk
  isplitl [H0]; · iexists f0; isplitr; ipureintro; rfl; iexact H0
  isplitl [H1]; · iexists f1; isplitr; ipureintro; rfl; iexact H1
  isplitl [H2]; · iexists f2; isplitr; ipureintro; rfl; iexact H2
  isplitl [H3]; · iexists f3; isplitr; ipureintro; rfl; iexact H3
  isplitl [H4]; · iexists f4; isplitr; ipureintro; rfl; iexact H4
  isplitl [H5]; · iexists f5; isplitr; ipureintro; rfl; iexact H5
  isplitl [H6]; · iexists f6; isplitr; ipureintro; rfl; iexact H6
  isplitl [H7]; · iexists f7; isplitr; ipureintro; rfl; iexact H7
  isplitl [H8]; · iexists f8; isplitr; ipureintro; rfl; iexact H8
  iexists _; isplitr
  swap; · iexact H9
  ipureintro
  exact View.read_writes_eq_canon _ _ _ (View.cover_of_tiled _ S1000x128.size (by rfl))

theorem before0 (c : Dev nD) (t : Fin cfg0.N) : ∀ w : Fin cfg0.W, (cfg0.win w).isOut = false → ∀ d, (dat0 V c).before w t d = (dat0 V c).after w t
  | ⟨9, _⟩, h, _ => absurd h (by decide : ¬(cfg0.win 9).isOut = false)
  | ⟨0, _⟩, _, d | ⟨1, _⟩, _, d | ⟨2, _⟩, _, d | ⟨3, _⟩, _, d | ⟨4, _⟩, _, d | ⟨5, _⟩, _, d | ⟨6, _⟩, _, d | ⟨7, _⟩, _, d | ⟨8, _⟩, _, d =>
    (dat0 V c).before_in_eq_fetched _ rfl (fun _ => rfl) (fun _ _ _ => rfl) (fun _ => rfl) t d

theorem body_obligation0 (c : Dev nD) : BodyObligation (dat0 (F := F) V c) (defs₀ (F := F)) Variants.none () Set.univ := fun t => by
  rw [bigSep_W0, bigSep_W0]
  have hb := before0 V c t
  simp only [hb 0 rfl, hb 1 rfl, hb 2 rfl, hb 3 rfl, hb 4 rfl, hb 5 rfl, hb 6 rfl, hb 7 rfl, hb 8 rfl]
  dsimp only [dat0]
  sl_whnfR [defs₀, Defs.onTc]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  iframe H0 H1 H2 H3 H4 H5 H6 H7 H8
  isplitl [H9]; · iexists _; iexact H9
  iintro ⟨H0, H1, H2, H3, H4, H5, H6, H7, H8, H9⟩
  iframe HΦ H0 H1 H2 H3 H4 H5 H6 H7 H8 H9
  iapply Ho

end Cert.KernelIdeal.Hand

end
-- ==== Proof.KI.Gin1.lean ====
import proofs.«428878_j20040317403499_2_alg».proof.Proof.KI.Gin0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_x : Rect S1000x128 := Rect.unit (s := S1000x128) ![0, 0] S1000x128.size inb_S1000x128_S1000x128_0_0
abbrev r1_w : Rect S128x128 := Rect.unit (s := S128x128) ![0, 0] S128x128.size inb_S128x128_S128x128_0_0
abbrev r1_v : Rect S1x128 := Rect.unit (s := S1x128) ![0, 0] S1x128.size inb_S1x128_S1x128_0_0

noncomputable def out1_9 (x0 : Vec F S1000x128 .f32) (x1 : Vec F S128x128 .f32) (x2 : Vec F S1x128 .f32) (x3 : Vec F S128x128 .f32)
    (x4 x5 x6 x7 x8 : Vec F S1x128 .f32) : Vec F S1000x128 .f32 :=
  View.canon [⟨r1_x, k1_pay1
    (k1_pay2 (View.ld x0 r1_x) (View.ld x1 r1_w) (View.ld x2 r1_v) (View.ld x3 r1_w) (View.ld x4 r1_v) (View.ld x5 r1_v) (View.ld x7 r1_v))
    (k1_pay3 (View.ld x8 r1_v)) (View.ld x6 r1_v)⟩]

noncomputable def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

theorem A_eq1 (c : Dev nD) (w : Fin cfg1.W) : (dat1 V c).A w = V c (Pipeline.arrRef spec1 w) := rfl

theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by
  dsimp only [dat1]

theorem before1 (c : Dev nD) (t : Fin cfg1.N) : ∀ w : Fin cfg1.W, (cfg1.win w).isOut = false → ∀ d, (dat1 V c).before w t d = (dat1 V c).after w t
  | ⟨9, _⟩, h, _ => absurd h (by decide : ¬(cfg1.win 9).isOut = false)
  | ⟨0, _⟩, _, d | ⟨1, _⟩, _, d | ⟨2, _⟩, _, d | ⟨3, _⟩, _, d | ⟨4, _⟩, _, d | ⟨5, _⟩, _, d | ⟨6, _⟩, _, d | ⟨7, _⟩, _, d | ⟨8, _⟩, _, d =>
    (dat1 V c).before_in_eq_fetched _ rfl (fun _ => rfl) (fun _ _ _ => rfl) (fun _ => rfl) t d

theorem body_obligation1 (c : Dev nD) : BodyObligation (dat1 (F := F) V c) (defs₀ (F := F)) Variants.none () Set.univ := fun t => by
  rw [bigSep_W1, bigSep_W1]
  have hb := before1 V c t
  simp only [hb 0 rfl, hb 1 rfl, hb 2 rfl, hb 3 rfl, hb 4 rfl, hb 5 rfl, hb 6 rfl, hb 7 rfl, hb 8 rfl]
  dsimp only [dat1]
  sl_whnfR [defs₀, Defs.onTc]
  rewrite [show @cc1__gin_layer_kernel F _ = @cc0__gin_layer_kernel F _ from rfl, show @out1_9 F _ = @out0_9 F _ from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  iframe H0 H1 H2 H3 H4 H5 H6 H7 H8
  isplitl [H9]; · iexists _; iexact H9
  iintro ⟨H0, H1, H2, H3, H4, H5, H6, H7, H8, H9⟩
  iframe HΦ H0 H1 H2 H3 H4 H5 H6 H7 H8 H9
  iapply Ho

end Cert.KernelIdeal.Hand

end
-- ==== Proof.KI.Gin2.lean ====
import proofs.«428878_j20040317403499_2_alg».proof.Proof.KI.Gin0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_x : Rect S1000x128 := Rect.unit (s := S1000x128) ![0, 0] S1000x128.size inb_S1000x128_S1000x128_0_0
abbrev r2_w : Rect S128x128 := Rect.unit (s := S128x128) ![0, 0] S128x128.size inb_S128x128_S128x128_0_0
abbrev r2_v : Rect S1x128 := Rect.unit (s := S1x128) ![0, 0] S1x128.size inb_S1x128_S1x128_0_0

noncomputable def out2_9 (x0 : Vec F S1000x128 .f32) (x1 : Vec F S128x128 .f32) (x2 : Vec F S1x128 .f32) (x3 : Vec F S128x128 .f32)
    (x4 x5 x6 x7 x8 : Vec F S1x128 .f32) : Vec F S1000x128 .f32 :=
  View.canon [⟨r2_x, k2_pay1
    (k2_pay2 (View.ld x0 r2_x) (View.ld x1 r2_w) (View.ld x2 r2_v) (View.ld x3 r2_w) (View.ld x4 r2_v) (View.ld x5 r2_v) (View.ld x7 r2_v))
    (k2_pay3 (View.ld x8 r2_v)) (View.ld x6 r2_v)⟩]

noncomputable def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => out2_9 (iblk2 V c 0 t) (iblk2 V c 1 t) (iblk2 V c 2 t) (iblk2 V c 3 t) (iblk2 V c 4 t) (iblk2 V c 5 t) (iblk2 V c 6 t) (iblk2 V c 7 t) (iblk2 V c 8 t)
  Φ _ := Pipeline.ΦA spec2 c
  q _ := fullShare
  owed _ := 0

theorem A_eq2 (c : Dev nD) (w : Fin cfg2.W) : (dat2 V c).A w = V c (Pipeline.arrRef spec2 w) := rfl

theorem after2_9 (c : Dev nD) (t : Fin cfg2.N) : (dat2 V c).after 9 t = out2_9 (iblk2 V c 0 t) (iblk2 V c 1 t) (iblk2 V c 2 t) (iblk2 V c 3 t) (iblk2 V c 4 t) (iblk2 V c 5 t) (iblk2 V c 6 t) (iblk2 V c 7 t) (iblk2 V c 8 t) := by
  dsimp only [dat2]

theorem before2 (c : Dev nD) (t : Fin cfg2.N) : ∀ w : Fin cfg2.W, (cfg2.win w).isOut = false → ∀ d, (dat2 V c).before w t d = (dat2 V c).after w t
  | ⟨9, _⟩, h, _ => absurd h (by decide : ¬(cfg2.win 9).isOut = false)
  | ⟨0, _⟩, _, d | ⟨1, _⟩, _, d | ⟨2, _⟩, _, d | ⟨3, _⟩, _, d | ⟨4, _⟩, _, d | ⟨5, _⟩, _, d | ⟨6, _⟩, _, d | ⟨7, _⟩, _, d | ⟨8, _⟩, _, d =>
    (dat2 V c).before_in_eq_fetched _ rfl (fun _ => rfl) (fun _ _ _ => rfl) (fun _ => rfl) t d

theorem body_obligation2 (c : Dev nD) : BodyObligation (dat2 (F := F) V c) (defs₀ (F := F)) Variants.none () Set.univ := fun t => by
  rw [bigSep_W2, bigSep_W2]
  have hb := before2 V c t
  simp only [hb 0 rfl, hb 1 rfl, hb 2 rfl, hb 3 rfl, hb 4 rfl, hb 5 rfl, hb 6 rfl, hb 7 rfl, hb 8 rfl]
  dsimp only [dat2]
  sl_whnfR [defs₀, Defs.onTc]
  rewrite [show @cc2__gin_layer_kernel F _ = @cc0__gin_layer_kernel F _ from rfl, show @out2_9 F _ = @out0_9 F _ from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) _)
  iframe H0 H1 H2 H3 H4 H5 H6 H7 H8
  isplitl [H9]; · iexists _; iexact H9
  iintro ⟨H0, H1, H2, H3, H4, H5, H6, H7, H8, H9⟩
  iframe HΦ H0 H1 H2 H3 H4 H5 H6 H7 H8 H9
  iapply Ho

end Cert.KernelIdeal.Hand

end
-- ==== Proof.KI.Gin3.lean ====
import proofs.«428878_j20040317403499_2_alg».proof.Proof.KI.Gin0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_x : Rect S1000x128 := Rect.unit (s := S1000x128) ![0, 0] S1000x128.size inb_S1000x128_S1000x128_0_0
abbrev r3_w : Rect S128x128 := Rect.unit (s := S128x128) ![0, 0] S128x128.size inb_S128x128_S128x128_0_0
abbrev r3_v : Rect S1x128 := Rect.unit (s := S1x128) ![0, 0] S1x128.size inb_S1x128_S1x128_0_0

noncomputable def out3_9 (x0 : Vec F S1000x128 .f32) (x1 : Vec F S128x128 .f32) (x2 : Vec F S1x128 .f32) (x3 : Vec F S128x128 .f32)
    (x4 x5 x6 x7 x8 : Vec F S1x128 .f32) : Vec F S1000x128 .f32 :=
  View.canon [⟨r3_x, k3_pay1
    (k3_pay2 (View.ld x0 r3_x) (View.ld x1 r3_w) (View.ld x2 r3_v) (View.ld x3 r3_w) (View.ld x4 r3_v) (View.ld x5 r3_v) (View.ld x7 r3_v))
    (k3_pay3 (View.ld x8 r3_v)) (View.ld x6 r3_v)⟩]

noncomputable def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => out3_9 (iblk3 V c 0 t) (iblk3 V c 1 t) (iblk3 V c 2 t) (iblk3 V c 3 t) (iblk3 V c 4 t) (iblk3 V c 5 t) (iblk3 V c 6 t) (iblk3 V c 7 t) (iblk3 V c 8 t)
  Φ _ := Pipeline.ΦA spec3 c
  q _ := fullShare
  owed _ := 0

theorem A_eq3 (c : Dev nD) (w : Fin cfg3.W) : (dat3 V c).A w = V c (Pipeline.arrRef spec3 w) := rfl

theorem after3_9 (c : Dev nD) (t : Fin cfg3.N) : (dat3 V c).after 9 t = out3_9 (iblk3 V c 0 t) (iblk3 V c 1 t) (iblk3 V c 2 t) (iblk3 V c 3 t) (iblk3 V c 4 t) (iblk3 V c 5 t) (iblk3 V c 6 t) (iblk3 V c 7 t) (iblk3 V c 8 t) := by
  dsimp only [dat3]

theorem before3 (c : Dev nD) (t : Fin cfg3.N) : ∀ w : Fin cfg3.W, (cfg3.win w).isOut = false → ∀ d, (dat3 V c).before w t d = (dat3 V c).after w t
  | ⟨9, _⟩, h, _ => absurd h (by decide : ¬(cfg3.win 9).isOut = false)
  | ⟨0, _⟩, _, d | ⟨1, _⟩, _, d | ⟨2, _⟩, _, d | ⟨3, _⟩, _, d | ⟨4, _⟩, _, d | ⟨5, _⟩, _, d | ⟨6, _⟩, _, d | ⟨7, _⟩, _, d | ⟨8, _⟩, _, d =>
    (dat3 V c).before_in_eq_fetched _ rfl (fun _ => rfl) (fun _ _ _ => rfl) (fun _ => rfl) t d

theorem body_obligation3 (c : Dev nD) : BodyObligation (dat3 (F := F) V c) (defs₀ (F := F)) Variants.none () Set.univ := fun t => by
  rw [bigSep_W3, bigSep_W3]
  have hb := before3 V c t
  simp only [hb 0 rfl, hb 1 rfl, hb 2 rfl, hb 3 rfl, hb 4 rfl, hb 5 rfl, hb 6 rfl, hb 7 rfl, hb 8 rfl]
  dsimp only [dat3]
  sl_whnfR [defs₀, Defs.onTc]
  rewrite [show @cc3__gin_layer_kernel F _ = @cc0__gin_layer_kernel F _ from rfl, show @out3_9 F _ = @out0_9 F _ from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) _)
  iframe H0 H1 H2 H3 H4 H5 H6 H7 H8
  isplitl [H9]; · iexists _; iexact H9
  iintro ⟨H0, H1, H2, H3, H4, H5, H6, H7, H8, H9⟩
  iframe HΦ H0 H1 H2 H3 H4 H5 H6 H7 H8 H9
  iapply Ho

end Cert.KernelIdeal.Hand

end
-- ==== Proof.KI.Pool4.lean ====
import proofs.«428878_j20040317403499_2_alg».proof.Proof.Gen.KernelIdeal.Launch
import proofs.«428878_j20040317403499_2_alg».proof.Proof.Gen.KernelIdeal.Skeleton
import proofs.«428878_j20040317403499_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Pipeline.TableIdle
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

private theorem zeros2 : (![0, 0] : Fin 2 → ℕ) = fun _ => 0 := funext fun a => by fin_cases a <;> rfl

private theorem read_store_whole {S : Shape} {e : EltTy} (v : View sig .tc .vmem S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w := by
  rw [View.read_writes_eq_canon v f _ (fun y => ⟨_, List.mem_cons_self, View.mem_set_unit_zero h inb y⟩),
    View.canon_cons_unit_zero h inb w L]

abbrev first4 (i : grid4.Coords) : Prop :=
  (Scalar.cmpi .ne (Scalar.extui (Scalar.cmpi .eq (BitVec.ofNat 32 (i 0).val) 0#32)) 0#32) = 1#1
abbrev last4 (i : grid4.Coords) : Prop := k4_cond2 i = 1#1

theorem hfirst4 : ∀ t : Fin cfg4.N, first4 (grid4.coords t) ↔ t.val = 0 :=
  (by decide +kernel : ∀ t : Fin grid4.N, first4 (grid4.coords t) ↔ t.val = 0)
theorem hlast4 : ∀ t : Fin cfg4.N, last4 (grid4.coords t) ↔ t.val = 49 :=
  (by decide +kernel : ∀ t : Fin grid4.N, last4 (grid4.coords t) ↔ t.val = 49)

theorem idleAt4_6 : ∀ t : Fin cfg4.N, ¬ t.val = 49 → cfg4.idle 6 (grid4.coords t) = true :=
  (by decide +kernel : ∀ t : Fin grid4.N, ¬ t.val = 49 → cfg4.idle 6 (grid4.coords t) = true)
theorem noFlush4_6 : ∀ t : Fin cfg4.N, ¬ t.val = 49 → (cfg4.win 6).flush t = false :=
  (by decide +kernel : ∀ t : Fin grid4.N, ¬ t.val = 49 → win4_6.flush t = false)
theorem liveAt4_6 : ∀ t : Fin cfg4.N, t.val = 49 → cfg4.idle 6 (grid4.coords t) = false :=
  (by decide +kernel : ∀ t : Fin grid4.N, t.val = 49 → cfg4.idle 6 (grid4.coords t) = false)

set_option maxHeartbeats 1000000 in
-- One run for every point: the accumulators restart from zero at the first point, the head is stored at the last.
theorem poolRun4 (c : Dev nD) (i : grid4.Coords)
    (arg1 : Memref sig .tc .vmem S1000x128 .f32) (harg1 : arg1.IsWhole) (arg2 : Memref sig .tc .vmem S1000x1 .i32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x10 .f32) (harg5 : arg5.IsWhole) (arg6 : Memref sig .tc .vmem S1x10 .f32) (harg6 : arg6.IsWhole)
    (arg7 : Memref sig .tc .vmem S128x10 .f32) (harg7 : arg7.IsWhole) (arg8 : Memref sig .tc .vmem S128x128 .f32) (harg8 : arg8.IsWhole)
    (arg9 : Memref sig .tc .vmem S1x128 .f32) (harg9 : arg9.IsWhole) (hfl : first4 i → ¬ last4 i)
    (x0 : Vec F S1000x128 .f32) (x1 : Vec F S1000x1 .i32) (x2 : Vec F S128x128 .f32) (x3 : Vec F S1x128 .f32)
    (x4 : Vec F S128x10 .f32) (x5 : Vec F S1x10 .f32) (x6 : Vec F S128x10 .f32)
    (a a₀ : Vec F S128x128 .f32) (n n₀ : Vec F S1x128 .f32)
    (ha : (if first4 i then k4_pay1 else a) = a₀) (hn : (if first4 i then k4_pay2 else n) = n₀)
    (E : Set ℕ) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare x6 ∗ owns (c : Thread nD τ) arg8 fullShare a ∗ owns (c : Thread nD τ) arg9 fullShare n
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (if last4 i then k4_pay6 (k4_pay5 x1 n₀) (k4_pay4 x0 x1 a₀) x2 x3 x4 x5 else x6)
            ∗ owns (c : Thread nD τ) arg8 fullShare (k4_pay4 x0 x1 a₀) ∗ owns (c : Thread nD τ) arg9 fullShare (k4_pay5 x1 n₀)) -∗ K ⟨⟩))
      ⊢ wp frame (wpE (defs₀ (F := F)) Variants.none c none) E (cc4__pool_kernel i arg1 harg1 arg2 harg2 arg3 harg3 arg4 harg4 arg5 harg5 arg6 harg6 arg7 harg7 arg8 harg8 arg9 harg9) K := by
  subst ha hn
  rw [owns_eq_rep (c : Thread nD τ) arg1, owns_eq_rep (c : Thread nD τ) arg2, owns_eq_rep (c : Thread nD τ) arg3, owns_eq_rep (c : Thread nD τ) arg4, owns_eq_rep (c : Thread nD τ) arg5, owns_eq_rep (c : Thread nD τ) arg6,
    owns_eq_rep (c : Thread nD τ) arg7 _ x6, owns_eq_rep (c : Thread nD τ) arg8 _ a, owns_eq_rep (c : Thread nD τ) arg9 _ n]
  by_cases hc0 : first4 i <;> by_cases hc1 : last4 i <;> first | exact absurd hc1 (hfl hc0) | skip
  all_goals
    first | rw [if_pos hc0, if_pos hc0] | rw [if_neg hc0, if_neg hc0]
    first | rw [if_pos hc1] | rw [if_neg hc1]
    simp only [cc4__pool_kernel_eq_skeleton]; unfold cc4__pool_kernel_skel owns
    iintro ⟨H0, H1, H2, H3, H4, H5, H6, H7, H8, Hk⟩
    sl_exec (disch := first | exact hc0 | exact hc1)
    sl_step
    iapply Hk
    iframe H0 H1 H2 H3 H4 H5
    isplitl [H6]; rotate_left; isplitl [H7]
    all_goals
      iexists _; isplitr; swap; · iassumption
      ipureintro; sl_unfold_run_names
      repeat rw [read_store_whole _ _ zeros2]
      repeat rw [View.readCov_unit_zero _ zeros2]
      repeat rw [View.readAt_eq_ld]
      repeat rw [View.ld_unit_zero zeros2]
      repeat rw [View.read_rep]

section Region

variable (V : (c : Dev nD) → (b : Ref sig .tc) → Buf (Elt F) ((c : Thread nD τ).loc b))

noncomputable def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

noncomputable def accAt4 (c : Dev nD) : ℕ → Vec F S128x128 .f32
  | 0 => k4_pay1
  | n + 1 => if hn : n < cfg4.N then k4_pay4 (iblk4 V c 0 ⟨n, hn⟩) (iblk4 V c 1 ⟨n, hn⟩) (accAt4 c n) else accAt4 c n

noncomputable def cntAt4 (c : Dev nD) : ℕ → Vec F S1x128 .f32
  | 0 => k4_pay2
  | n + 1 => if hn : n < cfg4.N then k4_pay5 (iblk4 V c 1 ⟨n, hn⟩) (cntAt4 c n) else cntAt4 c n

theorem accAt4_zero (c : Dev nD) : accAt4 V c 0 = k4_pay1 := rfl
theorem cntAt4_zero (c : Dev nD) : cntAt4 V c 0 = k4_pay2 := rfl

theorem accAt4_succ (c : Dev nD) (n : ℕ) (hn : n < cfg4.N) :
    accAt4 V c (n + 1) = k4_pay4 (iblk4 V c 0 ⟨n, hn⟩) (iblk4 V c 1 ⟨n, hn⟩) (accAt4 V c n) := by
  rw [accAt4, dif_pos hn]

theorem cntAt4_succ (c : Dev nD) (n : ℕ) (hn : n < cfg4.N) :
    cntAt4 V c (n + 1) = k4_pay5 (iblk4 V c 1 ⟨n, hn⟩) (cntAt4 V c n) := by
  rw [cntAt4, dif_pos hn]

theorem accAt4_step (c : Dev nD) (t : Fin cfg4.N) :
    accAt4 V c (t.val + 1) = k4_pay4 (iblk4 V c 0 t) (iblk4 V c 1 t) (accAt4 V c t.val) := accAt4_succ V c t.val t.isLt
theorem cntAt4_step (c : Dev nD) (t : Fin cfg4.N) :
    cntAt4 V c (t.val + 1) = k4_pay5 (iblk4 V c 1 t) (cntAt4 V c t.val) := cntAt4_succ V c t.val t.isLt

abbrev scM4_0 : Memref sig .tc .vmem S128x128 .f32 := Memref.whole cc4_scratch0
abbrev scM4_1 : Memref sig .tc .vmem S1x128 .f32 := Memref.whole cc4_scratch1

abbrev restBut4 (c : Dev nD) : sProp 𝕄 :=
  Pipeline.scopedRestBut (Ix := Unit) (Name := ℕ) (U := UR sig nD τ) (Lvl := ℕ) (Val := Elt F) spec4 c [cc4_scratch0, cc4_scratch1]

noncomputable def PhiS4 (c : Dev nD) : ℕ → sProp 𝕄
  | 0 => iprop((∃ d, owns (c : Thread nD τ) scM4_0 fullShare d) ∗ (∃ d, owns (c : Thread nD τ) scM4_1 fullShare d)
      ∗ restBut4 c ∗ (∃ r, prngReg c r))
  | n + 1 => iprop(owns (c : Thread nD τ) scM4_0 fullShare (accAt4 V c (n + 1)) ∗ owns (c : Thread nD τ) scM4_1 fullShare (cntAt4 V c (n + 1))
      ∗ restBut4 c ∗ (∃ r, prngReg c r))

theorem PhiS4_zero (c : Dev nD) (n : ℕ) (hz : n = 0) :
    PhiS4 V c n = iprop((∃ d, owns (c : Thread nD τ) scM4_0 fullShare d) ∗ (∃ d, owns (c : Thread nD τ) scM4_1 fullShare d)
      ∗ restBut4 c ∗ (∃ r, prngReg c r)) := by
  subst hz; rfl

theorem PhiS4_pos (c : Dev nD) (n : ℕ) (hz : n ≠ 0) :
    PhiS4 V c n = iprop(owns (c : Thread nD τ) scM4_0 fullShare (accAt4 V c n) ∗ owns (c : Thread nD τ) scM4_1 fullShare (cntAt4 V c n)
      ∗ restBut4 c ∗ (∃ r, prngReg c r)) := by
  cases n with
  | zero => exact absurd rfl hz
  | succ n => rfl

noncomputable def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => k4_pay6 (cntAt4 V c (t.val + 1)) (accAt4 V c (t.val + 1)) (iblk4 V c 2 t) (iblk4 V c 3 t) (iblk4 V c 4 t) (iblk4 V c 5 t)
  Φ t := PhiS4 V c t.val
  q _ := fullShare
  owed _ := 0

theorem A_eq4 (c : Dev nD) (w : Fin cfg4.W) : (dat4 V c).A w = V c (Pipeline.arrRef spec4 w) := by
  dsimp only [dat4]

theorem after4_6 (c : Dev nD) (t : Fin cfg4.N) : (dat4 V c).after 6 t
    = k4_pay6 (cntAt4 V c (t.val + 1)) (accAt4 V c (t.val + 1)) (iblk4 V c 2 t) (iblk4 V c 3 t) (iblk4 V c 4 t) (iblk4 V c 5 t) := by
  dsimp only [dat4]

theorem after4_6_last (c : Dev nD) (t : Fin cfg4.N) (ht : t.val = 49) : (dat4 V c).after 6 t
    = k4_pay6 (cntAt4 V c 50) (accAt4 V c 50) (iblk4 V c 2 t) (iblk4 V c 3 t) (iblk4 V c 4 t) (iblk4 V c 5 t) := by
  rw [after4_6, ht]

theorem before4_0 (c : Dev nD) (t : Fin cfg4.N) (d) : (dat4 V c).before 0 t d = iblk4 V c 0 t :=
  ((dat4 V c).before_in_eq_fetched 0 rfl (fun _ => rfl) (fun _ _ _ => rfl) (fun _ => rfl) t d).trans rfl
theorem before4_1 (c : Dev nD) (t : Fin cfg4.N) (d) : (dat4 V c).before 1 t d = iblk4 V c 1 t :=
  ((dat4 V c).before_in_eq_fetched 1 rfl (fun _ => rfl) (fun _ _ _ => rfl) (fun _ => rfl) t d).trans rfl
theorem before4_2 (c : Dev nD) (t : Fin cfg4.N) (d) : (dat4 V c).before 2 t d = iblk4 V c 2 t :=
  ((dat4 V c).before_in_eq_fetched 2 rfl (fun _ => rfl) (fun _ _ _ => rfl) (fun _ => rfl) t d).trans rfl
theorem before4_3 (c : Dev nD) (t : Fin cfg4.N) (d) : (dat4 V c).before 3 t d = iblk4 V c 3 t :=
  ((dat4 V c).before_in_eq_fetched 3 rfl (fun _ => rfl) (fun _ _ _ => rfl) (fun _ => rfl) t d).trans rfl
theorem before4_4 (c : Dev nD) (t : Fin cfg4.N) (d) : (dat4 V c).before 4 t d = iblk4 V c 4 t :=
  ((dat4 V c).before_in_eq_fetched 4 rfl (fun _ => rfl) (fun _ _ _ => rfl) (fun _ => rfl) t d).trans rfl
theorem before4_5 (c : Dev nD) (t : Fin cfg4.N) (d) : (dat4 V c).before 5 t d = iblk4 V c 5 t :=
  ((dat4 V c).before_in_eq_fetched 5 rfl (fun _ => rfl) (fun _ _ _ => rfl) (fun _ => rfl) t d).trans rfl

-- Read as zero at the first point, the accumulators the invariant hands over are the sums and counts so far.
theorem PhiS4_open (c : Dev nD) (t : Fin cfg4.N) : PhiS4 V c t.val ⊢ iprop(∃ a m,
    ⌜(if first4 (grid4.coords t) then k4_pay1 else a) = accAt4 V c t.val
      ∧ (if first4 (grid4.coords t) then k4_pay2 else m) = cntAt4 V c t.val⌝
    ∗ owns (c : Thread nD τ) scM4_0 fullShare a ∗ owns (c : Thread nD τ) scM4_1 fullShare m ∗ restBut4 c ∗ (∃ r, prngReg c r)) := by
  by_cases hz : t.val = 0
  · rw [PhiS4_zero V c _ hz]
    iintro ⟨⟨%a, H0⟩, ⟨%m, H1⟩, H⟩
    iexists a; iexists m; isplitr
    · ipureintro; rw [if_pos ((hfirst4 t).mpr hz), if_pos ((hfirst4 t).mpr hz), hz]; exact ⟨rfl, rfl⟩
    iframe
  · rw [PhiS4_pos V c _ hz]
    iintro ⟨H0, H1, H⟩
    iexists accAt4 V c t.val; iexists cntAt4 V c t.val; isplitr
    · ipureintro; rw [if_neg (mt (hfirst4 t).mp hz), if_neg (mt (hfirst4 t).mp hz)]; exact ⟨rfl, rfl⟩
    iframe

-- At the last point the output block holds the head; before it the body leaves it as found.
theorem out4 (c : Dev nD) (t : Fin cfg4.N) (d) :
    owns (c : Thread nD τ) (st4_6 t) fullShare (if last4 (grid4.coords t) then
        k4_pay6 (k4_pay5 (iblk4 V c 1 t) (cntAt4 V c t.val)) (k4_pay4 (iblk4 V c 0 t) (iblk4 V c 1 t) (accAt4 V c t.val))
          (iblk4 V c 2 t) (iblk4 V c 3 t) (iblk4 V c 4 t) (iblk4 V c 5 t)
      else (dat4 V c).before 6 t d) ⊢ (dat4 V c).leavesExact 6 t := by
  by_cases hl : t.val = 49
  · refine Entails.of_eq ?_
    rw [if_pos ((hlast4 t).mpr hl), show (dat4 V c).leavesExact 6 t = owns (c : Thread nD τ) (st4_6 t) fullShare ((dat4 V c).after 6 t) from by
      unfold Dat.leavesExact; rw [liveAt4_6 t hl], after4_6, accAt4_step, cntAt4_step]
  · rw [if_neg (mt (hlast4 t).mp hl), Dat.leavesExact_idle (dat4 V c) 6 t (idleAt4_6 t hl) (noFlush4_6 t hl)]
    iintro H; iexists d; iexact H

noncomputable def bodyPre4 (c : Dev nD) (t : Fin cfg4.N) : sProp 𝕄 :=
  iprop(PhiS4 V c t.val ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

noncomputable def bodyPost4 (c : Dev nD) (t : Fin cfg4.N) : sProp 𝕄 :=
  iprop(PhiS4 V c (t.val + 1) ∗ (dat4 V c).owesAt () t.castSucc
    ∗ owns (c : Thread nD τ) (st4_0 t) fullShare (iblk4 V c 0 t)
    ∗ owns (c : Thread nD τ) (st4_1 t) fullShare (iblk4 V c 1 t)
    ∗ owns (c : Thread nD τ) (st4_2 t) fullShare (iblk4 V c 2 t)
    ∗ owns (c : Thread nD τ) (st4_3 t) fullShare (iblk4 V c 3 t)
    ∗ owns (c : Thread nD τ) (st4_4 t) fullShare (iblk4 V c 4 t)
    ∗ owns (c : Thread nD τ) (st4_5 t) fullShare (iblk4 V c 5 t)
    ∗ (dat4 V c).leavesExact 6 t)

set_option maxHeartbeats 4800000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [PhiS4_pos V c (t.val + 1) (Nat.succ_ne_zero _), accAt4_step, cntAt4_step]
  iintro ⟨HΦ, Ho, ⟨%d0, H0⟩, ⟨%d1, H1⟩, ⟨%d2, H2⟩, ⟨%d3, H3⟩, ⟨%d4, H4⟩, ⟨%d5, H5⟩, ⟨%d6, H6⟩⟩
  ihave HΦ' := (PhiS4_open V c t) $$ HΦ
  icases HΦ' with ⟨%a, %m, %ham, HS0, HS1, Hrest, Hg⟩
  iapply (poolRun4 c (grid4.coords t) _ _ _ _ _ _ _ _ _ _ _ _ _ _ _ _ _ _
    (fun h0 h1 => by have := (hfirst4 t).mp h0; have := (hlast4 t).mp h1; omega)
    (iblk4 V c 0 t) (iblk4 V c 1 t) (iblk4 V c 2 t) (iblk4 V c 3 t) (iblk4 V c 4 t) (iblk4 V c 5 t) ((dat4 V c).before 6 t d6)
    a _ m _ ham.1 ham.2 Set.univ _)
  iframe H0 H1 H2 H3 H4 H5 H6 HS0 HS1
  iintro ⟨H0, H1, H2, H3, H4, H5, H6, HS0, HS1⟩
  iframe H0 H1 H2 H3 H4 H5 HS0 HS1 Hrest Hg Ho
  iapply (out4 V c t d6) $$ H6

theorem body_obligation4 (c : Dev nD) : BodyObligation (dat4 (F := F) V c) (defs₀ (F := F)) Variants.none () Set.univ := fun t => by
  rw [bigSep_W4, bigSep_W4]
  exact sound_body4 V c t

theorem scopedRest4_eq (c : Dev nD) :
    (Pipeline.scopedRest (Ix := Unit) (Name := ℕ) (U := UR sig nD τ) (Lvl := ℕ) (Val := Elt F) spec4 c : sProp 𝕄)
      = iprop(iprop((∃ d, owns (c : Thread nD τ) scM4_0 fullShare d) ∗ (∃ d, owns (c : Thread nD τ) scM4_1 fullShare d)) ∗ restBut4 c) := by
  rw [scopedRest4_split]; simp only [scM4_0, scM4_1, owns_whole]; rfl

theorem hin4 (c : Dev nD) :
    iprop((∃ r, prngReg c r) ∗ Pipeline.prefHeld (pcfgs (F := F) 4).pre c (fun _ => fullShare) ((cfgs 4).toPCfg_adm).1
        ∗ Pipeline.scopedRest spec4 c) ⊢ (dat4 V c).Φ 0 := by
  rw [show (dat4 V c).Φ 0 = PhiS4 V c 0 from rfl, PhiS4_zero V c 0 rfl, scopedRest4_eq]
  iintro ⟨Hg, -, ⟨HS0, HS1⟩, Hrest⟩
  iframe

theorem hout4 (c : Dev nD) : (dat4 V c).Φ (Fin.last cfg4.N)
    ⊢ iprop((∃ r, prngReg c r) ∗ Pipeline.ownSems0 (fun k : PEmpty => k.elim) c ∗ Pipeline.scopedRest spec4 c) := by
  rw [Pipeline.ownSems0_none, show (dat4 V c).Φ (Fin.last cfg4.N) = PhiS4 V c cfg4.N from rfl,
    PhiS4_pos V c cfg4.N (by rw [show cfg4.N = 50 from N_4]; decide), scopedRest4_eq]
  iintro ⟨HS0, HS1, Hrest, Hg⟩
  iframe Hg Hrest
  isplitr; · iempintro
  isplitl [HS0] <;> (iexists _; iassumption)

end Region

end Cert.KernelIdeal.Hand

end
-- ==== Proof.KI.Gin5.lean ====
import proofs.«428878_j20040317403499_2_alg».proof.Proof.KI.Gin0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

noncomputable def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_x : Rect S1000x128 := Rect.unit (s := S1000x128) ![0, 0] S1000x128.size inb_S1000x128_S1000x128_0_0
abbrev r5_w : Rect S128x128 := Rect.unit (s := S128x128) ![0, 0] S128x128.size inb_S128x128_S128x128_0_0
abbrev r5_v : Rect S1x128 := Rect.unit (s := S1x128) ![0, 0] S1x128.size inb_S1x128_S1x128_0_0

noncomputable def out5_9 (x0 : Vec F S1000x128 .f32) (x1 : Vec F S128x128 .f32) (x2 : Vec F S1x128 .f32) (x3 : Vec F S128x128 .f32)
    (x4 x5 x6 x7 x8 : Vec F S1x128 .f32) : Vec F S1000x128 .f32 :=
  View.canon [⟨r5_x, k5_pay1
    (k5_pay2 (View.ld x0 r5_x) (View.ld x1 r5_w) (View.ld x2 r5_v) (View.ld x3 r5_w) (View.ld x4 r5_v) (View.ld x5 r5_v) (View.ld x7 r5_v))
    (k5_pay3 (View.ld x8 r5_v)) (View.ld x6 r5_v)⟩]

noncomputable def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => iblk5 V c 8 t
    | ⟨9, _⟩ => out5_9 (iblk5 V c 0 t) (iblk5 V c 1 t) (iblk5 V c 2 t) (iblk5 V c 3 t) (iblk5 V c 4 t) (iblk5 V c 5 t) (iblk5 V c 6 t) (iblk5 V c 7 t) (iblk5 V c 8 t)
  Φ _ := Pipeline.ΦA spec5 c
  q _ := fullShare
  owed _ := 0

theorem A_eq5 (c : Dev nD) (w : Fin cfg5.W) : (dat5 V c).A w = V c (Pipeline.arrRef spec5 w) := rfl

theorem after5_9 (c : Dev nD) (t : Fin cfg5.N) : (dat5 V c).after 9 t = out5_9 (iblk5 V c 0 t) (iblk5 V c 1 t) (iblk5 V c 2 t) (iblk5 V c 3 t) (iblk5 V c 4 t) (iblk5 V c 5 t) (iblk5 V c 6 t) (iblk5 V c 7 t) (iblk5 V c 8 t) := by
  dsimp only [dat5]

theorem before5 (c : Dev nD) (t : Fin cfg5.N) : ∀ w : Fin cfg5.W, (cfg5.win w).isOut = false → ∀ d, (dat5 V c).before w t d = (dat5 V c).after w t
  | ⟨9, _⟩, h, _ => absurd h (by decide : ¬(cfg5.win 9).isOut = false)
  | ⟨0, _⟩, _, d | ⟨1, _⟩, _, d | ⟨2, _⟩, _, d | ⟨3, _⟩, _, d | ⟨4, _⟩, _, d | ⟨5, _⟩, _, d | ⟨6, _⟩, _, d | ⟨7, _⟩, _, d | ⟨8, _⟩, _, d =>
    (dat5 V c).before_in_eq_fetched _ rfl (fun _ => rfl) (fun _ _ _ => rfl) (fun _ => rfl) t d

theorem body_obligation5 (c : Dev nD) : BodyObligation (dat5 (F := F) V c) (defs₀ (F := F)) Variants.none () Set.univ := fun t => by
  rw [bigSep_W5, bigSep_W5]
  have hb := before5 V c t
  simp only [hb 0 rfl, hb 1 rfl, hb 2 rfl, hb 3 rfl, hb 4 rfl, hb 5 rfl, hb 6 rfl, hb 7 rfl, hb 8 rfl]
  dsimp only [dat5]
  sl_whnfR [defs₀, Defs.onTc]
  rewrite [show @cc5__gin_layer_kernel F _ = @cc0__gin_layer_kernel F _ from rfl, show @out5_9 F _ = @out0_9 F _ from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) (iblk5 V c 7 t) (iblk5 V c 8 t) _)
  iframe H0 H1 H2 H3 H4 H5 H6 H7 H8
  isplitl [H9]; · iexists _; iexact H9
  iintro ⟨H0, H1, H2, H3, H4, H5, H6, H7, H8, H9⟩
  iframe HΦ H0 H1 H2 H3 H4 H5 H6 H7 H8 H9
  iapply Ho

end Cert.KernelIdeal.Hand

end
-- ==== Proof.KI.Gin6.lean ====
import proofs.«428878_j20040317403499_2_alg».proof.Proof.KI.Gin0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

noncomputable def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_x : Rect S1000x128 := Rect.unit (s := S1000x128) ![0, 0] S1000x128.size inb_S1000x128_S1000x128_0_0
abbrev r6_w : Rect S128x128 := Rect.unit (s := S128x128) ![0, 0] S128x128.size inb_S128x128_S128x128_0_0
abbrev r6_v : Rect S1x128 := Rect.unit (s := S1x128) ![0, 0] S1x128.size inb_S1x128_S1x128_0_0

noncomputable def out6_9 (x0 : Vec F S1000x128 .f32) (x1 : Vec F S128x128 .f32) (x2 : Vec F S1x128 .f32) (x3 : Vec F S128x128 .f32)
    (x4 x5 x6 x7 x8 : Vec F S1x128 .f32) : Vec F S1000x128 .f32 :=
  View.canon [⟨r6_x, k6_pay1
    (k6_pay2 (View.ld x0 r6_x) (View.ld x1 r6_w) (View.ld x2 r6_v) (View.ld x3 r6_w) (View.ld x4 r6_v) (View.ld x5 r6_v) (View.ld x7 r6_v))
    (k6_pay3 (View.ld x8 r6_v)) (View.ld x6 r6_v)⟩]

noncomputable def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => iblk6 V c 7 t
    | ⟨8, _⟩ => iblk6 V c 8 t
    | ⟨9, _⟩ => out6_9 (iblk6 V c 0 t) (iblk6 V c 1 t) (iblk6 V c 2 t) (iblk6 V c 3 t) (iblk6 V c 4 t) (iblk6 V c 5 t) (iblk6 V c 6 t) (iblk6 V c 7 t) (iblk6 V c 8 t)
  Φ _ := Pipeline.ΦA spec6 c
  q _ := fullShare
  owed _ := 0

theorem A_eq6 (c : Dev nD) (w : Fin cfg6.W) : (dat6 V c).A w = V c (Pipeline.arrRef spec6 w) := rfl

theorem after6_9 (c : Dev nD) (t : Fin cfg6.N) : (dat6 V c).after 9 t = out6_9 (iblk6 V c 0 t) (iblk6 V c 1 t) (iblk6 V c 2 t) (iblk6 V c 3 t) (iblk6 V c 4 t) (iblk6 V c 5 t) (iblk6 V c 6 t) (iblk6 V c 7 t) (iblk6 V c 8 t) := by
  dsimp only [dat6]

theorem before6 (c : Dev nD) (t : Fin cfg6.N) : ∀ w : Fin cfg6.W, (cfg6.win w).isOut = false → ∀ d, (dat6 V c).before w t d = (dat6 V c).after w t
  | ⟨9, _⟩, h, _ => absurd h (by decide : ¬(cfg6.win 9).isOut = false)
  | ⟨0, _⟩, _, d | ⟨1, _⟩, _, d | ⟨2, _⟩, _, d | ⟨3, _⟩, _, d | ⟨4, _⟩, _, d | ⟨5, _⟩, _, d | ⟨6, _⟩, _, d | ⟨7, _⟩, _, d | ⟨8, _⟩, _, d =>
    (dat6 V c).before_in_eq_fetched _ rfl (fun _ => rfl) (fun _ _ _ => rfl) (fun _ => rfl) t d

theorem body_obligation6 (c : Dev nD) : BodyObligation (dat6 (F := F) V c) (defs₀ (F := F)) Variants.none () Set.univ := fun t => by
  rw [bigSep_W6, bigSep_W6]
  have hb := before6 V c t
  simp only [hb 0 rfl, hb 1 rfl, hb 2 rfl, hb 3 rfl, hb 4 rfl, hb 5 rfl, hb 6 rfl, hb 7 rfl, hb 8 rfl]
  dsimp only [dat6]
  sl_whnfR [defs₀, Defs.onTc]
  rewrite [show @cc6__gin_layer_kernel F _ = @cc0__gin_layer_kernel F _ from rfl, show @out6_9 F _ = @out0_9 F _ from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk6 V c 0 t) (iblk6 V c 1 t) (iblk6 V c 2 t) (iblk6 V c 3 t) (iblk6 V c 4 t) (iblk6 V c 5 t) (iblk6 V c 6 t) (iblk6 V c 7 t) (iblk6 V c 8 t) _)
  iframe H0 H1 H2 H3 H4 H5 H6 H7 H8
  isplitl [H9]; · iexists _; iexact H9
  iintro ⟨H0, H1, H2, H3, H4, H5, H6, H7, H8, H9⟩
  iframe HΦ H0 H1 H2 H3 H4 H5 H6 H7 H8 H9
  iapply Ho

end Cert.KernelIdeal.Hand

end
-- ==== Proof.KI.Gin7.lean ====
import proofs.«428878_j20040317403499_2_alg».proof.Proof.KI.Gin0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

noncomputable def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev r7_x : Rect S1000x128 := Rect.unit (s := S1000x128) ![0, 0] S1000x128.size inb_S1000x128_S1000x128_0_0
abbrev r7_w : Rect S128x128 := Rect.unit (s := S128x128) ![0, 0] S128x128.size inb_S128x128_S128x128_0_0
abbrev r7_v : Rect S1x128 := Rect.unit (s := S1x128) ![0, 0] S1x128.size inb_S1x128_S1x128_0_0

noncomputable def out7_9 (x0 : Vec F S1000x128 .f32) (x1 : Vec F S128x128 .f32) (x2 : Vec F S1x128 .f32) (x3 : Vec F S128x128 .f32)
    (x4 x5 x6 x7 x8 : Vec F S1x128 .f32) : Vec F S1000x128 .f32 :=
  View.canon [⟨r7_x, k7_pay1
    (k7_pay2 (View.ld x0 r7_x) (View.ld x1 r7_w) (View.ld x2 r7_v) (View.ld x3 r7_w) (View.ld x4 r7_v) (View.ld x5 r7_v) (View.ld x7 r7_v))
    (k7_pay3 (View.ld x8 r7_v)) (View.ld x6 r7_v)⟩]

noncomputable def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => iblk7 V c 7 t
    | ⟨8, _⟩ => iblk7 V c 8 t
    | ⟨9, _⟩ => out7_9 (iblk7 V c 0 t) (iblk7 V c 1 t) (iblk7 V c 2 t) (iblk7 V c 3 t) (iblk7 V c 4 t) (iblk7 V c 5 t) (iblk7 V c 6 t) (iblk7 V c 7 t) (iblk7 V c 8 t)
  Φ _ := Pipeline.ΦA spec7 c
  q _ := fullShare
  owed _ := 0

theorem A_eq7 (c : Dev nD) (w : Fin cfg7.W) : (dat7 V c).A w = V c (Pipeline.arrRef spec7 w) := rfl

theorem after7_9 (c : Dev nD) (t : Fin cfg7.N) : (dat7 V c).after 9 t = out7_9 (iblk7 V c 0 t) (iblk7 V c 1 t) (iblk7 V c 2 t) (iblk7 V c 3 t) (iblk7 V c 4 t) (iblk7 V c 5 t) (iblk7 V c 6 t) (iblk7 V c 7 t) (iblk7 V c 8 t) := by
  dsimp only [dat7]

theorem before7 (c : Dev nD) (t : Fin cfg7.N) : ∀ w : Fin cfg7.W, (cfg7.win w).isOut = false → ∀ d, (dat7 V c).before w t d = (dat7 V c).after w t
  | ⟨9, _⟩, h, _ => absurd h (by decide : ¬(cfg7.win 9).isOut = false)
  | ⟨0, _⟩, _, d | ⟨1, _⟩, _, d | ⟨2, _⟩, _, d | ⟨3, _⟩, _, d | ⟨4, _⟩, _, d | ⟨5, _⟩, _, d | ⟨6, _⟩, _, d | ⟨7, _⟩, _, d | ⟨8, _⟩, _, d =>
    (dat7 V c).before_in_eq_fetched _ rfl (fun _ => rfl) (fun _ _ _ => rfl) (fun _ => rfl) t d

theorem body_obligation7 (c : Dev nD) : BodyObligation (dat7 (F := F) V c) (defs₀ (F := F)) Variants.none () Set.univ := fun t => by
  rw [bigSep_W7, bigSep_W7]
  have hb := before7 V c t
  simp only [hb 0 rfl, hb 1 rfl, hb 2 rfl, hb 3 rfl, hb 4 rfl, hb 5 rfl, hb 6 rfl, hb 7 rfl, hb 8 rfl]
  dsimp only [dat7]
  sl_whnfR [defs₀, Defs.onTc]
  rewrite [show @cc7__gin_layer_kernel F _ = @cc0__gin_layer_kernel F _ from rfl, show @out7_9 F _ = @out0_9 F _ from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk7 V c 0 t) (iblk7 V c 1 t) (iblk7 V c 2 t) (iblk7 V c 3 t) (iblk7 V c 4 t) (iblk7 V c 5 t) (iblk7 V c 6 t) (iblk7 V c 7 t) (iblk7 V c 8 t) _)
  iframe H0 H1 H2 H3 H4 H5 H6 H7 H8
  isplitl [H9]; · iexists _; iexact H9
  iintro ⟨H0, H1, H2, H3, H4, H5, H6, H7, H8, H9⟩
  iframe HΦ H0 H1 H2 H3 H4 H5 H6 H7 H8 H9
  iapply Ho

end Cert.KernelIdeal.Hand

end
-- ==== Proof.KI.Gin8.lean ====
import proofs.«428878_j20040317403499_2_alg».proof.Proof.KI.Gin0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

noncomputable def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

abbrev r8_x : Rect S1000x128 := Rect.unit (s := S1000x128) ![0, 0] S1000x128.size inb_S1000x128_S1000x128_0_0
abbrev r8_w : Rect S128x128 := Rect.unit (s := S128x128) ![0, 0] S128x128.size inb_S128x128_S128x128_0_0
abbrev r8_v : Rect S1x128 := Rect.unit (s := S1x128) ![0, 0] S1x128.size inb_S1x128_S1x128_0_0

noncomputable def out8_9 (x0 : Vec F S1000x128 .f32) (x1 : Vec F S128x128 .f32) (x2 : Vec F S1x128 .f32) (x3 : Vec F S128x128 .f32)
    (x4 x5 x6 x7 x8 : Vec F S1x128 .f32) : Vec F S1000x128 .f32 :=
  View.canon [⟨r8_x, k8_pay1
    (k8_pay2 (View.ld x0 r8_x) (View.ld x1 r8_w) (View.ld x2 r8_v) (View.ld x3 r8_w) (View.ld x4 r8_v) (View.ld x5 r8_v) (View.ld x7 r8_v))
    (k8_pay3 (View.ld x8 r8_v)) (View.ld x6 r8_v)⟩]

noncomputable def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => iblk8 V c 6 t
    | ⟨7, _⟩ => iblk8 V c 7 t
    | ⟨8, _⟩ => iblk8 V c 8 t
    | ⟨9, _⟩ => out8_9 (iblk8 V c 0 t) (iblk8 V c 1 t) (iblk8 V c 2 t) (iblk8 V c 3 t) (iblk8 V c 4 t) (iblk8 V c 5 t) (iblk8 V c 6 t) (iblk8 V c 7 t) (iblk8 V c 8 t)
  Φ _ := Pipeline.ΦA spec8 c
  q _ := fullShare
  owed _ := 0

theorem A_eq8 (c : Dev nD) (w : Fin cfg8.W) : (dat8 V c).A w = V c (Pipeline.arrRef spec8 w) := rfl

theorem after8_9 (c : Dev nD) (t : Fin cfg8.N) : (dat8 V c).after 9 t = out8_9 (iblk8 V c 0 t) (iblk8 V c 1 t) (iblk8 V c 2 t) (iblk8 V c 3 t) (iblk8 V c 4 t) (iblk8 V c 5 t) (iblk8 V c 6 t) (iblk8 V c 7 t) (iblk8 V c 8 t) := by
  dsimp only [dat8]

theorem before8 (c : Dev nD) (t : Fin cfg8.N) : ∀ w : Fin cfg8.W, (cfg8.win w).isOut = false → ∀ d, (dat8 V c).before w t d = (dat8 V c).after w t
  | ⟨9, _⟩, h, _ => absurd h (by decide : ¬(cfg8.win 9).isOut = false)
  | ⟨0, _⟩, _, d | ⟨1, _⟩, _, d | ⟨2, _⟩, _, d | ⟨3, _⟩, _, d | ⟨4, _⟩, _, d | ⟨5, _⟩, _, d | ⟨6, _⟩, _, d | ⟨7, _⟩, _, d | ⟨8, _⟩, _, d =>
    (dat8 V c).before_in_eq_fetched _ rfl (fun _ => rfl) (fun _ _ _ => rfl) (fun _ => rfl) t d

theorem body_obligation8 (c : Dev nD) : BodyObligation (dat8 (F := F) V c) (defs₀ (F := F)) Variants.none () Set.univ := fun t => by
  rw [bigSep_W8, bigSep_W8]
  have hb := before8 V c t
  simp only [hb 0 rfl, hb 1 rfl, hb 2 rfl, hb 3 rfl, hb 4 rfl, hb 5 rfl, hb 6 rfl, hb 7 rfl, hb 8 rfl]
  dsimp only [dat8]
  sl_whnfR [defs₀, Defs.onTc]
  rewrite [show @cc8__gin_layer_kernel F _ = @cc0__gin_layer_kernel F _ from rfl, show @out8_9 F _ = @out0_9 F _ from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk8 V c 0 t) (iblk8 V c 1 t) (iblk8 V c 2 t) (iblk8 V c 3 t) (iblk8 V c 4 t) (iblk8 V c 5 t) (iblk8 V c 6 t) (iblk8 V c 7 t) (iblk8 V c 8 t) _)
  iframe H0 H1 H2 H3 H4 H5 H6 H7 H8
  isplitl [H9]; · iexists _; iexact H9
  iintro ⟨H0, H1, H2, H3, H4, H5, H6, H7, H8, H9⟩
  iframe HΦ H0 H1 H2 H3 H4 H5 H6 H7 H8 H9
  iapply Ho

end Cert.KernelIdeal.Hand

end
-- ==== Proof.KI.Pool9.lean ====
import proofs.«428878_j20040317403499_2_alg».proof.Proof.Gen.KernelIdeal.Launch
import proofs.«428878_j20040317403499_2_alg».proof.Proof.Gen.KernelIdeal.Skeleton
import proofs.«428878_j20040317403499_2_alg».proof.Proof.Gen.KernelIdeal.Points
import proofs.«428878_j20040317403499_2_alg».proof.Proof.KI.Pool4
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Pipeline.TableIdle
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev first9 (i : grid9.Coords) : Prop :=
  (Scalar.cmpi .ne (Scalar.extui (Scalar.cmpi .eq (BitVec.ofNat 32 (i 0).val) 0#32)) 0#32) = 1#1
abbrev last9 (i : grid9.Coords) : Prop := k9_cond2 i = 1#1

theorem hfirst9 : ∀ t : Fin cfg9.N, first9 (grid9.coords t) ↔ t.val = 0 :=
  (by decide +kernel : ∀ t : Fin grid9.N, first9 (grid9.coords t) ↔ t.val = 0)
theorem hlast9 : ∀ t : Fin cfg9.N, last9 (grid9.coords t) ↔ t.val = 49 :=
  (by decide +kernel : ∀ t : Fin grid9.N, last9 (grid9.coords t) ↔ t.val = 49)

theorem idleAt9_6 : ∀ t : Fin cfg9.N, ¬ t.val = 49 → cfg9.idle 6 (grid9.coords t) = true :=
  (by decide +kernel : ∀ t : Fin grid9.N, ¬ t.val = 49 → cfg9.idle 6 (grid9.coords t) = true)
theorem noFlush9_6 : ∀ t : Fin cfg9.N, ¬ t.val = 49 → (cfg9.win 6).flush t = false :=
  (by decide +kernel : ∀ t : Fin grid9.N, ¬ t.val = 49 → win9_6.flush t = false)
theorem liveAt9_6 : ∀ t : Fin cfg9.N, t.val = 49 → cfg9.idle 6 (grid9.coords t) = false :=
  (by decide +kernel : ∀ t : Fin grid9.N, t.val = 49 → cfg9.idle 6 (grid9.coords t) = false)

-- The two pooling calls run one body: the run proved for the first serves the second.
theorem poolRun9 (c : Dev nD) (i : grid9.Coords)
    (arg1 : Memref sig .tc .vmem S1000x128 .f32) (harg1 : arg1.IsWhole) (arg2 : Memref sig .tc .vmem S1000x1 .i32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x10 .f32) (harg5 : arg5.IsWhole) (arg6 : Memref sig .tc .vmem S1x10 .f32) (harg6 : arg6.IsWhole)
    (arg7 : Memref sig .tc .vmem S128x10 .f32) (harg7 : arg7.IsWhole) (arg8 : Memref sig .tc .vmem S128x128 .f32) (harg8 : arg8.IsWhole)
    (arg9 : Memref sig .tc .vmem S1x128 .f32) (harg9 : arg9.IsWhole) (hfl : first9 i → ¬ last9 i)
    (x0 : Vec F S1000x128 .f32) (x1 : Vec F S1000x1 .i32) (x2 : Vec F S128x128 .f32) (x3 : Vec F S1x128 .f32)
    (x4 : Vec F S128x10 .f32) (x5 : Vec F S1x10 .f32) (x6 : Vec F S128x10 .f32)
    (a a₀ : Vec F S128x128 .f32) (n n₀ : Vec F S1x128 .f32)
    (ha : (if first9 i then k9_pay1 else a) = a₀) (hn : (if first9 i then k9_pay2 else n) = n₀)
    (E : Set ℕ) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare x6 ∗ owns (c : Thread nD τ) arg8 fullShare a ∗ owns (c : Thread nD τ) arg9 fullShare n
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (if last9 i then k9_pay6 (k9_pay5 x1 n₀) (k9_pay4 x0 x1 a₀) x2 x3 x4 x5 else x6)
            ∗ owns (c : Thread nD τ) arg8 fullShare (k9_pay4 x0 x1 a₀) ∗ owns (c : Thread nD τ) arg9 fullShare (k9_pay5 x1 n₀)) -∗ K ⟨⟩))
      ⊢ wp frame (wpE (defs₀ (F := F)) Variants.none c none) E (cc9__pool_kernel i arg1 harg1 arg2 harg2 arg3 harg3 arg4 harg4 arg5 harg5 arg6 harg6 arg7 harg7 arg8 harg8 arg9 harg9) K :=
  poolRun4 c i arg1 harg1 arg2 harg2 arg3 harg3 arg4 harg4 arg5 harg5 arg6 harg6 arg7 harg7 arg8 harg8 arg9 harg9 hfl
    x0 x1 x2 x3 x4 x5 x6 a a₀ n n₀ ha hn E K

section Region

variable (V : (c : Dev nD) → (b : Ref sig .tc) → Buf (Elt F) ((c : Thread nD τ).loc b))

noncomputable def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

noncomputable def accAt9 (c : Dev nD) : ℕ → Vec F S128x128 .f32
  | 0 => k9_pay1
  | n + 1 => if hn : n < cfg9.N then k9_pay4 (iblk9 V c 0 ⟨n, hn⟩) (iblk9 V c 1 ⟨n, hn⟩) (accAt9 c n) else accAt9 c n

noncomputable def cntAt9 (c : Dev nD) : ℕ → Vec F S1x128 .f32
  | 0 => k9_pay2
  | n + 1 => if hn : n < cfg9.N then k9_pay5 (iblk9 V c 1 ⟨n, hn⟩) (cntAt9 c n) else cntAt9 c n

theorem accAt9_zero (c : Dev nD) : accAt9 V c 0 = k9_pay1 := rfl
theorem cntAt9_zero (c : Dev nD) : cntAt9 V c 0 = k9_pay2 := rfl

theorem accAt9_succ (c : Dev nD) (n : ℕ) (hn : n < cfg9.N) :
    accAt9 V c (n + 1) = k9_pay4 (iblk9 V c 0 ⟨n, hn⟩) (iblk9 V c 1 ⟨n, hn⟩) (accAt9 V c n) := by
  rw [accAt9, dif_pos hn]

theorem cntAt9_succ (c : Dev nD) (n : ℕ) (hn : n < cfg9.N) :
    cntAt9 V c (n + 1) = k9_pay5 (iblk9 V c 1 ⟨n, hn⟩) (cntAt9 V c n) := by
  rw [cntAt9, dif_pos hn]

theorem accAt9_step (c : Dev nD) (t : Fin cfg9.N) :
    accAt9 V c (t.val + 1) = k9_pay4 (iblk9 V c 0 t) (iblk9 V c 1 t) (accAt9 V c t.val) := accAt9_succ V c t.val t.isLt
theorem cntAt9_step (c : Dev nD) (t : Fin cfg9.N) :
    cntAt9 V c (t.val + 1) = k9_pay5 (iblk9 V c 1 t) (cntAt9 V c t.val) := cntAt9_succ V c t.val t.isLt

abbrev scM9_0 : Memref sig .tc .vmem S128x128 .f32 := Memref.whole cc9_scratch0
abbrev scM9_1 : Memref sig .tc .vmem S1x128 .f32 := Memref.whole cc9_scratch1

abbrev restBut9 (c : Dev nD) : sProp 𝕄 :=
  Pipeline.scopedRestBut (Ix := Unit) (Name := ℕ) (U := UR sig nD τ) (Lvl := ℕ) (Val := Elt F) spec9 c [cc9_scratch0, cc9_scratch1]

noncomputable def PhiS9 (c : Dev nD) : ℕ → sProp 𝕄
  | 0 => iprop((∃ d, owns (c : Thread nD τ) scM9_0 fullShare d) ∗ (∃ d, owns (c : Thread nD τ) scM9_1 fullShare d)
      ∗ restBut9 c ∗ (∃ r, prngReg c r))
  | n + 1 => iprop(owns (c : Thread nD τ) scM9_0 fullShare (accAt9 V c (n + 1)) ∗ owns (c : Thread nD τ) scM9_1 fullShare (cntAt9 V c (n + 1))
      ∗ restBut9 c ∗ (∃ r, prngReg c r))

theorem PhiS9_zero (c : Dev nD) (n : ℕ) (hz : n = 0) :
    PhiS9 V c n = iprop((∃ d, owns (c : Thread nD τ) scM9_0 fullShare d) ∗ (∃ d, owns (c : Thread nD τ) scM9_1 fullShare d)
      ∗ restBut9 c ∗ (∃ r, prngReg c r)) := by
  subst hz; rfl

theorem PhiS9_pos (c : Dev nD) (n : ℕ) (hz : n ≠ 0) :
    PhiS9 V c n = iprop(owns (c : Thread nD τ) scM9_0 fullShare (accAt9 V c n) ∗ owns (c : Thread nD τ) scM9_1 fullShare (cntAt9 V c n)
      ∗ restBut9 c ∗ (∃ r, prngReg c r)) := by
  cases n with
  | zero => exact absurd rfl hz
  | succ n => rfl

noncomputable def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => iblk9 V c 5 t
    | ⟨6, _⟩ => k9_pay6 (cntAt9 V c (t.val + 1)) (accAt9 V c (t.val + 1)) (iblk9 V c 2 t) (iblk9 V c 3 t) (iblk9 V c 4 t) (iblk9 V c 5 t)
  Φ t := PhiS9 V c t.val
  q _ := fullShare
  owed _ := 0

theorem A_eq9 (c : Dev nD) (w : Fin cfg9.W) : (dat9 V c).A w = V c (Pipeline.arrRef spec9 w) := by
  dsimp only [dat9]

theorem after9_6 (c : Dev nD) (t : Fin cfg9.N) : (dat9 V c).after 6 t
    = k9_pay6 (cntAt9 V c (t.val + 1)) (accAt9 V c (t.val + 1)) (iblk9 V c 2 t) (iblk9 V c 3 t) (iblk9 V c 4 t) (iblk9 V c 5 t) := by
  dsimp only [dat9]

theorem after9_6_last (c : Dev nD) (t : Fin cfg9.N) (ht : t.val = 49) : (dat9 V c).after 6 t
    = k9_pay6 (cntAt9 V c 50) (accAt9 V c 50) (iblk9 V c 2 t) (iblk9 V c 3 t) (iblk9 V c 4 t) (iblk9 V c 5 t) := by
  rw [after9_6, ht]

theorem before9_0 (c : Dev nD) (t : Fin cfg9.N) (d) : (dat9 V c).before 0 t d = iblk9 V c 0 t :=
  ((dat9 V c).before_in_eq_fetched 0 rfl (fun _ => rfl) (fun _ _ _ => rfl) (fun _ => rfl) t d).trans rfl
theorem before9_1 (c : Dev nD) (t : Fin cfg9.N) (d) : (dat9 V c).before 1 t d = iblk9 V c 1 t :=
  ((dat9 V c).before_in_eq_fetched 1 rfl (fun _ => rfl) (fun _ _ _ => rfl) (fun _ => rfl) t d).trans rfl
theorem before9_2 (c : Dev nD) (t : Fin cfg9.N) (d) : (dat9 V c).before 2 t d = iblk9 V c 2 t :=
  ((dat9 V c).before_in_eq_fetched 2 rfl (fun _ => rfl) (fun _ _ _ => rfl) (fun _ => rfl) t d).trans rfl
theorem before9_3 (c : Dev nD) (t : Fin cfg9.N) (d) : (dat9 V c).before 3 t d = iblk9 V c 3 t :=
  ((dat9 V c).before_in_eq_fetched 3 rfl (fun _ => rfl) (fun _ _ _ => rfl) (fun _ => rfl) t d).trans rfl
theorem before9_4 (c : Dev nD) (t : Fin cfg9.N) (d) : (dat9 V c).before 4 t d = iblk9 V c 4 t :=
  ((dat9 V c).before_in_eq_fetched 4 rfl (fun _ => rfl) (fun _ _ _ => rfl) (fun _ => rfl) t d).trans rfl
theorem before9_5 (c : Dev nD) (t : Fin cfg9.N) (d) : (dat9 V c).before 5 t d = iblk9 V c 5 t :=
  ((dat9 V c).before_in_eq_fetched 5 rfl (fun _ => rfl) (fun _ _ _ => rfl) (fun _ => rfl) t d).trans rfl

-- Read as zero at the first point, the accumulators the invariant hands over are the sums and counts so far.
theorem PhiS9_open (c : Dev nD) (t : Fin cfg9.N) : PhiS9 V c t.val ⊢ iprop(∃ a m,
    ⌜(if first9 (grid9.coords t) then k9_pay1 else a) = accAt9 V c t.val
      ∧ (if first9 (grid9.coords t) then k9_pay2 else m) = cntAt9 V c t.val⌝
    ∗ owns (c : Thread nD τ) scM9_0 fullShare a ∗ owns (c : Thread nD τ) scM9_1 fullShare m ∗ restBut9 c ∗ (∃ r, prngReg c r)) := by
  by_cases hz : t.val = 0
  · rw [PhiS9_zero V c _ hz]
    iintro ⟨⟨%a, H0⟩, ⟨%m, H1⟩, H⟩
    iexists a; iexists m; isplitr
    · ipureintro; rw [if_pos ((hfirst9 t).mpr hz), if_pos ((hfirst9 t).mpr hz), hz]; exact ⟨rfl, rfl⟩
    iframe
  · rw [PhiS9_pos V c _ hz]
    iintro ⟨H0, H1, H⟩
    iexists accAt9 V c t.val; iexists cntAt9 V c t.val; isplitr
    · ipureintro; rw [if_neg (mt (hfirst9 t).mp hz), if_neg (mt (hfirst9 t).mp hz)]; exact ⟨rfl, rfl⟩
    iframe

-- At the last point the output block holds the head; before it the body leaves it as found.
theorem out9 (c : Dev nD) (t : Fin cfg9.N) (d) :
    owns (c : Thread nD τ) (st9_6 t) fullShare (if last9 (grid9.coords t) then
        k9_pay6 (k9_pay5 (iblk9 V c 1 t) (cntAt9 V c t.val)) (k9_pay4 (iblk9 V c 0 t) (iblk9 V c 1 t) (accAt9 V c t.val))
          (iblk9 V c 2 t) (iblk9 V c 3 t) (iblk9 V c 4 t) (iblk9 V c 5 t)
      else (dat9 V c).before 6 t d) ⊢ (dat9 V c).leavesExact 6 t := by
  by_cases hl : t.val = 49
  · refine Entails.of_eq ?_
    rw [if_pos ((hlast9 t).mpr hl), show (dat9 V c).leavesExact 6 t = owns (c : Thread nD τ) (st9_6 t) fullShare ((dat9 V c).after 6 t) from by
      unfold Dat.leavesExact; rw [liveAt9_6 t hl], after9_6, accAt9_step, cntAt9_step]
  · rw [if_neg (mt (hlast9 t).mp hl), Dat.leavesExact_idle (dat9 V c) 6 t (idleAt9_6 t hl) (noFlush9_6 t hl)]
    iintro H; iexists d; iexact H

noncomputable def bodyPre9 (c : Dev nD) (t : Fin cfg9.N) : sProp 𝕄 :=
  iprop(PhiS9 V c t.val ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d))
    ∗ (∃ d, owns (c : Thread nD τ) (st9_6 t) fullShare ((dat9 V c).before 6 t d)))

noncomputable def bodyPost9 (c : Dev nD) (t : Fin cfg9.N) : sProp 𝕄 :=
  iprop(PhiS9 V c (t.val + 1) ∗ (dat9 V c).owesAt () t.castSucc
    ∗ owns (c : Thread nD τ) (st9_0 t) fullShare (iblk9 V c 0 t)
    ∗ owns (c : Thread nD τ) (st9_1 t) fullShare (iblk9 V c 1 t)
    ∗ owns (c : Thread nD τ) (st9_2 t) fullShare (iblk9 V c 2 t)
    ∗ owns (c : Thread nD τ) (st9_3 t) fullShare (iblk9 V c 3 t)
    ∗ owns (c : Thread nD τ) (st9_4 t) fullShare (iblk9 V c 4 t)
    ∗ owns (c : Thread nD τ) (st9_5 t) fullShare (iblk9 V c 5 t)
    ∗ (dat9 V c).leavesExact 6 t)

set_option maxHeartbeats 4800000 in
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4, before9_5]
  rw [PhiS9_pos V c (t.val + 1) (Nat.succ_ne_zero _), accAt9_step, cntAt9_step]
  iintro ⟨HΦ, Ho, ⟨%d0, H0⟩, ⟨%d1, H1⟩, ⟨%d2, H2⟩, ⟨%d3, H3⟩, ⟨%d4, H4⟩, ⟨%d5, H5⟩, ⟨%d6, H6⟩⟩
  ihave HΦ' := (PhiS9_open V c t) $$ HΦ
  icases HΦ' with ⟨%a, %m, %ham, HS0, HS1, Hrest, Hg⟩
  iapply (poolRun9 c (grid9.coords t) _ _ _ _ _ _ _ _ _ _ _ _ _ _ _ _ _ _
    (fun h0 h1 => by have := (hfirst9 t).mp h0; have := (hlast9 t).mp h1; omega)
    (iblk9 V c 0 t) (iblk9 V c 1 t) (iblk9 V c 2 t) (iblk9 V c 3 t) (iblk9 V c 4 t) (iblk9 V c 5 t) ((dat9 V c).before 6 t d6)
    a _ m _ ham.1 ham.2 Set.univ _)
  iframe H0 H1 H2 H3 H4 H5 H6 HS0 HS1
  iintro ⟨H0, H1, H2, H3, H4, H5, H6, HS0, HS1⟩
  iframe H0 H1 H2 H3 H4 H5 HS0 HS1 Hrest Hg Ho
  iapply (out9 V c t d6) $$ H6

theorem body_obligation9 (c : Dev nD) : BodyObligation (dat9 (F := F) V c) (defs₀ (F := F)) Variants.none () Set.univ := fun t => by
  rw [bigSep_W9, bigSep_W9]
  exact sound_body9 V c t

theorem scopedRest9_eq (c : Dev nD) :
    (Pipeline.scopedRest (Ix := Unit) (Name := ℕ) (U := UR sig nD τ) (Lvl := ℕ) (Val := Elt F) spec9 c : sProp 𝕄)
      = iprop(iprop((∃ d, owns (c : Thread nD τ) scM9_0 fullShare d) ∗ (∃ d, owns (c : Thread nD τ) scM9_1 fullShare d)) ∗ restBut9 c) := by
  rw [scopedRest9_split]; simp only [scM9_0, scM9_1, owns_whole]; rfl

theorem hin9 (c : Dev nD) :
    iprop((∃ r, prngReg c r) ∗ Pipeline.prefHeld (pcfgs (F := F) 4).pre c (fun _ => fullShare) ((cfgs 4).toPCfg_adm).1
        ∗ Pipeline.scopedRest spec9 c) ⊢ (dat9 V c).Φ 0 := by
  rw [show (dat9 V c).Φ 0 = PhiS9 V c 0 from rfl, PhiS9_zero V c 0 rfl, scopedRest9_eq]
  iintro ⟨Hg, -, ⟨HS0, HS1⟩, Hrest⟩
  iframe

theorem hout9 (c : Dev nD) : (dat9 V c).Φ (Fin.last cfg9.N)
    ⊢ iprop((∃ r, prngReg c r) ∗ Pipeline.ownSems0 (fun k : PEmpty => k.elim) c ∗ Pipeline.scopedRest spec9 c) := by
  rw [Pipeline.ownSems0_none, show (dat9 V c).Φ (Fin.last cfg9.N) = PhiS9 V c cfg9.N from rfl,
    PhiS9_pos V c cfg9.N (by rw [show cfg9.N = 50 from N_9]; decide), scopedRest9_eq]
  iintro ⟨HS0, HS1, Hrest, Hg⟩
  iframe Hg Hrest
  isplitr; · iempintro
  isplitl [HS0] <;> (iexists _; iassumption)

end Region

end Cert.KernelIdeal.Hand

end
-- ==== Proof.KI.RunVals.lean ====
import proofs.«428878_j20040317403499_2_alg».proof.Proof.Gen.KernelIdeal.Regions
import proofs.«428878_j20040317403499_2_alg».proof.Proof.KI.Gin0
import proofs.«428878_j20040317403499_2_alg».proof.Proof.KI.Gin1
import proofs.«428878_j20040317403499_2_alg».proof.Proof.KI.Gin2
import proofs.«428878_j20040317403499_2_alg».proof.Proof.KI.Gin3
import proofs.«428878_j20040317403499_2_alg».proof.Proof.KI.Pool4
import proofs.«428878_j20040317403499_2_alg».proof.Proof.KI.Gin5
import proofs.«428878_j20040317403499_2_alg».proof.Proof.KI.Gin6
import proofs.«428878_j20040317403499_2_alg».proof.Proof.KI.Gin7
import proofs.«428878_j20040317403499_2_alg».proof.Proof.KI.Gin8
import proofs.«428878_j20040317403499_2_alg».proof.Proof.KI.Pool9
import Idealize.ShloMosaic.Lib.Pipeline.FrameBody
import Idealize.ShloMosaic.Lib.Pipeline.RegionsLoop
import Idealize.ShloMosaic.Lib.Pipeline.FrameSuffix

set_option maxRecDepth 2632

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg)

variable {F : FTy → Type} [FloatOps F]

section
variable {cfg : Cfg sig Λ₀} {c : Dev nD} (D : Dat τ (Elt F) Unit ℕ (UR sig nD τ) ℕ cfg c)
  (hinj : Function.Injective (Pipeline.arrRef cfg.spec)) (V : Valuation τ sig (Elt F))
include hinj

theorem exit_arr (w : Fin cfg.W) :
    D.arrAt w cfg.N = Pipeline.withArrays cfg.spec c V (D.arrAt · cfg.N) (Proc.devRef .tc (Pipeline.arrRef cfg.spec w)) :=
  (Pipeline.withArrays_arr cfg.spec hinj c V (D.arrAt · cfg.N) w).symm

theorem exit_eq_update (wo : Fin cfg.W) (hin : ∀ w, w ≠ wo → (cfg.win w).isOut = false)
    (hA : ∀ w, D.A w = V (Proc.devRef .tc (Pipeline.arrRef cfg.spec w))) :
    Pipeline.withArrays cfg.spec c V (D.arrAt · cfg.N) = Function.update V (Proc.devRef .tc (Pipeline.arrRef cfg.spec wo))
      (Pipeline.withArrays cfg.spec c V (D.arrAt · cfg.N) (Proc.devRef .tc (Pipeline.arrRef cfg.spec wo))) := by
  refine Function.eq_update_iff.mpr ⟨rfl, fun b hb => ?_⟩
  by_cases h : ∃ w, Proc.devRef .tc (Pipeline.arrRef cfg.spec w) = b
  · obtain ⟨w, rfl⟩ := h
    rw [Pipeline.withArrays_arr _ hinj, D.arrAt_in w (hin w fun e => hb (e ▸ rfl)), hA]
  · unfold Pipeline.withArrays; rw [dif_neg h]

end

theorem withArrays_rest {gr W : Nat} (win : Fin W → Pipeline.WinSpec sig gr) (c : Dev nD) (V : Valuation τ sig (Elt F))
    (A : (w : Fin W) → Buf (Elt F) ((win w).arr.view.loc (c.tc : Thread nD τ))) (b : Ref sig .tc)
    (hb : b ∉ Finset.univ.image (Pipeline.arrRef win)) : Pipeline.withArrays win c V A (Proc.devRef .tc b) = V (Proc.devRef .tc b) :=
  Pipeline.withArrays_of_ne win c V A b fun w e => hb (Finset.mem_image.mpr ⟨w, Finset.mem_univ _, e⟩)

theorem update_eq_of {V W W' : Valuation τ sig (Elt F)} {b : DevRef τ sig} (hV : V = W) (hW : W' = Function.update W b (W' b)) :
    Function.update V b (W' b) = W' := hV ▸ hW.symm

theorem of_update_eq {V W W' : Valuation τ sig (Elt F)} {o : Ref sig .tc} (hV : V = W)
    (h : Function.update V (Proc.devRef .tc o) (W' (Proc.devRef .tc o)) = W') (r : Ref sig .tc) (hr : r ∉ ([o] : List (Ref sig .tc))) :
    W' (Proc.devRef .tc r) = W (Proc.devRef .tc r) := by
  subst hV; exact (congrFun h.symm _).trans (Function.update_of_ne (StableHlo.devRef_ne_of_ne (List.ne_of_not_mem_cons hr)) _ _)

variable (m : (ℓ : Loc nD τ sig) → Buf (Elt F) ℓ)

abbrev W0 : Dev nD → Valuation τ sig (Elt F) := fun c b => m (c, b)

abbrev W1 : Dev nD → Valuation τ sig (Elt F) := fun c => StableHlo.after hostOps0 (W0 m c)
abbrev entry0 : (c : Dev nD) → (b : Ref sig .tc) → Buf (Elt F) ((c : Thread nD τ).loc b) := fun c b => W1 m c b
noncomputable def W2 (c : Dev nD) : Valuation τ sig (Elt F) :=
  Pipeline.withArrays spec0 c (W1 m c) fun w => (dat0 (entry0 m) c).arrAt w cfg0.N
abbrev exit0 : (c : Dev nD) → (b : Ref sig .tc) → Buf (Elt F) ((c : Thread nD τ).loc b) := fun c b => W2 m c b
theorem hF0 (c : Dev nD) (w : Fin cfg0.W) : (dat0 (entry0 m) c).arrAt w cfg0.N = exit0 m c (Pipeline.arrRef spec0 w) :=
  exit_arr (dat0 (entry0 m) c) launch0.win.arr_inj _ w
theorem hrest0 (c : Dev nD) : ∀ b, b ∉ Finset.univ.image (Pipeline.arrRef spec0) → exit0 m c b = entry0 m c b :=
  withArrays_rest spec0 c _ _
theorem W2_out (c : Dev nD) : W2 m c (Proc.devRef .tc main_v44) = (dat0 (fun c b => W1 m c b) c).arrAt 9 cfg0.N :=
  (hF0 m c 9).symm

abbrev W3 : Dev nD → Valuation τ sig (Elt F) := fun c => StableHlo.after hostOps1 (W2 m c)
abbrev entry1 : (c : Dev nD) → (b : Ref sig .tc) → Buf (Elt F) ((c : Thread nD τ).loc b) := fun c b => W3 m c b
noncomputable def W4 (c : Dev nD) : Valuation τ sig (Elt F) :=
  Pipeline.withArrays spec1 c (W3 m c) fun w => (dat1 (entry1 m) c).arrAt w cfg1.N
abbrev exit1 : (c : Dev nD) → (b : Ref sig .tc) → Buf (Elt F) ((c : Thread nD τ).loc b) := fun c b => W4 m c b
theorem hF1 (c : Dev nD) (w : Fin cfg1.W) : (dat1 (entry1 m) c).arrAt w cfg1.N = exit1 m c (Pipeline.arrRef spec1 w) :=
  exit_arr (dat1 (entry1 m) c) launch1.win.arr_inj _ w
theorem hrest1 (c : Dev nD) : ∀ b, b ∉ Finset.univ.image (Pipeline.arrRef spec1) → exit1 m c b = entry1 m c b :=
  withArrays_rest spec1 c _ _
theorem W4_out (c : Dev nD) : W4 m c (Proc.devRef .tc main_v83) = (dat1 (fun c b => W3 m c b) c).arrAt 9 cfg1.N :=
  (hF1 m c 9).symm

abbrev W5 : Dev nD → Valuation τ sig (Elt F) := fun c => StableHlo.after hostOps2 (W4 m c)
abbrev entry2 : (c : Dev nD) → (b : Ref sig .tc) → Buf (Elt F) ((c : Thread nD τ).loc b) := fun c b => W5 m c b
noncomputable def W6 (c : Dev nD) : Valuation τ sig (Elt F) :=
  Pipeline.withArrays spec2 c (W5 m c) fun w => (dat2 (entry2 m) c).arrAt w cfg2.N
abbrev exit2 : (c : Dev nD) → (b : Ref sig .tc) → Buf (Elt F) ((c : Thread nD τ).loc b) := fun c b => W6 m c b
theorem hF2 (c : Dev nD) (w : Fin cfg2.W) : (dat2 (entry2 m) c).arrAt w cfg2.N = exit2 m c (Pipeline.arrRef spec2 w) :=
  exit_arr (dat2 (entry2 m) c) launch2.win.arr_inj _ w
theorem hrest2 (c : Dev nD) : ∀ b, b ∉ Finset.univ.image (Pipeline.arrRef spec2) → exit2 m c b = entry2 m c b :=
  withArrays_rest spec2 c _ _
theorem W6_out (c : Dev nD) : W6 m c (Proc.devRef .tc main_v122) = (dat2 (fun c b => W5 m c b) c).arrAt 9 cfg2.N :=
  (hF2 m c 9).symm

abbrev W7 : Dev nD → Valuation τ sig (Elt F) := fun c => StableHlo.after hostOps3 (W6 m c)
abbrev entry3 : (c : Dev nD) → (b : Ref sig .tc) → Buf (Elt F) ((c : Thread nD τ).loc b) := fun c b => W7 m c b
noncomputable def W8 (c : Dev nD) : Valuation τ sig (Elt F) :=
  Pipeline.withArrays spec3 c (W7 m c) fun w => (dat3 (entry3 m) c).arrAt w cfg3.N
abbrev exit3 : (c : Dev nD) → (b : Ref sig .tc) → Buf (Elt F) ((c : Thread nD τ).loc b) := fun c b => W8 m c b
theorem hF3 (c : Dev nD) (w : Fin cfg3.W) : (dat3 (entry3 m) c).arrAt w cfg3.N = exit3 m c (Pipeline.arrRef spec3 w) :=
  exit_arr (dat3 (entry3 m) c) launch3.win.arr_inj _ w
theorem hrest3 (c : Dev nD) : ∀ b, b ∉ Finset.univ.image (Pipeline.arrRef spec3) → exit3 m c b = entry3 m c b :=
  withArrays_rest spec3 c _ _
theorem W8_out (c : Dev nD) : W8 m c (Proc.devRef .tc main_v161) = (dat3 (fun c b => W7 m c b) c).arrAt 9 cfg3.N :=
  (hF3 m c 9).symm

abbrev W9 : Dev nD → Valuation τ sig (Elt F) := fun c => StableHlo.after hostOps4 (W8 m c)
abbrev entry4 : (c : Dev nD) → (b : Ref sig .tc) → Buf (Elt F) ((c : Thread nD τ).loc b) := fun c b => W9 m c b
noncomputable def W10 (c : Dev nD) : Valuation τ sig (Elt F) :=
  Pipeline.withArrays spec4 c (W9 m c) fun w => (dat4 (entry4 m) c).arrAt w cfg4.N
abbrev exit4 : (c : Dev nD) → (b : Ref sig .tc) → Buf (Elt F) ((c : Thread nD τ).loc b) := fun c b => W10 m c b
theorem hF4 (c : Dev nD) (w : Fin cfg4.W) : (dat4 (entry4 m) c).arrAt w cfg4.N = exit4 m c (Pipeline.arrRef spec4 w) :=
  exit_arr (dat4 (entry4 m) c) launch4.win.arr_inj _ w
theorem hrest4 (c : Dev nD) : ∀ b, b ∉ Finset.univ.image (Pipeline.arrRef spec4) → exit4 m c b = entry4 m c b :=
  withArrays_rest spec4 c _ _
theorem W10_out (c : Dev nD) : W10 m c (Proc.devRef .tc main_v175) = (dat4 (fun c b => W9 m c b) c).arrAt 6 cfg4.N :=
  (hF4 m c 6).symm

abbrev W11 : Dev nD → Valuation τ sig (Elt F) := fun c => StableHlo.after hostOps5 (W10 m c)
abbrev entry5 : (c : Dev nD) → (b : Ref sig .tc) → Buf (Elt F) ((c : Thread nD τ).loc b) := fun c b => W11 m c b
noncomputable def W12 (c : Dev nD) : Valuation τ sig (Elt F) :=
  Pipeline.withArrays spec5 c (W11 m c) fun w => (dat5 (entry5 m) c).arrAt w cfg5.N
abbrev exit5 : (c : Dev nD) → (b : Ref sig .tc) → Buf (Elt F) ((c : Thread nD τ).loc b) := fun c b => W12 m c b
theorem hF5 (c : Dev nD) (w : Fin cfg5.W) : (dat5 (entry5 m) c).arrAt w cfg5.N = exit5 m c (Pipeline.arrRef spec5 w) :=
  exit_arr (dat5 (entry5 m) c) launch5.win.arr_inj _ w
theorem hrest5 (c : Dev nD) : ∀ b, b ∉ Finset.univ.image (Pipeline.arrRef spec5) → exit5 m c b = entry5 m c b :=
  withArrays_rest spec5 c _ _
theorem W12_out (c : Dev nD) : W12 m c (Proc.devRef .tc main_v220) = (dat5 (fun c b => W11 m c b) c).arrAt 9 cfg5.N :=
  (hF5 m c 9).symm

abbrev W13 : Dev nD → Valuation τ sig (Elt F) := fun c => StableHlo.after hostOps6 (W12 m c)
abbrev entry6 : (c : Dev nD) → (b : Ref sig .tc) → Buf (Elt F) ((c : Thread nD τ).loc b) := fun c b => W13 m c b
noncomputable def W14 (c : Dev nD) : Valuation τ sig (Elt F) :=
  Pipeline.withArrays spec6 c (W13 m c) fun w => (dat6 (entry6 m) c).arrAt w cfg6.N
abbrev exit6 : (c : Dev nD) → (b : Ref sig .tc) → Buf (Elt F) ((c : Thread nD τ).loc b) := fun c b => W14 m c b
theorem hF6 (c : Dev nD) (w : Fin cfg6.W) : (dat6 (entry6 m) c).arrAt w cfg6.N = exit6 m c (Pipeline.arrRef spec6 w) :=
  exit_arr (dat6 (entry6 m) c) launch6.win.arr_inj _ w
theorem hrest6 (c : Dev nD) : ∀ b, b ∉ Finset.univ.image (Pipeline.arrRef spec6) → exit6 m c b = entry6 m c b :=
  withArrays_rest spec6 c _ _
theorem W14_out (c : Dev nD) : W14 m c (Proc.devRef .tc main_v259) = (dat6 (fun c b => W13 m c b) c).arrAt 9 cfg6.N :=
  (hF6 m c 9).symm

abbrev W15 : Dev nD → Valuation τ sig (Elt F) := fun c => StableHlo.after hostOps7 (W14 m c)
abbrev entry7 : (c : Dev nD) → (b : Ref sig .tc) → Buf (Elt F) ((c : Thread nD τ).loc b) := fun c b => W15 m c b
noncomputable def W16 (c : Dev nD) : Valuation τ sig (Elt F) :=
  Pipeline.withArrays spec7 c (W15 m c) fun w => (dat7 (entry7 m) c).arrAt w cfg7.N
abbrev exit7 : (c : Dev nD) → (b : Ref sig .tc) → Buf (Elt F) ((c : Thread nD τ).loc b) := fun c b => W16 m c b
theorem hF7 (c : Dev nD) (w : Fin cfg7.W) : (dat7 (entry7 m) c).arrAt w cfg7.N = exit7 m c (Pipeline.arrRef spec7 w) :=
  exit_arr (dat7 (entry7 m) c) launch7.win.arr_inj _ w
theorem hrest7 (c : Dev nD) : ∀ b, b ∉ Finset.univ.image (Pipeline.arrRef spec7) → exit7 m c b = entry7 m c b :=
  withArrays_rest spec7 c _ _
theorem W16_out (c : Dev nD) : W16 m c (Proc.devRef .tc main_v298) = (dat7 (fun c b => W15 m c b) c).arrAt 9 cfg7.N :=
  (hF7 m c 9).symm

abbrev W17 : Dev nD → Valuation τ sig (Elt F) := fun c => StableHlo.after hostOps8 (W16 m c)
abbrev entry8 : (c : Dev nD) → (b : Ref sig .tc) → Buf (Elt F) ((c : Thread nD τ).loc b) := fun c b => W17 m c b
noncomputable def W18 (c : Dev nD) : Valuation τ sig (Elt F) :=
  Pipeline.withArrays spec8 c (W17 m c) fun w => (dat8 (entry8 m) c).arrAt w cfg8.N
abbrev exit8 : (c : Dev nD) → (b : Ref sig .tc) → Buf (Elt F) ((c : Thread nD τ).loc b) := fun c b => W18 m c b
theorem hF8 (c : Dev nD) (w : Fin cfg8.W) : (dat8 (entry8 m) c).arrAt w cfg8.N = exit8 m c (Pipeline.arrRef spec8 w) :=
  exit_arr (dat8 (entry8 m) c) launch8.win.arr_inj _ w
theorem hrest8 (c : Dev nD) : ∀ b, b ∉ Finset.univ.image (Pipeline.arrRef spec8) → exit8 m c b = entry8 m c b :=
  withArrays_rest spec8 c _ _
theorem W18_out (c : Dev nD) : W18 m c (Proc.devRef .tc main_v337) = (dat8 (fun c b => W17 m c b) c).arrAt 9 cfg8.N :=
  (hF8 m c 9).symm

abbrev W19 : Dev nD → Valuation τ sig (Elt F) := fun c => StableHlo.after hostOps9 (W18 m c)
abbrev entry9 : (c : Dev nD) → (b : Ref sig .tc) → Buf (Elt F) ((c : Thread nD τ).loc b) := fun c b => W19 m c b
noncomputable def W20 (c : Dev nD) : Valuation τ sig (Elt F) :=
  Pipeline.withArrays spec9 c (W19 m c) fun w => (dat9 (entry9 m) c).arrAt w cfg9.N
abbrev exit9 : (c : Dev nD) → (b : Ref sig .tc) → Buf (Elt F) ((c : Thread nD τ).loc b) := fun c b => W20 m c b
theorem hF9 (c : Dev nD) (w : Fin cfg9.W) : (dat9 (entry9 m) c).arrAt w cfg9.N = exit9 m c (Pipeline.arrRef spec9 w) :=
  exit_arr (dat9 (entry9 m) c) launch9.win.arr_inj _ w
theorem hrest9 (c : Dev nD) : ∀ b, b ∉ Finset.univ.image (Pipeline.arrRef spec9) → exit9 m c b = entry9 m c b :=
  withArrays_rest spec9 c _ _
theorem W20_out (c : Dev nD) : W20 m c (Proc.devRef .tc main_v351) = (dat9 (fun c b => W19 m c b) c).arrAt 6 cfg9.N :=
  (hF9 m c 6).symm

abbrev W21 : Dev nD → Valuation τ sig (Elt F) := fun c => StableHlo.after hostOps10 (W20 m c)

noncomputable def outs : Outs (F := F) := fun J r c => match J with
  | 2 => W2 m c r
  | 4 => W4 m c r
  | 6 => W6 m c r
  | 8 => W8 m c r
  | 10 => W10 m c r
  | 12 => W12 m c r
  | 14 => W14 m c r
  | 16 => W16 m c r
  | 18 => W18 m c r
  | 20 => W20 m c r
  | _ => W0 m c r

theorem V1_eq (c : Dev nD) : V1 m c = W1 m c := rfl
theorem V2_eq (c : Dev nD) : V2 m (outs m) c = W2 m c :=
  update_eq_of (V1_eq m c) (exit_eq_update (dat0 (entry0 m) c) launch0.win.arr_inj _ 9 (by decide) (A_eq0 (entry0 m) c))
theorem V3_eq (c : Dev nD) : V3 m (outs m) c = W3 m c := congrArg (StableHlo.after hostOps1) (V2_eq m c)
theorem V4_eq (c : Dev nD) : V4 m (outs m) c = W4 m c :=
  update_eq_of (V3_eq m c) (exit_eq_update (dat1 (entry1 m) c) launch1.win.arr_inj _ 9 (by decide) (A_eq1 (entry1 m) c))
theorem V5_eq (c : Dev nD) : V5 m (outs m) c = W5 m c := congrArg (StableHlo.after hostOps2) (V4_eq m c)
theorem V6_eq (c : Dev nD) : V6 m (outs m) c = W6 m c :=
  update_eq_of (V5_eq m c) (exit_eq_update (dat2 (entry2 m) c) launch2.win.arr_inj _ 9 (by decide) (A_eq2 (entry2 m) c))
theorem V7_eq (c : Dev nD) : V7 m (outs m) c = W7 m c := congrArg (StableHlo.after hostOps3) (V6_eq m c)
theorem V8_eq (c : Dev nD) : V8 m (outs m) c = W8 m c :=
  update_eq_of (V7_eq m c) (exit_eq_update (dat3 (entry3 m) c) launch3.win.arr_inj _ 9 (by decide) (A_eq3 (entry3 m) c))
theorem V9_eq (c : Dev nD) : V9 m (outs m) c = W9 m c := congrArg (StableHlo.after hostOps4) (V8_eq m c)
theorem V10_eq (c : Dev nD) : V10 m (outs m) c = W10 m c :=
  update_eq_of (V9_eq m c) (exit_eq_update (dat4 (entry4 m) c) launch4.win.arr_inj _ 6 (by decide) (A_eq4 (entry4 m) c))
theorem V11_eq (c : Dev nD) : V11 m (outs m) c = W11 m c := congrArg (StableHlo.after hostOps5) (V10_eq m c)
theorem V12_eq (c : Dev nD) : V12 m (outs m) c = W12 m c :=
  update_eq_of (V11_eq m c) (exit_eq_update (dat5 (entry5 m) c) launch5.win.arr_inj _ 9 (by decide) (A_eq5 (entry5 m) c))
theorem V13_eq (c : Dev nD) : V13 m (outs m) c = W13 m c := congrArg (StableHlo.after hostOps6) (V12_eq m c)
theorem V14_eq (c : Dev nD) : V14 m (outs m) c = W14 m c :=
  update_eq_of (V13_eq m c) (exit_eq_update (dat6 (entry6 m) c) launch6.win.arr_inj _ 9 (by decide) (A_eq6 (entry6 m) c))
theorem V15_eq (c : Dev nD) : V15 m (outs m) c = W15 m c := congrArg (StableHlo.after hostOps7) (V14_eq m c)
theorem V16_eq (c : Dev nD) : V16 m (outs m) c = W16 m c :=
  update_eq_of (V15_eq m c) (exit_eq_update (dat7 (entry7 m) c) launch7.win.arr_inj _ 9 (by decide) (A_eq7 (entry7 m) c))
theorem V17_eq (c : Dev nD) : V17 m (outs m) c = W17 m c := congrArg (StableHlo.after hostOps8) (V16_eq m c)
theorem V18_eq (c : Dev nD) : V18 m (outs m) c = W18 m c :=
  update_eq_of (V17_eq m c) (exit_eq_update (dat8 (entry8 m) c) launch8.win.arr_inj _ 9 (by decide) (A_eq8 (entry8 m) c))
theorem V19_eq (c : Dev nD) : V19 m (outs m) c = W19 m c := congrArg (StableHlo.after hostOps9) (V18_eq m c)
theorem V20_eq (c : Dev nD) : V20 m (outs m) c = W20 m c :=
  update_eq_of (V19_eq m c) (exit_eq_update (dat9 (entry9 m) c) launch9.win.arr_inj _ 6 (by decide) (A_eq9 (entry9 m) c))
theorem V21_eq (c : Dev nD) : V21 m (outs m) c = W21 m c := congrArg (StableHlo.after hostOps10) (V20_eq m c)

theorem W2_of (c : Dev nD) (r : Ref sig .tc) (h : r ∉ ([main_v44] : List (Ref sig .tc))) :
    W2 m c (Proc.devRef .tc r) = W1 m c (Proc.devRef .tc r) := of_update_eq (V1_eq m c) (V2_eq m c) r h
theorem W4_of (c : Dev nD) (r : Ref sig .tc) (h : r ∉ ([main_v83] : List (Ref sig .tc))) :
    W4 m c (Proc.devRef .tc r) = W3 m c (Proc.devRef .tc r) := of_update_eq (V3_eq m c) (V4_eq m c) r h
theorem W6_of (c : Dev nD) (r : Ref sig .tc) (h : r ∉ ([main_v122] : List (Ref sig .tc))) :
    W6 m c (Proc.devRef .tc r) = W5 m c (Proc.devRef .tc r) := of_update_eq (V5_eq m c) (V6_eq m c) r h
theorem W8_of (c : Dev nD) (r : Ref sig .tc) (h : r ∉ ([main_v161] : List (Ref sig .tc))) :
    W8 m c (Proc.devRef .tc r) = W7 m c (Proc.devRef .tc r) := of_update_eq (V7_eq m c) (V8_eq m c) r h
theorem W10_of (c : Dev nD) (r : Ref sig .tc) (h : r ∉ ([main_v175] : List (Ref sig .tc))) :
    W10 m c (Proc.devRef .tc r) = W9 m c (Proc.devRef .tc r) := of_update_eq (V9_eq m c) (V10_eq m c) r h
theorem W12_of (c : Dev nD) (r : Ref sig .tc) (h : r ∉ ([main_v220] : List (Ref sig .tc))) :
    W12 m c (Proc.devRef .tc r) = W11 m c (Proc.devRef .tc r) := of_update_eq (V11_eq m c) (V12_eq m c) r h
theorem W14_of (c : Dev nD) (r : Ref sig .tc) (h : r ∉ ([main_v259] : List (Ref sig .tc))) :
    W14 m c (Proc.devRef .tc r) = W13 m c (Proc.devRef .tc r) := of_update_eq (V13_eq m c) (V14_eq m c) r h
theorem W16_of (c : Dev nD) (r : Ref sig .tc) (h : r ∉ ([main_v298] : List (Ref sig .tc))) :
    W16 m c (Proc.devRef .tc r) = W15 m c (Proc.devRef .tc r) := of_update_eq (V15_eq m c) (V16_eq m c) r h
theorem W18_of (c : Dev nD) (r : Ref sig .tc) (h : r ∉ ([main_v337] : List (Ref sig .tc))) :
    W18 m c (Proc.devRef .tc r) = W17 m c (Proc.devRef .tc r) := of_update_eq (V17_eq m c) (V18_eq m c) r h
theorem W20_of (c : Dev nD) (r : Ref sig .tc) (h : r ∉ ([main_v351] : List (Ref sig .tc))) :
    W20 m c (Proc.devRef .tc r) = W19 m c (Proc.devRef .tc r) := of_update_eq (V19_eq m c) (V20_eq m c) r h

noncomputable def pdats : (p : Fin 10) → (c : Dev nD) → Dat τ (Elt F) Unit ℕ (UR sig nD τ) ℕ (cfgs p) c
  | ⟨0, _⟩ => fun c => dat0 (entry0 m) c
  | ⟨1, _⟩ => fun c => dat1 (entry1 m) c
  | ⟨2, _⟩ => fun c => dat2 (entry2 m) c
  | ⟨3, _⟩ => fun c => dat3 (entry3 m) c
  | ⟨4, _⟩ => fun c => dat4 (entry4 m) c
  | ⟨5, _⟩ => fun c => dat5 (entry5 m) c
  | ⟨6, _⟩ => fun c => dat6 (entry6 m) c
  | ⟨7, _⟩ => fun c => dat7 (entry7 m) c
  | ⟨8, _⟩ => fun c => dat8 (entry8 m) c
  | ⟨9, _⟩ => fun c => dat9 (entry9 m) c
abbrev 𝒱₀ : Variants := Variants.none
abbrev L : GSem nD τ sig → Finset Unit := fun _ => ∅
abbrev lv : GSem nD τ sig → Unit → ℕ := fun _ _ => 0
abbrev R (c : Dev nD) : sProp (MT nD τ sig Unit (Elt F) ℕ (UR sig nD τ) ℕ) := iprop((∃ r, prngReg c r) ∗ ∃ W, owes (c : Thread nD τ) (0 : CellTallies nD τ sig Unit) W)

end Cert.KernelIdeal.Hand

end
-- ==== Proof.KI.RegLib.lean ====
import proofs.«428878_j20040317403499_2_alg».proof.Proof.KI.RunVals

set_option maxRecDepth 2632

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) {p : Fin 10}

theorem owesAt_intro {c : Dev nD} (dat : Dat τ (Elt F) Unit ℕ (UR sig nD τ) ℕ (cfgs p) c) (t : Fin ((cfgs p).N + 1))
    (ho : dat.owed t = 0) (hr : dat.recorded t = Set.univ) :
    iprop(∃ W, owes (c : Thread nD τ) (0 : CellTallies nD τ sig Unit) W) ⊢ (dat.owesAt () t : sProp 𝕄) := by
  unfold Pipeline.Dat.owesAt Pipeline.owesWithin Pipeline.Dat.bound; rw [ho, hr]
  iintro ⟨%W, HO⟩; iexists W; isplitr; · ipureintro; exact fun _ _ => Or.inl trivial
  iexact HO

theorem owesAt_elim {c : Dev nD} (dat : Dat τ (Elt F) Unit ℕ (UR sig nD τ) ℕ (cfgs p) c) (t : Fin ((cfgs p).N + 1))
    (ho : dat.owed t = 0) :
    (dat.owesAt () t : sProp 𝕄) ⊢ iprop(∃ W, owes (c : Thread nD τ) (0 : CellTallies nD τ sig Unit) W) := by
  unfold Pipeline.Dat.owesAt Pipeline.owesWithin; rw [ho]
  iintro ⟨%W, -, HO⟩; iexists W; iexact HO

set_option backward.isDefEq.respectTransparency.types false in
/-- A region entered with every unscoped buffer at `Vi` and left with them at `Vo`, which differs from `Vi` at its arrays alone. -/
def regOf (launch : Pipeline.LaunchFacts (nD := nD) (τ := τ) cfgs p)
    {Vi Vo W W' : Dev nD → Valuation τ sig (Elt F)} (hVi : ∀ c, Vi c = W c) (hVo : ∀ c, Vo c = W' c)
    (hbody : ∀ c, BodyObligation (pdats m p c) (defs₀ (F := F)) Variants.none () Set.univ)
    (hdat : ∀ c, (pdats m p c).q = (fun _ => fullShare) ∧ (pdats m p c).owed = (fun _ => 0) ∧ (pdats m p c).recorded = fun _ => Set.univ)
    (hA : ∀ c w, (pdats m p c).A w = W c (Pipeline.arrRef (cfgs p).spec w))
    (hF : ∀ c w, (pdats m p c).arrAt w (cfgs p).N = W' c (Pipeline.arrRef (cfgs p).spec w))
    (hrest : ∀ c (b : Ref sig .tc), b ∉ Finset.univ.image (Pipeline.arrRef (cfgs p).spec) → W' c b = W c b)
    (hin : ∀ c, iprop((∃ r, prngReg c r) ∗ Pipeline.prefHeld (pcfgs (F := F) p).pre c (fun _ => fullShare) (adm p).1
        ∗ Pipeline.scopedRest (cfgs p).spec c) ⊢ (pdats m p c).Φ 0)
    (hout : ∀ c, (pdats m p c).Φ (Fin.last (cfgs p).N)
      ⊢ iprop((∃ r, prngReg c r) ∗ Pipeline.ownSems0 (fun k : PEmpty => k.elim) c ∗ Pipeline.scopedRest (cfgs p).spec c)) :
    RegionSeg (pcfgs (F := F)) adm (pdats m) () defs₀ 𝒱₀ L lv p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ L lv p fun c => congrFun (hdat c).2.1
  pre c := iprop(StableHlo.held (c : Thread nD τ) (Pipeline.ucRefs τ sig) (Vi c) ∗ R c)
  post c := iprop(StableHlo.held (c : Thread nD τ) (Pipeline.ucRefs τ sig) (Vo c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => W c b)
  hentry c := by
    have hsplit := Pipeline.arrays_of_unscopedBufs (p := p) (pcfgs (F := F)) adm (pdats m) launch.win launch.arr_whole c
      ((pdats m p c).share_full (congrFun (hdat c).1)) (fun b => W c b) (hA c)
    rw [Pipeline.unscopedBufs_held] at hsplit
    rw [Pipeline.ownSems0_none, hVi c]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply owesAt_intro (pdats m p c) 0 (congrFun (hdat c).2.1 0) (congrFun (hdat c).2.2 0); iexact HO
    isplitl [Hp] <;> iassumption
  hin := hin
  hout := hout
  hexit c := by
    have hjoin := Pipeline.unscopedBufs_of_arrays (p := p) (pcfgs (F := F)) adm (Ix := Unit) (Name := ℕ) (U := UR sig nD τ) (Lvl := ℕ)
      launch.win launch.arr_whole c (pdats m) ((pdats m p c).share_full (congrFun (hdat c).1))
      (fun b => W c b) (fun b => W' c b) ((pdats m p c).arrAt · (cfgs p).N) (hF c) (hrest c)
    rw [Pipeline.unscopedBufs_held] at hjoin
    rw [hVo c]
    iintro ⟨Ha, HO, HY, Hrest⟩
    imodintro
    isplitl [Ha Hrest]
    · iapply hjoin; isplitl [Ha] <;> iassumption
    isplitl [HY]; · iexact HY
    iapply owesAt_elim (pdats m p c) _ (congrFun (hdat c).2.1 _); iexact HO

theorem hinA {c : Dev nD} (hΦ : (pdats m p c).Φ 0 = Pipeline.ΦA (cfgs p).spec c) :
    iprop((∃ r, prngReg c r) ∗ Pipeline.prefHeld (pcfgs (F := F) p).pre c (fun _ => fullShare) (adm p).1
      ∗ Pipeline.scopedRest (cfgs p).spec c) ⊢ (pdats m p c).Φ 0 := by
  rw [hΦ]; unfold Pipeline.ΦA
  iintro ⟨Hp, -, Hr⟩
  isplitl [Hr] <;> iassumption

theorem houtA {c : Dev nD} (hΦ : (pdats m p c).Φ (Fin.last (cfgs p).N) = Pipeline.ΦA (cfgs p).spec c) :
    (pdats m p c).Φ (Fin.last (cfgs p).N)
      ⊢ iprop((∃ r, prngReg c r) ∗ Pipeline.ownSems0 (fun k : PEmpty => k.elim) c ∗ Pipeline.scopedRest (cfgs p).spec c) := by
  rw [Pipeline.ownSems0_none, hΦ]; unfold Pipeline.ΦA
  iintro ⟨Hr, Hp⟩
  isplitl [Hp]; · iexact Hp
  isplitr; · iempintro
  iexact Hr

def reg0 := regOf m launch0 (V1_eq m) (V2_eq m) (body_obligation0 _) (fun _ => ⟨rfl, rfl, rfl⟩) (fun _ _ => rfl) (hF0 m) (hrest0 m)
  (fun _ => hinA m rfl) fun _ => houtA m rfl
def reg1 := regOf m launch1 (V3_eq m) (V4_eq m) (body_obligation1 _) (fun _ => ⟨rfl, rfl, rfl⟩) (fun _ _ => rfl) (hF1 m) (hrest1 m)
  (fun _ => hinA m rfl) fun _ => houtA m rfl
def reg2 := regOf m launch2 (V5_eq m) (V6_eq m) (body_obligation2 _) (fun _ => ⟨rfl, rfl, rfl⟩) (fun _ _ => rfl) (hF2 m) (hrest2 m)
  (fun _ => hinA m rfl) fun _ => houtA m rfl
def reg3 := regOf m launch3 (V7_eq m) (V8_eq m) (body_obligation3 _) (fun _ => ⟨rfl, rfl, rfl⟩) (fun _ _ => rfl) (hF3 m) (hrest3 m)
  (fun _ => hinA m rfl) fun _ => houtA m rfl
def reg4 := regOf m launch4 (V9_eq m) (V10_eq m) (body_obligation4 _) (fun _ => ⟨rfl, rfl, rfl⟩) (fun _ _ => rfl) (hF4 m) (hrest4 m)
  (hin4 _) (hout4 _)
def reg5 := regOf m launch5 (V11_eq m) (V12_eq m) (body_obligation5 _) (fun _ => ⟨rfl, rfl, rfl⟩) (fun _ _ => rfl) (hF5 m) (hrest5 m)
  (fun _ => hinA m rfl) fun _ => houtA m rfl
def reg6 := regOf m launch6 (V13_eq m) (V14_eq m) (body_obligation6 _) (fun _ => ⟨rfl, rfl, rfl⟩) (fun _ _ => rfl) (hF6 m) (hrest6 m)
  (fun _ => hinA m rfl) fun _ => houtA m rfl
def reg7 := regOf m launch7 (V15_eq m) (V16_eq m) (body_obligation7 _) (fun _ => ⟨rfl, rfl, rfl⟩) (fun _ _ => rfl) (hF7 m) (hrest7 m)
  (fun _ => hinA m rfl) fun _ => houtA m rfl
def reg8 := regOf m launch8 (V17_eq m) (V18_eq m) (body_obligation8 _) (fun _ => ⟨rfl, rfl, rfl⟩) (fun _ _ => rfl) (hF8 m) (hrest8 m)
  (fun _ => hinA m rfl) fun _ => houtA m rfl
def reg9 := regOf m launch9 (V19_eq m) (V20_eq m) (body_obligation9 _) (fun _ => ⟨rfl, rfl, rfl⟩) (fun _ _ => rfl) (hF9 m) (hrest9 m)
  (hin9 _) (hout9 _)

end Cert.KernelIdeal.Hand

end
-- ==== Proof.KI.RunValue.lean ====
import proofs.«428878_j20040317403499_2_alg».proof.Proof.KI.RegLib
import proofs.«428878_j20040317403499_2_alg».proof.Proof.KI.ValueCond

set_option maxRecDepth 2632

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main run through its ten regions: the result buffer ends at the fold's last contents, every argument as launched. -/
theorem run_value : θ_run defs (onTc (τ := τ) (main (F := F))) ⟨m, fun _ => 0, ρ⟩ (fun r => ∀ c : Dev nD,
      r.2.mem ((c.tc : Thread nD τ).loc main_v354) = W21 m c (Proc.devRef .tc main_v354)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (show V21 m (outs m) = W21 m from funext (V21_eq m)) ▸ value_cond m (Ix := Unit) (U := UR sig nD τ) (Lvl := ℕ) emb₁ () 𝒱₀ L lv (fun _ _ => rfl) ρ (outs m) (pdats m)
    (O₀ := 0) (G := fun _ => BI.emp)
    (u₀ := initOf (Pipeline.cells cfgs cellOf_inj) (Pipeline.launchToks cfgs cellOf_inj))
    (hu₀ := by
      rw [BI.bigSep_emp_const]; iintro Hu; imodintro
      isplitl [Hu]; · iapply (show (ownU _ : sProp 𝕄) ⊢ BI.own (emb₁ _) from .rfl); iexact Hu
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE10 := fun c => by iintro ⟨-, HO⟩; iexact HO)
    (reg0 m) (fun _ => .rfl) (fun _ => .rfl)
    (reg1 m) (fun _ => .rfl) (fun _ => .rfl)
    (reg2 m) (fun _ => .rfl) (fun _ => .rfl)
    (reg3 m) (fun _ => .rfl) (fun _ => .rfl)
    (reg4 m) (fun _ => .rfl) (fun _ => .rfl)
    (reg5 m) (fun _ => .rfl) (fun _ => .rfl)
    (reg6 m) (fun _ => .rfl) (fun _ => .rfl)
    (reg7 m) (fun _ => .rfl) (fun _ => .rfl)
    (reg8 m) (fun _ => .rfl) (fun _ => .rfl)
    (reg9 m) (fun _ => .rfl) (fun _ => .rfl)

end Cert.KernelIdeal.Hand

end
-- ==== Proof.KI.Run.lean ====
import proofs.«428878_j20040317403499_2_alg».proof.Proof.KI.RunValue

set_option maxRecDepth 2632

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The frame is the run with its result, the result forgotten. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun _ h c => (h c).2) (run_value m ρ)

end Cert.KernelIdeal.Hand

end
-- ==== Proof.Val.Stages.lean ====
import proofs.«428878_j20040317403499_2_alg».proof.ReferenceIdeal

noncomputable section

namespace Cert.Val.Stages

open Cert.ReferenceIdeal Cert.ReferenceIdeal.Facts₀ Idealize.ShloMosaic

variable {F : FTy → Type} [FloatOps F] [Facts₀]

/-- Every node's row plus the rows of its in-neighbours (a negative source counted from the end): `(∑ h[source]) + (1 + eps) · h`. -/
def aggComb (h : FVec F S50000x128 .f32) (src dst : IVec S800000 32) (eps : FVec F S_ .f32) : FVec F S50000x128 .f32 :=
  addf
    (Host.scatterAdd scatter_S50000x128_S800000x1_S800000x128_1_0_0_1
      (broadcastInDim S50000x128 ![] bcast_S_S50000x128 (constant S_ .f32 0x00000000#32))
      (broadcastInDim S800000x1 ![0] bcast_S800000_S800000x1_0 dst)
      (Host.gather gather_S50000x128_S800000x1_S800000x128_1_0_n_n_0_1_1128 h
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src))))
    (mulf (broadcastInDim S50000x128 ![] bcast_S_S50000x128 (addf (constant S_ .f32 0x3F800000#32) eps)) h)

def overRows (v : FVec F S128 .f32) : FVec F S50000x128 .f32 :=
  broadcastInDim S50000x128 ![0, 1] bcast_S1x128_S50000x128_0_1 (broadcastInDim S1x128 ![1] bcast_S128_S1x128_1 v)

def denseRows (x : FVec F S50000x128 .f32) (W : FVec F S128x128 .f32) (b : FVec F S128 .f32) : FVec F S50000x128 .f32 :=
  maximumf (addf (Host.dotGeneral dot_S50000x128_S128x128_S50000x128_1_0_0_1_n_n none x W) (overRows b))
    (broadcastInDim S50000x128 ![] bcast_S_S50000x128 (constant S_ .f32 0x00000000#32))

def normRows (y : FVec F S50000x128 .f32) (gamma beta mean var : FVec F S128 .f32) : FVec F S50000x128 .f32 :=
  maximumf
    (addf
      (mulf (mulf (overRows gamma) (subf y (overRows mean)))
        (overRows (Host.rsqrt (addf var (broadcastInDim S128 ![] bcast_S_S128 (constant S_ .f32 0x3727C5AC#32))))))
      (overRows beta))
    (broadcastInDim S50000x128 ![] bcast_S_S50000x128 (constant S_ .f32 0x00000000#32))

/-- A layer's per-row network: two dense layers, then the normalisation. -/
def layer (comb : FVec F S50000x128 .f32) (W1 : FVec F S128x128 .f32) (b1 : FVec F S128 .f32)
    (W2 : FVec F S128x128 .f32) (b2 gamma beta mean var : FVec F S128 .f32) : FVec F S50000x128 .f32 :=
  normRows (denseRows (denseRows comb W1 b1) W2 b2) gamma beta mean var

def meanRows (h : FVec F S50000x128 .f32) (batch : IVec S50000 32) : FVec F S128x128 .f32 :=
  Host.divf
    (Host.scatterAdd scatter_S128x128_S50000x1_S50000x128_1_0_0_1
      (broadcastInDim S128x128 ![] bcast_S_S128x128 (constant S_ .f32 0x00000000#32))
      (broadcastInDim S50000x1 ![0] bcast_S50000_S50000x1_0 batch) h)
    (broadcastInDim S128x128 ![0, 1] bcast_S128x1_S128x128_0_1
      (broadcastInDim S128x1 ![0] bcast_S128_S128x1_0
        (maximumf
          (Host.scatterAdd scatter_S128_S50000x1_S50000_n_0_0_1
            (broadcastInDim S128 ![] bcast_S_S128 (constant S_ .f32 0x00000000#32))
            (broadcastInDim S50000x1 ![0] bcast_S50000_S50000x1_0 batch)
            (broadcastInDim S50000 ![] bcast_S_S50000 (constant S_ .f32 0x3F800000#32)))
          (broadcastInDim S128 ![] bcast_S_S128 (constant S_ .f32 0x3F800000#32)))))

def headHidden (p : FVec F S128x128 .f32) (L1 : FVec F S128x128 .f32) (c1 : FVec F S128 .f32) : FVec F S128x128 .f32 :=
  maximumf
    (addf (Host.dotGeneral dot_S128x128_S128x128_S128x128_1_0_0_1_n_n none p L1)
      (broadcastInDim S128x128 ![0, 1] bcast_S1x128_S128x128_0_1 (broadcastInDim S1x128 ![1] bcast_S128_S1x128_1 c1)))
    (broadcastInDim S128x128 ![] bcast_S_S128x128 (constant S_ .f32 0x00000000#32))

def headOut (q : FVec F S128x128 .f32) (L2 : FVec F S128x10 .f32) (c2 : FVec F S10 .f32) : FVec F S128x10 .f32 :=
  addf (Host.dotGeneral dot_S128x128_S128x10_S128x10_1_0_0_1_n_n none q L2)
    (broadcastInDim S128x10 ![0, 1] bcast_S1x10_S128x10_0_1 (broadcastInDim S1x10 ![1] bcast_S10_S1x10_1 c2))

/-- The read-out: the mean over each graph, the hidden layer, the last layer. -/
def pool (h : FVec F S50000x128 .f32) (batch : IVec S50000 32) (L1 : FVec F S128x128 .f32)
    (c1 : FVec F S128 .f32) (L2 : FVec F S128x10 .f32) (c2 : FVec F S10 .f32) : FVec F S128x10 .f32 :=
  headOut (headHidden (meanRows h batch) L1 c1) L2 c2

end Cert.Val.Stages
-- ==== Proof.Val.Net.lean ====
import proofs.«428878_j20040317403499_2_alg».proof.Proof.Val.Stages

noncomputable section

namespace Cert.Val.Net

open Cert.ReferenceIdeal Cert.ReferenceIdeal.Facts₀ Idealize.ShloMosaic Cert.Val.Stages

variable {F : FTy → Type} [FloatOps F] [Facts₀]

def memberNodes (a : FVec F S2x50000x128 .f32) : Fin 2 → FVec F S50000x128 .f32
  | 0 => shapeCast _ (extractStridedSlice S1x50000x128 ![0, 0, 0] a slices_S2x50000x128_S1x50000x128_0_0_0) shapeCasts_S1x50000x128_S50000x128
  | 1 => shapeCast _ (extractStridedSlice S1x50000x128 ![1, 0, 0] a slices_S2x50000x128_S1x50000x128_1_0_0) shapeCasts_S1x50000x128_S50000x128

def memberSrc (a : IVec S2x2x800000 32) : Fin 2 → IVec S800000 32
  | 0 => shapeCast _ (extractStridedSlice S1x1x800000 ![0, 0, 0] a slices_S2x2x800000_S1x1x800000_0_0_0) shapeCasts_S1x1x800000_S800000
  | 1 => shapeCast _ (extractStridedSlice S1x1x800000 ![1, 0, 0] a slices_S2x2x800000_S1x1x800000_1_0_0) shapeCasts_S1x1x800000_S800000

def memberDst (a : IVec S2x2x800000 32) : Fin 2 → IVec S800000 32
  | 0 => shapeCast _ (extractStridedSlice S1x1x800000 ![0, 1, 0] a slices_S2x2x800000_S1x1x800000_0_1_0) shapeCasts_S1x1x800000_S800000
  | 1 => shapeCast _ (extractStridedSlice S1x1x800000 ![1, 1, 0] a slices_S2x2x800000_S1x1x800000_1_1_0) shapeCasts_S1x1x800000_S800000

def memberBatch (a : IVec S2x50000 32) : Fin 2 → IVec S50000 32
  | 0 => shapeCast _ (extractStridedSlice S1x50000 ![0, 0] a slices_S2x50000_S1x50000_0_0) shapeCasts_S1x50000_S50000
  | 1 => shapeCast _ (extractStridedSlice S1x50000 ![1, 0] a slices_S2x50000_S1x50000_1_0) shapeCasts_S1x50000_S50000

def memberMat (a : FVec F S2x128x128 .f32) : Fin 2 → FVec F S128x128 .f32
  | 0 => shapeCast _ (extractStridedSlice S1x128x128 ![0, 0, 0] a slices_S2x128x128_S1x128x128_0_0_0) shapeCasts_S1x128x128_S128x128
  | 1 => shapeCast _ (extractStridedSlice S1x128x128 ![1, 0, 0] a slices_S2x128x128_S1x128x128_1_0_0) shapeCasts_S1x128x128_S128x128

def memberVec (a : FVec F S2x128 .f32) : Fin 2 → FVec F S128 .f32
  | 0 => shapeCast _ (extractStridedSlice S1x128 ![0, 0] a slices_S2x128_S1x128_0_0) shapeCasts_S1x128_S128
  | 1 => shapeCast _ (extractStridedSlice S1x128 ![1, 0] a slices_S2x128_S1x128_1_0) shapeCasts_S1x128_S128

def memberScalar (a : FVec F S2 .f32) : Fin 2 → FVec F S_ .f32
  | 0 => shapeCast _ (extractStridedSlice S1 ![0] a slices_S2_S1_0) shapeCasts_S1_S_
  | 1 => shapeCast _ (extractStridedSlice S1 ![1] a slices_S2_S1_1) shapeCasts_S1_S_

def memberHead (a : FVec F S2x128x10 .f32) : Fin 2 → FVec F S128x10 .f32
  | 0 => shapeCast _ (extractStridedSlice S1x128x10 ![0, 0, 0] a slices_S2x128x10_S1x128x10_0_0_0) shapeCasts_S1x128x10_S128x10
  | 1 => shapeCast _ (extractStridedSlice S1x128x10 ![1, 0, 0] a slices_S2x128x10_S1x128x10_1_0_0) shapeCasts_S1x128x10_S128x10

def memberBias (a : FVec F S2x10 .f32) : Fin 2 → FVec F S10 .f32
  | 0 => shapeCast _ (extractStridedSlice S1x10 ![0, 0] a slices_S2x10_S1x10_0_0) shapeCasts_S1x10_S10
  | 1 => shapeCast _ (extractStridedSlice S1x10 ![1, 0] a slices_S2x10_S1x10_1_0) shapeCasts_S1x10_S10

def layerMat (a : FVec F S3x128x128 .f32) : Fin 3 → FVec F S128x128 .f32
  | 0 => shapeCast _ (extractStridedSlice S1x128x128 ![0, 0, 0] a slices_S3x128x128_S1x128x128_0_0_0) shapeCasts_S1x128x128_S128x128
  | 1 => shapeCast _ (extractStridedSlice S1x128x128 ![1, 0, 0] a slices_S3x128x128_S1x128x128_1_0_0) shapeCasts_S1x128x128_S128x128
  | 2 => shapeCast _ (extractStridedSlice S1x128x128 ![2, 0, 0] a slices_S3x128x128_S1x128x128_2_0_0) shapeCasts_S1x128x128_S128x128

def layerVec (a : FVec F S3x128 .f32) : Fin 3 → FVec F S128 .f32
  | 0 => shapeCast _ (extractStridedSlice S1x128 ![0, 0] a slices_S3x128_S1x128_0_0) shapeCasts_S1x128_S128
  | 1 => shapeCast _ (extractStridedSlice S1x128 ![1, 0] a slices_S3x128_S1x128_1_0) shapeCasts_S1x128_S128
  | 2 => shapeCast _ (extractStridedSlice S1x128 ![2, 0] a slices_S3x128_S1x128_2_0) shapeCasts_S1x128_S128

def layerScalar (a : FVec F S3 .f32) : Fin 3 → FVec F S_ .f32
  | 0 => shapeCast _ (extractStridedSlice S1 ![0] a slices_S3_S1_0) shapeCasts_S1_S_
  | 1 => shapeCast _ (extractStridedSlice S1 ![1] a slices_S3_S1_1) shapeCasts_S1_S_
  | 2 => shapeCast _ (extractStridedSlice S1 ![2] a slices_S3_S1_2) shapeCasts_S1_S_

def gin (h : FVec F S50000x128 .f32) (src dst : IVec S800000 32) (eps : FVec F S_ .f32)
    (W1 : FVec F S128x128 .f32) (b1 : FVec F S128 .f32) (W2 : FVec F S128x128 .f32)
    (b2 gamma beta mean var : FVec F S128 .f32) : FVec F S50000x128 .f32 :=
  layer (aggComb h src dst eps) W1 b1 W2 b2 gamma beta mean var

def hidden1 (i : Fin 2) (a0 : FVec F S2x50000x128 .f32) (a1 : IVec S2x2x800000 32)
    (a3 : FVec F S2x128x128 .f32) (a4 : FVec F S2x128 .f32) (a5 : FVec F S2x128x128 .f32)
    (a6 a7 a8 a9 a10 : FVec F S2x128 .f32) (a11 : FVec F S2 .f32) : FVec F S50000x128 .f32 :=
  gin (memberNodes a0 i) (memberSrc a1 i) (memberDst a1 i) (memberScalar a11 i)
    (memberMat a3 i) (memberVec a4 i) (memberMat a5 i) (memberVec a6 i)
    (memberVec a7 i) (memberVec a8 i) (memberVec a9 i) (memberVec a10 i)

def sharedLayer (i : Fin 2) (j : Fin 3) (h : FVec F S50000x128 .f32) (a1 : IVec S2x2x800000 32)
    (a12 : FVec F S3x128x128 .f32) (a13 : FVec F S3x128 .f32) (a14 : FVec F S3x128x128 .f32)
    (a15 a16 a17 a18 a19 : FVec F S3x128 .f32) (a20 : FVec F S3 .f32) : FVec F S50000x128 .f32 :=
  gin h (memberSrc a1 i) (memberDst a1 i) (layerScalar a20 j)
    (layerMat a12 j) (layerVec a13 j) (layerMat a14 j) (layerVec a15 j)
    (layerVec a16 j) (layerVec a17 j) (layerVec a18 j) (layerVec a19 j)

def readout (i : Fin 2) (h : FVec F S50000x128 .f32) (a2 : IVec S2x50000 32)
    (a21 : FVec F S2x128x128 .f32) (a22 : FVec F S2x128 .f32) (a23 : FVec F S2x128x10 .f32)
    (a24 : FVec F S2x10 .f32) : FVec F S128x10 .f32 :=
  pool h (memberBatch a2 i) (memberMat a21 i) (memberVec a22 i) (memberHead a23 i) (memberBias a24 i)

def member (i : Fin 2) (a0 : FVec F S2x50000x128 .f32) (a1 : IVec S2x2x800000 32) (a2 : IVec S2x50000 32)
    (a3 : FVec F S2x128x128 .f32) (a4 : FVec F S2x128 .f32) (a5 : FVec F S2x128x128 .f32)
    (a6 a7 a8 a9 a10 : FVec F S2x128 .f32) (a11 : FVec F S2 .f32)
    (a12 : FVec F S3x128x128 .f32) (a13 : FVec F S3x128 .f32) (a14 : FVec F S3x128x128 .f32)
    (a15 a16 a17 a18 a19 : FVec F S3x128 .f32) (a20 : FVec F S3 .f32)
    (a21 : FVec F S2x128x128 .f32) (a22 : FVec F S2x128 .f32) (a23 : FVec F S2x128x10 .f32)
    (a24 : FVec F S2x10 .f32) : FVec F S128x10 .f32 :=
  readout i
    (sharedLayer i 2
      (sharedLayer i 1
        (sharedLayer i 0 (hidden1 i a0 a1 a3 a4 a5 a6 a7 a8 a9 a10 a11)
          a1 a12 a13 a14 a15 a16 a17 a18 a19 a20)
        a1 a12 a13 a14 a15 a16 a17 a18 a19 a20)
      a1 a12 a13 a14 a15 a16 a17 a18 a19 a20)
    a2 a21 a22 a23 a24

def stack (r0 r1 : FVec F S128x10 .f32) : FVec F S2x128x10 .f32 :=
  concatenate S2x128x10 0
    [⟨S1x128x10, (broadcastInDim S1x128x10 ![1, 2] bcast_S128x10_S1x128x10_1_2 r0 : (⟨S1x128x10, .f32⟩ : BufTy).Contents (Elt F))⟩,
     ⟨S1x128x10, (broadcastInDim S1x128x10 ![1, 2] bcast_S128x10_S1x128x10_1_2 r1 : (⟨S1x128x10, .f32⟩ : BufTy).Contents (Elt F))⟩]
    concatenates_S1x128x10_S1x128x10_S2x128x10_d0

def netOut (a0 : FVec F S2x50000x128 .f32) (a1 : IVec S2x2x800000 32) (a2 : IVec S2x50000 32)
    (a3 : FVec F S2x128x128 .f32) (a4 : FVec F S2x128 .f32) (a5 : FVec F S2x128x128 .f32)
    (a6 a7 a8 a9 a10 : FVec F S2x128 .f32) (a11 : FVec F S2 .f32)
    (a12 : FVec F S3x128x128 .f32) (a13 : FVec F S3x128 .f32) (a14 : FVec F S3x128x128 .f32)
    (a15 a16 a17 a18 a19 : FVec F S3x128 .f32) (a20 : FVec F S3 .f32)
    (a21 : FVec F S2x128x128 .f32) (a22 : FVec F S2x128 .f32) (a23 : FVec F S2x128x10 .f32)
    (a24 : FVec F S2x10 .f32) : FVec F S2x128x10 .f32 :=
  stack
    (member 0 a0 a1 a2 a3 a4 a5 a6 a7 a8 a9 a10 a11 a12 a13 a14 a15 a16 a17 a18 a19 a20 a21 a22 a23 a24)
    (member 1 a0 a1 a2 a3 a4 a5 a6 a7 a8 a9 a10 a11 a12 a13 a14 a15 a16 a17 a18 a19 a20 a21 a22 a23 a24)

end Cert.Val.Net

end
-- ==== Proof.Val.RefRun.lean ====
import proofs.«428878_j20040317403499_2_alg».proof.Proof.Val.RefOps
import proofs.«428878_j20040317403499_2_alg».proof.Proof.Val.Net

noncomputable section

namespace Cert.Val.RefRun

open Cert.ReferenceIdeal Cert.ReferenceIdeal.Gen Idealize.ShloMosaic Idealize.ShloMosaic.TcCoe Idealize.SL.Sem Idealize.ShloMosaic.StableHlo
open Cert.Val.RefOps Cert.Val.Net Cert.Val.Stages

variable {F : FTy → Type} [FloatOps F]

def step0 (W : Valuation τ sig (Elt F)) : Valuation τ sig (Elt F) := after opsC0 W

theorem keep0 (W : Valuation τ sig (Elt F)) (r : Ref sig .tc) (h : r ∉ opsC0_W) :
    step0 W (no_index (Proc.devRef .tc r)) = W (Proc.devRef .tc r) := opsC0_keep W r h

def step1 (W : Valuation τ sig (Elt F)) : Valuation τ sig (Elt F) := after opsC1 W

theorem keep1 (W : Valuation τ sig (Elt F)) (r : Ref sig .tc) (h : r ∉ opsC1_W) :
    step1 W (no_index (Proc.devRef .tc r)) = W (Proc.devRef .tc r) := opsC1_keep W r h

def step2 (W : Valuation τ sig (Elt F)) : Valuation τ sig (Elt F) := after opsC2 W

theorem keep2 (W : Valuation τ sig (Elt F)) (r : Ref sig .tc) (h : r ∉ opsC2_W) :
    step2 W (no_index (Proc.devRef .tc r)) = W (Proc.devRef .tc r) := opsC2_keep W r h

def step3 (W : Valuation τ sig (Elt F)) : Valuation τ sig (Elt F) := after opsC3 W

theorem keep3 (W : Valuation τ sig (Elt F)) (r : Ref sig .tc) (h : r ∉ opsC3_W) :
    step3 W (no_index (Proc.devRef .tc r)) = W (Proc.devRef .tc r) := opsC3_keep W r h

def step4 (W : Valuation τ sig (Elt F)) : Valuation τ sig (Elt F) := after opsC4 W

theorem keep4 (W : Valuation τ sig (Elt F)) (r : Ref sig .tc) (h : r ∉ opsC4_W) :
    step4 W (no_index (Proc.devRef .tc r)) = W (Proc.devRef .tc r) := opsC4_keep W r h

def step5 (W : Valuation τ sig (Elt F)) : Valuation τ sig (Elt F) := after opsC5 W

theorem keep5 (W : Valuation τ sig (Elt F)) (r : Ref sig .tc) (h : r ∉ opsC5_W) :
    step5 W (no_index (Proc.devRef .tc r)) = W (Proc.devRef .tc r) := opsC5_keep W r h

def step6 (W : Valuation τ sig (Elt F)) : Valuation τ sig (Elt F) := after opsC6 W

theorem keep6 (W : Valuation τ sig (Elt F)) (r : Ref sig .tc) (h : r ∉ opsC6_W) :
    step6 W (no_index (Proc.devRef .tc r)) = W (Proc.devRef .tc r) := opsC6_keep W r h

def step7 (W : Valuation τ sig (Elt F)) : Valuation τ sig (Elt F) := after opsC7 W

theorem keep7 (W : Valuation τ sig (Elt F)) (r : Ref sig .tc) (h : r ∉ opsC7_W) :
    step7 W (no_index (Proc.devRef .tc r)) = W (Proc.devRef .tc r) := opsC7_keep W r h

def step8 (W : Valuation τ sig (Elt F)) : Valuation τ sig (Elt F) := after opsC8 W

theorem keep8 (W : Valuation τ sig (Elt F)) (r : Ref sig .tc) (h : r ∉ opsC8_W) :
    step8 W (no_index (Proc.devRef .tc r)) = W (Proc.devRef .tc r) := opsC8_keep W r h

def step9 (W : Valuation τ sig (Elt F)) : Valuation τ sig (Elt F) := after opsC9 W

theorem keep9 (W : Valuation τ sig (Elt F)) (r : Ref sig .tc) (h : r ∉ opsC9_W) :
    step9 W (no_index (Proc.devRef .tc r)) = W (Proc.devRef .tc r) := opsC9_keep W r h

def step10 (W : Valuation τ sig (Elt F)) : Valuation τ sig (Elt F) := after opsC10 W

theorem keep10 (W : Valuation τ sig (Elt F)) (r : Ref sig .tc) (h : r ∉ opsC10_W) :
    step10 W (no_index (Proc.devRef .tc r)) = W (Proc.devRef .tc r) := opsC10_keep W r h

theorem after_all (V : Valuation τ sig (Elt F)) :
    after opsAll V = step10 (step9 (step8 (step7 (step6 (step5 (step4 (step3 (step2 (step1 (step0 (V))))))))))) := by
  simp only [opsAll, StableHlo.after_append]
  rfl

set_option maxRecDepth 8192 in
set_option maxHeartbeats 4000000 in
theorem c0_out (W : Valuation τ sig (Elt F)) :
    step0 W (no_index (Proc.devRef .tc main_v63))
      = hidden1 0 (W (Proc.devRef .tc main_arg0)) (W (Proc.devRef .tc main_arg1)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) := by
  unfold step0
  after_results_simp
  rfl
set_option maxRecDepth 8192 in
theorem c0_src (W : Valuation τ sig (Elt F)) :
    step0 W (no_index (Proc.devRef .tc main_v1)) = memberSrc (W (Proc.devRef .tc main_arg1)) 0 := by
  unfold step0
  after_results_simp
  rfl
set_option maxRecDepth 8192 in
theorem c0_dst (W : Valuation τ sig (Elt F)) :
    step0 W (no_index (Proc.devRef .tc main_v3)) = memberDst (W (Proc.devRef .tc main_arg1)) 0 := by
  unfold step0
  after_results_simp
  rfl

set_option maxRecDepth 8192 in
set_option maxHeartbeats 4000000 in
theorem c1_out (W : Valuation τ sig (Elt F)) :
    step1 W (no_index (Proc.devRef .tc main_v121))
      = gin (W (Proc.devRef .tc main_v63)) (W (Proc.devRef .tc main_v1)) (W (Proc.devRef .tc main_v3))
          (layerScalar (W (Proc.devRef .tc main_arg20)) 0) (layerMat (W (Proc.devRef .tc main_arg12)) 0) (layerVec (W (Proc.devRef .tc main_arg13)) 0)
          (layerMat (W (Proc.devRef .tc main_arg14)) 0) (layerVec (W (Proc.devRef .tc main_arg15)) 0) (layerVec (W (Proc.devRef .tc main_arg16)) 0)
          (layerVec (W (Proc.devRef .tc main_arg17)) 0) (layerVec (W (Proc.devRef .tc main_arg18)) 0) (layerVec (W (Proc.devRef .tc main_arg19)) 0) := by
  unfold step1
  after_results_simp
  rfl

set_option maxRecDepth 8192 in
set_option maxHeartbeats 4000000 in
theorem c2_out (W : Valuation τ sig (Elt F)) :
    step2 W (no_index (Proc.devRef .tc main_v179))
      = gin (W (Proc.devRef .tc main_v121)) (W (Proc.devRef .tc main_v1)) (W (Proc.devRef .tc main_v3))
          (layerScalar (W (Proc.devRef .tc main_arg20)) 1) (layerMat (W (Proc.devRef .tc main_arg12)) 1) (layerVec (W (Proc.devRef .tc main_arg13)) 1)
          (layerMat (W (Proc.devRef .tc main_arg14)) 1) (layerVec (W (Proc.devRef .tc main_arg15)) 1) (layerVec (W (Proc.devRef .tc main_arg16)) 1)
          (layerVec (W (Proc.devRef .tc main_arg17)) 1) (layerVec (W (Proc.devRef .tc main_arg18)) 1) (layerVec (W (Proc.devRef .tc main_arg19)) 1) := by
  unfold step2
  after_results_simp
  rfl

set_option maxRecDepth 8192 in
set_option maxHeartbeats 4000000 in
theorem c3_out (W : Valuation τ sig (Elt F)) :
    step3 W (no_index (Proc.devRef .tc main_v237))
      = gin (W (Proc.devRef .tc main_v179)) (W (Proc.devRef .tc main_v1)) (W (Proc.devRef .tc main_v3))
          (layerScalar (W (Proc.devRef .tc main_arg20)) 2) (layerMat (W (Proc.devRef .tc main_arg12)) 2) (layerVec (W (Proc.devRef .tc main_arg13)) 2)
          (layerMat (W (Proc.devRef .tc main_arg14)) 2) (layerVec (W (Proc.devRef .tc main_arg15)) 2) (layerVec (W (Proc.devRef .tc main_arg16)) 2)
          (layerVec (W (Proc.devRef .tc main_arg17)) 2) (layerVec (W (Proc.devRef .tc main_arg18)) 2) (layerVec (W (Proc.devRef .tc main_arg19)) 2) := by
  unfold step3
  after_results_simp
  rfl

set_option maxRecDepth 8192 in
set_option maxHeartbeats 4000000 in
theorem c4_out (W : Valuation τ sig (Elt F)) :
    step4 W (no_index (Proc.devRef .tc main_v270))
      = readout 0 (W (Proc.devRef .tc main_v237)) (W (Proc.devRef .tc main_arg2)) (W (Proc.devRef .tc main_arg21)) (W (Proc.devRef .tc main_arg22)) (W (Proc.devRef .tc main_arg23)) (W (Proc.devRef .tc main_arg24)) := by
  unfold step4
  after_results_simp
  rfl

set_option maxRecDepth 8192 in
set_option maxHeartbeats 4000000 in
theorem c5_out (W : Valuation τ sig (Elt F)) :
    step5 W (no_index (Proc.devRef .tc main_v334))
      = hidden1 1 (W (Proc.devRef .tc main_arg0)) (W (Proc.devRef .tc main_arg1)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) := by
  unfold step5
  after_results_simp
  rfl
set_option maxRecDepth 8192 in
theorem c5_src (W : Valuation τ sig (Elt F)) :
    step5 W (no_index (Proc.devRef .tc main_v272)) = memberSrc (W (Proc.devRef .tc main_arg1)) 1 := by
  unfold step5
  after_results_simp
  rfl
set_option maxRecDepth 8192 in
theorem c5_dst (W : Valuation τ sig (Elt F)) :
    step5 W (no_index (Proc.devRef .tc main_v274)) = memberDst (W (Proc.devRef .tc main_arg1)) 1 := by
  unfold step5
  after_results_simp
  rfl

set_option maxRecDepth 8192 in
set_option maxHeartbeats 4000000 in
theorem c6_out (W : Valuation τ sig (Elt F)) :
    step6 W (no_index (Proc.devRef .tc main_v392))
      = gin (W (Proc.devRef .tc main_v334)) (W (Proc.devRef .tc main_v272)) (W (Proc.devRef .tc main_v274))
          (layerScalar (W (Proc.devRef .tc main_arg20)) 0) (layerMat (W (Proc.devRef .tc main_arg12)) 0) (layerVec (W (Proc.devRef .tc main_arg13)) 0)
          (layerMat (W (Proc.devRef .tc main_arg14)) 0) (layerVec (W (Proc.devRef .tc main_arg15)) 0) (layerVec (W (Proc.devRef .tc main_arg16)) 0)
          (layerVec (W (Proc.devRef .tc main_arg17)) 0) (layerVec (W (Proc.devRef .tc main_arg18)) 0) (layerVec (W (Proc.devRef .tc main_arg19)) 0) := by
  unfold step6
  after_results_simp
  rfl

set_option maxRecDepth 8192 in
set_option maxHeartbeats 4000000 in
theorem c7_out (W : Valuation τ sig (Elt F)) :
    step7 W (no_index (Proc.devRef .tc main_v450))
      = gin (W (Proc.devRef .tc main_v392)) (W (Proc.devRef .tc main_v272)) (W (Proc.devRef .tc main_v274))
          (layerScalar (W (Proc.devRef .tc main_arg20)) 1) (layerMat (W (Proc.devRef .tc main_arg12)) 1) (layerVec (W (Proc.devRef .tc main_arg13)) 1)
          (layerMat (W (Proc.devRef .tc main_arg14)) 1) (layerVec (W (Proc.devRef .tc main_arg15)) 1) (layerVec (W (Proc.devRef .tc main_arg16)) 1)
          (layerVec (W (Proc.devRef .tc main_arg17)) 1) (layerVec (W (Proc.devRef .tc main_arg18)) 1) (layerVec (W (Proc.devRef .tc main_arg19)) 1) := by
  unfold step7
  after_results_simp
  rfl

set_option maxRecDepth 8192 in
set_option maxHeartbeats 4000000 in
theorem c8_out (W : Valuation τ sig (Elt F)) :
    step8 W (no_index (Proc.devRef .tc main_v508))
      = gin (W (Proc.devRef .tc main_v450)) (W (Proc.devRef .tc main_v272)) (W (Proc.devRef .tc main_v274))
          (layerScalar (W (Proc.devRef .tc main_arg20)) 2) (layerMat (W (Proc.devRef .tc main_arg12)) 2) (layerVec (W (Proc.devRef .tc main_arg13)) 2)
          (layerMat (W (Proc.devRef .tc main_arg14)) 2) (layerVec (W (Proc.devRef .tc main_arg15)) 2) (layerVec (W (Proc.devRef .tc main_arg16)) 2)
          (layerVec (W (Proc.devRef .tc main_arg17)) 2) (layerVec (W (Proc.devRef .tc main_arg18)) 2) (layerVec (W (Proc.devRef .tc main_arg19)) 2) := by
  unfold step8
  after_results_simp
  rfl

set_option maxRecDepth 8192 in
set_option maxHeartbeats 4000000 in
theorem c9_out (W : Valuation τ sig (Elt F)) :
    step9 W (no_index (Proc.devRef .tc main_v541))
      = readout 1 (W (Proc.devRef .tc main_v508)) (W (Proc.devRef .tc main_arg2)) (W (Proc.devRef .tc main_arg21)) (W (Proc.devRef .tc main_arg22)) (W (Proc.devRef .tc main_arg23)) (W (Proc.devRef .tc main_arg24)) := by
  unfold step9
  after_results_simp
  rfl

set_option maxRecDepth 8192 in
theorem c10_out (W : Valuation τ sig (Elt F)) :
    step10 W (no_index (Proc.devRef .tc main_v544)) = stack (W (Proc.devRef .tc main_v270)) (W (Proc.devRef .tc main_v541)) := by
  unfold step10
  after_results_simp
  rfl

set_option maxRecDepth 8192 in
set_option maxHeartbeats 4000000 in
theorem all_out (V : Valuation τ sig (Elt F)) :
    after opsAll V (Proc.devRef .tc main_v544)
      = netOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) := by
  rw [after_all]
  simp (disch := decide) only [c10_out, c9_out, c8_out, c7_out, c6_out, c5_out, c5_src, c5_dst, c4_out, c3_out, c2_out,
    c1_out, c0_out, c0_src, c0_dst, keep0, keep1, keep2, keep3, keep4, keep5, keep6, keep7, keep8, keep9, keep10]
  rfl

abbrev argRefs : List (Ref sig .tc) :=
  [main_arg0, main_arg1, main_arg2, main_arg3, main_arg4, main_arg5, main_arg6, main_arg7, main_arg8, main_arg9,
   main_arg10, main_arg11, main_arg12, main_arg13, main_arg14, main_arg15, main_arg16, main_arg17, main_arg18, main_arg19,
   main_arg20, main_arg21, main_arg22, main_arg23, main_arg24]

set_option maxRecDepth 16384 in
/-- No stretch writes an argument. -/
theorem all_arg (V : Valuation τ sig (Elt F)) (r : Ref sig .tc) (h : r ∈ argRefs) :
    after opsAll V (Proc.devRef .tc r) = V (Proc.devRef .tc r) := by
  have hw : ∀ r ∈ argRefs, r ∉ opsC0_W ∧ r ∉ opsC1_W ∧ r ∉ opsC2_W ∧ r ∉ opsC3_W ∧ r ∉ opsC4_W ∧ r ∉ opsC5_W ∧
      r ∉ opsC6_W ∧ r ∉ opsC7_W ∧ r ∉ opsC8_W ∧ r ∉ opsC9_W ∧ r ∉ opsC10_W := by decide
  obtain ⟨h0, h1, h2, h3, h4, h5, h6, h7, h8, h9, h10⟩ := hw r h
  rw [after_all, keep10 _ r h10, keep9 _ r h9, keep8 _ r h8, keep7 _ r h7, keep6 _ r h6, keep5 _ r h5, keep4 _ r h4,
    keep3 _ r h3, keep2 _ r h2, keep1 _ r h1, keep0 _ r h0]

/-- Every weakly fair execution ends with the network of the launch contents in the result buffer, the arguments as launched. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v544)
        = netOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24))
      ∧ ∀ a ∈ argRefs, r.2.mem ((c.tc : Thread nD τ).loc a) = m ((c.tc : Thread nD τ).loc a) :=
  (θ_run defs _ _).mono (fun _ h c => ⟨(h c main_v544).trans (all_out _), fun a ha => (h c a).trans (all_arg _ a ha)⟩)
    (run_all m ρ)

end Cert.Val.RefRun

end
-- ==== Proof.Val.KerStretch.lean ====
import proofs.«428878_j20040317403499_2_alg».proof.Proof.Gen.KernelIdeal.Launch
import proofs.«428878_j20040317403499_2_alg».proof.Proof.Gen.KernelIdeal.Regions
import proofs.«428878_j20040317403499_2_alg».proof.Proof.Gen.ReferenceIdeal
import proofs.«428878_j20040317403499_2_alg».proof.Proof.Val.Net
import Idealize.ShloMosaic.Lib.StableHlo.Run
import Idealize.ShloMosaic.Lib.ValueLayout

set_option maxRecDepth 16384

noncomputable section

namespace Cert.Val.KerStretch

open Cert.KernelIdeal Cert.KernelIdeal.Gen
open Idealize.ShloMosaic Idealize.ShloMosaic.TcCoe Idealize.ShloMosaic.StableHlo Idealize.ShloMosaic.ValueIdx
open Idealize.SL.Sem
open Cert.Val.Net Cert.Val.Stages

variable {F : FTy → Type} [FloatOps F]

def rowOf (v : FVec F S128 .f32) : FVec F S1x128 .f32 := fun i => shapeCast S1x128 v shapeCasts_S128_S1x128 i

def row10Of (v : FVec F S10 .f32) : FVec F S1x10 .f32 := fun i => shapeCast S1x10 v shapeCasts_S10_S1x10 i

def colOf (v : IVec S50000 32) : IVec S50000x1 32 := fun i => shapeCast S50000x1 v shapeCasts_S50000_S50000x1 i

theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem rowOf_apply (v : FVec F S128 .f32) (k : Fin 128) : rowOf v (ix2 0 k) = v (ix1 k) :=
  shapeCast_a_1a_apply v shapeCasts_S128_S1x128 0 k

theorem row10Of_apply (v : FVec F S10 .f32) (k : Fin 10) : row10Of v (ix2 0 k) = v (ix1 k) :=
  shapeCast_a_1a_apply v shapeCasts_S10_S1x10 0 k

theorem colOf_apply (v : IVec S50000 32) (e : Fin 50000) : colOf v (ix2 e 0) = v (ix1 e) :=
  shapeCast_a_a1_apply v shapeCasts_S50000_S50000x1 e 0

set_option maxHeartbeats 2000000 in
theorem stretch0 (W : Valuation τ sig (Elt F)) :
    (StableHlo.after hostOps0 W (Proc.devRef .tc main_v1) : IVec S800000 32) = memberSrc (W (Proc.devRef .tc main_arg1)) 0 ∧
    (StableHlo.after hostOps0 W (Proc.devRef .tc main_v3) : IVec S800000 32) = memberDst (W (Proc.devRef .tc main_arg1)) 0 ∧
    (StableHlo.after hostOps0 W (Proc.devRef .tc main_v21) : FVec F S50000x128 .f32) =
      aggComb (memberNodes (W (Proc.devRef .tc main_arg0)) 0) (memberSrc (W (Proc.devRef .tc main_arg1)) 0)
        (memberDst (W (Proc.devRef .tc main_arg1)) 0) (memberScalar (W (Proc.devRef .tc main_arg11)) 0) ∧
    (StableHlo.after hostOps0 W (Proc.devRef .tc main_v23) : FVec F S128x128 .f32) = memberMat (W (Proc.devRef .tc main_arg3)) 0 ∧
    (StableHlo.after hostOps0 W (Proc.devRef .tc main_v38) : FVec F S1x128 .f32) = rowOf (memberVec (W (Proc.devRef .tc main_arg4)) 0) ∧
    (StableHlo.after hostOps0 W (Proc.devRef .tc main_v27) : FVec F S128x128 .f32) = memberMat (W (Proc.devRef .tc main_arg5)) 0 ∧
    (StableHlo.after hostOps0 W (Proc.devRef .tc main_v39) : FVec F S1x128 .f32) = rowOf (memberVec (W (Proc.devRef .tc main_arg6)) 0) ∧
    (StableHlo.after hostOps0 W (Proc.devRef .tc main_v40) : FVec F S1x128 .f32) = rowOf (memberVec (W (Proc.devRef .tc main_arg7)) 0) ∧
    (StableHlo.after hostOps0 W (Proc.devRef .tc main_v41) : FVec F S1x128 .f32) = rowOf (memberVec (W (Proc.devRef .tc main_arg8)) 0) ∧
    (StableHlo.after hostOps0 W (Proc.devRef .tc main_v42) : FVec F S1x128 .f32) = rowOf (memberVec (W (Proc.devRef .tc main_arg9)) 0) ∧
    (StableHlo.after hostOps0 W (Proc.devRef .tc main_v43) : FVec F S1x128 .f32) = rowOf (memberVec (W (Proc.devRef .tc main_arg10)) 0) := by
  refine ⟨?_, ?_, ?_, ?_, ?_, ?_, ?_, ?_, ?_, ?_, ?_⟩ <;> (after_results_simp; rfl)

set_option maxHeartbeats 2000000 in
theorem stretch1 (W : Valuation τ sig (Elt F)) :
    (StableHlo.after hostOps1 W (Proc.devRef .tc main_v60) : FVec F S50000x128 .f32) =
      aggComb (W (Proc.devRef .tc main_v44)) (W (Proc.devRef .tc main_v1)) (W (Proc.devRef .tc main_v3))
        (layerScalar (W (Proc.devRef .tc main_arg20)) 0) ∧
    (StableHlo.after hostOps1 W (Proc.devRef .tc main_v62) : FVec F S128x128 .f32) = layerMat (W (Proc.devRef .tc main_arg12)) 0 ∧
    (StableHlo.after hostOps1 W (Proc.devRef .tc main_v77) : FVec F S1x128 .f32) = rowOf (layerVec (W (Proc.devRef .tc main_arg13)) 0) ∧
    (StableHlo.after hostOps1 W (Proc.devRef .tc main_v66) : FVec F S128x128 .f32) = layerMat (W (Proc.devRef .tc main_arg14)) 0 ∧
    (StableHlo.after hostOps1 W (Proc.devRef .tc main_v78) : FVec F S1x128 .f32) = rowOf (layerVec (W (Proc.devRef .tc main_arg15)) 0) ∧
    (StableHlo.after hostOps1 W (Proc.devRef .tc main_v79) : FVec F S1x128 .f32) = rowOf (layerVec (W (Proc.devRef .tc main_arg16)) 0) ∧
    (StableHlo.after hostOps1 W (Proc.devRef .tc main_v80) : FVec F S1x128 .f32) = rowOf (layerVec (W (Proc.devRef .tc main_arg17)) 0) ∧
    (StableHlo.after hostOps1 W (Proc.devRef .tc main_v81) : FVec F S1x128 .f32) = rowOf (layerVec (W (Proc.devRef .tc main_arg18)) 0) ∧
    (StableHlo.after hostOps1 W (Proc.devRef .tc main_v82) : FVec F S1x128 .f32) = rowOf (layerVec (W (Proc.devRef .tc main_arg19)) 0) := by
  refine ⟨?_, ?_, ?_, ?_, ?_, ?_, ?_, ?_, ?_⟩ <;> (after_results_simp; rfl)

set_option maxHeartbeats 2000000 in
theorem stretch2 (W : Valuation τ sig (Elt F)) :
    (StableHlo.after hostOps2 W (Proc.devRef .tc main_v99) : FVec F S50000x128 .f32) =
      aggComb (W (Proc.devRef .tc main_v83)) (W (Proc.devRef .tc main_v1)) (W (Proc.devRef .tc main_v3))
        (layerScalar (W (Proc.devRef .tc main_arg20)) 1) ∧
    (StableHlo.after hostOps2 W (Proc.devRef .tc main_v101) : FVec F S128x128 .f32) = layerMat (W (Proc.devRef .tc main_arg12)) 1 ∧
    (StableHlo.after hostOps2 W (Proc.devRef .tc main_v116) : FVec F S1x128 .f32) = rowOf (layerVec (W (Proc.devRef .tc main_arg13)) 1) ∧
    (StableHlo.after hostOps2 W (Proc.devRef .tc main_v105) : FVec F S128x128 .f32) = layerMat (W (Proc.devRef .tc main_arg14)) 1 ∧
    (StableHlo.after hostOps2 W (Proc.devRef .tc main_v117) : FVec F S1x128 .f32) = rowOf (layerVec (W (Proc.devRef .tc main_arg15)) 1) ∧
    (StableHlo.after hostOps2 W (Proc.devRef .tc main_v118) : FVec F S1x128 .f32) = rowOf (layerVec (W (Proc.devRef .tc main_arg16)) 1) ∧
    (StableHlo.after hostOps2 W (Proc.devRef .tc main_v119) : FVec F S1x128 .f32) = rowOf (layerVec (W (Proc.devRef .tc main_arg17)) 1) ∧
    (StableHlo.after hostOps2 W (Proc.devRef .tc main_v120) : FVec F S1x128 .f32) = rowOf (layerVec (W (Proc.devRef .tc main_arg18)) 1) ∧
    (StableHlo.after hostOps2 W (Proc.devRef .tc main_v121) : FVec F S1x128 .f32) = rowOf (layerVec (W (Proc.devRef .tc main_arg19)) 1) := by
  refine ⟨?_, ?_, ?_, ?_, ?_, ?_, ?_, ?_, ?_⟩ <;> (after_results_simp; rfl)

set_option maxHeartbeats 2000000 in
theorem stretch3 (W : Valuation τ sig (Elt F)) :
    (StableHlo.after hostOps3 W (Proc.devRef .tc main_v138) : FVec F S50000x128 .f32) =
      aggComb (W (Proc.devRef .tc main_v122)) (W (Proc.devRef .tc main_v1)) (W (Proc.devRef .tc main_v3))
        (layerScalar (W (Proc.devRef .tc main_arg20)) 2) ∧
    (StableHlo.after hostOps3 W (Proc.devRef .tc main_v140) : FVec F S128x128 .f32) = layerMat (W (Proc.devRef .tc main_arg12)) 2 ∧
    (StableHlo.after hostOps3 W (Proc.devRef .tc main_v155) : FVec F S1x128 .f32) = rowOf (layerVec (W (Proc.devRef .tc main_arg13)) 2) ∧
    (StableHlo.after hostOps3 W (Proc.devRef .tc main_v144) : FVec F S128x128 .f32) = layerMat (W (Proc.devRef .tc main_arg14)) 2 ∧
    (StableHlo.after hostOps3 W (Proc.devRef .tc main_v156) : FVec F S1x128 .f32) = rowOf (layerVec (W (Proc.devRef .tc main_arg15)) 2) ∧
    (StableHlo.after hostOps3 W (Proc.devRef .tc main_v157) : FVec F S1x128 .f32) = rowOf (layerVec (W (Proc.devRef .tc main_arg16)) 2) ∧
    (StableHlo.after hostOps3 W (Proc.devRef .tc main_v158) : FVec F S1x128 .f32) = rowOf (layerVec (W (Proc.devRef .tc main_arg17)) 2) ∧
    (StableHlo.after hostOps3 W (Proc.devRef .tc main_v159) : FVec F S1x128 .f32) = rowOf (layerVec (W (Proc.devRef .tc main_arg18)) 2) ∧
    (StableHlo.after hostOps3 W (Proc.devRef .tc main_v160) : FVec F S1x128 .f32) = rowOf (layerVec (W (Proc.devRef .tc main_arg19)) 2) := by
  refine ⟨?_, ?_, ?_, ?_, ?_, ?_, ?_, ?_, ?_⟩ <;> (after_results_simp; rfl)

theorem stretch4 (W : Valuation τ sig (Elt F)) :
    (StableHlo.after hostOps4 W (Proc.devRef .tc main_v164) : IVec S50000x1 32) = colOf (memberBatch (W (Proc.devRef .tc main_arg2)) 0) ∧
    (StableHlo.after hostOps4 W (Proc.devRef .tc main_v166) : FVec F S128x128 .f32) = memberMat (W (Proc.devRef .tc main_arg21)) 0 ∧
    (StableHlo.after hostOps4 W (Proc.devRef .tc main_v173) : FVec F S1x128 .f32) = rowOf (memberVec (W (Proc.devRef .tc main_arg22)) 0) ∧
    (StableHlo.after hostOps4 W (Proc.devRef .tc main_v170) : FVec F S128x10 .f32) = memberHead (W (Proc.devRef .tc main_arg23)) 0 ∧
    (StableHlo.after hostOps4 W (Proc.devRef .tc main_v174) : FVec F S1x10 .f32) = row10Of (memberBias (W (Proc.devRef .tc main_arg24)) 0) := by
  refine ⟨?_, ?_, ?_, ?_, ?_⟩ <;> (after_results_simp; rfl)

theorem stretch10 (W : Valuation τ sig (Elt F)) :
    (StableHlo.after hostOps10 W (Proc.devRef .tc main_v354) : FVec F S2x128x10 .f32) =
      stack (W (Proc.devRef .tc main_v175)) (W (Proc.devRef .tc main_v351)) := by
  after_results
  rfl

end Cert.Val.KerStretch
-- ==== Proof.Val.KerStretchB.lean ====
import proofs.«428878_j20040317403499_2_alg».proof.Proof.Val.KerStretch

set_option maxRecDepth 16384

noncomputable section

namespace Cert.Val.KerStretch

open Cert.KernelIdeal Cert.KernelIdeal.Gen
open Idealize.ShloMosaic Idealize.ShloMosaic.TcCoe Idealize.ShloMosaic.StableHlo
open Idealize.SL.Sem
open Cert.Val.Net Cert.Val.Stages

variable {F : FTy → Type} [FloatOps F]

set_option maxHeartbeats 2000000 in
theorem stretch5 (W : Valuation τ sig (Elt F)) :
    (StableHlo.after hostOps5 W (Proc.devRef .tc main_v177) : IVec S800000 32) = memberSrc (W (Proc.devRef .tc main_arg1)) 1 ∧
    (StableHlo.after hostOps5 W (Proc.devRef .tc main_v179) : IVec S800000 32) = memberDst (W (Proc.devRef .tc main_arg1)) 1 ∧
    (StableHlo.after hostOps5 W (Proc.devRef .tc main_v197) : FVec F S50000x128 .f32) =
      aggComb (memberNodes (W (Proc.devRef .tc main_arg0)) 1) (memberSrc (W (Proc.devRef .tc main_arg1)) 1)
        (memberDst (W (Proc.devRef .tc main_arg1)) 1) (memberScalar (W (Proc.devRef .tc main_arg11)) 1) ∧
    (StableHlo.after hostOps5 W (Proc.devRef .tc main_v199) : FVec F S128x128 .f32) = memberMat (W (Proc.devRef .tc main_arg3)) 1 ∧
    (StableHlo.after hostOps5 W (Proc.devRef .tc main_v214) : FVec F S1x128 .f32) = rowOf (memberVec (W (Proc.devRef .tc main_arg4)) 1) ∧
    (StableHlo.after hostOps5 W (Proc.devRef .tc main_v203) : FVec F S128x128 .f32) = memberMat (W (Proc.devRef .tc main_arg5)) 1 ∧
    (StableHlo.after hostOps5 W (Proc.devRef .tc main_v215) : FVec F S1x128 .f32) = rowOf (memberVec (W (Proc.devRef .tc main_arg6)) 1) ∧
    (StableHlo.after hostOps5 W (Proc.devRef .tc main_v216) : FVec F S1x128 .f32) = rowOf (memberVec (W (Proc.devRef .tc main_arg7)) 1) ∧
    (StableHlo.after hostOps5 W (Proc.devRef .tc main_v217) : FVec F S1x128 .f32) = rowOf (memberVec (W (Proc.devRef .tc main_arg8)) 1) ∧
    (StableHlo.after hostOps5 W (Proc.devRef .tc main_v218) : FVec F S1x128 .f32) = rowOf (memberVec (W (Proc.devRef .tc main_arg9)) 1) ∧
    (StableHlo.after hostOps5 W (Proc.devRef .tc main_v219) : FVec F S1x128 .f32) = rowOf (memberVec (W (Proc.devRef .tc main_arg10)) 1) := by
  refine ⟨?_, ?_, ?_, ?_, ?_, ?_, ?_, ?_, ?_, ?_, ?_⟩ <;> (after_results_simp; rfl)

set_option maxHeartbeats 2000000 in
theorem stretch6 (W : Valuation τ sig (Elt F)) :
    (StableHlo.after hostOps6 W (Proc.devRef .tc main_v236) : FVec F S50000x128 .f32) =
      aggComb (W (Proc.devRef .tc main_v220)) (W (Proc.devRef .tc main_v177)) (W (Proc.devRef .tc main_v179))
        (layerScalar (W (Proc.devRef .tc main_arg20)) 0) ∧
    (StableHlo.after hostOps6 W (Proc.devRef .tc main_v238) : FVec F S128x128 .f32) = layerMat (W (Proc.devRef .tc main_arg12)) 0 ∧
    (StableHlo.after hostOps6 W (Proc.devRef .tc main_v253) : FVec F S1x128 .f32) = rowOf (layerVec (W (Proc.devRef .tc main_arg13)) 0) ∧
    (StableHlo.after hostOps6 W (Proc.devRef .tc main_v242) : FVec F S128x128 .f32) = layerMat (W (Proc.devRef .tc main_arg14)) 0 ∧
    (StableHlo.after hostOps6 W (Proc.devRef .tc main_v254) : FVec F S1x128 .f32) = rowOf (layerVec (W (Proc.devRef .tc main_arg15)) 0) ∧
    (StableHlo.after hostOps6 W (Proc.devRef .tc main_v255) : FVec F S1x128 .f32) = rowOf (layerVec (W (Proc.devRef .tc main_arg16)) 0) ∧
    (StableHlo.after hostOps6 W (Proc.devRef .tc main_v256) : FVec F S1x128 .f32) = rowOf (layerVec (W (Proc.devRef .tc main_arg17)) 0) ∧
    (StableHlo.after hostOps6 W (Proc.devRef .tc main_v257) : FVec F S1x128 .f32) = rowOf (layerVec (W (Proc.devRef .tc main_arg18)) 0) ∧
    (StableHlo.after hostOps6 W (Proc.devRef .tc main_v258) : FVec F S1x128 .f32) = rowOf (layerVec (W (Proc.devRef .tc main_arg19)) 0) := by
  refine ⟨?_, ?_, ?_, ?_, ?_, ?_, ?_, ?_, ?_⟩ <;> (after_results_simp; rfl)

set_option maxHeartbeats 2000000 in
theorem stretch7 (W : Valuation τ sig (Elt F)) :
    (StableHlo.after hostOps7 W (Proc.devRef .tc main_v275) : FVec F S50000x128 .f32) =
      aggComb (W (Proc.devRef .tc main_v259)) (W (Proc.devRef .tc main_v177)) (W (Proc.devRef .tc main_v179))
        (layerScalar (W (Proc.devRef .tc main_arg20)) 1) ∧
    (StableHlo.after hostOps7 W (Proc.devRef .tc main_v277) : FVec F S128x128 .f32) = layerMat (W (Proc.devRef .tc main_arg12)) 1 ∧
    (StableHlo.after hostOps7 W (Proc.devRef .tc main_v292) : FVec F S1x128 .f32) = rowOf (layerVec (W (Proc.devRef .tc main_arg13)) 1) ∧
    (StableHlo.after hostOps7 W (Proc.devRef .tc main_v281) : FVec F S128x128 .f32) = layerMat (W (Proc.devRef .tc main_arg14)) 1 ∧
    (StableHlo.after hostOps7 W (Proc.devRef .tc main_v293) : FVec F S1x128 .f32) = rowOf (layerVec (W (Proc.devRef .tc main_arg15)) 1) ∧
    (StableHlo.after hostOps7 W (Proc.devRef .tc main_v294) : FVec F S1x128 .f32) = rowOf (layerVec (W (Proc.devRef .tc main_arg16)) 1) ∧
    (StableHlo.after hostOps7 W (Proc.devRef .tc main_v295) : FVec F S1x128 .f32) = rowOf (layerVec (W (Proc.devRef .tc main_arg17)) 1) ∧
    (StableHlo.after hostOps7 W (Proc.devRef .tc main_v296) : FVec F S1x128 .f32) = rowOf (layerVec (W (Proc.devRef .tc main_arg18)) 1) ∧
    (StableHlo.after hostOps7 W (Proc.devRef .tc main_v297) : FVec F S1x128 .f32) = rowOf (layerVec (W (Proc.devRef .tc main_arg19)) 1) := by
  refine ⟨?_, ?_, ?_, ?_, ?_, ?_, ?_, ?_, ?_⟩ <;> (after_results_simp; rfl)

set_option maxHeartbeats 2000000 in
theorem stretch8 (W : Valuation τ sig (Elt F)) :
    (StableHlo.after hostOps8 W (Proc.devRef .tc main_v314) : FVec F S50000x128 .f32) =
      aggComb (W (Proc.devRef .tc main_v298)) (W (Proc.devRef .tc main_v177)) (W (Proc.devRef .tc main_v179))
        (layerScalar (W (Proc.devRef .tc main_arg20)) 2) ∧
    (StableHlo.after hostOps8 W (Proc.devRef .tc main_v316) : FVec F S128x128 .f32) = layerMat (W (Proc.devRef .tc main_arg12)) 2 ∧
    (StableHlo.after hostOps8 W (Proc.devRef .tc main_v331) : FVec F S1x128 .f32) = rowOf (layerVec (W (Proc.devRef .tc main_arg13)) 2) ∧
    (StableHlo.after hostOps8 W (Proc.devRef .tc main_v320) : FVec F S128x128 .f32) = layerMat (W (Proc.devRef .tc main_arg14)) 2 ∧
    (StableHlo.after hostOps8 W (Proc.devRef .tc main_v332) : FVec F S1x128 .f32) = rowOf (layerVec (W (Proc.devRef .tc main_arg15)) 2) ∧
    (StableHlo.after hostOps8 W (Proc.devRef .tc main_v333) : FVec F S1x128 .f32) = rowOf (layerVec (W (Proc.devRef .tc main_arg16)) 2) ∧
    (StableHlo.after hostOps8 W (Proc.devRef .tc main_v334) : FVec F S1x128 .f32) = rowOf (layerVec (W (Proc.devRef .tc main_arg17)) 2) ∧
    (StableHlo.after hostOps8 W (Proc.devRef .tc main_v335) : FVec F S1x128 .f32) = rowOf (layerVec (W (Proc.devRef .tc main_arg18)) 2) ∧
    (StableHlo.after hostOps8 W (Proc.devRef .tc main_v336) : FVec F S1x128 .f32) = rowOf (layerVec (W (Proc.devRef .tc main_arg19)) 2) := by
  refine ⟨?_, ?_, ?_, ?_, ?_, ?_, ?_, ?_, ?_⟩ <;> (after_results_simp; rfl)

set_option maxHeartbeats 2000000 in
theorem stretch9 (W : Valuation τ sig (Elt F)) :
    (StableHlo.after hostOps9 W (Proc.devRef .tc main_v340) : IVec S50000x1 32) = colOf (memberBatch (W (Proc.devRef .tc main_arg2)) 1) ∧
    (StableHlo.after hostOps9 W (Proc.devRef .tc main_v342) : FVec F S128x128 .f32) = memberMat (W (Proc.devRef .tc main_arg21)) 1 ∧
    (StableHlo.after hostOps9 W (Proc.devRef .tc main_v349) : FVec F S1x128 .f32) = rowOf (memberVec (W (Proc.devRef .tc main_arg22)) 1) ∧
    (StableHlo.after hostOps9 W (Proc.devRef .tc main_v346) : FVec F S128x10 .f32) = memberHead (W (Proc.devRef .tc main_arg23)) 1 ∧
    (StableHlo.after hostOps9 W (Proc.devRef .tc main_v350) : FVec F S1x10 .f32) = row10Of (memberBias (W (Proc.devRef .tc main_arg24)) 1) := by
  refine ⟨?_, ?_, ?_, ?_, ?_⟩ <;> (after_results_simp; rfl)

end Cert.Val.KerStretch

end
-- ==== Proof.Val.Spec.lean ====
import Idealize.ShloMosaic.PureOps.Ideal
import Idealize.ShloMosaic.PureOps.Ideal.Laws

noncomputable section

namespace Cert.Spec

open Idealize.ShloMosaic

abbrev epsBN : EReal := Ideal.ofBits .f32 0x3727C5AC#32

theorem ofBits_one_f32 : Ideal.ofBits .f32 0x3F800000#32 = 1 := by
  simp [Ideal.ofBits, Ideal.ieee]
  exact_mod_cast (by norm_num : (8388608 : ℝ) * ((2 : ℝ) ^ 23)⁻¹ = 1)

def dense {K N : ℕ} (x : Fin K → EReal) (W : Fin K → Fin N → EReal) (b : Fin N → EReal) (k : Fin N) : EReal :=
  max (∑ l : Fin K, x l * W l k + b k) 0

def ginRow (x : Fin 128 → EReal) (W1 : Fin 128 → Fin 128 → EReal) (b1 : Fin 128 → EReal)
    (W2 : Fin 128 → Fin 128 → EReal) (b2 gamma beta mean var : Fin 128 → EReal) (j : Fin 128) : EReal :=
  max (gamma j * (dense (dense x W1 b1) W2 b2 j - mean j) * Ideal.rsqrt (var j + epsBN) + beta j) 0

def segSum {n : ℕ} (seg : Fin n → ℤ) (f : Fin n → EReal) (g : ℤ) : EReal :=
  ∑ e ∈ Finset.univ.filter (fun e : Fin n => seg e = g), f e

def poolRow {n : ℕ} (h : Fin n → Fin 128 → EReal) (seg : Fin n → ℤ) (g : Fin 128) (k : Fin 128) : EReal :=
  Ideal.div (segSum seg (fun e => h e k) (g.val : ℤ)) (max (segSum seg (fun _ => (1 : EReal)) (g.val : ℤ)) 1)

def headRow (p : Fin 128 → EReal) (L1 : Fin 128 → Fin 128 → EReal) (c1 : Fin 128 → EReal)
    (L2 : Fin 128 → Fin 10 → EReal) (c2 : Fin 10 → EReal) (j : Fin 10) : EReal :=
  ∑ k : Fin 128, dense p L1 c1 k * L2 k j + c2 j

def poolOut {n : ℕ} (h : Fin n → Fin 128 → EReal) (seg : Fin n → ℤ) (L1 : Fin 128 → Fin 128 → EReal)
    (c1 : Fin 128 → EReal) (L2 : Fin 128 → Fin 10 → EReal) (c2 : Fin 10 → EReal) (g : Fin 128) (j : Fin 10) : EReal :=
  headRow (poolRow h seg g) L1 c1 L2 c2 j

end Cert.Spec

end
-- ==== Proof.LibRowScatter.lean ====
import Mathlib.Algebra.BigOperators.Group.Finset.Defs
import Idealize.ShloMosaic.Lib.ValueIdx
import Idealize.ShloMosaic.PureOps.Ideal

noncomputable section

namespace Idealize.ShloMosaic.RowScatter

open Idealize.ShloMosaic Idealize.ShloMosaic.ValueIdx

abbrev rowDims (N C n : Nat)
    (wf : ScatterDims.WF ⟨2, ![N, C]⟩ ⟨2, ![n, 1]⟩ ⟨2, ![n, C]⟩ [1] [0] [0] 1) :
    ScatterDims ⟨2, ![N, C]⟩ ⟨2, ![n, 1]⟩ ⟨2, ![n, C]⟩ where
  updateWindowDims := [1]
  insertedWindowDims := [0]
  scatterDimsToOperandDims := [0]
  indexVectorDim := 1
  wf := wf

theorem start_row {N C n w : Nat}
    (wf : ScatterDims.WF ⟨2, ![N, C]⟩ ⟨2, ![n, 1]⟩ ⟨2, ![n, C]⟩ [1] [0] [0] 1)
    (idx : IVec ⟨2, ![n, 1]⟩ w) (e : Fin n) (p : Fin C) :
    (rowDims N C n wf).start (ix2 e p) idx 0 = (idx (ix2 e (0 : Fin 1))).toInt := by
  unfold ScatterDims.start
  rw [dif_pos (show (0 : Fin 2) ∈ (rowDims N C n wf).scatterDimsToOperandDims from List.mem_singleton.mpr rfl)]
  have hsi : (rowDims N C n wf).siIdx (ix2 e p) ⟨List.idxOf (0 : Fin 2) (rowDims N C n wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem start_col {N C n w : Nat}
    (wf : ScatterDims.WF ⟨2, ![N, C]⟩ ⟨2, ![n, 1]⟩ ⟨2, ![n, C]⟩ [1] [0] [0] 1)
    (idx : IVec ⟨2, ![n, 1]⟩ w) (e : Fin n) (p : Fin C) :
    (rowDims N C n wf).start (ix2 e p) idx 1 = 0 := by
  unfold ScatterDims.start
  have h1 : ¬ (1 : Fin 2) ∈ ([0] : List (Fin 2)) := by decide
  rw [dif_neg (show ¬ (1 : Fin 2) ∈ (rowDims N C n wf).scatterDimsToOperandDims from h1)]

theorem window_row {N C n : Nat}
    (wf : ScatterDims.WF ⟨2, ![N, C]⟩ ⟨2, ![n, 1]⟩ ⟨2, ![n, C]⟩ [1] [0] [0] 1) (e : Fin n) (p : Fin C) :
    (rowDims N C n wf).window (ix2 e p) 0 = 0 := by
  unfold ScatterDims.window
  have h0 : ¬ (0 : Fin 2) ∈ ([1] : List (Fin 2)) := by decide
  rw [dif_neg (show ¬ (0 : Fin 2) ∈ (rowDims N C n wf).sKept from h0)]

theorem window_col {N C n : Nat}
    (wf : ScatterDims.WF ⟨2, ![N, C]⟩ ⟨2, ![n, 1]⟩ ⟨2, ![n, C]⟩ [1] [0] [0] 1) (e : Fin n) (p : Fin C) :
    (rowDims N C n wf).window (ix2 e p) 1 = p.val := by
  unfold ScatterDims.window
  rw [dif_pos (show (1 : Fin 2) ∈ (rowDims N C n wf).sKept from List.mem_singleton.mpr rfl)]
  rfl

theorem resultIdx?_eq_some_iff {N C n w : Nat}
    (wf : ScatterDims.WF ⟨2, ![N, C]⟩ ⟨2, ![n, 1]⟩ ⟨2, ![n, C]⟩ [1] [0] [0] 1)
    (idx : IVec ⟨2, ![n, 1]⟩ w) (e : Fin n) (p : Fin C) (r : Fin N) (q : Fin C) :
    (rowDims N C n wf).resultIdx? (ix2 e p) idx = some (ix2 r q)
      ↔ (idx (ix2 e (0 : Fin 1))).toInt = (r.val : Int) ∧ p = q := by
  have hs0 := start_row wf idx e p
  have hs1 := start_col wf idx e p
  have hw0 := window_row wf e p
  have hw1 := window_col wf e p
  unfold ScatterDims.resultIdx?
  constructor
  · intro h
    split at h
    · rename_i hb
      have hf := Option.some.inj h
      have h0 := congrArg Fin.val (congrFun hf 0)
      have h1 := congrArg Fin.val (congrFun hf 1)
      have hb0 := (hb 0).1
      simp only [hs0, hw0] at h0 hb0
      simp only [hs1, hw1] at h1
      change ((idx (ix2 e (0 : Fin 1))).toInt + ((0 : Nat) : Int)).toNat = r.val at h0
      change ((0 : Int) + (p.val : Int)).toNat = q.val at h1
      refine ⟨by omega, Fin.ext (by omega)⟩
    · exact absurd h (by simp)
  · rintro ⟨hr, rfl⟩
    have hb : ∀ a, 0 ≤ (rowDims N C n wf).start (ix2 e p) idx a + (rowDims N C n wf).window (ix2 e p) a
        ∧ (rowDims N C n wf).start (ix2 e p) idx a + (rowDims N C n wf).window (ix2 e p) a
          < (⟨2, ![N, C]⟩ : Shape).size a := by
      intro a
      match a with
      | ⟨0, _⟩ =>
        have hN : r.val < N := r.isLt
        show 0 ≤ (rowDims N C n wf).start (ix2 e p) idx 0 + (rowDims N C n wf).window (ix2 e p) 0
          ∧ (rowDims N C n wf).start (ix2 e p) idx 0 + (rowDims N C n wf).window (ix2 e p) 0 < (N : Int)
        rw [hs0, hw0, hr]; omega
      | ⟨1, _⟩ =>
        have hC : p.val < C := p.isLt
        show 0 ≤ (rowDims N C n wf).start (ix2 e p) idx 1 + (rowDims N C n wf).window (ix2 e p) 1
          ∧ (rowDims N C n wf).start (ix2 e p) idx 1 + (rowDims N C n wf).window (ix2 e p) 1 < (C : Int)
        rw [hs1, hw1]; omega
    rw [dif_pos hb]
    congr 1
    funext a
    refine Fin.ext ?_
    match a with
    | ⟨0, _⟩ =>
      show ((rowDims N C n wf).start (ix2 e p) idx 0 + (rowDims N C n wf).window (ix2 e p) 0).toNat = r.val
      rw [hs0, hw0, hr]; omega
    | ⟨1, _⟩ =>
      show ((rowDims N C n wf).start (ix2 e p) idx 1 + (rowDims N C n wf).window (ix2 e p) 1).toNat = p.val
      rw [hs1, hw1]; omega

theorem scatterAdd_rows_apply {N C n w : Nat}
    (wf : ScatterDims.WF ⟨2, ![N, C]⟩ ⟨2, ![n, 1]⟩ ⟨2, ![n, C]⟩ [1] [0] [0] 1)
    (x : (⟨2, ![N, C]⟩ : Shape).Idx → EReal) (idx : IVec ⟨2, ![n, 1]⟩ w)
    (upd : (⟨2, ![n, C]⟩ : Shape).Idx → EReal) (r : Fin N) (q : Fin C) :
    Ideal.hostScatterAdd (rowDims N C n wf) x idx upd (ix2 r q)
      = x (ix2 r q) + ∑ e ∈ Finset.univ.filter (fun e : Fin n => (idx (ix2 e (0 : Fin 1))).toInt = (r.val : Int)),
          upd (ix2 e q) := by
  unfold Ideal.hostScatterAdd
  congr 1
  symm
  refine Finset.sum_nbij' (fun e : Fin n => ix2 e q) (fun j => (j 0 : Fin n)) ?_ ?_ ?_ ?_ ?_
  · intro e he
    rw [Finset.mem_filter] at he ⊢
    exact ⟨Finset.mem_univ _, (resultIdx?_eq_some_iff wf idx e q r q).mpr ⟨he.2, rfl⟩⟩
  · intro j hj
    obtain ⟨e, p, rfl⟩ : ∃ (e : Fin n) (p : Fin C), j = ix2 e p := ⟨j 0, j 1, eq_ix2 j⟩
    rw [Finset.mem_filter] at hj
    exact Finset.mem_filter.mpr ⟨Finset.mem_univ e, ((resultIdx?_eq_some_iff wf idx e p r q).mp hj.2).1⟩
  · intro e _
    rfl
  · intro j hj
    obtain ⟨e, p, rfl⟩ : ∃ (e : Fin n) (p : Fin C), j = ix2 e p := ⟨j 0, j 1, eq_ix2 j⟩
    rw [Finset.mem_filter] at hj
    have hpq := ((resultIdx?_eq_some_iff wf idx e p r q).mp hj.2).2
    subst hpq
    rfl
  · intro e _
    rfl

end Idealize.ShloMosaic.RowScatter

end
-- ==== Proof.LibIntScatterCount.lean ====
import Mathlib.Data.Fintype.Card
import Mathlib.Data.Fintype.EquivFin
import Idealize.ShloMosaic.Lib.ValueIdx
import Idealize.ShloMosaic.PureOps.ShapeOps

noncomputable section

namespace Idealize.ShloMosaic.IntScatterCount

open Idealize.ShloMosaic Idealize.ShloMosaic.ValueIdx

abbrev vecDims (N n : Nat)
    (wf : ScatterDims.WF ⟨1, ![N]⟩ ⟨2, ![n, 1]⟩ ⟨1, ![n]⟩ [] [0] [0] 1) :
    ScatterDims ⟨1, ![N]⟩ ⟨2, ![n, 1]⟩ ⟨1, ![n]⟩ where
  updateWindowDims := []
  insertedWindowDims := [0]
  scatterDimsToOperandDims := [0]
  indexVectorDim := 1
  wf := wf

theorem start_row {N n w : Nat}
    (wf : ScatterDims.WF ⟨1, ![N]⟩ ⟨2, ![n, 1]⟩ ⟨1, ![n]⟩ [] [0] [0] 1)
    (idx : IVec ⟨2, ![n, 1]⟩ w) (e : Fin n) :
    (vecDims N n wf).start (ix1 e) idx 0 = (idx (ix2 e (0 : Fin 1))).toInt := by
  unfold ScatterDims.start
  rw [dif_pos (show (0 : Fin 1) ∈ (vecDims N n wf).scatterDimsToOperandDims from List.mem_singleton.mpr rfl)]
  have hsi : (vecDims N n wf).siIdx (ix1 e) ⟨List.idxOf (0 : Fin 1) (vecDims N n wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem window_row {N n : Nat}
    (wf : ScatterDims.WF ⟨1, ![N]⟩ ⟨2, ![n, 1]⟩ ⟨1, ![n]⟩ [] [0] [0] 1) (e : Fin n) :
    (vecDims N n wf).window (ix1 e) 0 = 0 := by
  unfold ScatterDims.window
  have h0 : ¬ (0 : Fin 1) ∈ ([] : List (Fin 1)) := by decide
  rw [dif_neg (show ¬ (0 : Fin 1) ∈ (vecDims N n wf).sKept from h0)]

theorem resultIdx?_eq_some_iff {N n w : Nat}
    (wf : ScatterDims.WF ⟨1, ![N]⟩ ⟨2, ![n, 1]⟩ ⟨1, ![n]⟩ [] [0] [0] 1)
    (idx : IVec ⟨2, ![n, 1]⟩ w) (e : Fin n) (r : Fin N) :
    (vecDims N n wf).resultIdx? (ix1 e) idx = some (ix1 r)
      ↔ (idx (ix2 e (0 : Fin 1))).toInt = (r.val : Int) := by
  have hs0 := start_row wf idx e
  have hw0 := window_row wf e
  unfold ScatterDims.resultIdx?
  constructor
  · intro h
    split at h
    · rename_i hb
      have hf := Option.some.inj h
      have h0 := congrArg Fin.val (congrFun hf 0)
      have hb0 := (hb 0).1
      simp only [hs0, hw0] at h0 hb0
      change ((idx (ix2 e (0 : Fin 1))).toInt + ((0 : Nat) : Int)).toNat = r.val at h0
      omega
    · exact absurd h (by simp)
  · intro hr
    have hb : ∀ a, 0 ≤ (vecDims N n wf).start (ix1 e) idx a + (vecDims N n wf).window (ix1 e) a
        ∧ (vecDims N n wf).start (ix1 e) idx a + (vecDims N n wf).window (ix1 e) a
          < (⟨1, ![N]⟩ : Shape).size a := by
      intro a
      match a with
      | ⟨0, _⟩ =>
        have hN : r.val < N := r.isLt
        show 0 ≤ (vecDims N n wf).start (ix1 e) idx 0 + (vecDims N n wf).window (ix1 e) 0
          ∧ (vecDims N n wf).start (ix1 e) idx 0 + (vecDims N n wf).window (ix1 e) 0 < (N : Int)
        rw [hs0, hw0, hr]; omega
    rw [dif_pos hb]
    congr 1
    funext a
    refine Fin.ext ?_
    match a with
    | ⟨0, _⟩ =>
      show ((vecDims N n wf).start (ix1 e) idx 0 + (vecDims N n wf).window (ix1 e) 0).toNat = r.val
      rw [hs0, hw0, hr]; omega

end Idealize.ShloMosaic.IntScatterCount

end
-- ==== Proof.Val.StagesApply.lean ====
import proofs.«428878_j20040317403499_2_alg».proof.Proof.Val.Stages
import proofs.«428878_j20040317403499_2_alg».proof.Proof.Val.Spec
import proofs.«428878_j20040317403499_2_alg».proof.Proof.LibRowScatter
import proofs.«428878_j20040317403499_2_alg».proof.Proof.LibIntScatterCount
import Idealize.ShloMosaic.Lib.StackMember
import Idealize.ShloMosaic.Lib.IdealHost
import Idealize.ShloMosaic.Lib.Pipeline.Value
import Idealize.ShloMosaic.Lib.ValueIdx
import Idealize.ShloMosaic.Lib.StableHlo.Predicate
import Idealize.ShloMosaic.PureOps.Ideal.Laws

noncomputable section

namespace Cert.Val.StagesApply

open Cert.ReferenceIdeal Cert.ReferenceIdeal.Facts₀ Idealize.ShloMosaic Idealize.ShloMosaic.ValueIdx Cert.Val.Stages

section Spread
variable {α : Type}

/-- `[C] → [1, C] → [N, C]`: the vector's entry at the column, whatever the row. -/
theorem spreadRows_apply {N C : ℕ} (v : (⟨1, ![C]⟩ : Shape).Idx → α)
    (h1 : (⟨1, ![C]⟩ : Shape).BroadcastsInDim ⟨2, ![1, C]⟩ ![1])
    (h2 : (⟨2, ![1, C]⟩ : Shape).BroadcastsInDim ⟨2, ![N, C]⟩ ![0, 1]) (p : Fin N) (q : Fin C) :
    broadcastInDim ⟨2, ![N, C]⟩ ![0, 1] h2 (broadcastInDim ⟨2, ![1, C]⟩ ![1] h1 v) (ix2 p q) = v (ix1 q) :=
  (StableHlo.Predicate.bcast_cols h1 h2 v p q).trans (congrArg v (Shape.Idx.eq_ofFin (ix1 q)).symm)

/-- `[n] → [n, 1]`: the vector's entry at the row. -/
theorem column_apply {n : ℕ} (v : (⟨1, ![n]⟩ : Shape).Idx → α)
    (h : (⟨1, ![n]⟩ : Shape).BroadcastsInDim ⟨2, ![n, 1]⟩ ![0]) (e : Fin n) :
    broadcastInDim ⟨2, ![n, 1]⟩ ![0] h v (ix2 e (0 : Fin 1)) = v (ix1 e) := by
  have hx : StableHlo.Predicate.ixP e = ix2 e (0 : Fin 1) :=
    funext fun d => match d with | ⟨0, _⟩ => rfl | ⟨1, _⟩ => rfl
  rw [← hx]
  exact (StableHlo.Predicate.bcast_col1 h v e).trans (congrArg v (Shape.Idx.eq_ofFin (ix1 e)).symm)

/-- `[N] → [N, 1] → [N, C]`: the vector's entry at the row, whatever the column. -/
theorem spreadCols_apply {N C : ℕ} (v : (⟨1, ![N]⟩ : Shape).Idx → α)
    (h1 : (⟨1, ![N]⟩ : Shape).BroadcastsInDim ⟨2, ![N, 1]⟩ ![0])
    (h2 : (⟨2, ![N, 1]⟩ : Shape).BroadcastsInDim ⟨2, ![N, C]⟩ ![0, 1]) (p : Fin N) (q : Fin C) :
    broadcastInDim ⟨2, ![N, C]⟩ ![0, 1] h2 (broadcastInDim ⟨2, ![N, 1]⟩ ![0] h1 v) (ix2 p q) = v (ix1 p) :=
  (StableHlo.Predicate.bcast_rows h1 h2 v p q).trans (congrArg v (Shape.Idx.eq_ofFin (ix1 p)).symm)

end Spread

theorem zeroSpread_apply {T : Shape} (h : (⟨0, ![]⟩ : Shape).BroadcastsInDim T ![]) (j : T.Idx) :
    broadcastInDim T ![] h (constant (F := Ideal) ⟨0, ![]⟩ .f32 0x00000000#32) j = 0 :=
  (broadcastInDim_scalar_apply h _ j).trans Ideal.ofBits_zero_f32

theorem oneSpread_apply {T : Shape} (h : (⟨0, ![]⟩ : Shape).BroadcastsInDim T ![]) (j : T.Idx) :
    broadcastInDim T ![] h (constant (F := Ideal) ⟨0, ![]⟩ .f32 0x3F800000#32) j = 1 :=
  (broadcastInDim_scalar_apply h _ j).trans Cert.Spec.ofBits_one_f32

theorem scatterAdd_vec_apply {N n w : ℕ}
    (wf : ScatterDims.WF ⟨1, ![N]⟩ ⟨2, ![n, 1]⟩ ⟨1, ![n]⟩ [] [0] [0] 1)
    (x : (⟨1, ![N]⟩ : Shape).Idx → EReal) (idx : IVec ⟨2, ![n, 1]⟩ w)
    (upd : (⟨1, ![n]⟩ : Shape).Idx → EReal) (r : Fin N) :
    Ideal.hostScatterAdd (IntScatterCount.vecDims N n wf) x idx upd (ix1 r)
      = x (ix1 r) + ∑ e ∈ Finset.univ.filter (fun e : Fin n => (idx (ix2 e (0 : Fin 1))).toInt = (r.val : Int)),
          upd (ix1 e) := by
  unfold Ideal.hostScatterAdd
  congr 1
  symm
  refine Finset.sum_nbij' (fun e : Fin n => ix1 e) (fun j => (j 0 : Fin n)) ?_ ?_ ?_ ?_ ?_
  · intro e he
    rw [Finset.mem_filter] at he ⊢
    exact ⟨Finset.mem_univ _, (IntScatterCount.resultIdx?_eq_some_iff wf idx e r).mpr he.2⟩
  · intro j hj
    obtain ⟨e, rfl⟩ : ∃ e : Fin n, j = ix1 e := ⟨j 0, eq_ix1 j⟩
    rw [Finset.mem_filter] at hj
    exact Finset.mem_filter.mpr ⟨Finset.mem_univ e, (IntScatterCount.resultIdx?_eq_some_iff wf idx e r).mp hj.2⟩
  · intro e _
    rfl
  · intro j _
    exact (eq_ix1 j).symm
  · intro e _
    rfl

theorem dense_entry {N K C : ℕ} (d : DotDims ⟨2, ![N, K]⟩ ⟨2, ![K, C]⟩ ⟨2, ![N, C]⟩) (hd : d = DotDims.plain N K C)
    (h1 : (⟨1, ![C]⟩ : Shape).BroadcastsInDim ⟨2, ![1, C]⟩ ![1])
    (h2 : (⟨2, ![1, C]⟩ : Shape).BroadcastsInDim ⟨2, ![N, C]⟩ ![0, 1])
    (h0 : (⟨0, ![]⟩ : Shape).BroadcastsInDim ⟨2, ![N, C]⟩ ![])
    (x : FVec Ideal ⟨2, ![N, K]⟩ .f32) (W : FVec Ideal ⟨2, ![K, C]⟩ .f32) (b : FVec Ideal ⟨1, ![C]⟩ .f32)
    (i : Fin N) (k : Fin C) :
    maximumf
        (addf (Host.dotGeneral d none x W)
          (broadcastInDim ⟨2, ![N, C]⟩ ![0, 1] h2 (broadcastInDim ⟨2, ![1, C]⟩ ![1] h1 b)))
        (broadcastInDim ⟨2, ![N, C]⟩ ![] h0 (constant (F := Ideal) ⟨0, ![]⟩ .f32 0x00000000#32)) (ix2 i k)
      = Cert.Spec.dense (fun l => x (ix2 i l)) (fun l k => W (ix2 l k)) (fun k => b (ix1 k)) k := by
  subst hd
  rw [maximumf_apply, addf_apply, StackMember.dotGeneral_plain_apply, spreadRows_apply, broadcastInDim_scalar_apply,
    constant_apply, Ideal.ofBits_zero_f32]
  rfl

theorem affine_entry {N K C : ℕ} (d : DotDims ⟨2, ![N, K]⟩ ⟨2, ![K, C]⟩ ⟨2, ![N, C]⟩) (hd : d = DotDims.plain N K C)
    (h1 : (⟨1, ![C]⟩ : Shape).BroadcastsInDim ⟨2, ![1, C]⟩ ![1])
    (h2 : (⟨2, ![1, C]⟩ : Shape).BroadcastsInDim ⟨2, ![N, C]⟩ ![0, 1])
    (x : FVec Ideal ⟨2, ![N, K]⟩ .f32) (W : FVec Ideal ⟨2, ![K, C]⟩ .f32) (b : FVec Ideal ⟨1, ![C]⟩ .f32)
    (i : Fin N) (j : Fin C) :
    addf (Host.dotGeneral d none x W)
        (broadcastInDim ⟨2, ![N, C]⟩ ![0, 1] h2 (broadcastInDim ⟨2, ![1, C]⟩ ![1] h1 b)) (ix2 i j)
      = ∑ l : Fin K, x (ix2 i l) * W (ix2 l j) + b (ix1 j) := by
  subst hd
  rw [addf_apply, StackMember.dotGeneral_plain_apply, spreadRows_apply]

variable [Facts₀]

theorem overRows_apply (v : FVec Ideal S128 .f32) (i : Fin 50000) (j : Fin 128) :
    overRows v (ix2 i j) = v (ix1 j) :=
  spreadRows_apply v bcast_S128_S1x128_1 bcast_S1x128_S50000x128_0_1 i j

theorem dotRows_plain : dot_S50000x128_S128x128_S50000x128_1_0_0_1_n_n = DotDims.plain 50000 128 128 := rfl

theorem dotGraphs_plain : dot_S128x128_S128x128_S128x128_1_0_0_1_n_n = DotDims.plain 128 128 128 := rfl

theorem dotOut_plain : dot_S128x128_S128x10_S128x10_1_0_0_1_n_n = DotDims.plain 128 128 10 := rfl

theorem denseRows_apply (x : FVec Ideal S50000x128 .f32) (W : FVec Ideal S128x128 .f32) (b : FVec Ideal S128 .f32)
    (i : Fin 50000) (k : Fin 128) :
    denseRows x W b (ix2 i k)
      = Cert.Spec.dense (fun l => x (ix2 i l)) (fun l k => W (ix2 l k)) (fun k => b (ix1 k)) k :=
  dense_entry _ dotRows_plain bcast_S128_S1x128_1 bcast_S1x128_S50000x128_0_1 bcast_S_S50000x128 x W b i k

theorem normRows_apply (y : FVec Ideal S50000x128 .f32) (gamma beta mean var : FVec Ideal S128 .f32)
    (i : Fin 50000) (j : Fin 128) :
    normRows y gamma beta mean var (ix2 i j)
      = max (gamma (ix1 j) * (y (ix2 i j) - mean (ix1 j)) * Ideal.rsqrt (var (ix1 j) + Cert.Spec.epsBN) + beta (ix1 j)) 0 := by
  unfold normRows
  rw [maximumf_apply, addf_apply, mulf_apply, mulf_apply, subf_apply, overRows_apply, overRows_apply, overRows_apply,
    overRows_apply, broadcastInDim_scalar_apply, constant_apply, Ideal.ofBits_zero_f32]
  show max (gamma (ix1 j) * (y (ix2 i j) - mean (ix1 j))
      * Ideal.rsqrt (var (ix1 j) + broadcastInDim S128 ![] bcast_S_S128 (constant (F := Ideal) S_ .f32 0x3727C5AC#32) (ix1 j))
      + beta (ix1 j)) 0 = _
  rw [broadcastInDim_scalar_apply, constant_apply]

theorem layer_apply (comb : FVec Ideal S50000x128 .f32) (W1 : FVec Ideal S128x128 .f32) (b1 : FVec Ideal S128 .f32)
    (W2 : FVec Ideal S128x128 .f32) (b2 gamma beta mean var : FVec Ideal S128 .f32) (i : Fin 50000) (j : Fin 128) :
    Cert.Val.Stages.layer (F := Ideal) comb W1 b1 W2 b2 gamma beta mean var (ix2 i j)
      = Cert.Spec.ginRow (fun l => comb (ix2 i l)) (fun l k => W1 (ix2 l k)) (fun k => b1 (ix1 k))
          (fun l k => W2 (ix2 l k)) (fun k => b2 (ix1 k)) (fun k => gamma (ix1 k)) (fun k => beta (ix1 k))
          (fun k => mean (ix1 k)) (fun k => var (ix1 k)) j := by
  have h1 : (fun l => denseRows comb W1 b1 (ix2 i l))
      = Cert.Spec.dense (fun l => comb (ix2 i l)) (fun l k => W1 (ix2 l k)) (fun k => b1 (ix1 k)) :=
    funext fun l => denseRows_apply comb W1 b1 i l
  unfold Cert.Val.Stages.layer
  rw [normRows_apply, denseRows_apply, h1]
  rfl

theorem scatterRows_rowDims :
    scatter_S128x128_S50000x1_S50000x128_1_0_0_1
      = RowScatter.rowDims 128 128 50000 scatter_S128x128_S50000x1_S50000x128_1_0_0_1_wf := rfl

theorem scatterCount_vecDims :
    scatter_S128_S50000x1_S50000_n_0_0_1
      = IntScatterCount.vecDims 128 50000 scatter_S128_S50000x1_S50000_n_0_0_1_wf := rfl

theorem meanRows_apply (h : FVec Ideal S50000x128 .f32) (batch : IVec S50000 32) (g : Fin 128) (k : Fin 128) :
    meanRows h batch (ix2 g k)
      = Cert.Spec.poolRow (fun e k => h (ix2 e k)) (fun e => (batch (ix1 e)).toInt) g k := by
  have hcol : ∀ e : Fin 50000,
      broadcastInDim S50000x1 ![0] bcast_S50000_S50000x1_0 batch (ix2 e (0 : Fin 1)) = batch (ix1 e) :=
    fun e => column_apply batch bcast_S50000_S50000x1_0 e
  have hones : ∀ e : Fin 50000,
      broadcastInDim S50000 ![] bcast_S_S50000 (constant (F := Ideal) S_ .f32 0x3F800000#32) (ix1 e) = 1 :=
    fun e => oneSpread_apply bcast_S_S50000 (ix1 e)
  unfold meanRows
  rw [hostDivf_apply, spreadCols_apply, maximumf_apply]
  show Ideal.div
      (Ideal.hostScatterAdd scatter_S128x128_S50000x1_S50000x128_1_0_0_1 _ _ h (ix2 g k))
      (max (Ideal.hostScatterAdd scatter_S128_S50000x1_S50000_n_0_0_1 _ _ _ (ix1 g)) _) = _
  rw [scatterRows_rowDims, scatterCount_vecDims, RowScatter.scatterAdd_rows_apply, scatterAdd_vec_apply,
    zeroSpread_apply, zeroSpread_apply, oneSpread_apply, zero_add, zero_add]
  simp only [hcol, hones]
  rfl

theorem headHidden_apply (p : FVec Ideal S128x128 .f32) (L1 : FVec Ideal S128x128 .f32) (c1 : FVec Ideal S128 .f32)
    (g : Fin 128) (k : Fin 128) :
    headHidden p L1 c1 (ix2 g k)
      = Cert.Spec.dense (fun l => p (ix2 g l)) (fun l k => L1 (ix2 l k)) (fun k => c1 (ix1 k)) k :=
  dense_entry _ dotGraphs_plain bcast_S128_S1x128_1 bcast_S1x128_S128x128_0_1 bcast_S_S128x128 p L1 c1 g k

theorem headOut_apply (q : FVec Ideal S128x128 .f32) (L2 : FVec Ideal S128x10 .f32) (c2 : FVec Ideal S10 .f32)
    (g : Fin 128) (j : Fin 10) :
    headOut q L2 c2 (ix2 g j) = ∑ k : Fin 128, q (ix2 g k) * L2 (ix2 k j) + c2 (ix1 j) :=
  affine_entry _ dotOut_plain bcast_S10_S1x10_1 bcast_S1x10_S128x10_0_1 q L2 c2 g j

theorem pool_apply (h : FVec Ideal S50000x128 .f32) (batch : IVec S50000 32) (L1 : FVec Ideal S128x128 .f32)
    (c1 : FVec Ideal S128 .f32) (L2 : FVec Ideal S128x10 .f32) (c2 : FVec Ideal S10 .f32) (g : Fin 128) (j : Fin 10) :
    Cert.Val.Stages.pool (F := Ideal) h batch L1 c1 L2 c2 (ix2 g j)
      = Cert.Spec.poolOut (fun e k => h (ix2 e k)) (fun e => (batch (ix1 e)).toInt) (fun l k => L1 (ix2 l k))
          (fun k => c1 (ix1 k)) (fun k l => L2 (ix2 k l)) (fun l => c2 (ix1 l)) g j := by
  have hp : (fun l => meanRows h batch (ix2 g l))
      = Cert.Spec.poolRow (fun e k => h (ix2 e k)) (fun e => (batch (ix1 e)).toInt) g :=
    funext fun l => meanRows_apply h batch g l
  have hq : ∀ k : Fin 128, headHidden (meanRows h batch) L1 c1 (ix2 g k)
      = Cert.Spec.dense (Cert.Spec.poolRow (fun e k => h (ix2 e k)) (fun e => (batch (ix1 e)).toInt) g)
          (fun l k => L1 (ix2 l k)) (fun k => c1 (ix1 k)) k := fun k => by
    rw [headHidden_apply, hp]
  unfold Cert.Val.Stages.pool
  rw [headOut_apply]
  simp only [hq]
  rfl

end Cert.Val.StagesApply
-- ==== Proof.LibPlainMatmul.lean ====
import Idealize.ShloMosaic.Lib.StackMember
import Idealize.ShloMosaic.Lib.ValueIdx
import Idealize.ShloMosaic.PureOps.Ideal.Laws

noncomputable section

namespace Idealize.ShloMosaic.PlainMatmul

open Idealize.ShloMosaic Idealize.ShloMosaic.ValueIdx

theorem matmul_zero_plain_apply {M K N : Nat} {φ₁ φ₂ : FTy} (prec : Option ContractPrecision)
    (A : FVec Ideal ⟨2, ![M, K]⟩ φ₁) (B : FVec Ideal ⟨2, ![K, N]⟩ φ₂) (a : Fin M) (b : Fin N) :
    matmul (F := Ideal) (DotDims.plain M K N) prec A B (constant ⟨2, ![M, N]⟩ .f32 0x00000000#32) (ix2 a b)
      = ∑ c : Fin K, A (ix2 a c) * B (ix2 c b) := by
  rw [← StackMember.dotGeneral_plain_apply prec A B a b]
  show FloatOps.matmul _ prec A B _ (ix2 a b) = FloatOps.dotGeneral _ prec _ A B (ix2 a b)
  rw [Ideal.matmul_constant_zero_apply, Ideal.dotGeneral_apply]

end Idealize.ShloMosaic.PlainMatmul

end
-- ==== Proof.Val.GinPayload.lean ====
import proofs.«428878_j20040317403499_2_alg».proof.Proof.Gen.KernelIdeal.Skeleton
import proofs.«428878_j20040317403499_2_alg».proof.Proof.Val.StagesApply
import proofs.«428878_j20040317403499_2_alg».proof.Proof.LibPlainMatmul
import Idealize.ShloMosaic.Lib.ValueLayout

noncomputable section

namespace Cert.Val.GinPayload

open Cert.KernelIdeal Cert.KernelIdeal.Gen Idealize.ShloMosaic Idealize.ShloMosaic.ValueIdx

theorem hz : (![0, 0] : Fin 2 → Nat) = fun _ => 0 := funext fun a => by fin_cases a <;> rfl

-- A block at block index zero starts at the array's origin.
theorem read_of_index_zero {G : Pipeline.Grid} (w : Pipeline.Window sig G) (t : Fin G.N) (h : ∀ a, w.index t a = 0)
    {α : Type} (A : w.shape.Idx → α) (y : (w.xblock (G.coords t)).Idx) (z : w.shape.Idx) (hz : ∀ a, (z a : ℕ) = y a) :
    A ((w.rect t).emb y) = A z :=
  congrArg A (funext fun a => Fin.ext ((w.rect_emb_val_of_index_zero t a (h a) y).trans (hz a).symm))

theorem dot_eq_plain : dot_S1000x128_S128x128_S1000x128_1_0_0_1_n_n = DotDims.plain 1000 128 128 := rfl

theorem zero_f32 : (Scalar.ofBits .f32 0x00000000#32 : Ideal .f32) = 0 := Ideal.ofBits_zero_f32

-- Read at (r, j), every operation of the stored value acts on entries; the two products are sums over the inner index.
theorem gin_payload_apply (x0 : Vec Ideal S1000x128 .f32) (x1 : Vec Ideal S128x128 .f32) (x2 : Vec Ideal S1x128 .f32)
    (x3 : Vec Ideal S128x128 .f32) (x4 x5 x6 x7 x8 : Vec Ideal S1x128 .f32) (r : Fin 1000) (j : Fin 128) :
    k0_pay1 (F := Ideal) (k0_pay2 x0 x1 x2 x3 x4 x5 x7) (k0_pay3 x8) x6 (ix2 r j)
      = Cert.Spec.ginRow (fun l => x0 (ix2 r l)) (fun l k => x1 (ix2 l k)) (fun k => x2 (ix2 0 k))
          (fun l k => x3 (ix2 l k)) (fun k => x4 (ix2 0 k)) (fun k => x5 (ix2 0 k)) (fun k => x6 (ix2 0 k))
          (fun k => x7 (ix2 0 k)) (fun k => x8 (ix2 0 k)) j := by
  unfold k0_pay1 k0_pay2 k0_pay3
  simp only [shapeCast_self, maximumf_apply, addf_apply, mulf_apply, subf_apply, truncf_apply, broadcast_apply,
    broadcastTo_1b_ab_apply, dot_eq_plain, PlainMatmul.matmul_zero_plain_apply, zero_f32]
  rfl

variable [Cert.ReferenceIdeal.Facts₀]

-- Both sides are the specification's GIN row: of the block's row y 0, and of the operands' row i 0.
theorem gin_block (comb : FVec Ideal Cert.ReferenceIdeal.S50000x128 .f32)
    (W1 W2 : FVec Ideal Cert.ReferenceIdeal.S128x128 .f32) (b1 b2 gamma beta mean var : FVec Ideal Cert.ReferenceIdeal.S128 .f32)
    (A0 : S50000x128.Idx → EReal) (A1 : S128x128.Idx → EReal) (A2 : S1x128.Idx → EReal) (A3 : S128x128.Idx → EReal)
    (A4 A5 A6 A7 A8 : S1x128.Idx → EReal)
    (h0 : ∀ (i : Fin 50000) (l : Fin 128), A0 (ix2 i l) = comb (ix2 i l)) (h1 : ∀ l k : Fin 128, A1 (ix2 l k) = W1 (ix2 l k))
    (h2 : ∀ k : Fin 128, A2 (ix2 0 k) = b1 (ix1 k)) (h3 : ∀ l k : Fin 128, A3 (ix2 l k) = W2 (ix2 l k))
    (h4 : ∀ k : Fin 128, A4 (ix2 0 k) = b2 (ix1 k)) (h5 : ∀ k : Fin 128, A5 (ix2 0 k) = gamma (ix1 k))
    (h6 : ∀ k : Fin 128, A6 (ix2 0 k) = beta (ix1 k)) (h7 : ∀ k : Fin 128, A7 (ix2 0 k) = mean (ix1 k))
    (h8 : ∀ k : Fin 128, A8 (ix2 0 k) = var (ix1 k))
    (x0 : Vec Ideal S1000x128 .f32) (x1 : Vec Ideal S128x128 .f32) (x2 : Vec Ideal S1x128 .f32)
    (x3 : Vec Ideal S128x128 .f32) (x4 x5 x6 x7 x8 : Vec Ideal S1x128 .f32) (y : S1000x128.Idx) (i : S50000x128.Idx)
    (e0 : ∀ l, x0 (ix2 (y 0) l) = A0 (ix2 (i 0) l)) (e1 : ∀ z, x1 z = A1 z) (e2 : ∀ z, x2 z = A2 z) (e3 : ∀ z, x3 z = A3 z)
    (e4 : ∀ z, x4 z = A4 z) (e5 : ∀ z, x5 z = A5 z) (e6 : ∀ z, x6 z = A6 z) (e7 : ∀ z, x7 z = A7 z) (e8 : ∀ z, x8 z = A8 z)
    (hi : (i 1).val = (y 1).val) :
    k0_pay1 (F := Ideal) (k0_pay2 x0 x1 x2 x3 x4 x5 x7) (k0_pay3 x8) x6 y
      = Cert.Val.Stages.layer (F := Ideal) comb W1 b1 W2 b2 gamma beta mean var i := by
  obtain ⟨p, q, rfl⟩ : ∃ (p : Fin 1000) (q : Fin 128), y = ix2 p q := ⟨y 0, y 1, eq_ix2 y⟩
  obtain ⟨r, s, rfl⟩ : ∃ (r : Fin 50000) (s : Fin 128), i = ix2 r s := ⟨i 0, i 1, eq_ix2 i⟩
  obtain rfl : s = q := Fin.ext hi
  have e0' : ∀ l, x0 (ix2 p l) = comb (ix2 r l) := fun l => (e0 l).trans (h0 r l)
  rw [gin_payload_apply, Cert.Val.StagesApply.layer_apply]
  simp only [e0', e1, e2, e3, e4, e5, e6, e7, e8, h1, h2, h3, h4, h5, h6, h7, h8]

end Cert.Val.GinPayload

end
-- ==== Proof.Val.GinBridge0.lean ====
import proofs.«428878_j20040317403499_2_alg».proof.Proof.KI.Gin0
import proofs.«428878_j20040317403499_2_alg».proof.Proof.Val.GinPayload

noncomputable section

open Idealize.ShloMosaic Idealize.ShloMosaic.TcCoe Idealize.SL.Sem

namespace Cert.Val.GinBridge

open Cert.KernelIdeal Cert.KernelIdeal.Gen Cert.KernelIdeal.Hand Cert.Val.GinPayload Idealize.ShloMosaic.ValueIdx

variable (V : (c : Dev nD) → (b : Ref sig .tc) → Buf (Elt Ideal) ((c : Thread nD τ).loc b))
variable [Cert.ReferenceIdeal.Facts₀]

theorem gin_idx0 : ∀ t : Fin cfg0.N, (win0_0.index t 0 = t.val ∧ win0_0.index t 1 = 0) ∧ (win0_9.index t 0 = t.val ∧ win0_9.index t 1 = 0)
    ∧ (∀ a, win0_1.index t a = 0) ∧ (∀ a, win0_2.index t a = 0) ∧ (∀ a, win0_3.index t a = 0) ∧ (∀ a, win0_4.index t a = 0)
    ∧ (∀ a, win0_5.index t a = 0) ∧ (∀ a, win0_6.index t a = 0) ∧ (∀ a, win0_7.index t a = 0) ∧ ∀ a, win0_8.index t a = 0 :=
  (by decide +kernel : ∀ t : Fin grid0.N, _)

theorem gin_blocks0 (c : Dev nD) (t : Fin cfg0.N) :
    (∀ (p : Fin 1000) (l : Fin 128) (r : Fin 50000), r.val = t.val * 1000 + p.val →
      iblk0 V c 0 t (ix2 p l) = V c main_v21 (ix2 r l))
    ∧ (∀ z, iblk0 V c 1 t z = V c main_v23 z) ∧ (∀ z, iblk0 V c 2 t z = V c main_v38 z)
    ∧ (∀ z, iblk0 V c 3 t z = V c main_v27 z) ∧ (∀ z, iblk0 V c 4 t z = V c main_v39 z)
    ∧ (∀ z, iblk0 V c 5 t z = V c main_v40 z) ∧ (∀ z, iblk0 V c 6 t z = V c main_v41 z)
    ∧ (∀ z, iblk0 V c 7 t z = V c main_v42 z) ∧ ∀ z, iblk0 V c 8 t z = V c main_v43 z := by
  obtain ⟨⟨a0, a1⟩, -, p1, p2, p3, p4, p5, p6, p7, p8⟩ := gin_idx0 t
  exact ⟨fun p l r hr => congrArg (V c main_v21) (Shape.idx_ext₂
      ((win0_0.rect_emb_val t (ix2 p l) 0).trans (by rw [a0]; exact hr.symm))
      (win0_0.rect_emb_val_of_index_zero t 1 a1 (ix2 p l))),
    fun z => read_of_index_zero win0_1 t p1 (V c main_v23) z z fun _ => rfl,
    fun z => read_of_index_zero win0_2 t p2 (V c main_v38) z z fun _ => rfl,
    fun z => read_of_index_zero win0_3 t p3 (V c main_v27) z z fun _ => rfl,
    fun z => read_of_index_zero win0_4 t p4 (V c main_v39) z z fun _ => rfl,
    fun z => read_of_index_zero win0_5 t p5 (V c main_v40) z z fun _ => rfl,
    fun z => read_of_index_zero win0_6 t p6 (V c main_v41) z z fun _ => rfl,
    fun z => read_of_index_zero win0_7 t p7 (V c main_v42) z z fun _ => rfl,
    fun z => read_of_index_zero win0_8 t p8 (V c main_v43) z z fun _ => rfl⟩

theorem gin_bridge0 (c : Dev nD) (comb : FVec Ideal Cert.ReferenceIdeal.S50000x128 .f32)
    (W1 W2 : FVec Ideal Cert.ReferenceIdeal.S128x128 .f32)
    (b1 b2 gamma beta mean var : FVec Ideal Cert.ReferenceIdeal.S128 .f32)
    (h0 : ∀ (i : Fin 50000) (l : Fin 128), V c main_v21 (ix2 i l) = comb (ix2 i l))
    (h1 : ∀ l k : Fin 128, V c main_v23 (ix2 l k) = W1 (ix2 l k))
    (h2 : ∀ k : Fin 128, V c main_v38 (ix2 0 k) = b1 (ix1 k))
    (h3 : ∀ l k : Fin 128, V c main_v27 (ix2 l k) = W2 (ix2 l k))
    (h4 : ∀ k : Fin 128, V c main_v39 (ix2 0 k) = b2 (ix1 k))
    (h5 : ∀ k : Fin 128, V c main_v40 (ix2 0 k) = gamma (ix1 k))
    (h6 : ∀ k : Fin 128, V c main_v41 (ix2 0 k) = beta (ix1 k))
    (h7 : ∀ k : Fin 128, V c main_v42 (ix2 0 k) = mean (ix1 k))
    (h8 : ∀ k : Fin 128, V c main_v43 (ix2 0 k) = var (ix1 k)) :
    (dat0 V c).arrAt 9 cfg0.N = Cert.Val.Stages.layer (F := Ideal) comb W1 b1 W2 b2 gamma beta mean var := by
  refine (dat0 V c).arrAt_eq_of_cover 9 _ (fun t _ => ?_) fun (i : S50000x128.Idx) => ?_
  · obtain ⟨-, ⟨o0, o1⟩, -⟩ := gin_idx0 t
    obtain ⟨q0, q1, q2, q3, q4, q5, q6, q7, q8⟩ := gin_blocks0 V c t
    show (cfg0.win 9).cut (grid0.coords t) ((dat0 V c).after 9 t) = _
    rw [after0_9]
    unfold out0_9
    rw [View.canon_unit_zero hz]
    simp only [View.ld_unit_zero (S := S1000x128) hz, View.ld_unit_zero (S := S128x128) hz,
      View.ld_unit_zero (S := S1x128) hz]
    funext y
    rw [View.read_apply]
    exact gin_block comb W1 W2 b1 b2 gamma beta mean var _ _ _ _ _ _ _ _ _ h0 h1 h2 h3 h4 h5 h6 h7 h8 _ _ _ _ _ _ _ _ _ y
      ((win0_9.rect t).emb y) (fun l => q0 _ l _ ((win0_9.rect_emb_val t y 0).trans (by rw [o0]; rfl))) q1 q2 q3 q4 q5 q6 q7 q8
      (win0_9.rect_emb_val_of_index_zero t 1 o1 y)
  · have hi : (i 0).val < 50000 := (i 0).isLt
    have ht : (i 0).val / 1000 < cfg0.N := by rw [show cfg0.N = 50 from N_0]; omega
    obtain ⟨-, ⟨o0, o1⟩, -⟩ := gin_idx0 ⟨_, ht⟩
    refine ⟨⟨_, ht⟩, flush0_9 _, ?_⟩
    show i ∈ ((View.whole main_v44).slice (win0_9.rect ⟨_, ht⟩)).set
    rw [View.set_slice_whole, Rect.mem_set_unit]
    intro a
    match a with
    | ⟨0, _⟩ =>
      show win0_9.index ⟨_, ht⟩ (0 : Fin 2) * 1000 ≤ (i 0).val ∧ (i 0).val < win0_9.index ⟨_, ht⟩ (0 : Fin 2) * 1000 + 1000
      rw [o0]; show (i 0).val / 1000 * 1000 ≤ (i 0).val ∧ (i 0).val < (i 0).val / 1000 * 1000 + 1000; omega
    | ⟨1, _⟩ =>
      show win0_9.index ⟨_, ht⟩ (1 : Fin 2) * 128 ≤ (i 1).val ∧ (i 1).val < win0_9.index ⟨_, ht⟩ (1 : Fin 2) * 128 + 128
      rw [o1]; have hj : (i 1).val < 128 := (i 1).isLt; omega

end Cert.Val.GinBridge

end
-- ==== Proof.Val.GinBridge1.lean ====
import proofs.«428878_j20040317403499_2_alg».proof.Proof.KI.Gin1
import proofs.«428878_j20040317403499_2_alg».proof.Proof.Val.GinPayload

noncomputable section

open Idealize.ShloMosaic Idealize.ShloMosaic.TcCoe Idealize.SL.Sem

namespace Cert.Val.GinBridge

open Cert.KernelIdeal Cert.KernelIdeal.Gen Cert.KernelIdeal.Hand Cert.Val.GinPayload Idealize.ShloMosaic.ValueIdx

variable (V : (c : Dev nD) → (b : Ref sig .tc) → Buf (Elt Ideal) ((c : Thread nD τ).loc b))
variable [Cert.ReferenceIdeal.Facts₀]

theorem gin_idx1 : ∀ t : Fin cfg1.N, (win1_0.index t 0 = t.val ∧ win1_0.index t 1 = 0) ∧ (win1_9.index t 0 = t.val ∧ win1_9.index t 1 = 0)
    ∧ (∀ a, win1_1.index t a = 0) ∧ (∀ a, win1_2.index t a = 0) ∧ (∀ a, win1_3.index t a = 0) ∧ (∀ a, win1_4.index t a = 0)
    ∧ (∀ a, win1_5.index t a = 0) ∧ (∀ a, win1_6.index t a = 0) ∧ (∀ a, win1_7.index t a = 0) ∧ ∀ a, win1_8.index t a = 0 :=
  (by decide +kernel : ∀ t : Fin grid1.N, _)

theorem gin_blocks1 (c : Dev nD) (t : Fin cfg1.N) :
    (∀ (p : Fin 1000) (l : Fin 128) (r : Fin 50000), r.val = t.val * 1000 + p.val →
      iblk1 V c 0 t (ix2 p l) = V c main_v60 (ix2 r l))
    ∧ (∀ z, iblk1 V c 1 t z = V c main_v62 z) ∧ (∀ z, iblk1 V c 2 t z = V c main_v77 z)
    ∧ (∀ z, iblk1 V c 3 t z = V c main_v66 z) ∧ (∀ z, iblk1 V c 4 t z = V c main_v78 z)
    ∧ (∀ z, iblk1 V c 5 t z = V c main_v79 z) ∧ (∀ z, iblk1 V c 6 t z = V c main_v80 z)
    ∧ (∀ z, iblk1 V c 7 t z = V c main_v81 z) ∧ ∀ z, iblk1 V c 8 t z = V c main_v82 z := by
  obtain ⟨⟨a0, a1⟩, -, p1, p2, p3, p4, p5, p6, p7, p8⟩ := gin_idx1 t
  exact ⟨fun p l r hr => congrArg (V c main_v60) (Shape.idx_ext₂
      ((win1_0.rect_emb_val t (ix2 p l) 0).trans (by rw [a0]; exact hr.symm))
      (win1_0.rect_emb_val_of_index_zero t 1 a1 (ix2 p l))),
    fun z => read_of_index_zero win1_1 t p1 (V c main_v62) z z fun _ => rfl,
    fun z => read_of_index_zero win1_2 t p2 (V c main_v77) z z fun _ => rfl,
    fun z => read_of_index_zero win1_3 t p3 (V c main_v66) z z fun _ => rfl,
    fun z => read_of_index_zero win1_4 t p4 (V c main_v78) z z fun _ => rfl,
    fun z => read_of_index_zero win1_5 t p5 (V c main_v79) z z fun _ => rfl,
    fun z => read_of_index_zero win1_6 t p6 (V c main_v80) z z fun _ => rfl,
    fun z => read_of_index_zero win1_7 t p7 (V c main_v81) z z fun _ => rfl,
    fun z => read_of_index_zero win1_8 t p8 (V c main_v82) z z fun _ => rfl⟩

theorem gin_bridge1 (c : Dev nD) (comb : FVec Ideal Cert.ReferenceIdeal.S50000x128 .f32)
    (W1 W2 : FVec Ideal Cert.ReferenceIdeal.S128x128 .f32)
    (b1 b2 gamma beta mean var : FVec Ideal Cert.ReferenceIdeal.S128 .f32)
    (h0 : ∀ (i : Fin 50000) (l : Fin 128), V c main_v60 (ix2 i l) = comb (ix2 i l))
    (h1 : ∀ l k : Fin 128, V c main_v62 (ix2 l k) = W1 (ix2 l k))
    (h2 : ∀ k : Fin 128, V c main_v77 (ix2 0 k) = b1 (ix1 k))
    (h3 : ∀ l k : Fin 128, V c main_v66 (ix2 l k) = W2 (ix2 l k))
    (h4 : ∀ k : Fin 128, V c main_v78 (ix2 0 k) = b2 (ix1 k))
    (h5 : ∀ k : Fin 128, V c main_v79 (ix2 0 k) = gamma (ix1 k))
    (h6 : ∀ k : Fin 128, V c main_v80 (ix2 0 k) = beta (ix1 k))
    (h7 : ∀ k : Fin 128, V c main_v81 (ix2 0 k) = mean (ix1 k))
    (h8 : ∀ k : Fin 128, V c main_v82 (ix2 0 k) = var (ix1 k)) :
    (dat1 V c).arrAt 9 cfg1.N = Cert.Val.Stages.layer (F := Ideal) comb W1 b1 W2 b2 gamma beta mean var := by
  refine (dat1 V c).arrAt_eq_of_cover 9 _ (fun t _ => ?_) fun (i : S50000x128.Idx) => ?_
  · obtain ⟨-, ⟨o0, o1⟩, -⟩ := gin_idx1 t
    obtain ⟨q0, q1, q2, q3, q4, q5, q6, q7, q8⟩ := gin_blocks1 V c t
    show (cfg1.win 9).cut (grid1.coords t) ((dat1 V c).after 9 t) = _
    rw [after1_9]
    unfold out1_9
    rw [View.canon_unit_zero hz]
    simp only [View.ld_unit_zero (S := S1000x128) hz, View.ld_unit_zero (S := S128x128) hz,
      View.ld_unit_zero (S := S1x128) hz]
    funext y
    rw [View.read_apply]
    exact gin_block comb W1 W2 b1 b2 gamma beta mean var _ _ _ _ _ _ _ _ _ h0 h1 h2 h3 h4 h5 h6 h7 h8 _ _ _ _ _ _ _ _ _ y
      ((win1_9.rect t).emb y) (fun l => q0 _ l _ ((win1_9.rect_emb_val t y 0).trans (by rw [o0]; rfl))) q1 q2 q3 q4 q5 q6 q7 q8
      (win1_9.rect_emb_val_of_index_zero t 1 o1 y)
  · have hi : (i 0).val < 50000 := (i 0).isLt
    have ht : (i 0).val / 1000 < cfg1.N := by rw [show cfg1.N = 50 from N_1]; omega
    obtain ⟨-, ⟨o0, o1⟩, -⟩ := gin_idx1 ⟨_, ht⟩
    refine ⟨⟨_, ht⟩, flush1_9 _, ?_⟩
    show i ∈ ((View.whole main_v83).slice (win1_9.rect ⟨_, ht⟩)).set
    rw [View.set_slice_whole, Rect.mem_set_unit]
    intro a
    match a with
    | ⟨0, _⟩ =>
      show win1_9.index ⟨_, ht⟩ (0 : Fin 2) * 1000 ≤ (i 0).val ∧ (i 0).val < win1_9.index ⟨_, ht⟩ (0 : Fin 2) * 1000 + 1000
      rw [o0]; show (i 0).val / 1000 * 1000 ≤ (i 0).val ∧ (i 0).val < (i 0).val / 1000 * 1000 + 1000; omega
    | ⟨1, _⟩ =>
      show win1_9.index ⟨_, ht⟩ (1 : Fin 2) * 128 ≤ (i 1).val ∧ (i 1).val < win1_9.index ⟨_, ht⟩ (1 : Fin 2) * 128 + 128
      rw [o1]; have hj : (i 1).val < 128 := (i 1).isLt; omega

end Cert.Val.GinBridge

end
-- ==== Proof.Val.GinBridge2.lean ====
import proofs.«428878_j20040317403499_2_alg».proof.Proof.KI.Gin2
import proofs.«428878_j20040317403499_2_alg».proof.Proof.Val.GinPayload

noncomputable section

open Idealize.ShloMosaic Idealize.ShloMosaic.TcCoe Idealize.SL.Sem

namespace Cert.Val.GinBridge

open Cert.KernelIdeal Cert.KernelIdeal.Gen Cert.KernelIdeal.Hand Cert.Val.GinPayload Idealize.ShloMosaic.ValueIdx

variable (V : (c : Dev nD) → (b : Ref sig .tc) → Buf (Elt Ideal) ((c : Thread nD τ).loc b))
variable [Cert.ReferenceIdeal.Facts₀]

theorem gin_idx2 : ∀ t : Fin cfg2.N, (win2_0.index t 0 = t.val ∧ win2_0.index t 1 = 0) ∧ (win2_9.index t 0 = t.val ∧ win2_9.index t 1 = 0)
    ∧ (∀ a, win2_1.index t a = 0) ∧ (∀ a, win2_2.index t a = 0) ∧ (∀ a, win2_3.index t a = 0) ∧ (∀ a, win2_4.index t a = 0)
    ∧ (∀ a, win2_5.index t a = 0) ∧ (∀ a, win2_6.index t a = 0) ∧ (∀ a, win2_7.index t a = 0) ∧ ∀ a, win2_8.index t a = 0 :=
  (by decide +kernel : ∀ t : Fin grid2.N, _)

theorem gin_blocks2 (c : Dev nD) (t : Fin cfg2.N) :
    (∀ (p : Fin 1000) (l : Fin 128) (r : Fin 50000), r.val = t.val * 1000 + p.val →
      iblk2 V c 0 t (ix2 p l) = V c main_v99 (ix2 r l))
    ∧ (∀ z, iblk2 V c 1 t z = V c main_v101 z) ∧ (∀ z, iblk2 V c 2 t z = V c main_v116 z)
    ∧ (∀ z, iblk2 V c 3 t z = V c main_v105 z) ∧ (∀ z, iblk2 V c 4 t z = V c main_v117 z)
    ∧ (∀ z, iblk2 V c 5 t z = V c main_v118 z) ∧ (∀ z, iblk2 V c 6 t z = V c main_v119 z)
    ∧ (∀ z, iblk2 V c 7 t z = V c main_v120 z) ∧ ∀ z, iblk2 V c 8 t z = V c main_v121 z := by
  obtain ⟨⟨a0, a1⟩, -, p1, p2, p3, p4, p5, p6, p7, p8⟩ := gin_idx2 t
  exact ⟨fun p l r hr => congrArg (V c main_v99) (Shape.idx_ext₂
      ((win2_0.rect_emb_val t (ix2 p l) 0).trans (by rw [a0]; exact hr.symm))
      (win2_0.rect_emb_val_of_index_zero t 1 a1 (ix2 p l))),
    fun z => read_of_index_zero win2_1 t p1 (V c main_v101) z z fun _ => rfl,
    fun z => read_of_index_zero win2_2 t p2 (V c main_v116) z z fun _ => rfl,
    fun z => read_of_index_zero win2_3 t p3 (V c main_v105) z z fun _ => rfl,
    fun z => read_of_index_zero win2_4 t p4 (V c main_v117) z z fun _ => rfl,
    fun z => read_of_index_zero win2_5 t p5 (V c main_v118) z z fun _ => rfl,
    fun z => read_of_index_zero win2_6 t p6 (V c main_v119) z z fun _ => rfl,
    fun z => read_of_index_zero win2_7 t p7 (V c main_v120) z z fun _ => rfl,
    fun z => read_of_index_zero win2_8 t p8 (V c main_v121) z z fun _ => rfl⟩

theorem gin_bridge2 (c : Dev nD) (comb : FVec Ideal Cert.ReferenceIdeal.S50000x128 .f32)
    (W1 W2 : FVec Ideal Cert.ReferenceIdeal.S128x128 .f32)
    (b1 b2 gamma beta mean var : FVec Ideal Cert.ReferenceIdeal.S128 .f32)
    (h0 : ∀ (i : Fin 50000) (l : Fin 128), V c main_v99 (ix2 i l) = comb (ix2 i l))
    (h1 : ∀ l k : Fin 128, V c main_v101 (ix2 l k) = W1 (ix2 l k))
    (h2 : ∀ k : Fin 128, V c main_v116 (ix2 0 k) = b1 (ix1 k))
    (h3 : ∀ l k : Fin 128, V c main_v105 (ix2 l k) = W2 (ix2 l k))
    (h4 : ∀ k : Fin 128, V c main_v117 (ix2 0 k) = b2 (ix1 k))
    (h5 : ∀ k : Fin 128, V c main_v118 (ix2 0 k) = gamma (ix1 k))
    (h6 : ∀ k : Fin 128, V c main_v119 (ix2 0 k) = beta (ix1 k))
    (h7 : ∀ k : Fin 128, V c main_v120 (ix2 0 k) = mean (ix1 k))
    (h8 : ∀ k : Fin 128, V c main_v121 (ix2 0 k) = var (ix1 k)) :
    (dat2 V c).arrAt 9 cfg2.N = Cert.Val.Stages.layer (F := Ideal) comb W1 b1 W2 b2 gamma beta mean var := by
  refine (dat2 V c).arrAt_eq_of_cover 9 _ (fun t _ => ?_) fun (i : S50000x128.Idx) => ?_
  · obtain ⟨-, ⟨o0, o1⟩, -⟩ := gin_idx2 t
    obtain ⟨q0, q1, q2, q3, q4, q5, q6, q7, q8⟩ := gin_blocks2 V c t
    show (cfg2.win 9).cut (grid2.coords t) ((dat2 V c).after 9 t) = _
    rw [after2_9]
    unfold out2_9
    rw [View.canon_unit_zero hz]
    simp only [View.ld_unit_zero (S := S1000x128) hz, View.ld_unit_zero (S := S128x128) hz,
      View.ld_unit_zero (S := S1x128) hz]
    funext y
    rw [View.read_apply]
    exact gin_block comb W1 W2 b1 b2 gamma beta mean var _ _ _ _ _ _ _ _ _ h0 h1 h2 h3 h4 h5 h6 h7 h8 _ _ _ _ _ _ _ _ _ y
      ((win2_9.rect t).emb y) (fun l => q0 _ l _ ((win2_9.rect_emb_val t y 0).trans (by rw [o0]; rfl))) q1 q2 q3 q4 q5 q6 q7 q8
      (win2_9.rect_emb_val_of_index_zero t 1 o1 y)
  · have hi : (i 0).val < 50000 := (i 0).isLt
    have ht : (i 0).val / 1000 < cfg2.N := by rw [show cfg2.N = 50 from N_2]; omega
    obtain ⟨-, ⟨o0, o1⟩, -⟩ := gin_idx2 ⟨_, ht⟩
    refine ⟨⟨_, ht⟩, flush2_9 _, ?_⟩
    show i ∈ ((View.whole main_v122).slice (win2_9.rect ⟨_, ht⟩)).set
    rw [View.set_slice_whole, Rect.mem_set_unit]
    intro a
    match a with
    | ⟨0, _⟩ =>
      show win2_9.index ⟨_, ht⟩ (0 : Fin 2) * 1000 ≤ (i 0).val ∧ (i 0).val < win2_9.index ⟨_, ht⟩ (0 : Fin 2) * 1000 + 1000
      rw [o0]; show (i 0).val / 1000 * 1000 ≤ (i 0).val ∧ (i 0).val < (i 0).val / 1000 * 1000 + 1000; omega
    | ⟨1, _⟩ =>
      show win2_9.index ⟨_, ht⟩ (1 : Fin 2) * 128 ≤ (i 1).val ∧ (i 1).val < win2_9.index ⟨_, ht⟩ (1 : Fin 2) * 128 + 128
      rw [o1]; have hj : (i 1).val < 128 := (i 1).isLt; omega

end Cert.Val.GinBridge

end
-- ==== Proof.Val.GinBridge3.lean ====
import proofs.«428878_j20040317403499_2_alg».proof.Proof.KI.Gin3
import proofs.«428878_j20040317403499_2_alg».proof.Proof.Val.GinPayload

noncomputable section

open Idealize.ShloMosaic Idealize.ShloMosaic.TcCoe Idealize.SL.Sem

namespace Cert.Val.GinBridge

open Cert.KernelIdeal Cert.KernelIdeal.Gen Cert.KernelIdeal.Hand Cert.Val.GinPayload Idealize.ShloMosaic.ValueIdx

variable (V : (c : Dev nD) → (b : Ref sig .tc) → Buf (Elt Ideal) ((c : Thread nD τ).loc b))
variable [Cert.ReferenceIdeal.Facts₀]

theorem gin_idx3 : ∀ t : Fin cfg3.N, (win3_0.index t 0 = t.val ∧ win3_0.index t 1 = 0) ∧ (win3_9.index t 0 = t.val ∧ win3_9.index t 1 = 0)
    ∧ (∀ a, win3_1.index t a = 0) ∧ (∀ a, win3_2.index t a = 0) ∧ (∀ a, win3_3.index t a = 0) ∧ (∀ a, win3_4.index t a = 0)
    ∧ (∀ a, win3_5.index t a = 0) ∧ (∀ a, win3_6.index t a = 0) ∧ (∀ a, win3_7.index t a = 0) ∧ ∀ a, win3_8.index t a = 0 :=
  (by decide +kernel : ∀ t : Fin grid3.N, _)

theorem gin_blocks3 (c : Dev nD) (t : Fin cfg3.N) :
    (∀ (p : Fin 1000) (l : Fin 128) (r : Fin 50000), r.val = t.val * 1000 + p.val →
      iblk3 V c 0 t (ix2 p l) = V c main_v138 (ix2 r l))
    ∧ (∀ z, iblk3 V c 1 t z = V c main_v140 z) ∧ (∀ z, iblk3 V c 2 t z = V c main_v155 z)
    ∧ (∀ z, iblk3 V c 3 t z = V c main_v144 z) ∧ (∀ z, iblk3 V c 4 t z = V c main_v156 z)
    ∧ (∀ z, iblk3 V c 5 t z = V c main_v157 z) ∧ (∀ z, iblk3 V c 6 t z = V c main_v158 z)
    ∧ (∀ z, iblk3 V c 7 t z = V c main_v159 z) ∧ ∀ z, iblk3 V c 8 t z = V c main_v160 z := by
  obtain ⟨⟨a0, a1⟩, -, p1, p2, p3, p4, p5, p6, p7, p8⟩ := gin_idx3 t
  exact ⟨fun p l r hr => congrArg (V c main_v138) (Shape.idx_ext₂
      ((win3_0.rect_emb_val t (ix2 p l) 0).trans (by rw [a0]; exact hr.symm))
      (win3_0.rect_emb_val_of_index_zero t 1 a1 (ix2 p l))),
    fun z => read_of_index_zero win3_1 t p1 (V c main_v140) z z fun _ => rfl,
    fun z => read_of_index_zero win3_2 t p2 (V c main_v155) z z fun _ => rfl,
    fun z => read_of_index_zero win3_3 t p3 (V c main_v144) z z fun _ => rfl,
    fun z => read_of_index_zero win3_4 t p4 (V c main_v156) z z fun _ => rfl,
    fun z => read_of_index_zero win3_5 t p5 (V c main_v157) z z fun _ => rfl,
    fun z => read_of_index_zero win3_6 t p6 (V c main_v158) z z fun _ => rfl,
    fun z => read_of_index_zero win3_7 t p7 (V c main_v159) z z fun _ => rfl,
    fun z => read_of_index_zero win3_8 t p8 (V c main_v160) z z fun _ => rfl⟩

theorem gin_bridge3 (c : Dev nD) (comb : FVec Ideal Cert.ReferenceIdeal.S50000x128 .f32)
    (W1 W2 : FVec Ideal Cert.ReferenceIdeal.S128x128 .f32)
    (b1 b2 gamma beta mean var : FVec Ideal Cert.ReferenceIdeal.S128 .f32)
    (h0 : ∀ (i : Fin 50000) (l : Fin 128), V c main_v138 (ix2 i l) = comb (ix2 i l))
    (h1 : ∀ l k : Fin 128, V c main_v140 (ix2 l k) = W1 (ix2 l k))
    (h2 : ∀ k : Fin 128, V c main_v155 (ix2 0 k) = b1 (ix1 k))
    (h3 : ∀ l k : Fin 128, V c main_v144 (ix2 l k) = W2 (ix2 l k))
    (h4 : ∀ k : Fin 128, V c main_v156 (ix2 0 k) = b2 (ix1 k))
    (h5 : ∀ k : Fin 128, V c main_v157 (ix2 0 k) = gamma (ix1 k))
    (h6 : ∀ k : Fin 128, V c main_v158 (ix2 0 k) = beta (ix1 k))
    (h7 : ∀ k : Fin 128, V c main_v159 (ix2 0 k) = mean (ix1 k))
    (h8 : ∀ k : Fin 128, V c main_v160 (ix2 0 k) = var (ix1 k)) :
    (dat3 V c).arrAt 9 cfg3.N = Cert.Val.Stages.layer (F := Ideal) comb W1 b1 W2 b2 gamma beta mean var := by
  refine (dat3 V c).arrAt_eq_of_cover 9 _ (fun t _ => ?_) fun (i : S50000x128.Idx) => ?_
  · obtain ⟨-, ⟨o0, o1⟩, -⟩ := gin_idx3 t
    obtain ⟨q0, q1, q2, q3, q4, q5, q6, q7, q8⟩ := gin_blocks3 V c t
    show (cfg3.win 9).cut (grid3.coords t) ((dat3 V c).after 9 t) = _
    rw [after3_9]
    unfold out3_9
    rw [View.canon_unit_zero hz]
    simp only [View.ld_unit_zero (S := S1000x128) hz, View.ld_unit_zero (S := S128x128) hz,
      View.ld_unit_zero (S := S1x128) hz]
    funext y
    rw [View.read_apply]
    exact gin_block comb W1 W2 b1 b2 gamma beta mean var _ _ _ _ _ _ _ _ _ h0 h1 h2 h3 h4 h5 h6 h7 h8 _ _ _ _ _ _ _ _ _ y
      ((win3_9.rect t).emb y) (fun l => q0 _ l _ ((win3_9.rect_emb_val t y 0).trans (by rw [o0]; rfl))) q1 q2 q3 q4 q5 q6 q7 q8
      (win3_9.rect_emb_val_of_index_zero t 1 o1 y)
  · have hi : (i 0).val < 50000 := (i 0).isLt
    have ht : (i 0).val / 1000 < cfg3.N := by rw [show cfg3.N = 50 from N_3]; omega
    obtain ⟨-, ⟨o0, o1⟩, -⟩ := gin_idx3 ⟨_, ht⟩
    refine ⟨⟨_, ht⟩, flush3_9 _, ?_⟩
    show i ∈ ((View.whole main_v161).slice (win3_9.rect ⟨_, ht⟩)).set
    rw [View.set_slice_whole, Rect.mem_set_unit]
    intro a
    match a with
    | ⟨0, _⟩ =>
      show win3_9.index ⟨_, ht⟩ (0 : Fin 2) * 1000 ≤ (i 0).val ∧ (i 0).val < win3_9.index ⟨_, ht⟩ (0 : Fin 2) * 1000 + 1000
      rw [o0]; show (i 0).val / 1000 * 1000 ≤ (i 0).val ∧ (i 0).val < (i 0).val / 1000 * 1000 + 1000; omega
    | ⟨1, _⟩ =>
      show win3_9.index ⟨_, ht⟩ (1 : Fin 2) * 128 ≤ (i 1).val ∧ (i 1).val < win3_9.index ⟨_, ht⟩ (1 : Fin 2) * 128 + 128
      rw [o1]; have hj : (i 1).val < 128 := (i 1).isLt; omega

end Cert.Val.GinBridge

end
-- ==== Proof.Val.PoolPayload.lean ====
import proofs.«428878_j20040317403499_2_alg».proof.Proof.Gen.KernelIdeal.Skeleton
import proofs.«428878_j20040317403499_2_alg».proof.Proof.Val.Spec
import proofs.«428878_j20040317403499_2_alg».proof.Proof.LibPlainMatmul
import Idealize.ShloMosaic.Lib.ValueLayout
import Idealize.ShloMosaic.Lib.WordArith
import Idealize.ShloMosaic.PureOps.Ideal.Laws

noncomputable section

namespace Cert.Val.PoolPayload

open Cert.KernelIdeal Cert.KernelIdeal.Gen Idealize.ShloMosaic Idealize.ShloMosaic.ValueIdx

theorem matmul_zero_firstAxes_apply {M K N : Nat} {φ₁ φ₂ : FTy}
    (w : DotDims.WF ⟨2, ![K, M]⟩ ⟨2, ![K, N]⟩ ⟨2, ![M, N]⟩ [0] [0] [1] [1] [] [])
    (prec : Option ContractPrecision)
    (A : FVec Ideal ⟨2, ![K, M]⟩ φ₁) (B : FVec Ideal ⟨2, ![K, N]⟩ φ₂) (a : Fin M) (b : Fin N) :
    matmul (F := Ideal) (⟨[0], [0], [1], [1], [], [], w⟩ : DotDims _ _ _) prec A B (constant ⟨2, ![M, N]⟩ .f32 0x00000000#32) (ix2 a b)
      = ∑ c : Fin K, A (ix2 c a) * B (ix2 c b) := by
  show FloatOps.matmul _ prec A B _ (ix2 a b) = _
  rw [Ideal.matmul_constant_zero_apply]
  set D : DotDims ⟨2, ![K, M]⟩ ⟨2, ![K, N]⟩ ⟨2, ![M, N]⟩ := ⟨[0], [0], [1], [1], [], [], w⟩ with hD
  rw [← Equiv.sum_comp (contrEquiv1 D K rfl rfl).symm]
  refine Finset.sum_congr rfl fun c _ => ?_
  have c2 := contrEquiv1_symm_val D K rfl rfl c
  have l2 : D.lhsIdx (ix2 a b) ((contrEquiv1 D K rfl rfl).symm c) = ix2 c a :=
    Shape.idx_ext₂ (by simp [DotDims.lhsIdx, hD]; exact c2) (by simp [DotDims.lhsIdx, hD]; rfl)
  have r2 : D.rhsIdx (ix2 a b) ((contrEquiv1 D K rfl rfl).symm c) = ix2 c b :=
    Shape.idx_ext₂ (by simp [DotDims.rhsIdx, hD]; exact c2) (by simp [DotDims.rhsIdx, hD]; rfl)
  rw [l2, r2]

theorem toInt_eq_small_iff (x : BitVec 32) (g : ℕ) (hg : g < 2 ^ 31) : x.toInt = (g : ℤ) ↔ x = BitVec.ofNat 32 g :=
  ⟨fun h => BitVec.eq_of_toInt_eq (h.trans (WordArith.toInt_ofNat_small g hg).symm), fun h => h ▸ WordArith.toInt_ofNat_small g hg⟩

theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem onehot_apply (b : Vec Ideal S1000x1 .i32) (r : Fin 1000) (g : Fin 128) :
    k4_pay3 (F := Ideal) b (ix2 r g) = if (b (ix2 r 0)).toInt = (g.val : ℤ) then (1 : EReal) else 0 := by
  unfold k4_pay3
  simp only [shapeCast_self]
  rw [sitofp_apply, extui_apply]
  show FloatOps.sitofp .f32 ((IntOp.cmpi .eq (broadcastTo S1000x128 b broadcasts_S1000x1_S1000x128 (ix2 r g)) (iota .tc S1000x128 32 [1] iota_S1000x128_d1_w32 (ix2 r g))).setWidth 32) = _
  rw [broadcastTo_a1_ab_apply, iota_single_apply]
  have hg : g.val < 2 ^ 31 := by have := g.isLt; omega
  show (((BitVec.setWidth 32 (BitVec.ofBool (b (ix2 r 0) == BitVec.ofNat 32 g.val))).toInt : ℝ) : EReal) = _
  by_cases h : b (ix2 r 0) = BitVec.ofNat 32 g.val
  · rw [if_pos ((toInt_eq_small_iff _ _ hg).2 h), h]
    simp
  · rw [if_neg (fun h' => h ((toInt_eq_small_iff _ _ hg).1 h')), beq_false_of_ne h]
    simp

theorem pay1_apply (i : S128x128.Idx) : k4_pay1 (F := Ideal) i = 0 := by
  unfold k4_pay1
  simp only [shapeCast_self]
  rw [broadcast_apply]
  exact Ideal.ofBits_zero_f32

theorem pay2_apply (i : S1x128.Idx) : k4_pay2 (F := Ideal) i = 0 := by
  unfold k4_pay2
  simp only [shapeCast_self]
  rw [broadcast_apply]
  exact Ideal.ofBits_zero_f32

/-- On the extended reals zero times x is zero and one times x is x, so the product with the one-hot block is the sum over the selected rows. -/
theorem pay4_apply (h : Vec Ideal S1000x128 .f32) (b : Vec Ideal S1000x1 .i32) (acc : Vec Ideal S128x128 .f32) (g k : Fin 128) :
    k4_pay4 (F := Ideal) h b acc (ix2 g k)
      = acc (ix2 g k) + ∑ r ∈ Finset.univ.filter (fun r : Fin 1000 => (b (ix2 r 0)).toInt = (g.val : ℤ)), h (ix2 r k) := by
  unfold k4_pay4
  simp only [shapeCast_self]
  rw [addf_apply]
  refine congrArg (acc (ix2 g k) + ·) ?_
  refine (matmul_zero_firstAxes_apply _ none _ _ g k).trans ?_
  rw [Finset.sum_filter]
  refine Finset.sum_congr rfl fun c _ => ?_
  rw [truncf_apply, truncf_apply, onehot_apply]
  split
  · exact one_mul _
  · exact zero_mul _

theorem pay5_apply (b : Vec Ideal S1000x1 .i32) (cnt : Vec Ideal S1x128 .f32) (g : Fin 128) :
    k4_pay5 (F := Ideal) b cnt (ix2 0 g)
      = cnt (ix2 0 g) + ∑ r ∈ Finset.univ.filter (fun r : Fin 1000 => (b (ix2 r 0)).toInt = (g.val : ℤ)), (1 : EReal) := by
  unfold k4_pay5
  simp only [shapeCast_self]
  rw [addf_apply]
  refine congrArg (cnt (ix2 0 g) + ·) ?_
  rw [shapeCast_a_1a_apply]
  refine (Ideal.multiReduction_add_single (φ := .f32) (k4_pay3 (F := Ideal) b) _ reduces_S1000x128_S128 _ _ (ix1 g)).trans ?_
  rw [Finset.sum_filter]
  show ∑ r : Fin 1000, k4_pay3 (F := Ideal) b (reduces_S1000x128_S128.lift (ix1 g) r) = _
  refine Finset.sum_congr rfl fun r _ => ?_
  have e : reduces_S1000x128_S128.lift (ix1 g) r = ix2 r g := Shape.idx_ext₂ rfl rfl
  rw [e, onehot_apply]

theorem pay6_apply (cnt : Vec Ideal S1x128 .f32) (acc L1 : Vec Ideal S128x128 .f32) (c1 : Vec Ideal S1x128 .f32)
    (L2 : Vec Ideal S128x10 .f32) (c2 : Vec Ideal S1x10 .f32) (g : Fin 128) (j : Fin 10) :
    k4_pay6 (F := Ideal) cnt acc L1 c1 L2 c2 (ix2 g j)
      = Cert.Spec.headRow (fun l => Ideal.div (acc (ix2 g l)) (max (cnt (ix2 0 g)) 1))
          (fun l k => L1 (ix2 l k)) (fun k => c1 (ix2 0 k)) (fun k l => L2 (ix2 k l)) (fun l => c2 (ix2 0 l)) j := by
  unfold k4_pay6
  simp only [shapeCast_self]
  rw [addf_apply, broadcastTo_1b_ab_apply]
  unfold Cert.Spec.headRow
  refine congrArg (· + c2 (ix2 0 j)) ?_
  refine (PlainMatmul.matmul_zero_plain_apply none _ _ g j).trans ?_
  refine Finset.sum_congr rfl fun k _ => ?_
  rw [truncf_apply, truncf_apply]
  refine congrArg (· * L2 (ix2 k j)) ?_
  rw [maximumf_apply, addf_apply, broadcast_apply, broadcastTo_1b_ab_apply]
  unfold Cert.Spec.dense
  rw [show FloatOps.ofBits (F := Ideal) .f32 0x00000000#32 = (0 : EReal) from Ideal.ofBits_zero_f32]
  refine congrArg (fun z => max (z + c1 (ix2 0 k)) 0) ?_
  refine (PlainMatmul.matmul_zero_plain_apply none _ _ g k).trans ?_
  refine Finset.sum_congr rfl fun l _ => ?_
  rw [truncf_apply, truncf_apply, divf_apply, broadcastTo_a1_ab_apply, maximumf_apply, transpose_ix2_apply, broadcast_apply]
  rw [show FloatOps.ofBits (F := Ideal) .f32 0x3F800000#32 = (1 : EReal) from Cert.Spec.ofBits_one_f32]

/-- Node 1000 t + r is row r of block t: pairs (t, r) and node numbers correspond one to one. -/
theorem sum_blocks {M : Type*} [AddCommMonoid M] (G : Fin 50000 → M) :
    ∑ e, G e = ∑ t : Fin 50, ∑ r : Fin 1000, G ⟨1000 * t.val + r.val, by omega⟩ := by
  rw [← Fintype.sum_prod_type' (f := fun (t : Fin 50) (r : Fin 1000) => G ⟨1000 * t.val + r.val, by omega⟩)]
  symm
  refine Fintype.sum_equiv ((finProdFinEquiv (m := 50) (n := 1000)).trans (finCongr (by norm_num))) _ _ fun x => ?_
  refine congrArg G (Fin.ext ?_)
  simp [finProdFinEquiv]
  omega

/-- A block at block index zero on every axis sits in its array at its own coordinates. -/
theorem emb_zero {G : Pipeline.Grid} (w : Pipeline.Window sig G) (t : Fin G.N) (h : ∀ a, w.index t a = 0)
    (y : (w.xblock (G.coords t)).Idx) (x : w.shape.Idx) (hx : ∀ a, (x a : ℕ) = y a) : (w.rect t).emb y = x :=
  funext fun a => Fin.ext ((w.rect_emb_val_of_index_zero t a (h a) y).trans (hx a).symm)

theorem segSum_blocks (bb : Fin 50 → Vec Ideal S1000x1 .i32) (seg : Fin 50000 → ℤ)
    (hs : ∀ (t : Fin 50) (r : Fin 1000), (bb t (ix2 r 0)).toInt = seg ⟨1000 * t.val + r.val, by omega⟩)
    (f : Fin 50 → Fin 1000 → EReal) (fn : Fin 50000 → EReal)
    (hf : ∀ (t : Fin 50) (r : Fin 1000), f t r = fn ⟨1000 * t.val + r.val, by omega⟩) (g : ℤ) :
    ∑ t : Fin 50, ∑ r ∈ Finset.univ.filter (fun r : Fin 1000 => (bb t (ix2 r 0)).toInt = g), f t r
      = Cert.Spec.segSum seg fn g := by
  unfold Cert.Spec.segSum
  rw [Finset.sum_filter (fun e => seg e = g), sum_blocks]
  refine Finset.sum_congr rfl fun t _ => ?_
  rw [Finset.sum_filter]
  exact Finset.sum_congr rfl fun r _ => by rw [hs t r, hf t r]

/-- A sequence that starts at zero and gains s t at step t ends at the sum of the s t. -/
theorem sum_of_steps {M : Type*} [AddCommMonoid M] {N : ℕ} (f : ℕ → M) (s : Fin N → M) (h0 : f 0 = 0)
    (hs : ∀ t : Fin N, f (t.val + 1) = f t.val + s t) : f N = ∑ t, s t := by
  have : ∀ (n : ℕ) (h : n ≤ N), f n = ∑ t : Fin n, s (t.castLE h) := by
    intro n
    induction n with
    | zero => intro _; rw [h0, Fin.sum_univ_zero]
    | succ n ih =>
      intro h
      rw [Fin.sum_univ_castSucc]
      exact (hs ⟨n, h⟩).trans (congrArg (· + _) (ih (Nat.le_of_succ_le h)))
  exact this N le_rfl

/-- Stepping from zero over the fifty blocks accumulates each segment's sum and size over all the nodes, which the last payload reads out. -/
theorem pool_of_steps {N : ℕ} (hN : N = 50) (hb : Fin N → Vec Ideal S1000x128 .f32) (bb : Fin N → Vec Ideal S1000x1 .i32)
    (A : ℕ → Vec Ideal S128x128 .f32) (C : ℕ → Vec Ideal S1x128 .f32)
    (hA0 : A 0 = k4_pay1 (F := Ideal)) (hAs : ∀ t : Fin N, A (t.val + 1) = k4_pay4 (hb t) (bb t) (A t.val))
    (hC0 : C 0 = k4_pay2 (F := Ideal)) (hCs : ∀ t : Fin N, C (t.val + 1) = k4_pay5 (bb t) (C t.val))
    (X : Fin 50000 → Fin 128 → EReal) (S : Fin 50000 → BitVec 32)
    (hh : ∀ (t : Fin N) (r : Fin 1000) (k : Fin 128), hb t (ix2 r k) = X ⟨1000 * t.val + r.val, by have := t.isLt; omega⟩ k)
    (hs : ∀ (t : Fin N) (r : Fin 1000), bb t (ix2 r 0) = S ⟨1000 * t.val + r.val, by have := t.isLt; omega⟩)
    (B1 : Vec Ideal S128x128 .f32) (d1 : Vec Ideal S1x128 .f32) (B2 : Vec Ideal S128x10 .f32) (d2 : Vec Ideal S1x10 .f32)
    (L1 : Fin 128 → Fin 128 → EReal) (c1 : Fin 128 → EReal) (L2 : Fin 128 → Fin 10 → EReal) (c2 : Fin 10 → EReal)
    (h1 : ∀ l k, B1 (ix2 l k) = L1 l k) (h2 : ∀ k, d1 (ix2 0 k) = c1 k) (h3 : ∀ k l, B2 (ix2 k l) = L2 k l)
    (h4 : ∀ l, d2 (ix2 0 l) = c2 l) (g : Fin 128) (j : Fin 10) :
    k4_pay6 (F := Ideal) (C 50) (A 50) B1 d1 B2 d2 (ix2 g j) = Cert.Spec.poolOut X (fun e => (S e).toInt) L1 c1 L2 c2 g j := by
  subst hN
  rw [pay6_apply, funext₂ h1, funext h2, funext₂ h3, funext h4]
  refine congrArg (fun p => Cert.Spec.headRow p L1 c1 L2 c2 j) (funext fun l => ?_)
  have hs' : ∀ (t : Fin 50) (r : Fin 1000), (bb t (ix2 r 0)).toInt = (S ⟨1000 * t.val + r.val, by omega⟩).toInt :=
    fun t r => congrArg BitVec.toInt (hs t r)
  exact congrArg₂ (fun a b => Ideal.div a (max b 1))
    ((sum_of_steps (fun n => A n (ix2 g l)) _ ((congrFun hA0 _).trans (pay1_apply _))
        fun t => (congrFun (hAs t) _).trans (pay4_apply _ _ _ g l)).trans
      (segSum_blocks bb _ hs' (fun t r => hb t (ix2 r l)) (fun e => X e l) (fun t r => hh t r l) _))
    ((sum_of_steps (fun n => C n (ix2 0 g)) _ ((congrFun hC0 _).trans (pay2_apply _))
        fun t => (congrFun (hCs t) _).trans (pay5_apply _ _ g)).trans
      (segSum_blocks bb _ hs' (fun _ _ => (1 : EReal)) (fun _ => 1) (fun _ _ => rfl) _))

end Cert.Val.PoolPayload

end
-- ==== Proof.Val.PoolArr4.lean ====
import proofs.«428878_j20040317403499_2_alg».proof.Proof.Gen.KernelIdeal.Launch
import proofs.«428878_j20040317403499_2_alg».proof.Proof.Gen.KernelIdeal.Skeleton
import proofs.«428878_j20040317403499_2_alg».proof.Proof.Gen.KernelIdeal.Points
import proofs.«428878_j20040317403499_2_alg».proof.Proof.Val.Spec
import Idealize.ShloMosaic.Lib.Pipeline.Value
import Idealize.ShloMosaic.Lib.ValueLayout
import proofs.«428878_j20040317403499_2_alg».proof.Proof.Val.PoolPayload
import proofs.«428878_j20040317403499_2_alg».proof.Proof.KI.Pool4

noncomputable section

namespace Cert.Val.PoolArr

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open Cert.Val.PoolPayload

variable (V : (c : Dev nD) → (b : Ref sig .tc) → Buf (Elt Ideal) ((c : Thread nD τ).loc b))

theorem point_lt_r4 (t : Fin cfg4.N) : t.val < 50 := lt_of_lt_of_eq t.isLt N_4

abbrev lastPoint_r4 : Fin cfg4.N := ⟨49, by rw [show cfg4.N = 50 from N_4]; decide⟩

theorem index_r4 : ∀ t : Fin cfg4.N,
    (win4_0.index t 0 = t.val ∧ win4_0.index t 1 = 0 ∧ win4_1.index t 0 = t.val ∧ win4_1.index t 1 = 0) ∧
      ∀ a : Fin 2, win4_2.index t a = 0 ∧ win4_3.index t a = 0 ∧ win4_4.index t a = 0 ∧ win4_5.index t a = 0 ∧ win4_6.index t a = 0 :=
  by decide +kernel

/-- Row r of the block at point t is node 1000 t + r. -/
theorem featBlock_r4 (c : Dev nD) (t : Fin cfg4.N) (r : Fin 1000) (k : Fin 128) :
    iblk4 V c 0 t (ix2 r k) = V c main_v161 (ix2 ⟨1000 * t.val + r.val, by have := point_lt_r4 t; omega⟩ k) :=
  congrArg (V c main_v161) (Shape.idx_ext₂
    (show win4_0.index t 0 * 1000 + 1 * r.val = 1000 * t.val + r.val by rw [(index_r4 t).1.1]; omega)
    (win4_0.rect_emb_val_of_index_zero t 1 (index_r4 t).1.2.1 _))

theorem segBlock_r4 (c : Dev nD) (t : Fin cfg4.N) (r : Fin 1000) :
    iblk4 V c 1 t (ix2 r 0) = V c main_v164 (ix2 ⟨1000 * t.val + r.val, by have := point_lt_r4 t; omega⟩ 0) :=
  congrArg (V c main_v164) (Shape.idx_ext₂
    (show win4_1.index t 0 * 1000 + 1 * r.val = 1000 * t.val + r.val by rw [(index_r4 t).1.2.2.1]; omega)
    (win4_1.rect_emb_val_of_index_zero t 1 (index_r4 t).1.2.2.2 _))

theorem arr_of_last_r4 (c : Dev nD) (dat : Dat τ (Elt Ideal) Unit ℕ (UR sig nD τ) ℕ cfg4 c) :
    dat.arrAt 6 cfg4.N = dat.after 6 lastPoint_r4 := by
  have hz := fun a => ((index_r4 lastPoint_r4).2 a).2.2.2.2
  refine dat.arrAt_eq_of_cover 6 _ (fun t hf => ?_) fun i => ⟨lastPoint_r4, (flush4_6 _).mpr rfl, ?_⟩
  · obtain rfl : t = lastPoint_r4 := Fin.ext (show t.val = 49 by have := (flush4_6 t).mp hf; have := point_lt_r4 t; omega)
    exact funext fun y => congrArg (dat.after 6 lastPoint_r4) (emb_zero win4_6 _ hz y _ fun _ => rfl).symm
  · show i ∈ ((View.whole main_v175).slice (win4_6.rect lastPoint_r4)).set
    rw [View.set_slice_whole]
    exact View.mem_set_unit_zero (funext fun a => by rw [hz a, Nat.zero_mul]) _ i

theorem pool_arr4 (c : Dev nD) (X : Fin 50000 → Fin 128 → EReal) (S : Fin 50000 → BitVec 32)
    (L1 : Fin 128 → Fin 128 → EReal) (c1 : Fin 128 → EReal) (L2 : Fin 128 → Fin 10 → EReal) (c2 : Fin 10 → EReal)
    (h0 : ∀ e k, V c main_v161 (ix2 e k) = X e k) (h1 : ∀ e, V c main_v164 (ix2 e 0) = S e)
    (h2 : ∀ l k, V c main_v166 (ix2 l k) = L1 l k) (h3 : ∀ k, V c main_v173 (ix2 0 k) = c1 k)
    (h4 : ∀ k l, V c main_v170 (ix2 k l) = L2 k l) (h5 : ∀ l, V c main_v174 (ix2 0 l) = c2 l) (g : Fin 128) (j : Fin 10) :
    (dat4 V c).arrAt 6 cfg4.N (ix2 g j) = Cert.Spec.poolOut X (fun e => (S e).toInt) L1 c1 L2 c2 g j := by
  rw [arr_of_last_r4 c (dat4 V c), after4_6_last V c lastPoint_r4 rfl]
  have hz := (index_r4 lastPoint_r4).2
  exact pool_of_steps N_4 (iblk4 V c 0) (iblk4 V c 1) (accAt4 V c) (cntAt4 V c) rfl (accAt4_step V c) rfl (cntAt4_step V c) X S
    (fun t r k => (featBlock_r4 V c t r k).trans (h0 _ k)) (fun t r => (segBlock_r4 V c t r).trans (h1 _)) _ _ _ _ L1 c1 L2 c2
    (fun l k => (congrArg (V c main_v166) (emb_zero win4_2 _ (fun a => (hz a).1) _ _ fun _ => rfl)).trans (h2 l k))
    (fun k => (congrArg (V c main_v173) (emb_zero win4_3 _ (fun a => (hz a).2.1) _ _ fun _ => rfl)).trans (h3 k))
    (fun k l => (congrArg (V c main_v170) (emb_zero win4_4 _ (fun a => (hz a).2.2.1) _ _ fun _ => rfl)).trans (h4 k l))
    (fun l => (congrArg (V c main_v174) (emb_zero win4_5 _ (fun a => (hz a).2.2.2.1) _ _ fun _ => rfl)).trans (h5 l)) g j

end Cert.Val.PoolArr

end
-- ==== Proof.Val.PoolBridge4.lean ====
import proofs.«428878_j20040317403499_2_alg».proof.Proof.KI.Pool4
import proofs.«428878_j20040317403499_2_alg».proof.Proof.Gen.ReferenceIdeal
import proofs.«428878_j20040317403499_2_alg».proof.Proof.Val.PoolArr4
import proofs.«428878_j20040317403499_2_alg».proof.Proof.Val.StagesApply
import Idealize.ShloMosaic.Lib.ValueIdx

noncomputable section

namespace Cert.Val.PoolBridge

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem pool_bridge4 (c : Dev nD)
    (h : FVec Ideal Cert.ReferenceIdeal.S50000x128 .f32) (batch : IVec Cert.ReferenceIdeal.S50000 32)
    (L1 : FVec Ideal Cert.ReferenceIdeal.S128x128 .f32) (c1 : FVec Ideal Cert.ReferenceIdeal.S128 .f32)
    (L2 : FVec Ideal Cert.ReferenceIdeal.S128x10 .f32) (c2 : FVec Ideal Cert.ReferenceIdeal.S10 .f32)
    (h0 : ∀ e k, V c main_v161 (ix2 e k) = h (ix2 e k)) (h1 : ∀ e, V c main_v164 (ix2 e 0) = batch (ix1 e))
    (h2 : ∀ l k, V c main_v166 (ix2 l k) = L1 (ix2 l k)) (h3 : ∀ k, V c main_v173 (ix2 0 k) = c1 (ix1 k))
    (h4 : ∀ k l, V c main_v170 (ix2 k l) = L2 (ix2 k l)) (h5 : ∀ l, V c main_v174 (ix2 0 l) = c2 (ix1 l)) :
    (Cert.KernelIdeal.Hand.dat4 V c).arrAt 6 Cert.KernelIdeal.cfg4.N = Cert.Val.Stages.pool (F := Ideal) h batch L1 c1 L2 c2 :=
  funext fun (i : (⟨2, ![128, 10]⟩ : Shape).Idx) => by
    obtain ⟨g, q, rfl⟩ : ∃ (g : Fin 128) (q : Fin 10), i = ix2 g q := ⟨i 0, i 1, eq_ix2 i⟩
    exact (Cert.Val.PoolArr.pool_arr4 V c _ _ _ _ _ _ h0 h1 h2 h3 h4 h5 g q).trans
      (Cert.Val.StagesApply.pool_apply h batch L1 c1 L2 c2 g q).symm

end Cert.Val.PoolBridge

end
-- ==== Proof.Val.GinBridge5.lean ====
import proofs.«428878_j20040317403499_2_alg».proof.Proof.KI.Gin5
import proofs.«428878_j20040317403499_2_alg».proof.Proof.Val.GinPayload

noncomputable section

open Idealize.ShloMosaic Idealize.ShloMosaic.TcCoe Idealize.SL.Sem

namespace Cert.Val.GinBridge

open Cert.KernelIdeal Cert.KernelIdeal.Gen Cert.KernelIdeal.Hand Cert.Val.GinPayload Idealize.ShloMosaic.ValueIdx

variable (V : (c : Dev nD) → (b : Ref sig .tc) → Buf (Elt Ideal) ((c : Thread nD τ).loc b))
variable [Cert.ReferenceIdeal.Facts₀]

theorem gin_idx5 : ∀ t : Fin cfg5.N, (win5_0.index t 0 = t.val ∧ win5_0.index t 1 = 0) ∧ (win5_9.index t 0 = t.val ∧ win5_9.index t 1 = 0)
    ∧ (∀ a, win5_1.index t a = 0) ∧ (∀ a, win5_2.index t a = 0) ∧ (∀ a, win5_3.index t a = 0) ∧ (∀ a, win5_4.index t a = 0)
    ∧ (∀ a, win5_5.index t a = 0) ∧ (∀ a, win5_6.index t a = 0) ∧ (∀ a, win5_7.index t a = 0) ∧ ∀ a, win5_8.index t a = 0 :=
  (by decide +kernel : ∀ t : Fin grid5.N, _)

theorem gin_blocks5 (c : Dev nD) (t : Fin cfg5.N) :
    (∀ (p : Fin 1000) (l : Fin 128) (r : Fin 50000), r.val = t.val * 1000 + p.val →
      iblk5 V c 0 t (ix2 p l) = V c main_v197 (ix2 r l))
    ∧ (∀ z, iblk5 V c 1 t z = V c main_v199 z) ∧ (∀ z, iblk5 V c 2 t z = V c main_v214 z)
    ∧ (∀ z, iblk5 V c 3 t z = V c main_v203 z) ∧ (∀ z, iblk5 V c 4 t z = V c main_v215 z)
    ∧ (∀ z, iblk5 V c 5 t z = V c main_v216 z) ∧ (∀ z, iblk5 V c 6 t z = V c main_v217 z)
    ∧ (∀ z, iblk5 V c 7 t z = V c main_v218 z) ∧ ∀ z, iblk5 V c 8 t z = V c main_v219 z := by
  obtain ⟨⟨a0, a1⟩, -, p1, p2, p3, p4, p5, p6, p7, p8⟩ := gin_idx5 t
  exact ⟨fun p l r hr => congrArg (V c main_v197) (Shape.idx_ext₂
      ((win5_0.rect_emb_val t (ix2 p l) 0).trans (by rw [a0]; exact hr.symm))
      (win5_0.rect_emb_val_of_index_zero t 1 a1 (ix2 p l))),
    fun z => read_of_index_zero win5_1 t p1 (V c main_v199) z z fun _ => rfl,
    fun z => read_of_index_zero win5_2 t p2 (V c main_v214) z z fun _ => rfl,
    fun z => read_of_index_zero win5_3 t p3 (V c main_v203) z z fun _ => rfl,
    fun z => read_of_index_zero win5_4 t p4 (V c main_v215) z z fun _ => rfl,
    fun z => read_of_index_zero win5_5 t p5 (V c main_v216) z z fun _ => rfl,
    fun z => read_of_index_zero win5_6 t p6 (V c main_v217) z z fun _ => rfl,
    fun z => read_of_index_zero win5_7 t p7 (V c main_v218) z z fun _ => rfl,
    fun z => read_of_index_zero win5_8 t p8 (V c main_v219) z z fun _ => rfl⟩

theorem gin_bridge5 (c : Dev nD) (comb : FVec Ideal Cert.ReferenceIdeal.S50000x128 .f32)
    (W1 W2 : FVec Ideal Cert.ReferenceIdeal.S128x128 .f32)
    (b1 b2 gamma beta mean var : FVec Ideal Cert.ReferenceIdeal.S128 .f32)
    (h0 : ∀ (i : Fin 50000) (l : Fin 128), V c main_v197 (ix2 i l) = comb (ix2 i l))
    (h1 : ∀ l k : Fin 128, V c main_v199 (ix2 l k) = W1 (ix2 l k))
    (h2 : ∀ k : Fin 128, V c main_v214 (ix2 0 k) = b1 (ix1 k))
    (h3 : ∀ l k : Fin 128, V c main_v203 (ix2 l k) = W2 (ix2 l k))
    (h4 : ∀ k : Fin 128, V c main_v215 (ix2 0 k) = b2 (ix1 k))
    (h5 : ∀ k : Fin 128, V c main_v216 (ix2 0 k) = gamma (ix1 k))
    (h6 : ∀ k : Fin 128, V c main_v217 (ix2 0 k) = beta (ix1 k))
    (h7 : ∀ k : Fin 128, V c main_v218 (ix2 0 k) = mean (ix1 k))
    (h8 : ∀ k : Fin 128, V c main_v219 (ix2 0 k) = var (ix1 k)) :
    (dat5 V c).arrAt 9 cfg5.N = Cert.Val.Stages.layer (F := Ideal) comb W1 b1 W2 b2 gamma beta mean var := by
  refine (dat5 V c).arrAt_eq_of_cover 9 _ (fun t _ => ?_) fun (i : S50000x128.Idx) => ?_
  · obtain ⟨-, ⟨o0, o1⟩, -⟩ := gin_idx5 t
    obtain ⟨q0, q1, q2, q3, q4, q5, q6, q7, q8⟩ := gin_blocks5 V c t
    show (cfg5.win 9).cut (grid5.coords t) ((dat5 V c).after 9 t) = _
    rw [after5_9]
    unfold out5_9
    rw [View.canon_unit_zero hz]
    simp only [View.ld_unit_zero (S := S1000x128) hz, View.ld_unit_zero (S := S128x128) hz,
      View.ld_unit_zero (S := S1x128) hz]
    funext y
    rw [View.read_apply]
    exact gin_block comb W1 W2 b1 b2 gamma beta mean var _ _ _ _ _ _ _ _ _ h0 h1 h2 h3 h4 h5 h6 h7 h8 _ _ _ _ _ _ _ _ _ y
      ((win5_9.rect t).emb y) (fun l => q0 _ l _ ((win5_9.rect_emb_val t y 0).trans (by rw [o0]; rfl))) q1 q2 q3 q4 q5 q6 q7 q8
      (win5_9.rect_emb_val_of_index_zero t 1 o1 y)
  · have hi : (i 0).val < 50000 := (i 0).isLt
    have ht : (i 0).val / 1000 < cfg5.N := by rw [show cfg5.N = 50 from N_5]; omega
    obtain ⟨-, ⟨o0, o1⟩, -⟩ := gin_idx5 ⟨_, ht⟩
    refine ⟨⟨_, ht⟩, flush5_9 _, ?_⟩
    show i ∈ ((View.whole main_v220).slice (win5_9.rect ⟨_, ht⟩)).set
    rw [View.set_slice_whole, Rect.mem_set_unit]
    intro a
    match a with
    | ⟨0, _⟩ =>
      show win5_9.index ⟨_, ht⟩ (0 : Fin 2) * 1000 ≤ (i 0).val ∧ (i 0).val < win5_9.index ⟨_, ht⟩ (0 : Fin 2) * 1000 + 1000
      rw [o0]; show (i 0).val / 1000 * 1000 ≤ (i 0).val ∧ (i 0).val < (i 0).val / 1000 * 1000 + 1000; omega
    | ⟨1, _⟩ =>
      show win5_9.index ⟨_, ht⟩ (1 : Fin 2) * 128 ≤ (i 1).val ∧ (i 1).val < win5_9.index ⟨_, ht⟩ (1 : Fin 2) * 128 + 128
      rw [o1]; have hj : (i 1).val < 128 := (i 1).isLt; omega

end Cert.Val.GinBridge

end
-- ==== Proof.Val.GinBridge6.lean ====
import proofs.«428878_j20040317403499_2_alg».proof.Proof.KI.Gin6
import proofs.«428878_j20040317403499_2_alg».proof.Proof.Val.GinPayload

noncomputable section

open Idealize.ShloMosaic Idealize.ShloMosaic.TcCoe Idealize.SL.Sem

namespace Cert.Val.GinBridge

open Cert.KernelIdeal Cert.KernelIdeal.Gen Cert.KernelIdeal.Hand Cert.Val.GinPayload Idealize.ShloMosaic.ValueIdx

variable (V : (c : Dev nD) → (b : Ref sig .tc) → Buf (Elt Ideal) ((c : Thread nD τ).loc b))
variable [Cert.ReferenceIdeal.Facts₀]

theorem gin_idx6 : ∀ t : Fin cfg6.N, (win6_0.index t 0 = t.val ∧ win6_0.index t 1 = 0) ∧ (win6_9.index t 0 = t.val ∧ win6_9.index t 1 = 0)
    ∧ (∀ a, win6_1.index t a = 0) ∧ (∀ a, win6_2.index t a = 0) ∧ (∀ a, win6_3.index t a = 0) ∧ (∀ a, win6_4.index t a = 0)
    ∧ (∀ a, win6_5.index t a = 0) ∧ (∀ a, win6_6.index t a = 0) ∧ (∀ a, win6_7.index t a = 0) ∧ ∀ a, win6_8.index t a = 0 :=
  (by decide +kernel : ∀ t : Fin grid6.N, _)

theorem gin_blocks6 (c : Dev nD) (t : Fin cfg6.N) :
    (∀ (p : Fin 1000) (l : Fin 128) (r : Fin 50000), r.val = t.val * 1000 + p.val →
      iblk6 V c 0 t (ix2 p l) = V c main_v236 (ix2 r l))
    ∧ (∀ z, iblk6 V c 1 t z = V c main_v238 z) ∧ (∀ z, iblk6 V c 2 t z = V c main_v253 z)
    ∧ (∀ z, iblk6 V c 3 t z = V c main_v242 z) ∧ (∀ z, iblk6 V c 4 t z = V c main_v254 z)
    ∧ (∀ z, iblk6 V c 5 t z = V c main_v255 z) ∧ (∀ z, iblk6 V c 6 t z = V c main_v256 z)
    ∧ (∀ z, iblk6 V c 7 t z = V c main_v257 z) ∧ ∀ z, iblk6 V c 8 t z = V c main_v258 z := by
  obtain ⟨⟨a0, a1⟩, -, p1, p2, p3, p4, p5, p6, p7, p8⟩ := gin_idx6 t
  exact ⟨fun p l r hr => congrArg (V c main_v236) (Shape.idx_ext₂
      ((win6_0.rect_emb_val t (ix2 p l) 0).trans (by rw [a0]; exact hr.symm))
      (win6_0.rect_emb_val_of_index_zero t 1 a1 (ix2 p l))),
    fun z => read_of_index_zero win6_1 t p1 (V c main_v238) z z fun _ => rfl,
    fun z => read_of_index_zero win6_2 t p2 (V c main_v253) z z fun _ => rfl,
    fun z => read_of_index_zero win6_3 t p3 (V c main_v242) z z fun _ => rfl,
    fun z => read_of_index_zero win6_4 t p4 (V c main_v254) z z fun _ => rfl,
    fun z => read_of_index_zero win6_5 t p5 (V c main_v255) z z fun _ => rfl,
    fun z => read_of_index_zero win6_6 t p6 (V c main_v256) z z fun _ => rfl,
    fun z => read_of_index_zero win6_7 t p7 (V c main_v257) z z fun _ => rfl,
    fun z => read_of_index_zero win6_8 t p8 (V c main_v258) z z fun _ => rfl⟩

theorem gin_bridge6 (c : Dev nD) (comb : FVec Ideal Cert.ReferenceIdeal.S50000x128 .f32)
    (W1 W2 : FVec Ideal Cert.ReferenceIdeal.S128x128 .f32)
    (b1 b2 gamma beta mean var : FVec Ideal Cert.ReferenceIdeal.S128 .f32)
    (h0 : ∀ (i : Fin 50000) (l : Fin 128), V c main_v236 (ix2 i l) = comb (ix2 i l))
    (h1 : ∀ l k : Fin 128, V c main_v238 (ix2 l k) = W1 (ix2 l k))
    (h2 : ∀ k : Fin 128, V c main_v253 (ix2 0 k) = b1 (ix1 k))
    (h3 : ∀ l k : Fin 128, V c main_v242 (ix2 l k) = W2 (ix2 l k))
    (h4 : ∀ k : Fin 128, V c main_v254 (ix2 0 k) = b2 (ix1 k))
    (h5 : ∀ k : Fin 128, V c main_v255 (ix2 0 k) = gamma (ix1 k))
    (h6 : ∀ k : Fin 128, V c main_v256 (ix2 0 k) = beta (ix1 k))
    (h7 : ∀ k : Fin 128, V c main_v257 (ix2 0 k) = mean (ix1 k))
    (h8 : ∀ k : Fin 128, V c main_v258 (ix2 0 k) = var (ix1 k)) :
    (dat6 V c).arrAt 9 cfg6.N = Cert.Val.Stages.layer (F := Ideal) comb W1 b1 W2 b2 gamma beta mean var := by
  refine (dat6 V c).arrAt_eq_of_cover 9 _ (fun t _ => ?_) fun (i : S50000x128.Idx) => ?_
  · obtain ⟨-, ⟨o0, o1⟩, -⟩ := gin_idx6 t
    obtain ⟨q0, q1, q2, q3, q4, q5, q6, q7, q8⟩ := gin_blocks6 V c t
    show (cfg6.win 9).cut (grid6.coords t) ((dat6 V c).after 9 t) = _
    rw [after6_9]
    unfold out6_9
    rw [View.canon_unit_zero hz]
    simp only [View.ld_unit_zero (S := S1000x128) hz, View.ld_unit_zero (S := S128x128) hz,
      View.ld_unit_zero (S := S1x128) hz]
    funext y
    rw [View.read_apply]
    exact gin_block comb W1 W2 b1 b2 gamma beta mean var _ _ _ _ _ _ _ _ _ h0 h1 h2 h3 h4 h5 h6 h7 h8 _ _ _ _ _ _ _ _ _ y
      ((win6_9.rect t).emb y) (fun l => q0 _ l _ ((win6_9.rect_emb_val t y 0).trans (by rw [o0]; rfl))) q1 q2 q3 q4 q5 q6 q7 q8
      (win6_9.rect_emb_val_of_index_zero t 1 o1 y)
  · have hi : (i 0).val < 50000 := (i 0).isLt
    have ht : (i 0).val / 1000 < cfg6.N := by rw [show cfg6.N = 50 from N_6]; omega
    obtain ⟨-, ⟨o0, o1⟩, -⟩ := gin_idx6 ⟨_, ht⟩
    refine ⟨⟨_, ht⟩, flush6_9 _, ?_⟩
    show i ∈ ((View.whole main_v259).slice (win6_9.rect ⟨_, ht⟩)).set
    rw [View.set_slice_whole, Rect.mem_set_unit]
    intro a
    match a with
    | ⟨0, _⟩ =>
      show win6_9.index ⟨_, ht⟩ (0 : Fin 2) * 1000 ≤ (i 0).val ∧ (i 0).val < win6_9.index ⟨_, ht⟩ (0 : Fin 2) * 1000 + 1000
      rw [o0]; show (i 0).val / 1000 * 1000 ≤ (i 0).val ∧ (i 0).val < (i 0).val / 1000 * 1000 + 1000; omega
    | ⟨1, _⟩ =>
      show win6_9.index ⟨_, ht⟩ (1 : Fin 2) * 128 ≤ (i 1).val ∧ (i 1).val < win6_9.index ⟨_, ht⟩ (1 : Fin 2) * 128 + 128
      rw [o1]; have hj : (i 1).val < 128 := (i 1).isLt; omega

end Cert.Val.GinBridge

end
-- ==== Proof.Val.GinBridge7.lean ====
import proofs.«428878_j20040317403499_2_alg».proof.Proof.KI.Gin7
import proofs.«428878_j20040317403499_2_alg».proof.Proof.Val.GinPayload

noncomputable section

open Idealize.ShloMosaic Idealize.ShloMosaic.TcCoe Idealize.SL.Sem

namespace Cert.Val.GinBridge

open Cert.KernelIdeal Cert.KernelIdeal.Gen Cert.KernelIdeal.Hand Cert.Val.GinPayload Idealize.ShloMosaic.ValueIdx

variable (V : (c : Dev nD) → (b : Ref sig .tc) → Buf (Elt Ideal) ((c : Thread nD τ).loc b))
variable [Cert.ReferenceIdeal.Facts₀]

theorem gin_idx7 : ∀ t : Fin cfg7.N, (win7_0.index t 0 = t.val ∧ win7_0.index t 1 = 0) ∧ (win7_9.index t 0 = t.val ∧ win7_9.index t 1 = 0)
    ∧ (∀ a, win7_1.index t a = 0) ∧ (∀ a, win7_2.index t a = 0) ∧ (∀ a, win7_3.index t a = 0) ∧ (∀ a, win7_4.index t a = 0)
    ∧ (∀ a, win7_5.index t a = 0) ∧ (∀ a, win7_6.index t a = 0) ∧ (∀ a, win7_7.index t a = 0) ∧ ∀ a, win7_8.index t a = 0 :=
  (by decide +kernel : ∀ t : Fin grid7.N, _)

theorem gin_blocks7 (c : Dev nD) (t : Fin cfg7.N) :
    (∀ (p : Fin 1000) (l : Fin 128) (r : Fin 50000), r.val = t.val * 1000 + p.val →
      iblk7 V c 0 t (ix2 p l) = V c main_v275 (ix2 r l))
    ∧ (∀ z, iblk7 V c 1 t z = V c main_v277 z) ∧ (∀ z, iblk7 V c 2 t z = V c main_v292 z)
    ∧ (∀ z, iblk7 V c 3 t z = V c main_v281 z) ∧ (∀ z, iblk7 V c 4 t z = V c main_v293 z)
    ∧ (∀ z, iblk7 V c 5 t z = V c main_v294 z) ∧ (∀ z, iblk7 V c 6 t z = V c main_v295 z)
    ∧ (∀ z, iblk7 V c 7 t z = V c main_v296 z) ∧ ∀ z, iblk7 V c 8 t z = V c main_v297 z := by
  obtain ⟨⟨a0, a1⟩, -, p1, p2, p3, p4, p5, p6, p7, p8⟩ := gin_idx7 t
  exact ⟨fun p l r hr => congrArg (V c main_v275) (Shape.idx_ext₂
      ((win7_0.rect_emb_val t (ix2 p l) 0).trans (by rw [a0]; exact hr.symm))
      (win7_0.rect_emb_val_of_index_zero t 1 a1 (ix2 p l))),
    fun z => read_of_index_zero win7_1 t p1 (V c main_v277) z z fun _ => rfl,
    fun z => read_of_index_zero win7_2 t p2 (V c main_v292) z z fun _ => rfl,
    fun z => read_of_index_zero win7_3 t p3 (V c main_v281) z z fun _ => rfl,
    fun z => read_of_index_zero win7_4 t p4 (V c main_v293) z z fun _ => rfl,
    fun z => read_of_index_zero win7_5 t p5 (V c main_v294) z z fun _ => rfl,
    fun z => read_of_index_zero win7_6 t p6 (V c main_v295) z z fun _ => rfl,
    fun z => read_of_index_zero win7_7 t p7 (V c main_v296) z z fun _ => rfl,
    fun z => read_of_index_zero win7_8 t p8 (V c main_v297) z z fun _ => rfl⟩

theorem gin_bridge7 (c : Dev nD) (comb : FVec Ideal Cert.ReferenceIdeal.S50000x128 .f32)
    (W1 W2 : FVec Ideal Cert.ReferenceIdeal.S128x128 .f32)
    (b1 b2 gamma beta mean var : FVec Ideal Cert.ReferenceIdeal.S128 .f32)
    (h0 : ∀ (i : Fin 50000) (l : Fin 128), V c main_v275 (ix2 i l) = comb (ix2 i l))
    (h1 : ∀ l k : Fin 128, V c main_v277 (ix2 l k) = W1 (ix2 l k))
    (h2 : ∀ k : Fin 128, V c main_v292 (ix2 0 k) = b1 (ix1 k))
    (h3 : ∀ l k : Fin 128, V c main_v281 (ix2 l k) = W2 (ix2 l k))
    (h4 : ∀ k : Fin 128, V c main_v293 (ix2 0 k) = b2 (ix1 k))
    (h5 : ∀ k : Fin 128, V c main_v294 (ix2 0 k) = gamma (ix1 k))
    (h6 : ∀ k : Fin 128, V c main_v295 (ix2 0 k) = beta (ix1 k))
    (h7 : ∀ k : Fin 128, V c main_v296 (ix2 0 k) = mean (ix1 k))
    (h8 : ∀ k : Fin 128, V c main_v297 (ix2 0 k) = var (ix1 k)) :
    (dat7 V c).arrAt 9 cfg7.N = Cert.Val.Stages.layer (F := Ideal) comb W1 b1 W2 b2 gamma beta mean var := by
  refine (dat7 V c).arrAt_eq_of_cover 9 _ (fun t _ => ?_) fun (i : S50000x128.Idx) => ?_
  · obtain ⟨-, ⟨o0, o1⟩, -⟩ := gin_idx7 t
    obtain ⟨q0, q1, q2, q3, q4, q5, q6, q7, q8⟩ := gin_blocks7 V c t
    show (cfg7.win 9).cut (grid7.coords t) ((dat7 V c).after 9 t) = _
    rw [after7_9]
    unfold out7_9
    rw [View.canon_unit_zero hz]
    simp only [View.ld_unit_zero (S := S1000x128) hz, View.ld_unit_zero (S := S128x128) hz,
      View.ld_unit_zero (S := S1x128) hz]
    funext y
    rw [View.read_apply]
    exact gin_block comb W1 W2 b1 b2 gamma beta mean var _ _ _ _ _ _ _ _ _ h0 h1 h2 h3 h4 h5 h6 h7 h8 _ _ _ _ _ _ _ _ _ y
      ((win7_9.rect t).emb y) (fun l => q0 _ l _ ((win7_9.rect_emb_val t y 0).trans (by rw [o0]; rfl))) q1 q2 q3 q4 q5 q6 q7 q8
      (win7_9.rect_emb_val_of_index_zero t 1 o1 y)
  · have hi : (i 0).val < 50000 := (i 0).isLt
    have ht : (i 0).val / 1000 < cfg7.N := by rw [show cfg7.N = 50 from N_7]; omega
    obtain ⟨-, ⟨o0, o1⟩, -⟩ := gin_idx7 ⟨_, ht⟩
    refine ⟨⟨_, ht⟩, flush7_9 _, ?_⟩
    show i ∈ ((View.whole main_v298).slice (win7_9.rect ⟨_, ht⟩)).set
    rw [View.set_slice_whole, Rect.mem_set_unit]
    intro a
    match a with
    | ⟨0, _⟩ =>
      show win7_9.index ⟨_, ht⟩ (0 : Fin 2) * 1000 ≤ (i 0).val ∧ (i 0).val < win7_9.index ⟨_, ht⟩ (0 : Fin 2) * 1000 + 1000
      rw [o0]; show (i 0).val / 1000 * 1000 ≤ (i 0).val ∧ (i 0).val < (i 0).val / 1000 * 1000 + 1000; omega
    | ⟨1, _⟩ =>
      show win7_9.index ⟨_, ht⟩ (1 : Fin 2) * 128 ≤ (i 1).val ∧ (i 1).val < win7_9.index ⟨_, ht⟩ (1 : Fin 2) * 128 + 128
      rw [o1]; have hj : (i 1).val < 128 := (i 1).isLt; omega

end Cert.Val.GinBridge

end
-- ==== Proof.Val.GinBridge8.lean ====
import proofs.«428878_j20040317403499_2_alg».proof.Proof.KI.Gin8
import proofs.«428878_j20040317403499_2_alg».proof.Proof.Val.GinPayload

noncomputable section

open Idealize.ShloMosaic Idealize.ShloMosaic.TcCoe Idealize.SL.Sem

namespace Cert.Val.GinBridge

open Cert.KernelIdeal Cert.KernelIdeal.Gen Cert.KernelIdeal.Hand Cert.Val.GinPayload Idealize.ShloMosaic.ValueIdx

variable (V : (c : Dev nD) → (b : Ref sig .tc) → Buf (Elt Ideal) ((c : Thread nD τ).loc b))
variable [Cert.ReferenceIdeal.Facts₀]

theorem gin_idx8 : ∀ t : Fin cfg8.N, (win8_0.index t 0 = t.val ∧ win8_0.index t 1 = 0) ∧ (win8_9.index t 0 = t.val ∧ win8_9.index t 1 = 0)
    ∧ (∀ a, win8_1.index t a = 0) ∧ (∀ a, win8_2.index t a = 0) ∧ (∀ a, win8_3.index t a = 0) ∧ (∀ a, win8_4.index t a = 0)
    ∧ (∀ a, win8_5.index t a = 0) ∧ (∀ a, win8_6.index t a = 0) ∧ (∀ a, win8_7.index t a = 0) ∧ ∀ a, win8_8.index t a = 0 :=
  (by decide +kernel : ∀ t : Fin grid8.N, _)

theorem gin_blocks8 (c : Dev nD) (t : Fin cfg8.N) :
    (∀ (p : Fin 1000) (l : Fin 128) (r : Fin 50000), r.val = t.val * 1000 + p.val →
      iblk8 V c 0 t (ix2 p l) = V c main_v314 (ix2 r l))
    ∧ (∀ z, iblk8 V c 1 t z = V c main_v316 z) ∧ (∀ z, iblk8 V c 2 t z = V c main_v331 z)
    ∧ (∀ z, iblk8 V c 3 t z = V c main_v320 z) ∧ (∀ z, iblk8 V c 4 t z = V c main_v332 z)
    ∧ (∀ z, iblk8 V c 5 t z = V c main_v333 z) ∧ (∀ z, iblk8 V c 6 t z = V c main_v334 z)
    ∧ (∀ z, iblk8 V c 7 t z = V c main_v335 z) ∧ ∀ z, iblk8 V c 8 t z = V c main_v336 z := by
  obtain ⟨⟨a0, a1⟩, -, p1, p2, p3, p4, p5, p6, p7, p8⟩ := gin_idx8 t
  exact ⟨fun p l r hr => congrArg (V c main_v314) (Shape.idx_ext₂
      ((win8_0.rect_emb_val t (ix2 p l) 0).trans (by rw [a0]; exact hr.symm))
      (win8_0.rect_emb_val_of_index_zero t 1 a1 (ix2 p l))),
    fun z => read_of_index_zero win8_1 t p1 (V c main_v316) z z fun _ => rfl,
    fun z => read_of_index_zero win8_2 t p2 (V c main_v331) z z fun _ => rfl,
    fun z => read_of_index_zero win8_3 t p3 (V c main_v320) z z fun _ => rfl,
    fun z => read_of_index_zero win8_4 t p4 (V c main_v332) z z fun _ => rfl,
    fun z => read_of_index_zero win8_5 t p5 (V c main_v333) z z fun _ => rfl,
    fun z => read_of_index_zero win8_6 t p6 (V c main_v334) z z fun _ => rfl,
    fun z => read_of_index_zero win8_7 t p7 (V c main_v335) z z fun _ => rfl,
    fun z => read_of_index_zero win8_8 t p8 (V c main_v336) z z fun _ => rfl⟩

theorem gin_bridge8 (c : Dev nD) (comb : FVec Ideal Cert.ReferenceIdeal.S50000x128 .f32)
    (W1 W2 : FVec Ideal Cert.ReferenceIdeal.S128x128 .f32)
    (b1 b2 gamma beta mean var : FVec Ideal Cert.ReferenceIdeal.S128 .f32)
    (h0 : ∀ (i : Fin 50000) (l : Fin 128), V c main_v314 (ix2 i l) = comb (ix2 i l))
    (h1 : ∀ l k : Fin 128, V c main_v316 (ix2 l k) = W1 (ix2 l k))
    (h2 : ∀ k : Fin 128, V c main_v331 (ix2 0 k) = b1 (ix1 k))
    (h3 : ∀ l k : Fin 128, V c main_v320 (ix2 l k) = W2 (ix2 l k))
    (h4 : ∀ k : Fin 128, V c main_v332 (ix2 0 k) = b2 (ix1 k))
    (h5 : ∀ k : Fin 128, V c main_v333 (ix2 0 k) = gamma (ix1 k))
    (h6 : ∀ k : Fin 128, V c main_v334 (ix2 0 k) = beta (ix1 k))
    (h7 : ∀ k : Fin 128, V c main_v335 (ix2 0 k) = mean (ix1 k))
    (h8 : ∀ k : Fin 128, V c main_v336 (ix2 0 k) = var (ix1 k)) :
    (dat8 V c).arrAt 9 cfg8.N = Cert.Val.Stages.layer (F := Ideal) comb W1 b1 W2 b2 gamma beta mean var := by
  refine (dat8 V c).arrAt_eq_of_cover 9 _ (fun t _ => ?_) fun (i : S50000x128.Idx) => ?_
  · obtain ⟨-, ⟨o0, o1⟩, -⟩ := gin_idx8 t
    obtain ⟨q0, q1, q2, q3, q4, q5, q6, q7, q8⟩ := gin_blocks8 V c t
    show (cfg8.win 9).cut (grid8.coords t) ((dat8 V c).after 9 t) = _
    rw [after8_9]
    unfold out8_9
    rw [View.canon_unit_zero hz]
    simp only [View.ld_unit_zero (S := S1000x128) hz, View.ld_unit_zero (S := S128x128) hz,
      View.ld_unit_zero (S := S1x128) hz]
    funext y
    rw [View.read_apply]
    exact gin_block comb W1 W2 b1 b2 gamma beta mean var _ _ _ _ _ _ _ _ _ h0 h1 h2 h3 h4 h5 h6 h7 h8 _ _ _ _ _ _ _ _ _ y
      ((win8_9.rect t).emb y) (fun l => q0 _ l _ ((win8_9.rect_emb_val t y 0).trans (by rw [o0]; rfl))) q1 q2 q3 q4 q5 q6 q7 q8
      (win8_9.rect_emb_val_of_index_zero t 1 o1 y)
  · have hi : (i 0).val < 50000 := (i 0).isLt
    have ht : (i 0).val / 1000 < cfg8.N := by rw [show cfg8.N = 50 from N_8]; omega
    obtain ⟨-, ⟨o0, o1⟩, -⟩ := gin_idx8 ⟨_, ht⟩
    refine ⟨⟨_, ht⟩, flush8_9 _, ?_⟩
    show i ∈ ((View.whole main_v337).slice (win8_9.rect ⟨_, ht⟩)).set
    rw [View.set_slice_whole, Rect.mem_set_unit]
    intro a
    match a with
    | ⟨0, _⟩ =>
      show win8_9.index ⟨_, ht⟩ (0 : Fin 2) * 1000 ≤ (i 0).val ∧ (i 0).val < win8_9.index ⟨_, ht⟩ (0 : Fin 2) * 1000 + 1000
      rw [o0]; show (i 0).val / 1000 * 1000 ≤ (i 0).val ∧ (i 0).val < (i 0).val / 1000 * 1000 + 1000; omega
    | ⟨1, _⟩ =>
      show win8_9.index ⟨_, ht⟩ (1 : Fin 2) * 128 ≤ (i 1).val ∧ (i 1).val < win8_9.index ⟨_, ht⟩ (1 : Fin 2) * 128 + 128
      rw [o1]; have hj : (i 1).val < 128 := (i 1).isLt; omega

end Cert.Val.GinBridge

end
-- ==== Proof.Val.PoolArr9.lean ====
import proofs.«428878_j20040317403499_2_alg».proof.Proof.Gen.KernelIdeal.Launch
import proofs.«428878_j20040317403499_2_alg».proof.Proof.Gen.KernelIdeal.Skeleton
import proofs.«428878_j20040317403499_2_alg».proof.Proof.Gen.KernelIdeal.Points
import proofs.«428878_j20040317403499_2_alg».proof.Proof.Val.Spec
import Idealize.ShloMosaic.Lib.Pipeline.Value
import Idealize.ShloMosaic.Lib.ValueLayout
import proofs.«428878_j20040317403499_2_alg».proof.Proof.Val.PoolPayload
import proofs.«428878_j20040317403499_2_alg».proof.Proof.KI.Pool9

noncomputable section

namespace Cert.Val.PoolArr

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open Cert.Val.PoolPayload

variable (V : (c : Dev nD) → (b : Ref sig .tc) → Buf (Elt Ideal) ((c : Thread nD τ).loc b))

theorem point_lt_r9 (t : Fin cfg9.N) : t.val < 50 := lt_of_lt_of_eq t.isLt N_9

abbrev lastPoint_r9 : Fin cfg9.N := ⟨49, by rw [show cfg9.N = 50 from N_9]; decide⟩

theorem index_r9 : ∀ t : Fin cfg9.N,
    (win9_0.index t 0 = t.val ∧ win9_0.index t 1 = 0 ∧ win9_1.index t 0 = t.val ∧ win9_1.index t 1 = 0) ∧
      ∀ a : Fin 2, win9_2.index t a = 0 ∧ win9_3.index t a = 0 ∧ win9_4.index t a = 0 ∧ win9_5.index t a = 0 ∧ win9_6.index t a = 0 :=
  by decide +kernel

/-- Row r of the block at point t is node 1000 t + r. -/
theorem featBlock_r9 (c : Dev nD) (t : Fin cfg9.N) (r : Fin 1000) (k : Fin 128) :
    iblk9 V c 0 t (ix2 r k) = V c main_v337 (ix2 ⟨1000 * t.val + r.val, by have := point_lt_r9 t; omega⟩ k) :=
  congrArg (V c main_v337) (Shape.idx_ext₂
    (show win9_0.index t 0 * 1000 + 1 * r.val = 1000 * t.val + r.val by rw [(index_r9 t).1.1]; omega)
    (win9_0.rect_emb_val_of_index_zero t 1 (index_r9 t).1.2.1 _))

theorem segBlock_r9 (c : Dev nD) (t : Fin cfg9.N) (r : Fin 1000) :
    iblk9 V c 1 t (ix2 r 0) = V c main_v340 (ix2 ⟨1000 * t.val + r.val, by have := point_lt_r9 t; omega⟩ 0) :=
  congrArg (V c main_v340) (Shape.idx_ext₂
    (show win9_1.index t 0 * 1000 + 1 * r.val = 1000 * t.val + r.val by rw [(index_r9 t).1.2.2.1]; omega)
    (win9_1.rect_emb_val_of_index_zero t 1 (index_r9 t).1.2.2.2 _))

theorem arr_of_last_r9 (c : Dev nD) (dat : Dat τ (Elt Ideal) Unit ℕ (UR sig nD τ) ℕ cfg9 c) :
    dat.arrAt 6 cfg9.N = dat.after 6 lastPoint_r9 := by
  have hz := fun a => ((index_r9 lastPoint_r9).2 a).2.2.2.2
  refine dat.arrAt_eq_of_cover 6 _ (fun t hf => ?_) fun i => ⟨lastPoint_r9, (flush9_6 _).mpr rfl, ?_⟩
  · obtain rfl : t = lastPoint_r9 := Fin.ext (show t.val = 49 by have := (flush9_6 t).mp hf; have := point_lt_r9 t; omega)
    exact funext fun y => congrArg (dat.after 6 lastPoint_r9) (emb_zero win9_6 _ hz y _ fun _ => rfl).symm
  · show i ∈ ((View.whole main_v351).slice (win9_6.rect lastPoint_r9)).set
    rw [View.set_slice_whole]
    exact View.mem_set_unit_zero (funext fun a => by rw [hz a, Nat.zero_mul]) _ i

theorem pool_arr9 (c : Dev nD) (X : Fin 50000 → Fin 128 → EReal) (S : Fin 50000 → BitVec 32)
    (L1 : Fin 128 → Fin 128 → EReal) (c1 : Fin 128 → EReal) (L2 : Fin 128 → Fin 10 → EReal) (c2 : Fin 10 → EReal)
    (h0 : ∀ e k, V c main_v337 (ix2 e k) = X e k) (h1 : ∀ e, V c main_v340 (ix2 e 0) = S e)
    (h2 : ∀ l k, V c main_v342 (ix2 l k) = L1 l k) (h3 : ∀ k, V c main_v349 (ix2 0 k) = c1 k)
    (h4 : ∀ k l, V c main_v346 (ix2 k l) = L2 k l) (h5 : ∀ l, V c main_v350 (ix2 0 l) = c2 l) (g : Fin 128) (j : Fin 10) :
    (dat9 V c).arrAt 6 cfg9.N (ix2 g j) = Cert.Spec.poolOut X (fun e => (S e).toInt) L1 c1 L2 c2 g j := by
  rw [arr_of_last_r9 c (dat9 V c), after9_6_last V c lastPoint_r9 rfl]
  have hz := (index_r9 lastPoint_r9).2
  exact pool_of_steps N_9 (iblk9 V c 0) (iblk9 V c 1) (accAt9 V c) (cntAt9 V c) rfl (accAt9_step V c) rfl (cntAt9_step V c) X S
    (fun t r k => (featBlock_r9 V c t r k).trans (h0 _ k)) (fun t r => (segBlock_r9 V c t r).trans (h1 _)) _ _ _ _ L1 c1 L2 c2
    (fun l k => (congrArg (V c main_v342) (emb_zero win9_2 _ (fun a => (hz a).1) _ _ fun _ => rfl)).trans (h2 l k))
    (fun k => (congrArg (V c main_v349) (emb_zero win9_3 _ (fun a => (hz a).2.1) _ _ fun _ => rfl)).trans (h3 k))
    (fun k l => (congrArg (V c main_v346) (emb_zero win9_4 _ (fun a => (hz a).2.2.1) _ _ fun _ => rfl)).trans (h4 k l))
    (fun l => (congrArg (V c main_v350) (emb_zero win9_5 _ (fun a => (hz a).2.2.2.1) _ _ fun _ => rfl)).trans (h5 l)) g j

end Cert.Val.PoolArr

end
-- ==== Proof.Val.PoolBridge9.lean ====
import proofs.«428878_j20040317403499_2_alg».proof.Proof.KI.Pool9
import proofs.«428878_j20040317403499_2_alg».proof.Proof.Gen.ReferenceIdeal
import proofs.«428878_j20040317403499_2_alg».proof.Proof.Val.PoolArr9
import proofs.«428878_j20040317403499_2_alg».proof.Proof.Val.StagesApply
import Idealize.ShloMosaic.Lib.ValueIdx

noncomputable section

namespace Cert.Val.PoolBridge

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem pool_bridge9 (c : Dev nD)
    (h : FVec Ideal Cert.ReferenceIdeal.S50000x128 .f32) (batch : IVec Cert.ReferenceIdeal.S50000 32)
    (L1 : FVec Ideal Cert.ReferenceIdeal.S128x128 .f32) (c1 : FVec Ideal Cert.ReferenceIdeal.S128 .f32)
    (L2 : FVec Ideal Cert.ReferenceIdeal.S128x10 .f32) (c2 : FVec Ideal Cert.ReferenceIdeal.S10 .f32)
    (h0 : ∀ e k, V c main_v337 (ix2 e k) = h (ix2 e k)) (h1 : ∀ e, V c main_v340 (ix2 e 0) = batch (ix1 e))
    (h2 : ∀ l k, V c main_v342 (ix2 l k) = L1 (ix2 l k)) (h3 : ∀ k, V c main_v349 (ix2 0 k) = c1 (ix1 k))
    (h4 : ∀ k l, V c main_v346 (ix2 k l) = L2 (ix2 k l)) (h5 : ∀ l, V c main_v350 (ix2 0 l) = c2 (ix1 l)) :
    (Cert.KernelIdeal.Hand.dat9 V c).arrAt 6 Cert.KernelIdeal.cfg9.N = Cert.Val.Stages.pool (F := Ideal) h batch L1 c1 L2 c2 :=
  funext fun (i : (⟨2, ![128, 10]⟩ : Shape).Idx) => by
    obtain ⟨g, q, rfl⟩ : ∃ (g : Fin 128) (q : Fin 10), i = ix2 g q := ⟨i 0, i 1, eq_ix2 i⟩
    exact (Cert.Val.PoolArr.pool_arr9 V c _ _ _ _ _ _ h0 h1 h2 h3 h4 h5 g q).trans
      (Cert.Val.StagesApply.pool_apply h batch L1 c1 L2 c2 g q).symm

end Cert.Val.PoolBridge

end
-- ==== Proof.Val.KerTop.lean ====
import proofs.«428878_j20040317403499_2_alg».proof.Proof.Val.KerStretch
import proofs.«428878_j20040317403499_2_alg».proof.Proof.Val.KerStretchB
import proofs.«428878_j20040317403499_2_alg».proof.Proof.KI.RunVals
import proofs.«428878_j20040317403499_2_alg».proof.Proof.Val.GinBridge0
import proofs.«428878_j20040317403499_2_alg».proof.Proof.Val.GinBridge1
import proofs.«428878_j20040317403499_2_alg».proof.Proof.Val.GinBridge2
import proofs.«428878_j20040317403499_2_alg».proof.Proof.Val.GinBridge3
import proofs.«428878_j20040317403499_2_alg».proof.Proof.Val.PoolBridge4
import proofs.«428878_j20040317403499_2_alg».proof.Proof.Val.GinBridge5
import proofs.«428878_j20040317403499_2_alg».proof.Proof.Val.GinBridge6
import proofs.«428878_j20040317403499_2_alg».proof.Proof.Val.GinBridge7
import proofs.«428878_j20040317403499_2_alg».proof.Proof.Val.GinBridge8
import proofs.«428878_j20040317403499_2_alg».proof.Proof.Val.PoolBridge9

set_option maxRecDepth 16384

noncomputable section

namespace Cert.Val.KerTop

open Cert.KernelIdeal Cert.KernelIdeal.Gen Cert.KernelIdeal.Hand
open Idealize.ShloMosaic Idealize.ShloMosaic.TcCoe Idealize.ShloMosaic.StableHlo Idealize.ShloMosaic.ValueIdx
open Idealize.SL.Sem
open Idealize.ShloMosaic.Pipeline (Dat)
open Cert.Val.Net Cert.Val.Stages Cert.Val.KerStretch Cert.Val.GinBridge Cert.Val.PoolBridge

section Frames

variable {F : FTy → Type} [FloatOps F]

/-- A stretch and then a region that writes one array keep every buffer neither writes. -/
theorem keep_step {rs ws : List (Ref sig .tc)} {ops : List (HloOp τ sig (Elt F))}
    (hw : ops.Forall fun op => op.writes ⊆ (ws.map (Proc.devRef (τ := τ) .tc)).toFinset)
    {Wb W W' : Valuation τ sig (Elt F)} {out : Ref sig .tc}
    (hof : ∀ r : Ref sig .tc, r ∉ ([out] : List (Ref sig .tc)) →
      W' (Proc.devRef .tc r) = StableHlo.after ops W (Proc.devRef .tc r))
    (h0 : ∀ r ∈ rs, W (Proc.devRef .tc r) = Wb (Proc.devRef .tc r))
    (h : ∀ r ∈ rs, r ∉ ws ∧ r ∉ ([out] : List (Ref sig .tc))) :
    ∀ r ∈ rs, W' (Proc.devRef .tc r) = Wb (Proc.devRef .tc r) := fun r hr =>
  ((hof r (h r hr).2).trans (after_of_writes_sub ops W hw (h r hr).1)).trans (h0 r hr)

abbrev argRefs : List (Ref sig .tc) :=
  [main_arg0, main_arg1, main_arg2, main_arg3, main_arg4, main_arg5, main_arg6, main_arg7, main_arg8, main_arg9,
   main_arg10, main_arg11, main_arg12, main_arg13, main_arg14, main_arg15, main_arg16, main_arg17, main_arg18, main_arg19,
   main_arg20, main_arg21, main_arg22, main_arg23, main_arg24]

end Frames

/-- A layer region whose operand arrays hold an aggregation stage, two matrices and six vectors as rows leaves the layer of them. -/
theorem gin_of {out v0 : FVec Ideal S50000x128 .f32} {v1 v3 : FVec Ideal S128x128 .f32}
    {v2 v4 v5 v6 v7 v8 : FVec Ideal S1x128 .f32}
    (bridge : ∀ (comb : FVec Ideal S50000x128 .f32) (W1 W2 : FVec Ideal S128x128 .f32)
      (b1 b2 g be mu va : FVec Ideal S128 .f32),
      (∀ (i : Fin 50000) (l : Fin 128), v0 (ix2 i l) = comb (ix2 i l)) → (∀ l k : Fin 128, v1 (ix2 l k) = W1 (ix2 l k)) →
      (∀ k : Fin 128, v2 (ix2 0 k) = b1 (ix1 k)) → (∀ l k : Fin 128, v3 (ix2 l k) = W2 (ix2 l k)) →
      (∀ k : Fin 128, v4 (ix2 0 k) = b2 (ix1 k)) → (∀ k : Fin 128, v5 (ix2 0 k) = g (ix1 k)) →
      (∀ k : Fin 128, v6 (ix2 0 k) = be (ix1 k)) → (∀ k : Fin 128, v7 (ix2 0 k) = mu (ix1 k)) →
      (∀ k : Fin 128, v8 (ix2 0 k) = va (ix1 k)) → out = layer comb W1 b1 W2 b2 g be mu va)
    {h src dst eps M1 M2 x1 x2 x3 x4 x5 x6}
    (e : v0 = aggComb h src dst eps ∧ v1 = M1 ∧ v2 = rowOf x1 ∧ v3 = M2 ∧ v4 = rowOf x2 ∧ v5 = rowOf x3 ∧
      v6 = rowOf x4 ∧ v7 = rowOf x5 ∧ v8 = rowOf x6) :
    out = gin h src dst eps M1 x1 M2 x2 x3 x4 x5 x6 := by
  obtain ⟨rfl, rfl, rfl, rfl, rfl, rfl, rfl, rfl, rfl⟩ := e
  exact bridge _ _ _ _ _ _ _ _ _ (fun _ _ => rfl) (fun _ _ => rfl) (rowOf_apply _) (fun _ _ => rfl) (rowOf_apply _)
    (rowOf_apply _) (rowOf_apply _) (rowOf_apply _) (rowOf_apply _)

/-- A read-out region whose operand arrays hold node rows, graph numbers as a column and a head leaves the read-out of them. -/
theorem pool_of {out : FVec Ideal S128x10 .f32} {v0 : FVec Ideal S50000x128 .f32} {v1 : IVec S50000x1 32}
    {v2 : FVec Ideal S128x128 .f32} {v3 : FVec Ideal S1x128 .f32} {v4 : FVec Ideal S128x10 .f32} {v5 : FVec Ideal S1x10 .f32}
    (bridge : ∀ (h : FVec Ideal S50000x128 .f32) (batch : IVec S50000 32) (L1 : FVec Ideal S128x128 .f32)
      (c1 : FVec Ideal S128 .f32) (L2 : FVec Ideal S128x10 .f32) (c2 : FVec Ideal S10 .f32),
      (∀ (e : Fin 50000) (k : Fin 128), v0 (ix2 e k) = h (ix2 e k)) → (∀ e : Fin 50000, v1 (ix2 e 0) = batch (ix1 e)) →
      (∀ l k : Fin 128, v2 (ix2 l k) = L1 (ix2 l k)) → (∀ k : Fin 128, v3 (ix2 0 k) = c1 (ix1 k)) →
      (∀ (k : Fin 128) (l : Fin 10), v4 (ix2 k l) = L2 (ix2 k l)) → (∀ l : Fin 10, v5 (ix2 0 l) = c2 (ix1 l)) →
      out = pool h batch L1 c1 L2 c2)
    {h b M1 x1 M2 x2} (e0 : v0 = h)
    (e : v1 = colOf b ∧ v2 = M1 ∧ v3 = rowOf x1 ∧ v4 = M2 ∧ v5 = row10Of x2) : out = pool h b M1 x1 M2 x2 := by
  obtain ⟨rfl, rfl, rfl, rfl, rfl⟩ := e
  subst e0
  exact bridge _ _ _ _ _ _ (fun _ _ => rfl) (colOf_apply _) (fun _ _ => rfl) (rowOf_apply _) (fun _ _ => rfl)
    (row10Of_apply _)

section Chain

variable (m : (ℓ : Loc nD τ sig) → Buf (Elt Ideal) ℓ) (c : Dev nD)

theorem A2 : ∀ r ∈ argRefs, W2 m c (Proc.devRef .tc r) = W0 m c (Proc.devRef .tc r) :=
  keep_step hostOps0_writes (W2_of m c) (fun _ _ => rfl) (by decide +kernel)
theorem A4 : ∀ r ∈ argRefs, W4 m c (Proc.devRef .tc r) = W0 m c (Proc.devRef .tc r) :=
  keep_step hostOps1_writes (W4_of m c) (A2 m c) (by decide +kernel)
theorem A6 : ∀ r ∈ argRefs, W6 m c (Proc.devRef .tc r) = W0 m c (Proc.devRef .tc r) :=
  keep_step hostOps2_writes (W6_of m c) (A4 m c) (by decide +kernel)
theorem A8 : ∀ r ∈ argRefs, W8 m c (Proc.devRef .tc r) = W0 m c (Proc.devRef .tc r) :=
  keep_step hostOps3_writes (W8_of m c) (A6 m c) (by decide +kernel)
theorem A10 : ∀ r ∈ argRefs, W10 m c (Proc.devRef .tc r) = W0 m c (Proc.devRef .tc r) :=
  keep_step hostOps4_writes (W10_of m c) (A8 m c) (by decide +kernel)
theorem E4 : ∀ r ∈ ([main_v1, main_v3] : List (Ref sig .tc)), W4 m c (Proc.devRef .tc r) = W2 m c (Proc.devRef .tc r) :=
  keep_step hostOps1_writes (W4_of m c) (fun _ _ => rfl) (by decide +kernel)
theorem E6 : ∀ r ∈ ([main_v1, main_v3] : List (Ref sig .tc)), W6 m c (Proc.devRef .tc r) = W2 m c (Proc.devRef .tc r) :=
  keep_step hostOps2_writes (W6_of m c) (E4 m c) (by decide +kernel)
theorem B12 : ∀ r ∈ main_v175 :: argRefs, W12 m c (Proc.devRef .tc r) = W10 m c (Proc.devRef .tc r) :=
  keep_step hostOps5_writes (W12_of m c) (fun _ _ => rfl) (by decide +kernel)
theorem B14 : ∀ r ∈ main_v175 :: argRefs, W14 m c (Proc.devRef .tc r) = W10 m c (Proc.devRef .tc r) :=
  keep_step hostOps6_writes (W14_of m c) (B12 m c) (by decide +kernel)
theorem B16 : ∀ r ∈ main_v175 :: argRefs, W16 m c (Proc.devRef .tc r) = W10 m c (Proc.devRef .tc r) :=
  keep_step hostOps7_writes (W16_of m c) (B14 m c) (by decide +kernel)
theorem B18 : ∀ r ∈ main_v175 :: argRefs, W18 m c (Proc.devRef .tc r) = W10 m c (Proc.devRef .tc r) :=
  keep_step hostOps8_writes (W18_of m c) (B16 m c) (by decide +kernel)
theorem B20 : ∀ r ∈ main_v175 :: argRefs, W20 m c (Proc.devRef .tc r) = W10 m c (Proc.devRef .tc r) :=
  keep_step hostOps9_writes (W20_of m c) (B18 m c) (by decide +kernel)
theorem E14 : ∀ r ∈ ([main_v177, main_v179] : List (Ref sig .tc)), W14 m c (Proc.devRef .tc r) = W12 m c (Proc.devRef .tc r) :=
  keep_step hostOps6_writes (W14_of m c) (fun _ _ => rfl) (by decide +kernel)
theorem E16 : ∀ r ∈ ([main_v177, main_v179] : List (Ref sig .tc)), W16 m c (Proc.devRef .tc r) = W12 m c (Proc.devRef .tc r) :=
  keep_step hostOps7_writes (W16_of m c) (E14 m c) (by decide +kernel)

/-- Member 0: each region's output is its stage of the contents before its stretch; nothing between writes what a later stage reads. -/
theorem member0 : (W10 m c (Proc.devRef .tc main_v175) : FVec Ideal S128x10 .f32) = member (F := Ideal) 0
      (W0 m c (Proc.devRef .tc main_arg0)) (W0 m c (Proc.devRef .tc main_arg1)) (W0 m c (Proc.devRef .tc main_arg2))
      (W0 m c (Proc.devRef .tc main_arg3)) (W0 m c (Proc.devRef .tc main_arg4)) (W0 m c (Proc.devRef .tc main_arg5))
      (W0 m c (Proc.devRef .tc main_arg6)) (W0 m c (Proc.devRef .tc main_arg7)) (W0 m c (Proc.devRef .tc main_arg8))
      (W0 m c (Proc.devRef .tc main_arg9)) (W0 m c (Proc.devRef .tc main_arg10)) (W0 m c (Proc.devRef .tc main_arg11))
      (W0 m c (Proc.devRef .tc main_arg12)) (W0 m c (Proc.devRef .tc main_arg13)) (W0 m c (Proc.devRef .tc main_arg14))
      (W0 m c (Proc.devRef .tc main_arg15)) (W0 m c (Proc.devRef .tc main_arg16)) (W0 m c (Proc.devRef .tc main_arg17))
      (W0 m c (Proc.devRef .tc main_arg18)) (W0 m c (Proc.devRef .tc main_arg19)) (W0 m c (Proc.devRef .tc main_arg20))
      (W0 m c (Proc.devRef .tc main_arg21)) (W0 m c (Proc.devRef .tc main_arg22)) (W0 m c (Proc.devRef .tc main_arg23))
      (W0 m c (Proc.devRef .tc main_arg24)) := by
  obtain ⟨s, d, e0⟩ := stretch0 (F := Ideal) (W0 m c)
  have s2 := (W2_of m c main_v1 (by decide)).trans s
  have d2 := (W2_of m c main_v3 (by decide)).trans d
  have r2 := (W2_out m c).trans (gin_of (gin_bridge0 (fun c b => W1 m c b) c) e0)
  have e1 := stretch1 (F := Ideal) (W2 m c)
  simp (disch := decide) only [A2 m c, s2, d2, r2] at e1
  have r4 := (W4_out m c).trans (gin_of (gin_bridge1 (fun c b => W3 m c b) c) e1)
  have e2 := stretch2 (F := Ideal) (W4 m c)
  simp (disch := decide) only [A4 m c, E4 m c, s2, d2, r4] at e2
  have r6 := (W6_out m c).trans (gin_of (gin_bridge2 (fun c b => W5 m c b) c) e2)
  have e3 := stretch3 (F := Ideal) (W6 m c)
  simp (disch := decide) only [A6 m c, E6 m c, s2, d2, r6] at e3
  have r8 := (W8_out m c).trans (gin_of (gin_bridge3 (fun c b => W7 m c b) c) e3)
  have e4 := stretch4 (F := Ideal) (W8 m c)
  simp (disch := decide) only [A8 m c] at e4
  exact (W10_out m c).trans (pool_of (pool_bridge4 (fun c b => W9 m c b) c)
    ((after_of_writes_sub hostOps4 (W8 m c) hostOps4_writes (by decide)).trans r8) e4)

/-- Member 1 likewise, from the contents member 0 left. -/
theorem member1 : (W20 m c (Proc.devRef .tc main_v351) : FVec Ideal S128x10 .f32) = member (F := Ideal) 1
      (W0 m c (Proc.devRef .tc main_arg0)) (W0 m c (Proc.devRef .tc main_arg1)) (W0 m c (Proc.devRef .tc main_arg2))
      (W0 m c (Proc.devRef .tc main_arg3)) (W0 m c (Proc.devRef .tc main_arg4)) (W0 m c (Proc.devRef .tc main_arg5))
      (W0 m c (Proc.devRef .tc main_arg6)) (W0 m c (Proc.devRef .tc main_arg7)) (W0 m c (Proc.devRef .tc main_arg8))
      (W0 m c (Proc.devRef .tc main_arg9)) (W0 m c (Proc.devRef .tc main_arg10)) (W0 m c (Proc.devRef .tc main_arg11))
      (W0 m c (Proc.devRef .tc main_arg12)) (W0 m c (Proc.devRef .tc main_arg13)) (W0 m c (Proc.devRef .tc main_arg14))
      (W0 m c (Proc.devRef .tc main_arg15)) (W0 m c (Proc.devRef .tc main_arg16)) (W0 m c (Proc.devRef .tc main_arg17))
      (W0 m c (Proc.devRef .tc main_arg18)) (W0 m c (Proc.devRef .tc main_arg19)) (W0 m c (Proc.devRef .tc main_arg20))
      (W0 m c (Proc.devRef .tc main_arg21)) (W0 m c (Proc.devRef .tc main_arg22)) (W0 m c (Proc.devRef .tc main_arg23))
      (W0 m c (Proc.devRef .tc main_arg24)) := by
  have e5 := stretch5 (F := Ideal) (W10 m c)
  simp (disch := decide) only [A10 m c] at e5
  obtain ⟨s, d, e5⟩ := e5
  have s12 := (W12_of m c main_v177 (by decide)).trans s
  have d12 := (W12_of m c main_v179 (by decide)).trans d
  have r12 := (W12_out m c).trans (gin_of (gin_bridge5 (fun c b => W11 m c b) c) e5)
  have e6 := stretch6 (F := Ideal) (W12 m c)
  simp (disch := decide) only [B12 m c, A10 m c, s12, d12, r12] at e6
  have r14 := (W14_out m c).trans (gin_of (gin_bridge6 (fun c b => W13 m c b) c) e6)
  have e7 := stretch7 (F := Ideal) (W14 m c)
  simp (disch := decide) only [B14 m c, A10 m c, E14 m c, s12, d12, r14] at e7
  have r16 := (W16_out m c).trans (gin_of (gin_bridge7 (fun c b => W15 m c b) c) e7)
  have e8 := stretch8 (F := Ideal) (W16 m c)
  simp (disch := decide) only [B16 m c, A10 m c, E16 m c, s12, d12, r16] at e8
  have r18 := (W18_out m c).trans (gin_of (gin_bridge8 (fun c b => W17 m c b) c) e8)
  have e9 := stretch9 (F := Ideal) (W18 m c)
  simp (disch := decide) only [B18 m c, A10 m c] at e9
  exact (W20_out m c).trans (pool_of (pool_bridge9 (fun c b => W19 m c b) c)
    ((after_of_writes_sub hostOps9 (W18 m c) hostOps9_writes (by decide)).trans r18) e9)

/-- The last stretch stacks the two members' results; member 0's stays put while member 1 runs. -/
theorem kernel_result : (W21 m c (Proc.devRef .tc main_v354) : FVec Ideal S2x128x10 .f32) =
    netOut (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) (m ((c : Thread nD τ).loc main_arg11))
      (m ((c : Thread nD τ).loc main_arg12)) (m ((c : Thread nD τ).loc main_arg13)) (m ((c : Thread nD τ).loc main_arg14))
      (m ((c : Thread nD τ).loc main_arg15)) (m ((c : Thread nD τ).loc main_arg16)) (m ((c : Thread nD τ).loc main_arg17))
      (m ((c : Thread nD τ).loc main_arg18)) (m ((c : Thread nD τ).loc main_arg19)) (m ((c : Thread nD τ).loc main_arg20))
      (m ((c : Thread nD τ).loc main_arg21)) (m ((c : Thread nD τ).loc main_arg22)) (m ((c : Thread nD τ).loc main_arg23))
      (m ((c : Thread nD τ).loc main_arg24)) := by
  have h := stretch10 (F := Ideal) (W20 m c)
  rw [B20 m c main_v175 (by decide), member0 m c, member1 m c] at h
  exact h

end Chain

end Cert.Val.KerTop

end
-- ==== Proof.lean ====
import proofs.«428878_j20040317403499_2_alg».proof.Defs
import proofs.«428878_j20040317403499_2_alg».proof.Proof.Gen.Kernel
import proofs.«428878_j20040317403499_2_alg».proof.Proof.Gen.KernelIdeal
import proofs.«428878_j20040317403499_2_alg».proof.Proof.Gen.ReferenceIdeal
import proofs.«428878_j20040317403499_2_alg».proof.Proof.Gen.Pre_finite_inputs
import proofs.«428878_j20040317403499_2_alg».proof.Proof.Preserves
import proofs.«428878_j20040317403499_2_alg».proof.Proof.K.Run
import proofs.«428878_j20040317403499_2_alg».proof.Proof.KI.Run
import proofs.«428878_j20040317403499_2_alg».proof.Proof.KI.RunValue
import proofs.«428878_j20040317403499_2_alg».proof.Proof.Val.RefRun
import proofs.«428878_j20040317403499_2_alg».proof.Proof.Val.KerTop
import Idealize.ShloMosaic.Adequacy
import Idealize.ShloMosaic.Init

noncomputable section

namespace Cert.Proof

open Idealize.ShloMosaic Idealize.ShloMosaic.TcCoe Idealize.SL.Sem

theorem frame_p : Cert.frame_Kernel := fun m ρ _ => Cert.Kernel.Hand.frame m ρ

theorem frame_pi : Cert.frame_KernelIdeal := fun m ρ _ => Cert.KernelIdeal.Hand.frame m ρ

/-- The reference's run, the statement about the result dropped. -/
theorem frame_ri : Cert.frame_ReferenceIdeal := fun m ρ _ =>
  (θ_run Cert.ReferenceIdeal.defs _ _).mono (fun _ h c => by
    refine ⟨?_, ?_, ?_, ?_, ?_, ?_, ?_, ?_, ?_, ?_, ?_, ?_, ?_, ?_, ?_, ?_, ?_, ?_, ?_, ?_, ?_, ?_, ?_, ?_, ?_⟩ <;> exact (h c).2 _ (by decide))
    (Cert.Val.RefRun.ref_run (F := Ideal) m ρ)

/-- Both idealized programs end with the network of the arguments in their result buffers. -/
theorem algebraic : Cert.algebraic_KernelIdeal_ReferenceIdeal := by
  intro m ρ m' ρ' _ hagree
  refine ⟨fun c => Cert.KernelIdeal.Hand.W21 m c (Proc.devRef .tc Cert.KernelIdeal.main_v354),
    Cert.KernelIdeal.Hand.run_value (F := Ideal) m ρ, ?_⟩
  refine (θ_run Cert.ReferenceIdeal.defs _ _).mono (fun _ h c => ⟨(h c).1.trans ?eq, ?args⟩)
    (Cert.Val.RefRun.ref_run (F := Ideal) m' ρ')
  case eq =>
    show _ = Cert.KernelIdeal.Hand.W21 m c (Proc.devRef .tc Cert.KernelIdeal.main_v354)
    rw [Cert.Val.KerTop.kernel_result m c]
    obtain ⟨h0, h1, h2, h3, h4, h5, h6, h7, h8, h9, h10, h11, h12, h13, h14, h15, h16, h17, h18, h19, h20, h21, h22, h23, h24⟩ := hagree c
    rw [h0, h1, h2, h3, h4, h5, h6, h7, h8, h9, h10, h11, h12, h13, h14, h15, h16, h17, h18, h19, h20, h21, h22, h23, h24]
  case args =>
    refine ⟨?_, ?_, ?_, ?_, ?_, ?_, ?_, ?_, ?_, ?_, ?_, ?_, ?_, ?_, ?_, ?_, ?_, ?_, ?_, ?_, ?_, ?_, ?_, ?_, ?_⟩ <;> exact (h c).2 _ (by decide)

theorem claim : Cert.Claim := ⟨Cert.Kernel.Gen.facts, Cert.KernelIdeal.Gen.facts, Cert.ReferenceIdeal.Gen.facts, Cert.Pre_finite_inputs.Gen.facts,
  frame_p, frame_pi, frame_ri, Cert.Proof.Preserves.preserves, algebraic⟩

end Cert.Proof

end
